-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S64 .f32) (main_arg14 : FVec F S64 .f32) (main_arg15 : FVec F S64x10 .f32) (main_arg16 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x10 .f32 := Host.absf main_arg15
  let main_cst_24 : FVec F S_ .f32 := constant S_ .f32 0x7F800000#32
  let main_v65 : FVec F S64x10 .f32 := broadcastInDim S64x10 ![] bcast_S_S64x10 main_cst_24
  let main_v66 : IVec S64x10 1 := cmpf .olt main_v64 main_v65
  let main_c_25 : IVec S_ 1 := constantI S_ 1 1#1
  let main_v67 : IVec S_ 1 := (fun x v => Host.reduce IntOp.andi x v reducesTo_S64x10_S_d0_1 h_S_) main_v66 main_c_25
  fn_part4 (F := F) main_arg16 main_v63 main_v67

def fn_part2 {F : FTy → Type} [FloatOps F] (main_arg9 : FVec F S32 .f32) (main_arg10 : FVec F S32 .f32) (main_arg11 : FVec F S32x64 .f32) (main_arg12 : FVec F S64 .f32) (main_arg13 : FVec F S64 .f32) (main_arg14 : FVec F S64 .f32) (main_arg15 : FVec F S64x10 .f32) (main_arg16 : FVec F S10 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S16 .f32) (main_arg7 : FVec F S16x32 .f32) (main_arg8 : FVec F S32 .f32) (main_arg9 : FVec F S32 .f32) (main_arg10 : FVec F S32 .f32) (main_arg11 : FVec F S32x64 .f32) (main_arg12 : FVec F S64 .f32) (main_arg13 : FVec F S64 .f32) (main_arg14 : FVec F S64 .f32) (main_arg15 : FVec F S64x10 .f32) (main_arg16 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg7
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x3 .f32) (main_arg1 : IVec S2x1600000 32) (main_arg2 : IVec S100000 32) (main_arg3 : FVec F S3x16 .f32) (main_arg4 : FVec F S16 .f32) (main_arg5 : FVec F S16 .f32) (main_arg6 : FVec F S16 .f32) (main_arg7 : FVec F S16x32 .f32) (main_arg8 : FVec F S32 .f32) (main_arg9 : FVec F S32 .f32) (main_arg10 : FVec F S32 .f32) (main_arg11 : FVec F S32x64 .f32) (main_arg12 : FVec F S64 .f32) (main_arg13 : FVec F S64 .f32) (main_arg14 : FVec F S64 .f32) (main_arg15 : FVec F S64x10 .f32) (main_arg16 : FVec F S10 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg3
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S10000x3 : Shape := ⟨2, ![10000, 3]⟩
abbrev S10000x16 : Shape := ⟨2, ![10000, 16]⟩
abbrev S1700000x16 : Shape := ⟨2, ![1700000, 16]⟩
abbrev S1x16 : Shape := ⟨2, ![1, 16]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S1x10 : Shape := ⟨2, ![1, 10]⟩
abbrev S10000x1 : Shape := ⟨2, ![10000, 1]⟩
abbrev S64x65 : Shape := ⟨2, ![64, 65]⟩
abbrev S10000x65 : Shape := ⟨2, ![10000, 65]⟩
abbrev S64x64 : Shape := ⟨2, ![64, 64]⟩
abbrev S64x1 : Shape := ⟨2, ![64, 1]⟩

abbrev nBuf : Space → Nat
  | .hbm => 149
  | .vmem => 71
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x16, .f32⟩
  | 4 => ⟨S16, .f32⟩
  | 5 => ⟨S16, .f32⟩
  | 6 => ⟨S16, .f32⟩
  | 7 => ⟨S16x32, .f32⟩
  | 8 => ⟨S32, .f32⟩
  | 9 => ⟨S32, .f32⟩
  | 10 => ⟨S32, .f32⟩
  | 11 => ⟨S32x64, .f32⟩
  | 12 => ⟨S64, .f32⟩
  | 13 => ⟨S64, .f32⟩
  | 14 => ⟨S64, .f32⟩
  | 15 => ⟨S64x10, .f32⟩
  | 16 => ⟨S10, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x16, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x16, .f32⟩
  | 60 => ⟨S1700000x1, .f32⟩
  | 61 => ⟨S1700000x16, .f32⟩
  | 62 => ⟨S1700000x16, .f32⟩
  | 63 => ⟨S_, .f32⟩
  | 64 => ⟨S100000x16, .f32⟩
  | 65 => ⟨S1700000x1, .i32⟩
  | 66 => ⟨S100000x16, .f32⟩
  | 67 => ⟨S1x16, .f32⟩
  | 68 => ⟨S1x16, .f32⟩
  | 69 => ⟨S1x16, .f32⟩
  | 70 => ⟨S_, .f32⟩
  | 71 => ⟨S1x16, .f32⟩
  | 72 => ⟨S1x16, .f32⟩
  | 73 => ⟨S_, .f32⟩
  | 74 => ⟨S1x16, .f32⟩
  | 75 => ⟨S1x16, .f32⟩
  | 76 => ⟨S1x16, .f32⟩
  | 77 => ⟨S1x16, .f32⟩
  | 78 => ⟨S1x16, .f32⟩
  | 79 => ⟨S1x16, .f32⟩
  | 80 => ⟨S1x16, .f32⟩
  | 81 => ⟨S100000x16, .f32⟩
  | 82 => ⟨S100000x32, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x32, .f32⟩
  | 92 => ⟨S1700000x1, .f32⟩
  | 93 => ⟨S1700000x32, .f32⟩
  | 94 => ⟨S1700000x32, .f32⟩
  | 95 => ⟨S_, .f32⟩
  | 96 => ⟨S100000x32, .f32⟩
  | 97 => ⟨S1700000x1, .i32⟩
  | 98 => ⟨S100000x32, .f32⟩
  | 99 => ⟨S1x32, .f32⟩
  | 100 => ⟨S1x32, .f32⟩
  | 101 => ⟨S1x32, .f32⟩
  | 102 => ⟨S_, .f32⟩
  | 103 => ⟨S1x32, .f32⟩
  | 104 => ⟨S1x32, .f32⟩
  | 105 => ⟨S_, .f32⟩
  | 106 => ⟨S1x32, .f32⟩
  | 107 => ⟨S1x32, .f32⟩
  | 108 => ⟨S1x32, .f32⟩
  | 109 => ⟨S1x32, .f32⟩
  | 110 => ⟨S1x32, .f32⟩
  | 111 => ⟨S1x32, .f32⟩
  | 112 => ⟨S1x32, .f32⟩
  | 113 => ⟨S100000x32, .f32⟩
  | 114 => ⟨S100000x64, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x3, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S100000x64, .f32⟩
  | 18 => ⟨S100000x1, .i32⟩
  | 19 => ⟨S1x10, .f32⟩
  | 20 => ⟨S64x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S1x16, .f32⟩
  | .local _ .vmem, ⟨18, _⟩ => ⟨S1x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S16x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S1x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S10000x32, .f32⟩
  | .local _ .vmem, ⟨34, _⟩ => ⟨S10000x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S32x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x1, .i32⟩
  | .local _ .vmem, ⟨66, _⟩ => ⟨S10000x1, .i32⟩
  | .local _ .vmem, ⟨67, _⟩ => ⟨S64x10, .f32⟩
  | .local _ .vmem, ⟨68, _⟩ => ⟨S1x10, .f32⟩
  | .local _ .vmem, ⟨69, _⟩ => ⟨S64x10, .f32⟩
  | .local _ .vmem, ⟨70, _⟩ => ⟨S64x65, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68_0 : Ref sig .tc := ⟨.hbm, 100, rfl⟩
abbrev main_v68_1 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_14 : Ref sig .tc := ⟨.hbm, 115, rfl⟩
abbrev main_v80 : Ref sig .tc := ⟨.hbm, 116, rfl⟩
abbrev main_v81 : Ref sig .tc := ⟨.hbm, 117, rfl⟩
abbrev main_c_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94_0 : Ref sig .tc := ⟨.hbm, 132, rfl⟩
abbrev main_v94_1 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_cst_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_scratch0 : Ref sig .tc := ⟨.vmem, 52, rfl⟩
abbrev cc7_scratch1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg5_0 : Ref sig .tc := ⟨.vmem, 60, rfl⟩
abbrev cc8_stg6_0 : Ref sig .tc := ⟨.vmem, 61, rfl⟩
abbrev cc8_stg6_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_scratch0 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem3_0 : DmaSem sig := 62
abbrev cc9_sem4_0 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v23 : BitVec 1 := Scalar.cmpi .eq arg0 c9_i32
  let v24 : BitVec 32 := Scalar.extui v23
  let c0_i32_9 : BitVec 32 := 0#32
  let v25 : BitVec 1 := Scalar.cmpi .ne v24 c0_i32_9
  v25

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S10000x16_S10000x16 : S10000x16.ShapeCasts S10000x16
  broadcasts_S1x16_S10000x16 : S1x16.Broadcasts S10000x16
  reduces_S10000x16_S16 : S10000x16.Reduces [0] S16
  bcast_S_S1x16 : S_.BroadcastsInDim S1x16 (![] : Fin 0 → Fin S1x16.rank)
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S10000x32_S10000x32 : S10000x32.ShapeCasts S10000x32
  broadcasts_S1x32_S10000x32 : S1x32.Broadcasts S10000x32
  reduces_S10000x32_S32 : S10000x32.Reduces [0] S32
  bcast_S_S1x32 : S_.BroadcastsInDim S1x32 (![] : Fin 0 → Fin S1x32.rank)
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  broadcasts_S1x64_S10000x64 : S1x64.Broadcasts S10000x64
  reduces_S10000x64_S64 : S10000x64.Reduces [0] S64
  bcast_S_S1x64 : S_.BroadcastsInDim S1x64 (![] : Fin 0 → Fin S1x64.rank)
  shapeCasts_S100000_S100000x1 : S100000.ShapeCasts S100000x1
  shapeCasts_S10_S1x10 : S10.ShapeCasts S1x10
  inb_S64x65_S64x65_0_0 : ∀ a, (![0, 0] : Fin 2 → Nat) a + S64x65.size a ≤ S64x65.size a
  h_S64x65 : 0 < S64x65.numel
  shapeCasts_S64x65_S64x65 : S64x65.ShapeCasts S64x65
  iota_S1x64_d1_w32 : S1x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  concatenates_S10000x64_S10000x1_S10000x65_d1 : Shape.Concatenates [S10000x64, S10000x1] S10000x65 1
  inb_S64x65_S64x64_0_0 : ∀ a, (![0, 0] : Fin 2 → Nat) a + S64x64.size a ≤ S64x65.size a
  h_S64x64 : 0 < S64x64.numel
  inb_S64x65_S64x1_0_64 : ∀ a, (![0, 64] : Fin 2 → Nat) a + S64x1.size a ≤ S64x65.size a
  h_S64x1 : 0 < S64x1.numel
  broadcasts_S64x1_S64x64 : S64x1.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x3_S3x16_S10000x16_1_0_0_1_n_n_wf : DotDims.WF S10000x3 S3x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x32_S10000x32_1_0_0_1_n_n_wf : DotDims.WF S10000x16 S16x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S10000x65_S64x65_0_0_1_1_n_n_wf : DotDims.WF S10000x64 S10000x65 S64x65 [0] [0] [1] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x16.size a ≤ S100000x16.size a
  hwx2_6 : ∀ i : grid2.Coords, EltTy.bits .f32 = 32 ∨ (Rect.block (s := S100000x16) S10000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x32.size a ≤ S100000x32.size a
  hwx5_6 : ∀ i : grid5.Coords, EltTy.bits .f32 = 32 ∨ (Rect.block (s := S100000x32) S10000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x1.size a ≤ S100000x1.size a
  hwx9_1 : ∀ i : grid9.Coords, EltTy.bits .i32 = 32 ∨ (Rect.block (s := S100000x1) S10000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x10.size a ≤ S64x10.size a
  hwx9_2 : ∀ i : grid9.Coords, EltTy.bits .f32 = 32 ∨ (Rect.block (s := S64x10) S64x10.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x10.size a ≤ S1x10.size a
  hwx9_3 : ∀ i : grid9.Coords, EltTy.bits .f32 = 32 ∨ (Rect.block (s := S1x10) S1x10.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x10.size a ≤ S64x10.size a
  hwx9_4 : ∀ i : grid9.Coords, EltTy.bits .f32 = 32 ∨ (Rect.block (s := S64x10) S64x10.size (cc9_transform_4 i) (hinb9_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S10000x65_S64x65_0_0_1_1_n_n : DotDims S10000x64 S10000x65 S64x65 where
  lhsContracting := [0]
  rhsContracting := [0]
  lhsNonContracting := [1]
  rhsNonContracting := [1]
  lhsBatch := []
  rhsBatch := []
  wf := dot_S10000x64_S10000x65_S64x65_0_0_1_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S1x16.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S1x16.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v40) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S10000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S1x32.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S1x32.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v66) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v78) S10000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v78) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94_0) S1x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94_1) S1x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v92) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v96) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v100) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v102) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v103) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v104) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v104) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v105) S10000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg15) S64x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v106) S1x10.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v107) S64x10.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun _ => false | 4 => fun i => !(k9_cond2 i == 1#1) | ⟨_ + 5, h⟩ => absurd h (Nat.not_lt.2 (Nat.le_add_left _ _))

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S1700000x16 : Shape := ⟨2, ![1700000, 16]⟩
abbrev S1x16 : Shape := ⟨2, ![1, 16]⟩
abbrev S100000x32 : Shape := ⟨2, ![100000, 32]⟩
abbrev S1700000x32 : Shape := ⟨2, ![1700000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩
abbrev S1x10 : Shape := ⟨2, ![1, 10]⟩

abbrev nBuf : Space → Nat
  | .hbm => 267
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x16, .f32⟩
  | 4 => ⟨S16, .f32⟩
  | 5 => ⟨S16, .f32⟩
  | 6 => ⟨S16, .f32⟩
  | 7 => ⟨S16x32, .f32⟩
  | 8 => ⟨S32, .f32⟩
  | 9 => ⟨S32, .f32⟩
  | 10 => ⟨S32, .f32⟩
  | 11 => ⟨S32x64, .f32⟩
  | 12 => ⟨S64, .f32⟩
  | 13 => ⟨S64, .f32⟩
  | 14 => ⟨S64, .f32⟩
  | 15 => ⟨S64x10, .f32⟩
  | 16 => ⟨S10, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S100000, .f32⟩
  | 31 => ⟨S100000x16, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x16, .f32⟩
  | 60 => ⟨S1700000x1, .f32⟩
  | 61 => ⟨S1700000x16, .f32⟩
  | 62 => ⟨S1700000x16, .f32⟩
  | 63 => ⟨S_, .f32⟩
  | 64 => ⟨S100000x16, .f32⟩
  | 65 => ⟨S1700000x1, .i32⟩
  | 66 => ⟨S100000x16, .f32⟩
  | 67 => ⟨S1x16, .f32⟩
  | 68 => ⟨S100000x16, .f32⟩
  | 69 => ⟨S100000x16, .f32⟩
  | 70 => ⟨S_, .f32⟩
  | 71 => ⟨S16, .f32⟩
  | 72 => ⟨S_, .f32⟩
  | 73 => ⟨S16, .f32⟩
  | 74 => ⟨S16, .f32⟩
  | 75 => ⟨S1x16, .f32⟩
  | 76 => ⟨S100000x16, .f32⟩
  | 77 => ⟨S100000x16, .f32⟩
  | 78 => ⟨S100000x16, .f32⟩
  | 79 => ⟨S_, .f32⟩
  | 80 => ⟨S16, .f32⟩
  | 81 => ⟨S_, .f32⟩
  | 82 => ⟨S16, .f32⟩
  | 83 => ⟨S16, .f32⟩
  | 84 => ⟨S1x16, .f32⟩
  | 85 => ⟨S100000x16, .f32⟩
  | 86 => ⟨S100000x16, .f32⟩
  | 87 => ⟨S_, .f32⟩
  | 88 => ⟨S16, .f32⟩
  | 89 => ⟨S16, .f32⟩
  | 90 => ⟨S16, .f32⟩
  | 91 => ⟨S1x16, .f32⟩
  | 92 => ⟨S100000x16, .f32⟩
  | 93 => ⟨S100000x16, .f32⟩
  | 94 => ⟨S1x16, .f32⟩
  | 95 => ⟨S100000x16, .f32⟩
  | 96 => ⟨S100000x16, .f32⟩
  | 97 => ⟨S1x16, .f32⟩
  | 98 => ⟨S100000x16, .f32⟩
  | 99 => ⟨S100000x16, .f32⟩
  | 100 => ⟨S_, .f32⟩
  | 101 => ⟨S100000x16, .f32⟩
  | 102 => ⟨S100000x16, .f32⟩
  | 103 => ⟨S100000x32, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x3, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x32, .f32⟩
  | 4 => ⟨S1700000x1, .f32⟩
  | 5 => ⟨S1700000x32, .f32⟩
  | 6 => ⟨S1700000x32, .f32⟩
  | 7 => ⟨S_, .f32⟩
  | 8 => ⟨S100000x32, .f32⟩
  | 9 => ⟨S1700000x1, .i32⟩
  | 10 => ⟨S100000x32, .f32⟩
  | 11 => ⟨S1x32, .f32⟩
  | 12 => ⟨S100000x32, .f32⟩
  | 13 => ⟨S100000x32, .f32⟩
  | 14 => ⟨S_, .f32⟩
  | 15 => ⟨S32, .f32⟩
  | 16 => ⟨S_, .f32⟩
  | 17 => ⟨S32, .f32⟩
  | 18 => ⟨S32, .f32⟩
  | 19 => ⟨S1x32, .f32⟩
  | 20 => ⟨S100000x32, .f32⟩
  | 21 => ⟨S100000x32, .f32⟩
  | 22 => ⟨S100000x32, .f32⟩
  | 23 => ⟨S_, .f32⟩
  | 24 => ⟨S32, .f32⟩
  | 25 => ⟨S_, .f32⟩
  | 26 => ⟨S32, .f32⟩
  | 27 => ⟨S32, .f32⟩
  | 28 => ⟨S1x32, .f32⟩
  | 29 => ⟨S100000x32, .f32⟩
  | 30 => ⟨S100000x32, .f32⟩
  | 31 => ⟨S_, .f32⟩
  | 32 => ⟨S32, .f32⟩
  | 33 => ⟨S32, .f32⟩
  | 34 => ⟨S32, .f32⟩
  | 35 => ⟨S1x32, .f32⟩
  | 36 => ⟨S100000x32, .f32⟩
  | 37 => ⟨S100000x32, .f32⟩
  | 38 => ⟨S1x32, .f32⟩
  | 39 => ⟨S100000x32, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S100000x32, .f32⟩
  | 46 => ⟨S100000x32, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x64, .f32⟩
  | 76 => ⟨S1700000x1, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S100000x64, .f32⟩
  | 95 => ⟨S_, .f32⟩
  | 96 => ⟨S64, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S64x64, .f32⟩
  | 121 => ⟨S100000x1, .i32⟩
  | 122 => ⟨S64x64, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x3, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x64, .f32⟩
  | 6 => ⟨S64x64, .f32⟩
  | 7 => ⟨S64x10, .f32⟩
  | 8 => ⟨S1x10, .f32⟩
  | 9 => ⟨S64x10, .f32⟩
  | 10 => ⟨S64x10, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call0_cst : Ref sig .tc := ⟨.hbm, 100, rfl⟩
abbrev main_call0_v0 : Ref sig .tc := ⟨.hbm, 101, rfl⟩
abbrev main_v69 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_16 : Ref sig .tc := ⟨.hbm, 123, rfl⟩
abbrev main_v86 : Ref sig .tc := ⟨.hbm, 124, rfl⟩
abbrev main_v87 : Ref sig .tc := ⟨.hbm, 125, rfl⟩
abbrev main_c_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_19 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_21 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_23 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_call1_cst : Ref sig .tc := ⟨.hbm, 172, rfl⟩
abbrev main_call1_v0 : Ref sig .tc := ⟨.hbm, 173, rfl⟩
abbrev main_v127 : Ref sig .tc := ⟨.hbm, 174, rfl⟩
abbrev main_v128 : Ref sig .tc := ⟨.hbm, 175, rfl⟩
abbrev main_c_24 : Ref sig .tc := ⟨.hbm, 176, rfl⟩
abbrev main_v129 : Ref sig .tc := ⟨.hbm, 177, rfl⟩
abbrev main_v130 : Ref sig .tc := ⟨.hbm, 178, rfl⟩
abbrev main_c_25 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_26 : Ref sig .tc := ⟨.hbm, 185, rfl⟩
abbrev main_v136 : Ref sig .tc := ⟨.hbm, 186, rfl⟩
abbrev main_v137 : Ref sig .tc := ⟨.hbm, 187, rfl⟩
abbrev main_c_27 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_c_28 : Ref sig .tc := ⟨.hbm, 195, rfl⟩
abbrev main_v144 : Ref sig .tc := ⟨.hbm, 196, rfl⟩
abbrev main_v145 : Ref sig .tc := ⟨.hbm, 197, rfl⟩
abbrev main_c_29 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_30 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_31 : Ref sig .tc := ⟨.hbm, 214, rfl⟩
abbrev main_v160 : Ref sig .tc := ⟨.hbm, 215, rfl⟩
abbrev main_cst_32 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_33 : Ref sig .tc := ⟨.hbm, 223, rfl⟩
abbrev main_v167 : Ref sig .tc := ⟨.hbm, 224, rfl⟩
abbrev main_cst_34 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_35 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_call2_cst : Ref sig .tc := ⟨.hbm, 244, rfl⟩
abbrev main_call2_v0 : Ref sig .tc := ⟨.hbm, 245, rfl⟩
abbrev main_v185 : Ref sig .tc := ⟨.hbm, 246, rfl⟩
abbrev main_cst_36 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_37 : Ref sig .tc := ⟨.hbm, 251, rfl⟩
abbrev main_v189 : Ref sig .tc := ⟨.hbm, 252, rfl⟩
abbrev main_cst_38 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_39 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  dot_S100000x3_S3x16_S100000x16_1_0_0_1_n_n_wf : DotDims.WF S100000x3 S3x16 S100000x16 [1] [0] [0] [1] [] []
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x32_S100000x32_1_0_0_1_n_n_wf : DotDims.WF S100000x16 S16x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.Ref.RunHand.lean ====
import proofs.«406238_j58506044506835_1_alg».proof.Proof.Ref.RunOps0
import proofs.«406238_j58506044506835_1_alg».proof.Proof.Ref.RunOps1
import proofs.«406238_j58506044506835_1_alg».proof.Proof.Ref.RunOps2
import proofs.«406238_j58506044506835_1_alg».proof.Proof.Ref.RunOps3
import proofs.«406238_j58506044506835_1_alg».proof.Proof.Ref.RunOps4
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ (ops_part1 ++ (ops_part2 ++ (ops_part3 ++ ops_part4)))

set_option maxRecDepth 8192 in

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h]

theorem ops_fresh : ∀ op ∈ (ops : List (HloOp τ sig (Elt F))), op.fresh = ∅ := fun op h => by
  simp only [ops, List.mem_append] at h
  rcases h with h | h | h | h | h
  exacts [ops_part0_fresh op h, ops_part1_fresh op h, ops_part2_fresh op h, ops_part3_fresh op h, ops_part4_fresh op h]

theorem after_ops (V : Valuation τ sig (Elt F)) :
    after ops V = after ops_part4 (after ops_part3 (after ops_part2 (after ops_part1 (after ops_part0 V)))) := by
  simp only [ops, after_append]

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after ops_part4 (after ops_part3 (after ops_part2 (after ops_part1 (after ops_part0 (launchContents m d))))) (Proc.devRef .tc b) :=
  (θ_run defs _ _).mono (fun _ h d b => (h d b).trans (congrFun (after_ops (launchContents m d)) _))
    (run_seq scopedRefs_eq scopedSems_eq defs main (fun _ => ops) main_eq (fun _ => ops_sub) m ρ (fun _ => ops_fresh))

end Cert.ReferenceIdeal.Hand

end
-- ==== Proof.Ref.RunInv.lean ====
import proofs.«406238_j58506044506835_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

structure RefArgs (F : FTy → Type) where
  x0 : (⟨S100000x3, .f32⟩ : BufTy).Contents (Elt F)
  x1 : (⟨S2x1600000, .i32⟩ : BufTy).Contents (Elt F)
  x2 : (⟨S100000, .i32⟩ : BufTy).Contents (Elt F)
  x3 : (⟨S3x16, .f32⟩ : BufTy).Contents (Elt F)
  x4 : (⟨S16, .f32⟩ : BufTy).Contents (Elt F)
  x5 : (⟨S16, .f32⟩ : BufTy).Contents (Elt F)
  x6 : (⟨S16, .f32⟩ : BufTy).Contents (Elt F)
  x7 : (⟨S16x32, .f32⟩ : BufTy).Contents (Elt F)
  x8 : (⟨S32, .f32⟩ : BufTy).Contents (Elt F)
  x9 : (⟨S32, .f32⟩ : BufTy).Contents (Elt F)
  x10 : (⟨S32, .f32⟩ : BufTy).Contents (Elt F)
  x11 : (⟨S32x64, .f32⟩ : BufTy).Contents (Elt F)
  x12 : (⟨S64, .f32⟩ : BufTy).Contents (Elt F)
  x13 : (⟨S64, .f32⟩ : BufTy).Contents (Elt F)
  x14 : (⟨S64, .f32⟩ : BufTy).Contents (Elt F)
  x15 : (⟨S64x10, .f32⟩ : BufTy).Contents (Elt F)
  x16 : (⟨S10, .f32⟩ : BufTy).Contents (Elt F)

def argsOf (V : Valuation τ sig (Elt F)) : RefArgs F where
  x0 := V (Proc.devRef .tc main_arg0)
  x1 := V (Proc.devRef .tc main_arg1)
  x2 := V (Proc.devRef .tc main_arg2)
  x3 := V (Proc.devRef .tc main_arg3)
  x4 := V (Proc.devRef .tc main_arg4)
  x5 := V (Proc.devRef .tc main_arg5)
  x6 := V (Proc.devRef .tc main_arg6)
  x7 := V (Proc.devRef .tc main_arg7)
  x8 := V (Proc.devRef .tc main_arg8)
  x9 := V (Proc.devRef .tc main_arg9)
  x10 := V (Proc.devRef .tc main_arg10)
  x11 := V (Proc.devRef .tc main_arg11)
  x12 := V (Proc.devRef .tc main_arg12)
  x13 := V (Proc.devRef .tc main_arg13)
  x14 := V (Proc.devRef .tc main_arg14)
  x15 := V (Proc.devRef .tc main_arg15)
  x16 := V (Proc.devRef .tc main_arg16)

structure ArgsKept (a : RefArgs F) (W : Valuation τ sig (Elt F)) : Prop where
  k0 : W (no_index (Proc.devRef .tc main_arg0)) = a.x0
  k1 : W (no_index (Proc.devRef .tc main_arg1)) = a.x1
  k2 : W (no_index (Proc.devRef .tc main_arg2)) = a.x2
  k3 : W (no_index (Proc.devRef .tc main_arg3)) = a.x3
  k4 : W (no_index (Proc.devRef .tc main_arg4)) = a.x4
  k5 : W (no_index (Proc.devRef .tc main_arg5)) = a.x5
  k6 : W (no_index (Proc.devRef .tc main_arg6)) = a.x6
  k7 : W (no_index (Proc.devRef .tc main_arg7)) = a.x7
  k8 : W (no_index (Proc.devRef .tc main_arg8)) = a.x8
  k9 : W (no_index (Proc.devRef .tc main_arg9)) = a.x9
  k10 : W (no_index (Proc.devRef .tc main_arg10)) = a.x10
  k11 : W (no_index (Proc.devRef .tc main_arg11)) = a.x11
  k12 : W (no_index (Proc.devRef .tc main_arg12)) = a.x12
  k13 : W (no_index (Proc.devRef .tc main_arg13)) = a.x13
  k14 : W (no_index (Proc.devRef .tc main_arg14)) = a.x14
  k15 : W (no_index (Proc.devRef .tc main_arg15)) = a.x15
  k16 : W (no_index (Proc.devRef .tc main_arg16)) = a.x16

theorem argsKept_argsOf (V : Valuation τ sig (Elt F)) : ArgsKept (argsOf V) V :=
  ⟨rfl, rfl, rfl, rfl, rfl, rfl, rfl, rfl, rfl, rfl, rfl, rfl, rfl, rfl, rfl, rfl, rfl⟩

structure Inv1 (a : RefArgs F) (W : Valuation τ sig (Elt F)) : Prop extends ArgsKept a W where
  v3 : W (no_index (Proc.devRef .tc main_v3)) = val_main_v3 (F := F) a.x1
  v6 : W (no_index (Proc.devRef .tc main_v6)) = val_main_v6 (F := F) a.x1
  v11 : W (no_index (Proc.devRef .tc main_v11)) = val_main_v11 (F := F) a.x1
  v43 : W (no_index (Proc.devRef .tc main_v43)) = val_main_v43 (F := F) a.x0 a.x1 a.x3 a.x4
  v46 : W (no_index (Proc.devRef .tc main_v46)) = val_main_v46 (F := F) a.x0 a.x1 a.x3 a.x4
  v48 : W (no_index (Proc.devRef .tc main_v48)) = val_main_v48 (F := F) a.x0 a.x1 a.x3 a.x4

structure Inv2 (a : RefArgs F) (W : Valuation τ sig (Elt F)) : Prop extends ArgsKept a W where
  v3 : W (no_index (Proc.devRef .tc main_v3)) = val_main_v3 (F := F) a.x1
  v6 : W (no_index (Proc.devRef .tc main_v6)) = val_main_v6 (F := F) a.x1
  v11 : W (no_index (Proc.devRef .tc main_v11)) = val_main_v11 (F := F) a.x1
  v98 : W (no_index (Proc.devRef .tc main_v98)) = val_main_v98 (F := F) a.x0 a.x1 a.x3 a.x4 a.x5 a.x6 a.x7

structure Inv3 (a : RefArgs F) (W : Valuation τ sig (Elt F)) : Prop extends ArgsKept a W where
  v3 : W (no_index (Proc.devRef .tc main_v3)) = val_main_v3 (F := F) a.x1
  v6 : W (no_index (Proc.devRef .tc main_v6)) = val_main_v6 (F := F) a.x1
  v128 : W (no_index (Proc.devRef .tc main_v128)) = val_main_v128 (F := F) a.x0 a.x1 a.x3 a.x4 a.x5 a.x6 a.x7 a.x8 a.x9 a.x10 a.x11
  v143 : W (no_index (Proc.devRef .tc main_v143)) = val_main_v143 (F := F) a.x1
  v145 : W (no_index (Proc.devRef .tc main_v145)) = val_main_v145 (F := F) a.x1
  v147 : W (no_index (Proc.devRef .tc main_v147)) = val_main_v147 (F := F) a.x1

structure Inv4 (a : RefArgs F) (W : Valuation τ sig (Elt F)) : Prop extends ArgsKept a W where
  v197 : W (no_index (Proc.devRef .tc main_v197)) = val_main_v197 (F := F) a.x0 a.x1 a.x2 a.x3 a.x4 a.x5 a.x6 a.x7 a.x8 a.x9 a.x10 a.x11 a.x12 a.x13 a.x14

structure Inv5 (a : RefArgs F) (W : Valuation τ sig (Elt F)) : Prop extends ArgsKept a W where
  v201 : W (no_index (Proc.devRef .tc main_v201)) = val_main_v201 (F := F) a.x0 a.x1 a.x2 a.x3 a.x4 a.x5 a.x6 a.x7 a.x8 a.x9 a.x10 a.x11 a.x12 a.x13 a.x14 a.x15 a.x16

end Cert.ReferenceIdeal.Hand

end
-- ==== Proof.Ref.RunWin0.lean ====
import proofs.«406238_j58506044506835_1_alg».proof.Proof.Ref.RunOps0
import proofs.«406238_j58506044506835_1_alg».proof.Proof.Ref.RunInv

set_option maxRecDepth 16384

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

local macro "inner_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

theorem win0_keep (W : Valuation τ sig (Elt F)) (r : Ref sig .tc) (h : r ∉ ops_part0_W) :
    after ops_part0 W (Proc.devRef .tc r) = W (Proc.devRef .tc r) :=
  after_of_writes_sub ops_part0 W ops_part0_writes h

theorem win0_args (a : RefArgs F) (W : Valuation τ sig (Elt F)) (h : ArgsKept a W) : ArgsKept a (after ops_part0 W) where
  k0 := (win0_keep W main_arg0 (by decide)).trans h.k0
  k1 := (win0_keep W main_arg1 (by decide)).trans h.k1
  k2 := (win0_keep W main_arg2 (by decide)).trans h.k2
  k3 := (win0_keep W main_arg3 (by decide)).trans h.k3
  k4 := (win0_keep W main_arg4 (by decide)).trans h.k4
  k5 := (win0_keep W main_arg5 (by decide)).trans h.k5
  k6 := (win0_keep W main_arg6 (by decide)).trans h.k6
  k7 := (win0_keep W main_arg7 (by decide)).trans h.k7
  k8 := (win0_keep W main_arg8 (by decide)).trans h.k8
  k9 := (win0_keep W main_arg9 (by decide)).trans h.k9
  k10 := (win0_keep W main_arg10 (by decide)).trans h.k10
  k11 := (win0_keep W main_arg11 (by decide)).trans h.k11
  k12 := (win0_keep W main_arg12 (by decide)).trans h.k12
  k13 := (win0_keep W main_arg13 (by decide)).trans h.k13
  k14 := (win0_keep W main_arg14 (by decide)).trans h.k14
  k15 := (win0_keep W main_arg15 (by decide)).trans h.k15
  k16 := (win0_keep W main_arg16 (by decide)).trans h.k16

set_option maxHeartbeats 2000000 in

theorem win0_v3 (a : RefArgs F) (W : Valuation τ sig (Elt F)) (h : ArgsKept a W) :
    after ops_part0 W (no_index (Proc.devRef .tc main_v3)) = val_main_v3 (F := F) a.x1 := by
  simp only [ops_part0]
  after_results_simp
  inner_results
  rw [h.k1]
  rfl

set_option maxHeartbeats 2000000 in

theorem win0_v6 (a : RefArgs F) (W : Valuation τ sig (Elt F)) (h : ArgsKept a W) :
    after ops_part0 W (no_index (Proc.devRef .tc main_v6)) = val_main_v6 (F := F) a.x1 := by
  simp only [ops_part0]
  after_results_simp
  inner_results
  rw [h.k1]
  rfl

set_option maxHeartbeats 2000000 in

theorem win0_v11 (a : RefArgs F) (W : Valuation τ sig (Elt F)) (h : ArgsKept a W) :
    after ops_part0 W (no_index (Proc.devRef .tc main_v11)) = val_main_v11 (F := F) a.x1 := by
  simp only [ops_part0]
  after_results_simp
  inner_results
  rw [h.k1]
  rfl

set_option maxHeartbeats 2000000 in

theorem win0_v43 (a : RefArgs F) (W : Valuation τ sig (Elt F)) (h : ArgsKept a W) :
    after ops_part0 W (no_index (Proc.devRef .tc main_v43)) = val_main_v43 (F := F) a.x0 a.x1 a.x3 a.x4 := by
  simp only [ops_part0]
  after_results_simp
  inner_results
  rw [h.k1]
  simp only [h.k0, h.k3, h.k4] <;> rfl

set_option maxHeartbeats 2000000 in

theorem win0_v46 (a : RefArgs F) (W : Valuation τ sig (Elt F)) (h : ArgsKept a W) :
    after ops_part0 W (no_index (Proc.devRef .tc main_v46)) = val_main_v46 (F := F) a.x0 a.x1 a.x3 a.x4 := by
  simp only [ops_part0]
  after_results_simp
  inner_results
  rw [h.k1]
  simp only [h.k0, h.k3, h.k4] <;> rfl

set_option maxHeartbeats 2000000 in

theorem win0_v48 (a : RefArgs F) (W : Valuation τ sig (Elt F)) (h : ArgsKept a W) :
    after ops_part0 W (no_index (Proc.devRef .tc main_v48)) = val_main_v48 (F := F) a.x0 a.x1 a.x3 a.x4 := by
  simp only [ops_part0]
  after_results_simp
  inner_results
  rw [h.k1]
  simp only [h.k0, h.k3, h.k4] <;> rfl

theorem win0_step (a : RefArgs F) (W : Valuation τ sig (Elt F)) (h : ArgsKept a W) : Inv1 a (after ops_part0 W) where
  toArgsKept := win0_args a W h
  v3 := win0_v3 a W h
  v6 := win0_v6 a W h
  v11 := win0_v11 a W h
  v43 := win0_v43 a W h
  v46 := win0_v46 a W h
  v48 := win0_v48 a W h

end Cert.ReferenceIdeal.Hand

end
-- ==== Proof.Ref.RunWin1.lean ====
import proofs.«406238_j58506044506835_1_alg».proof.Proof.Ref.RunOps1
import proofs.«406238_j58506044506835_1_alg».proof.Proof.Ref.RunInv

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxRecDepth 8192 in
set_option maxHeartbeats 2000000 in

theorem win1_step (a : RefArgs F) (W : Valuation τ sig (Elt F)) (h : Inv1 a W) : Inv2 a (after ops_part1 W) := by
  have keep : ∀ r : Ref sig .tc, r ∉ ops_part1_W → after ops_part1 W (Proc.devRef .tc r) = W (Proc.devRef .tc r) :=
    fun r hr => after_of_writes_sub ops_part1 W ops_part1_writes hr
  refine ⟨⟨(keep main_arg0 (by decide)).trans h.k0, (keep main_arg1 (by decide)).trans h.k1, (keep main_arg2 (by decide)).trans h.k2,
    (keep main_arg3 (by decide)).trans h.k3, (keep main_arg4 (by decide)).trans h.k4, (keep main_arg5 (by decide)).trans h.k5,
    (keep main_arg6 (by decide)).trans h.k6, (keep main_arg7 (by decide)).trans h.k7, (keep main_arg8 (by decide)).trans h.k8,
    (keep main_arg9 (by decide)).trans h.k9, (keep main_arg10 (by decide)).trans h.k10, (keep main_arg11 (by decide)).trans h.k11,
    (keep main_arg12 (by decide)).trans h.k12, (keep main_arg13 (by decide)).trans h.k13, (keep main_arg14 (by decide)).trans h.k14,
    (keep main_arg15 (by decide)).trans h.k15, (keep main_arg16 (by decide)).trans h.k16⟩,
    (keep main_v3 (by decide)).trans h.v3, (keep main_v6 (by decide)).trans h.v6, (keep main_v11 (by decide)).trans h.v11, ?_⟩
  simp only [ops_part1]
  after_results_simp
  simp only [h.v43, h.v46, h.v48, h.v3, h.v6, h.v11, h.k5, h.k6, h.k7] <;> rfl

end Cert.ReferenceIdeal.Hand

end
-- ==== Proof.Ref.RunWin2.lean ====
import proofs.«406238_j58506044506835_1_alg».proof.Proof.Ref.RunOps2
import proofs.«406238_j58506044506835_1_alg».proof.Proof.Ref.RunInv
import Idealize.ShloMosaic.Lib.StableHlo.Run

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

theorem win2_keep (W : Valuation τ sig (Elt F)) (r : Ref sig .tc) (hr : r ∉ ops_part2_W) :
    after ops_part2 W (Proc.devRef .tc r) = W (Proc.devRef .tc r) :=
  after_of_writes_sub ops_part2 W ops_part2_writes hr

set_option maxRecDepth 8192 in
set_option maxHeartbeats 2000000 in

theorem win2_v128 (a : RefArgs F) (W : Valuation τ sig (Elt F)) (h : Inv2 a W) :
    after ops_part2 W (no_index (Proc.devRef .tc main_v128))
      = val_main_v128 (F := F) a.x0 a.x1 a.x3 a.x4 a.x5 a.x6 a.x7 a.x8 a.x9 a.x10 a.x11 := by
  simp only [ops_part2]
  after_results_simp
  simp only [h.v98, h.k8, h.k9, h.k10, h.k11] <;> rfl

set_option maxRecDepth 8192 in
set_option maxHeartbeats 2000000 in

theorem win2_v143 (a : RefArgs F) (W : Valuation τ sig (Elt F)) (h : Inv2 a W) :
    after ops_part2 W (no_index (Proc.devRef .tc main_v143)) = val_main_v143 (F := F) a.x1 := by
  simp only [ops_part2]
  after_results_simp
  simp only [h.v3, h.v6, h.v11] <;> rfl

set_option maxRecDepth 8192 in
set_option maxHeartbeats 2000000 in

theorem win2_v145 (a : RefArgs F) (W : Valuation τ sig (Elt F)) (h : Inv2 a W) :
    after ops_part2 W (no_index (Proc.devRef .tc main_v145)) = val_main_v145 (F := F) a.x1 := by
  simp only [ops_part2]
  after_results_simp
  simp only [h.v3] <;> rfl

set_option maxRecDepth 8192 in
set_option maxHeartbeats 2000000 in

theorem win2_v147 (a : RefArgs F) (W : Valuation τ sig (Elt F)) (h : Inv2 a W) :
    after ops_part2 W (no_index (Proc.devRef .tc main_v147)) = val_main_v147 (F := F) a.x1 := by
  simp only [ops_part2]
  after_results_simp
  simp only [h.v3] <;> rfl

theorem win2_step (a : RefArgs F) (W : Valuation τ sig (Elt F)) (h : Inv2 a W) : Inv3 a (after ops_part2 W) where
  k0 := (win2_keep W main_arg0 (by decide)).trans h.k0
  k1 := (win2_keep W main_arg1 (by decide)).trans h.k1
  k2 := (win2_keep W main_arg2 (by decide)).trans h.k2
  k3 := (win2_keep W main_arg3 (by decide)).trans h.k3
  k4 := (win2_keep W main_arg4 (by decide)).trans h.k4
  k5 := (win2_keep W main_arg5 (by decide)).trans h.k5
  k6 := (win2_keep W main_arg6 (by decide)).trans h.k6
  k7 := (win2_keep W main_arg7 (by decide)).trans h.k7
  k8 := (win2_keep W main_arg8 (by decide)).trans h.k8
  k9 := (win2_keep W main_arg9 (by decide)).trans h.k9
  k10 := (win2_keep W main_arg10 (by decide)).trans h.k10
  k11 := (win2_keep W main_arg11 (by decide)).trans h.k11
  k12 := (win2_keep W main_arg12 (by decide)).trans h.k12
  k13 := (win2_keep W main_arg13 (by decide)).trans h.k13
  k14 := (win2_keep W main_arg14 (by decide)).trans h.k14
  k15 := (win2_keep W main_arg15 (by decide)).trans h.k15
  k16 := (win2_keep W main_arg16 (by decide)).trans h.k16
  v3 := (win2_keep W main_v3 (by decide)).trans h.v3
  v6 := (win2_keep W main_v6 (by decide)).trans h.v6
  v128 := win2_v128 a W h
  v143 := win2_v143 a W h
  v145 := win2_v145 a W h
  v147 := win2_v147 a W h

end Cert.ReferenceIdeal.Hand

end
-- ==== Proof.Ref.RunWin3.lean ====
import proofs.«406238_j58506044506835_1_alg».proof.Proof.Ref.RunOps3
import proofs.«406238_j58506044506835_1_alg».proof.Proof.Ref.RunInv
import Idealize.ShloMosaic.Lib.StableHlo.Run

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

theorem win3_keep (W : Valuation τ sig (Elt F)) (r : Ref sig .tc) (hr : r ∉ ops_part3_W) :
    after ops_part3 W (Proc.devRef .tc r) = W (Proc.devRef .tc r) :=
  after_of_writes_sub ops_part3 W ops_part3_writes hr

set_option maxRecDepth 8192 in
set_option maxHeartbeats 4000000 in

theorem win3_v197 (a : RefArgs F) (W : Valuation τ sig (Elt F)) (h : Inv3 a W) :
    after ops_part3 W (no_index (Proc.devRef .tc main_v197))
      = val_main_v197 (F := F) a.x0 a.x1 a.x2 a.x3 a.x4 a.x5 a.x6 a.x7 a.x8 a.x9 a.x10 a.x11 a.x12 a.x13 a.x14 := by
  simp only [ops_part3]
  after_results_simp
  simp only [h.v3, h.v6, h.v128, h.v143, h.v145, h.v147, h.k2, h.k12, h.k13, h.k14] <;> rfl

theorem win3_step (a : RefArgs F) (W : Valuation τ sig (Elt F)) (h : Inv3 a W) : Inv4 a (after ops_part3 W) where
  k0 := (win3_keep W main_arg0 (by decide)).trans h.k0
  k1 := (win3_keep W main_arg1 (by decide)).trans h.k1
  k2 := (win3_keep W main_arg2 (by decide)).trans h.k2
  k3 := (win3_keep W main_arg3 (by decide)).trans h.k3
  k4 := (win3_keep W main_arg4 (by decide)).trans h.k4
  k5 := (win3_keep W main_arg5 (by decide)).trans h.k5
  k6 := (win3_keep W main_arg6 (by decide)).trans h.k6
  k7 := (win3_keep W main_arg7 (by decide)).trans h.k7
  k8 := (win3_keep W main_arg8 (by decide)).trans h.k8
  k9 := (win3_keep W main_arg9 (by decide)).trans h.k9
  k10 := (win3_keep W main_arg10 (by decide)).trans h.k10
  k11 := (win3_keep W main_arg11 (by decide)).trans h.k11
  k12 := (win3_keep W main_arg12 (by decide)).trans h.k12
  k13 := (win3_keep W main_arg13 (by decide)).trans h.k13
  k14 := (win3_keep W main_arg14 (by decide)).trans h.k14
  k15 := (win3_keep W main_arg15 (by decide)).trans h.k15
  k16 := (win3_keep W main_arg16 (by decide)).trans h.k16
  v197 := win3_v197 a W h

end Cert.ReferenceIdeal.Hand

end
-- ==== Proof.Ref.RunWin4.lean ====
import proofs.«406238_j58506044506835_1_alg».proof.Proof.Ref.RunOps4
import proofs.«406238_j58506044506835_1_alg».proof.Proof.Ref.RunInv

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

theorem win4_step (a : RefArgs F) (W : Valuation τ sig (Elt F)) (h : Inv4 a W) : Inv5 a (after ops_part4 W) := by
  have keep : ∀ r : Ref sig .tc, r ∉ ops_part4_W → after ops_part4 W (Proc.devRef .tc r) = W (Proc.devRef .tc r) :=
    fun r hr => after_of_writes_sub ops_part4 W ops_part4_writes hr
  refine ⟨⟨(keep main_arg0 (by decide)).trans h.k0, (keep main_arg1 (by decide)).trans h.k1, (keep main_arg2 (by decide)).trans h.k2,
    (keep main_arg3 (by decide)).trans h.k3, (keep main_arg4 (by decide)).trans h.k4, (keep main_arg5 (by decide)).trans h.k5,
    (keep main_arg6 (by decide)).trans h.k6, (keep main_arg7 (by decide)).trans h.k7, (keep main_arg8 (by decide)).trans h.k8,
    (keep main_arg9 (by decide)).trans h.k9, (keep main_arg10 (by decide)).trans h.k10, (keep main_arg11 (by decide)).trans h.k11,
    (keep main_arg12 (by decide)).trans h.k12, (keep main_arg13 (by decide)).trans h.k13, (keep main_arg14 (by decide)).trans h.k14,
    (keep main_arg15 (by decide)).trans h.k15, (keep main_arg16 (by decide)).trans h.k16⟩, ?_⟩
  simp only [ops_part4]
  after_results_simp
  simp only [h.v197, h.k15, h.k16] <;> rfl

end Cert.ReferenceIdeal.Hand

end
-- ==== Proof.Ref.RefRun.lean ====
import proofs.«406238_j58506044506835_1_alg».proof.Proof.Ref.RunHand
import proofs.«406238_j58506044506835_1_alg».proof.Proof.Ref.RunWin0
import proofs.«406238_j58506044506835_1_alg».proof.Proof.Ref.RunWin1
import proofs.«406238_j58506044506835_1_alg».proof.Proof.Ref.RunWin2
import proofs.«406238_j58506044506835_1_alg».proof.Proof.Ref.RunWin3
import proofs.«406238_j58506044506835_1_alg».proof.Proof.Ref.RunWin4

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

theorem inv_end (V : Valuation τ sig (Elt F)) :
    Inv5 (argsOf V) (after ops_part4 (after ops_part3 (after ops_part2 (after ops_part1 (after ops_part0 V))))) :=
  win4_step _ _ (win3_step _ _ (win2_step _ _ (win1_step _ _ (win0_step _ _ (argsKept_argsOf V)))))

theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v201)
        = val_main_v201 (F := F) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
      have inv := inv_end (launchContents m c)
      ⟨(h c main_v201).trans inv.v201,
       (h c main_arg0).trans inv.k0,
       (h c main_arg1).trans inv.k1,
       (h c main_arg2).trans inv.k2,
       (h c main_arg3).trans inv.k3,
       (h c main_arg4).trans inv.k4,
       (h c main_arg5).trans inv.k5,
       (h c main_arg6).trans inv.k6,
       (h c main_arg7).trans inv.k7,
       (h c main_arg8).trans inv.k8,
       (h c main_arg9).trans inv.k9,
       (h c main_arg10).trans inv.k10,
       (h c main_arg11).trans inv.k11,
       (h c main_arg12).trans inv.k12,
       (h c main_arg13).trans inv.k13,
       (h c main_arg14).trans inv.k14,
       (h c main_arg15).trans inv.k15,
       (h c main_arg16).trans inv.k16⟩)
    (run_all m ρ)

end Cert.ReferenceIdeal.Hand

end
-- ==== Proof.KI.R0.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rowsRect0 : Rect S10000x3 := Rect.unit (s := S10000x3) ![0, 0] S10000x3.size inb_S10000x3_S10000x3_0_0

abbrev weightRect0 : Rect S3x16 := Rect.unit (s := S3x16) ![0, 0] S3x16.size inb_S3x16_S3x16_0_0

abbrev prodRect0 : Rect S10000x16 := Rect.unit (s := S10000x16) ![0, 0] S10000x16.size inb_S10000x16_S10000x16_0_0

def prodBlock0 (xs : Vec F S10000x3 .f32) (ws : Vec F S3x16 .f32) : Vec F S10000x16 .f32 :=
  View.canon [⟨prodRect0, k0_pay1 (View.ld xs rowsRect0) (View.ld ws weightRect0)⟩]

theorem prodBlock0_cover (p : Vec F S10000x16 .f32) (y : S10000x16.Idx) :
    ∃ pc ∈ ([⟨prodRect0, p⟩] : List (View.Piece (Elt F) S10000x16 .f32)), y ∈ pc.1.set :=
  View.cover_of_tiled [⟨prodRect0, p⟩] S10000x16.size (by rfl) y

set_option maxHeartbeats 1000000 in

theorem sound_kernel0 (c : Dev nD) (E : Set ℕ) (i : grid0.Coords)
    (arg1 : Memref sig .tc .vmem S10000x3 .f32) (harg1 : arg1.IsWhole)
    (arg2 : Memref sig .tc .vmem S3x16 .f32) (harg2 : arg2.IsWhole)
    (arg3 : Memref sig .tc .vmem S10000x16 .f32) (harg3 : arg3.IsWhole)
    (xs : Vec F S10000x3 .f32) (ws : Vec F S3x16 .f32) (K : PUnit → sProp 𝕄) :
    iprop(owns (c : Thread nD τ) arg1 fullShare xs ∗ owns (c : Thread nD τ) arg2 fullShare ws ∗ (∃ d, owns (c : Thread nD τ) arg3 fullShare d)
        ∗ (iprop(owns (c : Thread nD τ) arg1 fullShare xs ∗ owns (c : Thread nD τ) arg2 fullShare ws ∗ owns (c : Thread nD τ) arg3 fullShare (prodBlock0 xs ws)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%fx, %hfx, Hx⟩, ⟨%fw, %hfw, Hw⟩, ⟨%d, %fo, -, Ho⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (prodBlock0_cover _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlock0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlock0 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Howe, ⟨%dx, Hx⟩, ⟨%dw, Hw⟩, ⟨%dp, Hp⟩⟩
  iapply (sound_kernel0 c Set.univ (grid0.coords t) _ _ _ _ _ _ (iblk0 V c 0 t) (iblk0 V c 1 t) _)
  isplitl [Hx]; · iexact Hx
  isplitl [Hw]; · iexact Hw
  isplitl [Hp]; · iexists _; iexact Hp
  iintro ⟨Hx, Hw, Hp⟩
  isplitl [HΦ]; · iexact HΦ
  isplitl [Howe]; · iexact Howe
  isplitl [Hx]; · iexact Hx
  isplitl [Hw]; · iexact Hw
  iexact Hp

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def colS1 (c : Dev nD) : ℕ → Vec F S1x16 .f32
  | 0 => k1_pay1
  | k + 1 => if h : k < cfg1.N then k1_pay4 (iblk1 V c 0 ⟨k, h⟩) (iblk1 V c 1 ⟨k, h⟩) (colS1 c k) else colS1 c k

def colQ1 (c : Dev nD) : ℕ → Vec F S1x16 .f32
  | 0 => k1_pay2
  | k + 1 => if h : k < cfg1.N then k1_pay5 (iblk1 V c 0 ⟨k, h⟩) (iblk1 V c 1 ⟨k, h⟩) (colQ1 c k) else colQ1 c k

theorem colS1_succ (c : Dev nD) (t : Fin cfg1.N) :
    colS1 V c (t.val + 1) = k1_pay4 (iblk1 V c 0 t) (iblk1 V c 1 t) (colS1 V c t.val) := by
  rw [colS1, dif_pos t.isLt]

theorem colQ1_succ (c : Dev nD) (t : Fin cfg1.N) :
    colQ1 V c (t.val + 1) = k1_pay5 (iblk1 V c 0 t) (iblk1 V c 1 t) (colQ1 V c t.val) := by
  rw [colQ1, dif_pos t.isLt]

def scratch1 (c : Dev nD) (t : Fin (cfg1.N + 1)) : sProp 𝕄 :=
  iprop(∃ (s q : Vec F S1x16 .f32), ⌜t.val ≠ 0 → s = colS1 V c t.val ∧ q = colQ1 V c t.val⌝
      ∗ owns (c : Thread nD τ) (Memref.whole cc1_scratch0 : Memref sig .tc .vmem S1x16 .f32) fullShare s
      ∗ owns (c : Thread nD τ) (Memref.whole cc1_scratch1 : Memref sig .tc .vmem S1x16 .f32) fullShare q)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => colS1 V c (t.val + 1)
    | ⟨3, _⟩ => colQ1 V c (t.val + 1)
  Φ t := iprop(scratch1 V c t
    ∗ Pipeline.scopedRestBut (Ix := Unit) (Name := ℕ) (U := UR sig nD τ) (Lvl := ℕ) (Val := Elt F) spec1 c [cc1_scratch0, cc1_scratch1]
    ∗ ∃ r, prngReg c r)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = colS1 V c (t.val + 1) := by dsimp only [dat1]
theorem after1_3 (c : Dev nD) (t : Fin cfg1.N) : (dat1 V c).after 3 t = colQ1 V c (t.val + 1) := by dsimp only [dat1]

theorem hin1 (c : Dev nD) : (iprop((∃ r, prngReg c r) ∗ Pipeline.scopedRest (Ix := Unit) (Name := ℕ) (U := UR sig nD τ) (Lvl := ℕ) spec1 c) : sProp 𝕄) ⊢ (dat1 V c).Φ 0 := by
  rw [scopedRest1_split]
  dsimp only [dat1]
  unfold scratch1
  simp only [owns_whole]
  iintro ⟨Hr, ⟨⟨%f0, H0⟩, ⟨%f1, H1⟩⟩, Hrest⟩
  isplitl [H0 H1]
  · iexists f0; iexists f1
    isplitr; · ipureintro; intro h; exact absurd rfl h
    isplitl [H0]; · iexact H0
    iexact H1
  isplitl [Hrest]; · iexact Hrest
  iexact Hr

theorem hout1 (c : Dev nD) : (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [scopedRest1_split]
  dsimp only [dat1]
  unfold scratch1
  simp only [owns_whole]
  iintro ⟨⟨%s, %q, -, H0, H1⟩, Hrest, Hr⟩
  isplitl [Hr]; · iexact Hr
  isplitr [Hrest]
  · isplitl [H0]
    · iexists s; iexact H0
    · iexists q; iexact H1
  iexact Hrest

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

theorem hcond1_1 : ∀ t : Fin cfg1.N, k1_cond2 (grid1.coords t) = 1#1 ↔ t.val % 10 = 9 :=
  (by decide +kernel : ∀ t : Fin grid1.N, k1_cond2 (grid1.coords t) = 1#1 ↔ t.val % 10 = 9)

private theorem zero2 : (![0, 0] : Fin 2 → Nat) = fun _ => 0 := funext fun a => by fin_cases a <;> rfl

private theorem loadedX1 {κ : Kind} {sp : Space} (v : View sig κ sp S10000x16 .f32) (f : v.ty.Contents (Elt F)) :
    v.readAt (Elt F) (Rect.unit (s := S10000x16) ![0, 0] S10000x16.size inb_S10000x16_S10000x16_0_0).toLoadRect f = v.read (Elt F) f :=
  (View.readAt_eq_ld v f _).trans (View.ld_unit_zero zero2 inb_S10000x16_S10000x16_0_0 _)

private theorem loadedR1 {κ : Kind} {sp : Space} (v : View sig κ sp S1x16 .f32) (f : v.ty.Contents (Elt F)) :
    v.readAt (Elt F) (Rect.unit (s := S1x16) ![0, 0] S1x16.size inb_S1x16_S1x16_0_0).toLoadRect f = v.read (Elt F) f :=
  (View.readAt_eq_ld v f _).trans (View.ld_unit_zero zero2 inb_S1x16_S1x16_0_0 _)

private theorem storedR1 {κ : Kind} {sp : Space} (v : View sig κ sp S1x16 .f32) (f : v.ty.Contents (Elt F)) (w : Vec F S1x16 .f32)
    (L : List (View.Piece (Elt F) S1x16 .f32)) :
    v.read (Elt F) (v.writes (Elt F) f ((⟨Rect.unit (s := S1x16) ![0, 0] S1x16.size inb_S1x16_S1x16_0_0, w⟩ : View.Piece (Elt F) S1x16 .f32) :: L)) = w := by
  have hcov : ∀ y : S1x16.Idx, ∃ p ∈ ((⟨Rect.unit (s := S1x16) ![0, 0] S1x16.size inb_S1x16_S1x16_0_0, w⟩ : View.Piece (Elt F) S1x16 .f32) :: L), y ∈ p.1.set :=
    fun y => ⟨⟨Rect.unit (s := S1x16) ![0, 0] S1x16.size inb_S1x16_S1x16_0_0, w⟩, List.mem_cons.mpr (Or.inl rfl),
      View.mem_set_unit_zero zero2 inb_S1x16_S1x16_0_0 y⟩
  rw [View.read_writes_eq_canon v f _ hcov]
  exact View.canon_cons_unit_zero zero2 inb_S1x16_S1x16_0_0 w L

private theorem coveredR1 {κ : Kind} {sp : Space} (v : View sig κ sp S1x16 .f32) (w : Vec F S1x16 .f32) :
    v.readCov [(⟨Rect.unit (s := S1x16) ![0, 0] S1x16.size inb_S1x16_S1x16_0_0, w⟩ : View.Piece (Elt F) S1x16 .f32)]
      (Rect.unit (s := S1x16) ![0, 0] S1x16.size inb_S1x16_S1x16_0_0).toLoadRect = w :=
  View.readCov_unit_zero v zero2 inb_S1x16_S1x16_0_0 w

set_option maxHeartbeats 1000000 in

theorem stats1_mid (c : Dev nD) (E : Set ℕ) (i : grid1.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : ¬cond1_0 i) (hc1 : ¬k1_cond2 i = 1#1)
    (x : Vec F S10000x16 .f32) (b s q : Vec F S1x16 .f32) (K : PUnit → sProp 𝕄) :
    iprop(owns (c : Thread nD τ) arg1 fullShare x ∗ owns (c : Thread nD τ) arg2 fullShare b
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg5 fullShare (k1_pay4 x b s) ∗ owns (c : Thread nD τ) arg6 fullShare (k1_pay5 x b q)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f1, %hf1, H1⟩, ⟨%f2, %hf2, H2⟩, ⟨%f5, %hf5, H5⟩, ⟨%f6, %hf6, H6⟩, Hk⟩
  subst hf1 hf2 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro; (try sl_unfold_run_names); rw [storedR1, loadedX1, loadedR1, loadedR1]
  · iexists _; isplitr
    swap; · iexact H6
    ipureintro; (try sl_unfold_run_names); rw [storedR1, loadedX1, loadedR1, loadedR1]

set_option maxHeartbeats 1000000 in

theorem stats1_first (c : Dev nD) (E : Set ℕ) (i : grid1.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : cond1_0 i) (hc1 : ¬k1_cond2 i = 1#1)
    (x : Vec F S10000x16 .f32) (b : Vec F S1x16 .f32) (K : PUnit → sProp 𝕄) :
    iprop(owns (c : Thread nD τ) arg1 fullShare x ∗ owns (c : Thread nD τ) arg2 fullShare b
        ∗ (∃ s, owns (c : Thread nD τ) arg5 fullShare s) ∗ (∃ q, owns (c : Thread nD τ) arg6 fullShare q)
        ∗ (iprop(owns (c : Thread nD τ) arg1 fullShare x ∗ owns (c : Thread nD τ) arg2 fullShare b
            ∗ owns (c : Thread nD τ) arg5 fullShare (k1_pay4 x b k1_pay1) ∗ owns (c : Thread nD τ) arg6 fullShare (k1_pay5 x b k1_pay2)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f1, %hf1, H1⟩, ⟨%f2, %hf2, H2⟩, ⟨%s, %f5, -, H5⟩, ⟨%q, %f6, -, H6⟩, Hk⟩
  subst hf1 hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro; (try sl_unfold_run_names); rw [storedR1, loadedX1, loadedR1, coveredR1]
  · iexists _; isplitr
    swap; · iexact H6
    ipureintro; (try sl_unfold_run_names); rw [storedR1, loadedX1, loadedR1, coveredR1]

set_option maxHeartbeats 1000000 in

theorem stats1_last (c : Dev nD) (E : Set ℕ) (i : grid1.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (hc0 : ¬cond1_0 i) (hc1 : k1_cond2 i = 1#1)
    (x : Vec F S10000x16 .f32) (b s q : Vec F S1x16 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (k1_pay4 x b s) ∗ owns (c : Thread nD τ) arg4 fullShare (k1_pay5 x b q)
            ∗ owns (c : Thread nD τ) arg5 fullShare (k1_pay4 x b s) ∗ owns (c : Thread nD τ) arg6 fullShare (k1_pay5 x b q)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1 hf2 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro; (try sl_unfold_run_names); rw [storedR1, coveredR1, loadedX1, loadedR1, loadedR1]
  isplitl [H4]
  · iexists _; isplitr
    swap; · iexact H4
    ipureintro; (try sl_unfold_run_names); rw [storedR1, coveredR1, loadedX1, loadedR1, loadedR1]
  isplitl [H5]
  · iexists _; isplitr
    swap; · iexact H5
    ipureintro; (try sl_unfold_run_names); rw [storedR1, loadedX1, loadedR1, loadedR1]
  · iexists _; isplitr
    swap; · iexact H6
    ipureintro; (try sl_unfold_run_names); rw [storedR1, loadedX1, loadedR1, loadedR1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem hidle1_2 : ∀ t : Fin cfg1.N, cfg1.idle 2 (cfg1.grid.coords t) = true ↔ ¬t.val % 10 = 9 :=
  (by decide +kernel : ∀ t : Fin grid1.N, idle1 2 (grid1.coords t) = true ↔ ¬t.val % 10 = 9)
theorem hidle1_3 : ∀ t : Fin cfg1.N, cfg1.idle 3 (cfg1.grid.coords t) = true ↔ ¬t.val % 10 = 9 :=
  (by decide +kernel : ∀ t : Fin grid1.N, idle1 3 (grid1.coords t) = true ↔ ¬t.val % 10 = 9)

theorem leaves1_2_idle (c : Dev nD) (t : Fin cfg1.N) (h : ¬t.val % 10 = 9) :
    (dat1 V c).leavesExact 2 t = iprop(∃ d, owns (c : Thread nD τ) (st1_2 t) fullShare ((dat1 V c).before 2 t d)) :=
  (dat1 V c).leavesExact_idle 2 t ((hidle1_2 t).mpr h) (Bool.eq_false_iff.mpr fun hf => h ((flush1_2 t).mp hf))
theorem leaves1_3_idle (c : Dev nD) (t : Fin cfg1.N) (h : ¬t.val % 10 = 9) :
    (dat1 V c).leavesExact 3 t = iprop(∃ d, owns (c : Thread nD τ) (st1_3 t) fullShare ((dat1 V c).before 3 t d)) :=
  (dat1 V c).leavesExact_idle 3 t ((hidle1_3 t).mpr h) (Bool.eq_false_iff.mpr fun hf => h ((flush1_3 t).mp hf))

theorem leaves1_2_last (c : Dev nD) (t : Fin cfg1.N) (h : t.val % 10 = 9) :
    (dat1 V c).leavesExact 2 t = owns (c : Thread nD τ) (st1_2 t) fullShare (colS1 V c (t.val + 1)) := by
  have hi : cfg1.idle 2 (cfg1.grid.coords t) = false := Bool.eq_false_iff.mpr fun hi => (hidle1_2 t).mp hi h
  unfold Dat.leavesExact; rw [hi, after1_2]
theorem leaves1_3_last (c : Dev nD) (t : Fin cfg1.N) (h : t.val % 10 = 9) :
    (dat1 V c).leavesExact 3 t = owns (c : Thread nD τ) (st1_3 t) fullShare (colQ1 V c (t.val + 1)) := by
  have hi : cfg1.idle 3 (cfg1.grid.coords t) = false := Bool.eq_false_iff.mpr fun hi => (hidle1_3 t).mp hi h
  unfold Dat.leavesExact; rw [hi, after1_3]

theorem leaves1_0 (c : Dev nD) (t : Fin cfg1.N) :
    (dat1 V c).leavesExact 0 t = owns (c : Thread nD τ) (st1_0 t) fullShare (iblk1 V c 0 t) := by
  show owns (c : Thread nD τ) (st1_0 t) fullShare ((dat1 V c).after 0 t) = _; rw [after1_0]
theorem leaves1_1 (c : Dev nD) (t : Fin cfg1.N) :
    (dat1 V c).leavesExact 1 t = owns (c : Thread nD τ) (st1_1 t) fullShare (iblk1 V c 1 t) := by
  show owns (c : Thread nD τ) (st1_1 t) fullShare ((dat1 V c).after 1 t) = _; rw [after1_1]

theorem Φ1_eq (c : Dev nD) (t : Fin (cfg1.N + 1)) : (dat1 V c).Φ t = iprop(scratch1 V c t
    ∗ Pipeline.scopedRestBut (Ix := Unit) (Name := ℕ) (U := UR sig nD τ) (Lvl := ℕ) (Val := Elt F) spec1 c [cc1_scratch0, cc1_scratch1]
    ∗ ∃ r, prngReg c r) := by dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Φ1_eq, Φ1_eq, leaves1_0, leaves1_1]
  unfold scratch1
  have hN : t.val < 10 := lt_of_lt_of_eq t.isLt (show cfg1.N = 10 from N_1)
  have hcs : (t.castSucc : Fin (cfg1.N + 1)).val = t.val := rfl
  have hsu : (t.succ : Fin (cfg1.N + 1)).val = t.val + 1 := rfl
  by_cases h0 : t.val % 10 = 0
  ·
    have h9 : ¬t.val % 10 = 9 := by omega
    have ht : t.val = 0 := by omega
    rw [leaves1_2_idle V c t h9, leaves1_3_idle V c t h9]
    iintro ⟨⟨⟨%s, %q, -, Hs, Hq⟩, Hrest, Hr⟩, Ho, ⟨%d0, H0⟩, ⟨%d1, H1⟩, ⟨%d2, H2⟩, ⟨%d3, H3⟩⟩
    iapply (stats1_first c Set.univ (grid1.coords t) _ _ _ _ _ _ _ _ _ _ _ _ ((hcond1_0 t).mpr h0) (fun h => h9 ((hcond1_1 t).mp h))
      (iblk1 V c 0 t) (iblk1 V c 1 t) _)
    isplitl [H0]; · iexact H0
    isplitl [H1]; · iexact H1
    isplitl [Hs]; · iexists s; iexact Hs
    isplitl [Hq]; · iexists q; iexact Hq
    iintro ⟨H0, H1, Hs, Hq⟩
    isplitl [Hs Hq Hrest Hr]
    · isplitl [Hs Hq]
      · iexists _; iexists _
        isplitr
        · ipureintro; intro _
          rw [hsu, colS1_succ, colQ1_succ, ht]; exact ⟨rfl, rfl⟩
        isplitl [Hs]; · iexact Hs
        iexact Hq
      isplitl [Hrest]; · iexact Hrest
      iexact Hr
    isplitl [Ho]; · iexact Ho
    isplitl [H0]; · iexact H0
    isplitl [H1]; · iexact H1
    isplitl [H2]; · iexists d2; iexact H2
    iexists d3; iexact H3
  · by_cases h9 : t.val % 10 = 9
    ·
      rw [leaves1_2_last V c t h9, leaves1_3_last V c t h9]
      iintro ⟨⟨⟨%s, %q, %hsq, Hs, Hq⟩, Hrest, Hr⟩, Ho, ⟨%d0, H0⟩, ⟨%d1, H1⟩, ⟨%d2, H2⟩, ⟨%d3, H3⟩⟩
      obtain ⟨rfl, rfl⟩ := hsq (by rw [hcs]; omega)
      iapply (stats1_last c Set.univ (grid1.coords t) _ _ _ _ _ _ _ _ _ _ _ _ (fun h => h0 ((hcond1_0 t).mp h)) ((hcond1_1 t).mpr h9)
        (iblk1 V c 0 t) (iblk1 V c 1 t) _ _ _)
      isplitl [H0]; · iexact H0
      isplitl [H1]; · iexact H1
      isplitl [H2]; · iexists _; iexact H2
      isplitl [H3]; · iexists _; iexact H3
      isplitl [Hs]; · iexact Hs
      isplitl [Hq]; · iexact Hq
      iintro ⟨H0, H1, H2, H3, Hs, Hq⟩
      rw [hcs, ← colS1_succ, ← colQ1_succ]
      isplitl [Hs Hq Hrest Hr]
      · isplitl [Hs Hq]
        · iexists _; iexists _
          isplitr
          · ipureintro; intro _; rw [hsu]; exact ⟨rfl, rfl⟩
          isplitl [Hs]; · iexact Hs
          iexact Hq
        isplitl [Hrest]; · iexact Hrest
        iexact Hr
      isplitl [Ho]; · iexact Ho
      isplitl [H0]; · iexact H0
      isplitl [H1]; · iexact H1
      isplitl [H2]; · iexact H2
      iexact H3
    ·
      rw [leaves1_2_idle V c t h9, leaves1_3_idle V c t h9]
      iintro ⟨⟨⟨%s, %q, %hsq, Hs, Hq⟩, Hrest, Hr⟩, Ho, ⟨%d0, H0⟩, ⟨%d1, H1⟩, ⟨%d2, H2⟩, ⟨%d3, H3⟩⟩
      obtain ⟨rfl, rfl⟩ := hsq (by rw [hcs]; omega)
      iapply (stats1_mid c Set.univ (grid1.coords t) _ _ _ _ _ _ _ _ _ _ _ _ (fun h => h0 ((hcond1_0 t).mp h)) (fun h => h9 ((hcond1_1 t).mp h))
        (iblk1 V c 0 t) (iblk1 V c 1 t) _ _ _)
      isplitl [H0]; · iexact H0
      isplitl [H1]; · iexact H1
      isplitl [Hs]; · iexact Hs
      isplitl [Hq]; · iexact Hq
      iintro ⟨H0, H1, Hs, Hq⟩
      rw [hcs, ← colS1_succ, ← colQ1_succ]
      isplitl [Hs Hq Hrest Hr]
      · isplitl [Hs Hq]
        · iexists _; iexists _
          isplitr
          · ipureintro; intro _; rw [hsu]; exact ⟨rfl, rfl⟩
          isplitl [Hs]; · iexact Hs
          iexact Hq
        isplitl [Hrest]; · iexact Hrest
        iexact Hr
      isplitl [Ho]; · iexact Ho
      isplitl [H0]; · iexact H0
      isplitl [H1]; · iexact H1
      isplitl [H2]; · iexists d2; iexact H2
      iexists d3; iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsRect2 : Rect S10000x16 := Rect.unit (s := S10000x16) ![0, 0] S10000x16.size inb_S10000x16_S10000x16_0_0

abbrev paramRect2 : Rect S1x16 := Rect.unit (s := S1x16) ![0, 0] S1x16.size inb_S1x16_S1x16_0_0

def bnReluBlk2 (x : Vec F S10000x16 .f32) (b mu var g be : Vec F S1x16 .f32) : Vec F S10000x16 .f32 :=
  View.canon [⟨rowsRect2, k2_pay1 (View.ld x rowsRect2) (View.ld b paramRect2) (View.ld var paramRect2)
    (View.ld mu paramRect2) (View.ld g paramRect2) (View.ld be paramRect2)⟩]

theorem cover2_6 (p : Vec F S10000x16 .f32) (y : S10000x16.Idx) :
    ∃ pc ∈ ([⟨rowsRect2, p⟩] : List (View.Piece (Elt F) S10000x16 .f32)), y ∈ pc.1.set :=
  View.cover_of_tiled [⟨rowsRect2, p⟩] S10000x16.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => bnReluBlk2 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    bnReluBlk2 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

set_option maxHeartbeats 1000000 in

theorem sound_kernel2 (c : Dev nD) (E : Set ℕ) (i : grid2.Coords)
    (arg1 : Memref sig .tc .vmem S10000x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S10000x16 .f32) (harg7 : arg7.IsWhole)
    (x : Vec F S10000x16 .f32) (b mu var g be : Vec F S1x16 .f32) (K : PUnit → sProp 𝕄) :
    iprop(owns (c : Thread nD τ) arg1 fullShare x ∗ owns (c : Thread nD τ) arg2 fullShare b ∗ owns (c : Thread nD τ) arg3 fullShare mu
        ∗ owns (c : Thread nD τ) arg4 fullShare var ∗ owns (c : Thread nD τ) arg5 fullShare g ∗ owns (c : Thread nD τ) arg6 fullShare be
        ∗ (∃ d, owns (c : Thread nD τ) arg7 fullShare d)
        ∗ (iprop(owns (c : Thread nD τ) arg1 fullShare x ∗ owns (c : Thread nD τ) arg2 fullShare b ∗ owns (c : Thread nD τ) arg3 fullShare mu
            ∗ owns (c : Thread nD τ) arg4 fullShare var ∗ owns (c : Thread nD τ) arg5 fullShare g ∗ owns (c : Thread nD τ) arg6 fullShare be
            ∗ owns (c : Thread nD τ) arg7 fullShare (bnReluBlk2 x b mu var g be)) -∗ K ⟨⟩))
      ⊢ wp frame (wpE (defs₀ (F := F)) Variants.none c none) E
          (cc2__apply_kernel i arg1 harg1 arg2 harg2 arg3 harg3 arg4 harg4 arg5 harg5 arg6 harg6 arg7 harg7) K := by
  simp only [cc2__apply_kernel_eq_skeleton]; unfold cc2__apply_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_6 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t)
    (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rowsRect3 : Rect S10000x16 := Rect.unit (s := S10000x16) ![0, 0] S10000x16.size inb_S10000x16_S10000x16_0_0

abbrev weightRect3 : Rect S16x32 := Rect.unit (s := S16x32) ![0, 0] S16x32.size inb_S16x32_S16x32_0_0

abbrev prodRect3 : Rect S10000x32 := Rect.unit (s := S10000x32) ![0, 0] S10000x32.size inb_S10000x32_S10000x32_0_0

def prodBlock3 (xs : Vec F S10000x16 .f32) (ws : Vec F S16x32 .f32) : Vec F S10000x32 .f32 :=
  View.canon [⟨prodRect3, k3_pay1 (View.ld xs rowsRect3) (View.ld ws weightRect3)⟩]

theorem prodBlock3_cover (p : Vec F S10000x32 .f32) (y : S10000x32.Idx) :
    ∃ pc ∈ ([⟨prodRect3, p⟩] : List (View.Piece (Elt F) S10000x32 .f32)), y ∈ pc.1.set :=
  View.cover_of_tiled [⟨prodRect3, p⟩] S10000x32.size (by rfl) y

set_option maxHeartbeats 1000000 in

theorem sound_kernel3 (c : Dev nD) (E : Set ℕ) (i : grid3.Coords)
    (arg1 : Memref sig .tc .vmem S10000x16 .f32) (harg1 : arg1.IsWhole)
    (arg2 : Memref sig .tc .vmem S16x32 .f32) (harg2 : arg2.IsWhole)
    (arg3 : Memref sig .tc .vmem S10000x32 .f32) (harg3 : arg3.IsWhole)
    (xs : Vec F S10000x16 .f32) (ws : Vec F S16x32 .f32) (K : PUnit → sProp 𝕄) :
    iprop(owns (c : Thread nD τ) arg1 fullShare xs ∗ owns (c : Thread nD τ) arg2 fullShare ws ∗ (∃ d, owns (c : Thread nD τ) arg3 fullShare d)
        ∗ (iprop(owns (c : Thread nD τ) arg1 fullShare xs ∗ owns (c : Thread nD τ) arg2 fullShare ws ∗ owns (c : Thread nD τ) arg3 fullShare (prodBlock3 xs ws)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%fx, %hfx, Hx⟩, ⟨%fw, %hfw, Hw⟩, ⟨%d, %fo, -, Ho⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (prodBlock3_cover _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => prodBlock3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = prodBlock3 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Howe, ⟨%dx, Hx⟩, ⟨%dw, Hw⟩, ⟨%dp, Hp⟩⟩
  iapply (sound_kernel3 c Set.univ (grid3.coords t) _ _ _ _ _ _ (iblk3 V c 0 t) (iblk3 V c 1 t) _)
  isplitl [Hx]; · iexact Hx
  isplitl [Hw]; · iexact Hw
  isplitl [Hp]; · iexists _; iexact Hp
  iintro ⟨Hx, Hw, Hp⟩
  isplitl [HΦ]; · iexact HΦ
  isplitl [Howe]; · iexact Howe
  isplitl [Hx]; · iexact Hx
  isplitl [Hw]; · iexact Hw
  iexact Hp

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def colS4 (c : Dev nD) : ℕ → Vec F S1x32 .f32
  | 0 => k4_pay1
  | k + 1 => if h : k < cfg4.N then k4_pay4 (iblk4 V c 0 ⟨k, h⟩) (iblk4 V c 1 ⟨k, h⟩) (colS4 c k) else colS4 c k

def colQ4 (c : Dev nD) : ℕ → Vec F S1x32 .f32
  | 0 => k4_pay2
  | k + 1 => if h : k < cfg4.N then k4_pay5 (iblk4 V c 0 ⟨k, h⟩) (iblk4 V c 1 ⟨k, h⟩) (colQ4 c k) else colQ4 c k

theorem colS4_succ (c : Dev nD) (t : Fin cfg4.N) :
    colS4 V c (t.val + 1) = k4_pay4 (iblk4 V c 0 t) (iblk4 V c 1 t) (colS4 V c t.val) := by
  rw [colS4, dif_pos t.isLt]

theorem colQ4_succ (c : Dev nD) (t : Fin cfg4.N) :
    colQ4 V c (t.val + 1) = k4_pay5 (iblk4 V c 0 t) (iblk4 V c 1 t) (colQ4 V c t.val) := by
  rw [colQ4, dif_pos t.isLt]

def scratch4 (c : Dev nD) (t : Fin (cfg4.N + 1)) : sProp 𝕄 :=
  iprop(∃ (s q : Vec F S1x32 .f32), ⌜t.val ≠ 0 → s = colS4 V c t.val ∧ q = colQ4 V c t.val⌝
      ∗ owns (c : Thread nD τ) (Memref.whole cc4_scratch0 : Memref sig .tc .vmem S1x32 .f32) fullShare s
      ∗ owns (c : Thread nD τ) (Memref.whole cc4_scratch1 : Memref sig .tc .vmem S1x32 .f32) fullShare q)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => colS4 V c (t.val + 1)
    | ⟨3, _⟩ => colQ4 V c (t.val + 1)
  Φ t := iprop(scratch4 V c t
    ∗ Pipeline.scopedRestBut (Ix := Unit) (Name := ℕ) (U := UR sig nD τ) (Lvl := ℕ) (Val := Elt F) spec4 c [cc4_scratch0, cc4_scratch1]
    ∗ ∃ r, prngReg c r)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = colS4 V c (t.val + 1) := by dsimp only [dat4]
theorem after4_3 (c : Dev nD) (t : Fin cfg4.N) : (dat4 V c).after 3 t = colQ4 V c (t.val + 1) := by dsimp only [dat4]

theorem hin4 (c : Dev nD) : (iprop((∃ r, prngReg c r) ∗ Pipeline.scopedRest (Ix := Unit) (Name := ℕ) (U := UR sig nD τ) (Lvl := ℕ) spec4 c) : sProp 𝕄) ⊢ (dat4 V c).Φ 0 := by
  rw [scopedRest4_split]
  dsimp only [dat4]
  unfold scratch4
  simp only [owns_whole]
  iintro ⟨Hr, ⟨⟨%f0, H0⟩, ⟨%f1, H1⟩⟩, Hrest⟩
  isplitl [H0 H1]
  · iexists f0; iexists f1
    isplitr; · ipureintro; intro h; exact absurd rfl h
    isplitl [H0]; · iexact H0
    iexact H1
  isplitl [Hrest]; · iexact Hrest
  iexact Hr

theorem hout4 (c : Dev nD) : (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [scopedRest4_split]
  dsimp only [dat4]
  unfold scratch4
  simp only [owns_whole]
  iintro ⟨⟨%s, %q, -, H0, H1⟩, Hrest, Hr⟩
  isplitl [Hr]; · iexact Hr
  isplitr [Hrest]
  · isplitl [H0]
    · iexists s; iexact H0
    · iexists q; iexact H1
  iexact Hrest

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

theorem hcond4_1 : ∀ t : Fin cfg4.N, k4_cond2 (grid4.coords t) = 1#1 ↔ t.val % 10 = 9 :=
  (by decide +kernel : ∀ t : Fin grid4.N, k4_cond2 (grid4.coords t) = 1#1 ↔ t.val % 10 = 9)

private theorem zero2 : (![0, 0] : Fin 2 → Nat) = fun _ => 0 := funext fun a => by fin_cases a <;> rfl

private theorem loadedX4 {κ : Kind} {sp : Space} (v : View sig κ sp S10000x32 .f32) (f : v.ty.Contents (Elt F)) :
    v.readAt (Elt F) (Rect.unit (s := S10000x32) ![0, 0] S10000x32.size inb_S10000x32_S10000x32_0_0).toLoadRect f = v.read (Elt F) f :=
  (View.readAt_eq_ld v f _).trans (View.ld_unit_zero zero2 inb_S10000x32_S10000x32_0_0 _)

private theorem loadedR4 {κ : Kind} {sp : Space} (v : View sig κ sp S1x32 .f32) (f : v.ty.Contents (Elt F)) :
    v.readAt (Elt F) (Rect.unit (s := S1x32) ![0, 0] S1x32.size inb_S1x32_S1x32_0_0).toLoadRect f = v.read (Elt F) f :=
  (View.readAt_eq_ld v f _).trans (View.ld_unit_zero zero2 inb_S1x32_S1x32_0_0 _)

private theorem storedR4 {κ : Kind} {sp : Space} (v : View sig κ sp S1x32 .f32) (f : v.ty.Contents (Elt F)) (w : Vec F S1x32 .f32)
    (L : List (View.Piece (Elt F) S1x32 .f32)) :
    v.read (Elt F) (v.writes (Elt F) f ((⟨Rect.unit (s := S1x32) ![0, 0] S1x32.size inb_S1x32_S1x32_0_0, w⟩ : View.Piece (Elt F) S1x32 .f32) :: L)) = w := by
  have hcov : ∀ y : S1x32.Idx, ∃ p ∈ ((⟨Rect.unit (s := S1x32) ![0, 0] S1x32.size inb_S1x32_S1x32_0_0, w⟩ : View.Piece (Elt F) S1x32 .f32) :: L), y ∈ p.1.set :=
    fun y => ⟨⟨Rect.unit (s := S1x32) ![0, 0] S1x32.size inb_S1x32_S1x32_0_0, w⟩, List.mem_cons.mpr (Or.inl rfl),
      View.mem_set_unit_zero zero2 inb_S1x32_S1x32_0_0 y⟩
  rw [View.read_writes_eq_canon v f _ hcov]
  exact View.canon_cons_unit_zero zero2 inb_S1x32_S1x32_0_0 w L

private theorem coveredR4 {κ : Kind} {sp : Space} (v : View sig κ sp S1x32 .f32) (w : Vec F S1x32 .f32) :
    v.readCov [(⟨Rect.unit (s := S1x32) ![0, 0] S1x32.size inb_S1x32_S1x32_0_0, w⟩ : View.Piece (Elt F) S1x32 .f32)]
      (Rect.unit (s := S1x32) ![0, 0] S1x32.size inb_S1x32_S1x32_0_0).toLoadRect = w :=
  View.readCov_unit_zero v zero2 inb_S1x32_S1x32_0_0 w

set_option maxHeartbeats 1000000 in

theorem stats4_mid (c : Dev nD) (E : Set ℕ) (i : grid4.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (hc1 : ¬k4_cond2 i = 1#1)
    (x : Vec F S10000x32 .f32) (b s q : Vec F S1x32 .f32) (K : PUnit → sProp 𝕄) :
    iprop(owns (c : Thread nD τ) arg1 fullShare x ∗ owns (c : Thread nD τ) arg2 fullShare b
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg5 fullShare (k4_pay4 x b s) ∗ owns (c : Thread nD τ) arg6 fullShare (k4_pay5 x b q)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f1, %hf1, H1⟩, ⟨%f2, %hf2, H2⟩, ⟨%f5, %hf5, H5⟩, ⟨%f6, %hf6, H6⟩, Hk⟩
  subst hf1 hf2 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro; (try sl_unfold_run_names); rw [storedR4, loadedX4, loadedR4, loadedR4]
  · iexists _; isplitr
    swap; · iexact H6
    ipureintro; (try sl_unfold_run_names); rw [storedR4, loadedX4, loadedR4, loadedR4]

set_option maxHeartbeats 1000000 in

theorem stats4_first (c : Dev nD) (E : Set ℕ) (i : grid4.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond4_0 i) (hc1 : ¬k4_cond2 i = 1#1)
    (x : Vec F S10000x32 .f32) (b : Vec F S1x32 .f32) (K : PUnit → sProp 𝕄) :
    iprop(owns (c : Thread nD τ) arg1 fullShare x ∗ owns (c : Thread nD τ) arg2 fullShare b
        ∗ (∃ s, owns (c : Thread nD τ) arg5 fullShare s) ∗ (∃ q, owns (c : Thread nD τ) arg6 fullShare q)
        ∗ (iprop(owns (c : Thread nD τ) arg1 fullShare x ∗ owns (c : Thread nD τ) arg2 fullShare b
            ∗ owns (c : Thread nD τ) arg5 fullShare (k4_pay4 x b k4_pay1) ∗ owns (c : Thread nD τ) arg6 fullShare (k4_pay5 x b k4_pay2)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f1, %hf1, H1⟩, ⟨%f2, %hf2, H2⟩, ⟨%s, %f5, -, H5⟩, ⟨%q, %f6, -, H6⟩, Hk⟩
  subst hf1 hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro; (try sl_unfold_run_names); rw [storedR4, loadedX4, loadedR4, coveredR4]
  · iexists _; isplitr
    swap; · iexact H6
    ipureintro; (try sl_unfold_run_names); rw [storedR4, loadedX4, loadedR4, coveredR4]

set_option maxHeartbeats 1000000 in

theorem stats4_last (c : Dev nD) (E : Set ℕ) (i : grid4.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (hc1 : k4_cond2 i = 1#1)
    (x : Vec F S10000x32 .f32) (b s q : Vec F S1x32 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (k4_pay4 x b s) ∗ owns (c : Thread nD τ) arg4 fullShare (k4_pay5 x b q)
            ∗ owns (c : Thread nD τ) arg5 fullShare (k4_pay4 x b s) ∗ owns (c : Thread nD τ) arg6 fullShare (k4_pay5 x b q)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1 hf2 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro; (try sl_unfold_run_names); rw [storedR4, coveredR4, loadedX4, loadedR4, loadedR4]
  isplitl [H4]
  · iexists _; isplitr
    swap; · iexact H4
    ipureintro; (try sl_unfold_run_names); rw [storedR4, coveredR4, loadedX4, loadedR4, loadedR4]
  isplitl [H5]
  · iexists _; isplitr
    swap; · iexact H5
    ipureintro; (try sl_unfold_run_names); rw [storedR4, loadedX4, loadedR4, loadedR4]
  · iexists _; isplitr
    swap; · iexact H6
    ipureintro; (try sl_unfold_run_names); rw [storedR4, loadedX4, loadedR4, loadedR4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

theorem hidle4_2 : ∀ t : Fin cfg4.N, cfg4.idle 2 (cfg4.grid.coords t) = true ↔ ¬t.val % 10 = 9 :=
  (by decide +kernel : ∀ t : Fin grid4.N, idle4 2 (grid4.coords t) = true ↔ ¬t.val % 10 = 9)
theorem hidle4_3 : ∀ t : Fin cfg4.N, cfg4.idle 3 (cfg4.grid.coords t) = true ↔ ¬t.val % 10 = 9 :=
  (by decide +kernel : ∀ t : Fin grid4.N, idle4 3 (grid4.coords t) = true ↔ ¬t.val % 10 = 9)

theorem leaves4_2_idle (c : Dev nD) (t : Fin cfg4.N) (h : ¬t.val % 10 = 9) :
    (dat4 V c).leavesExact 2 t = iprop(∃ d, owns (c : Thread nD τ) (st4_2 t) fullShare ((dat4 V c).before 2 t d)) :=
  (dat4 V c).leavesExact_idle 2 t ((hidle4_2 t).mpr h) (Bool.eq_false_iff.mpr fun hf => h ((flush4_2 t).mp hf))
theorem leaves4_3_idle (c : Dev nD) (t : Fin cfg4.N) (h : ¬t.val % 10 = 9) :
    (dat4 V c).leavesExact 3 t = iprop(∃ d, owns (c : Thread nD τ) (st4_3 t) fullShare ((dat4 V c).before 3 t d)) :=
  (dat4 V c).leavesExact_idle 3 t ((hidle4_3 t).mpr h) (Bool.eq_false_iff.mpr fun hf => h ((flush4_3 t).mp hf))

theorem leaves4_2_last (c : Dev nD) (t : Fin cfg4.N) (h : t.val % 10 = 9) :
    (dat4 V c).leavesExact 2 t = owns (c : Thread nD τ) (st4_2 t) fullShare (colS4 V c (t.val + 1)) := by
  have hi : cfg4.idle 2 (cfg4.grid.coords t) = false := Bool.eq_false_iff.mpr fun hi => (hidle4_2 t).mp hi h
  unfold Dat.leavesExact; rw [hi, after4_2]
theorem leaves4_3_last (c : Dev nD) (t : Fin cfg4.N) (h : t.val % 10 = 9) :
    (dat4 V c).leavesExact 3 t = owns (c : Thread nD τ) (st4_3 t) fullShare (colQ4 V c (t.val + 1)) := by
  have hi : cfg4.idle 3 (cfg4.grid.coords t) = false := Bool.eq_false_iff.mpr fun hi => (hidle4_3 t).mp hi h
  unfold Dat.leavesExact; rw [hi, after4_3]

theorem leaves4_0 (c : Dev nD) (t : Fin cfg4.N) :
    (dat4 V c).leavesExact 0 t = owns (c : Thread nD τ) (st4_0 t) fullShare (iblk4 V c 0 t) := by
  show owns (c : Thread nD τ) (st4_0 t) fullShare ((dat4 V c).after 0 t) = _; rw [after4_0]
theorem leaves4_1 (c : Dev nD) (t : Fin cfg4.N) :
    (dat4 V c).leavesExact 1 t = owns (c : Thread nD τ) (st4_1 t) fullShare (iblk4 V c 1 t) := by
  show owns (c : Thread nD τ) (st4_1 t) fullShare ((dat4 V c).after 1 t) = _; rw [after4_1]

theorem Φ4_eq (c : Dev nD) (t : Fin (cfg4.N + 1)) : (dat4 V c).Φ t = iprop(scratch4 V c t
    ∗ Pipeline.scopedRestBut (Ix := Unit) (Name := ℕ) (U := UR sig nD τ) (Lvl := ℕ) (Val := Elt F) spec4 c [cc4_scratch0, cc4_scratch1]
    ∗ ∃ r, prngReg c r) := by dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t)

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl, Φ4_eq, Φ4_eq, leaves4_0, leaves4_1]
  unfold scratch4
  have hN : t.val < 10 := lt_of_lt_of_eq t.isLt (show cfg4.N = 10 from N_4)
  have hcs : (t.castSucc : Fin (cfg4.N + 1)).val = t.val := rfl
  have hsu : (t.succ : Fin (cfg4.N + 1)).val = t.val + 1 := rfl
  by_cases h0 : t.val % 10 = 0
  ·
    have h9 : ¬t.val % 10 = 9 := by omega
    have ht : t.val = 0 := by omega
    rw [leaves4_2_idle V c t h9, leaves4_3_idle V c t h9]
    iintro ⟨⟨⟨%s, %q, -, Hs, Hq⟩, Hrest, Hr⟩, Ho, ⟨%d0, H0⟩, ⟨%d1, H1⟩, ⟨%d2, H2⟩, ⟨%d3, H3⟩⟩
    iapply (stats4_first c Set.univ (grid4.coords t) _ _ _ _ _ _ _ _ _ _ _ _ ((hcond4_0 t).mpr h0) (fun h => h9 ((hcond4_1 t).mp h))
      (iblk4 V c 0 t) (iblk4 V c 1 t) _)
    isplitl [H0]; · iexact H0
    isplitl [H1]; · iexact H1
    isplitl [Hs]; · iexists s; iexact Hs
    isplitl [Hq]; · iexists q; iexact Hq
    iintro ⟨H0, H1, Hs, Hq⟩
    isplitl [Hs Hq Hrest Hr]
    · isplitl [Hs Hq]
      · iexists _; iexists _
        isplitr
        · ipureintro; intro _
          rw [hsu, colS4_succ, colQ4_succ, ht]; exact ⟨rfl, rfl⟩
        isplitl [Hs]; · iexact Hs
        iexact Hq
      isplitl [Hrest]; · iexact Hrest
      iexact Hr
    isplitl [Ho]; · iexact Ho
    isplitl [H0]; · iexact H0
    isplitl [H1]; · iexact H1
    isplitl [H2]; · iexists d2; iexact H2
    iexists d3; iexact H3
  · by_cases h9 : t.val % 10 = 9
    ·
      rw [leaves4_2_last V c t h9, leaves4_3_last V c t h9]
      iintro ⟨⟨⟨%s, %q, %hsq, Hs, Hq⟩, Hrest, Hr⟩, Ho, ⟨%d0, H0⟩, ⟨%d1, H1⟩, ⟨%d2, H2⟩, ⟨%d3, H3⟩⟩
      obtain ⟨rfl, rfl⟩ := hsq (by rw [hcs]; omega)
      iapply (stats4_last c Set.univ (grid4.coords t) _ _ _ _ _ _ _ _ _ _ _ _ (fun h => h0 ((hcond4_0 t).mp h)) ((hcond4_1 t).mpr h9)
        (iblk4 V c 0 t) (iblk4 V c 1 t) _ _ _)
      isplitl [H0]; · iexact H0
      isplitl [H1]; · iexact H1
      isplitl [H2]; · iexists _; iexact H2
      isplitl [H3]; · iexists _; iexact H3
      isplitl [Hs]; · iexact Hs
      isplitl [Hq]; · iexact Hq
      iintro ⟨H0, H1, H2, H3, Hs, Hq⟩
      rw [hcs, ← colS4_succ, ← colQ4_succ]
      isplitl [Hs Hq Hrest Hr]
      · isplitl [Hs Hq]
        · iexists _; iexists _
          isplitr
          · ipureintro; intro _; rw [hsu]; exact ⟨rfl, rfl⟩
          isplitl [Hs]; · iexact Hs
          iexact Hq
        isplitl [Hrest]; · iexact Hrest
        iexact Hr
      isplitl [Ho]; · iexact Ho
      isplitl [H0]; · iexact H0
      isplitl [H1]; · iexact H1
      isplitl [H2]; · iexact H2
      iexact H3
    ·
      rw [leaves4_2_idle V c t h9, leaves4_3_idle V c t h9]
      iintro ⟨⟨⟨%s, %q, %hsq, Hs, Hq⟩, Hrest, Hr⟩, Ho, ⟨%d0, H0⟩, ⟨%d1, H1⟩, ⟨%d2, H2⟩, ⟨%d3, H3⟩⟩
      obtain ⟨rfl, rfl⟩ := hsq (by rw [hcs]; omega)
      iapply (stats4_mid c Set.univ (grid4.coords t) _ _ _ _ _ _ _ _ _ _ _ _ (fun h => h0 ((hcond4_0 t).mp h)) (fun h => h9 ((hcond4_1 t).mp h))
        (iblk4 V c 0 t) (iblk4 V c 1 t) _ _ _)
      isplitl [H0]; · iexact H0
      isplitl [H1]; · iexact H1
      isplitl [Hs]; · iexact Hs
      isplitl [Hq]; · iexact Hq
      iintro ⟨H0, H1, Hs, Hq⟩
      rw [hcs, ← colS4_succ, ← colQ4_succ]
      isplitl [Hs Hq Hrest Hr]
      · isplitl [Hs Hq]
        · iexists _; iexists _
          isplitr
          · ipureintro; intro _; rw [hsu]; exact ⟨rfl, rfl⟩
          isplitl [Hs]; · iexact Hs
          iexact Hq
        isplitl [Hrest]; · iexact Hrest
        iexact Hr
      isplitl [Ho]; · iexact Ho
      isplitl [H0]; · iexact H0
      isplitl [H1]; · iexact H1
      isplitl [H2]; · iexists d2; iexact H2
      iexists d3; iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rowsRect5 : Rect S10000x32 := Rect.unit (s := S10000x32) ![0, 0] S10000x32.size inb_S10000x32_S10000x32_0_0

abbrev paramRect5 : Rect S1x32 := Rect.unit (s := S1x32) ![0, 0] S1x32.size inb_S1x32_S1x32_0_0

def bnReluBlk5 (x : Vec F S10000x32 .f32) (b mu var g be : Vec F S1x32 .f32) : Vec F S10000x32 .f32 :=
  View.canon [⟨rowsRect5, k5_pay1 (View.ld x rowsRect5) (View.ld b paramRect5) (View.ld var paramRect5)
    (View.ld mu paramRect5) (View.ld g paramRect5) (View.ld be paramRect5)⟩]

theorem cover5_6 (p : Vec F S10000x32 .f32) (y : S10000x32.Idx) :
    ∃ pc ∈ ([⟨rowsRect5, p⟩] : List (View.Piece (Elt F) S10000x32 .f32)), y ∈ pc.1.set :=
  View.cover_of_tiled [⟨rowsRect5, p⟩] S10000x32.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => bnReluBlk5 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t =
    bnReluBlk5 (iblk5 V c 0 t) (iblk5 V c 1 t) (iblk5 V c 2 t) (iblk5 V c 3 t) (iblk5 V c 4 t) (iblk5 V c 5 t) := by
  dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)

set_option maxHeartbeats 1000000 in

theorem sound_kernel5 (c : Dev nD) (E : Set ℕ) (i : grid5.Coords)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (arg7 : Memref sig .tc .vmem S10000x32 .f32) (harg7 : arg7.IsWhole)
    (x : Vec F S10000x32 .f32) (b mu var g be : Vec F S1x32 .f32) (K : PUnit → sProp 𝕄) :
    iprop(owns (c : Thread nD τ) arg1 fullShare x ∗ owns (c : Thread nD τ) arg2 fullShare b ∗ owns (c : Thread nD τ) arg3 fullShare mu
        ∗ owns (c : Thread nD τ) arg4 fullShare var ∗ owns (c : Thread nD τ) arg5 fullShare g ∗ owns (c : Thread nD τ) arg6 fullShare be
        ∗ (∃ d, owns (c : Thread nD τ) arg7 fullShare d)
        ∗ (iprop(owns (c : Thread nD τ) arg1 fullShare x ∗ owns (c : Thread nD τ) arg2 fullShare b ∗ owns (c : Thread nD τ) arg3 fullShare mu
            ∗ owns (c : Thread nD τ) arg4 fullShare var ∗ owns (c : Thread nD τ) arg5 fullShare g ∗ owns (c : Thread nD τ) arg6 fullShare be
            ∗ owns (c : Thread nD τ) arg7 fullShare (bnReluBlk5 x b mu var g be)) -∗ K ⟨⟩))
      ⊢ wp frame (wpE (defs₀ (F := F)) Variants.none c none) E
          (cc5__apply_kernel i arg1 harg1 arg2 harg2 arg3 harg3 arg4 harg4 arg5 harg5 arg6 harg6 arg7 harg7) K := by
  simp only [cc5__apply_kernel_eq_skeleton]; unfold cc5__apply_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_6 _)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t)
    (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rowsRect6 : Rect S10000x32 := Rect.unit (s := S10000x32) ![0, 0] S10000x32.size inb_S10000x32_S10000x32_0_0

abbrev weightRect6 : Rect S32x64 := Rect.unit (s := S32x64) ![0, 0] S32x64.size inb_S32x64_S32x64_0_0

abbrev prodRect6 : Rect S10000x64 := Rect.unit (s := S10000x64) ![0, 0] S10000x64.size inb_S10000x64_S10000x64_0_0

def prodBlock6 (xs : Vec F S10000x32 .f32) (ws : Vec F S32x64 .f32) : Vec F S10000x64 .f32 :=
  View.canon [⟨prodRect6, k6_pay1 (View.ld xs rowsRect6) (View.ld ws weightRect6)⟩]

theorem prodBlock6_cover (p : Vec F S10000x64 .f32) (y : S10000x64.Idx) :
    ∃ pc ∈ ([⟨prodRect6, p⟩] : List (View.Piece (Elt F) S10000x64 .f32)), y ∈ pc.1.set :=
  View.cover_of_tiled [⟨prodRect6, p⟩] S10000x64.size (by rfl) y

set_option maxHeartbeats 1000000 in

theorem sound_kernel6 (c : Dev nD) (E : Set ℕ) (i : grid6.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole)
    (xs : Vec F S10000x32 .f32) (ws : Vec F S32x64 .f32) (K : PUnit → sProp 𝕄) :
    iprop(owns (c : Thread nD τ) arg1 fullShare xs ∗ owns (c : Thread nD τ) arg2 fullShare ws ∗ (∃ d, owns (c : Thread nD τ) arg3 fullShare d)
        ∗ (iprop(owns (c : Thread nD τ) arg1 fullShare xs ∗ owns (c : Thread nD τ) arg2 fullShare ws ∗ owns (c : Thread nD τ) arg3 fullShare (prodBlock6 xs ws)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%fx, %hfx, Hx⟩, ⟨%fw, %hfw, Hw⟩, ⟨%d, %fo, -, Ho⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (prodBlock6_cover _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => prodBlock6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = prodBlock6 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Howe, ⟨%dx, Hx⟩, ⟨%dw, Hw⟩, ⟨%dp, Hp⟩⟩
  iapply (sound_kernel6 c Set.univ (grid6.coords t) _ _ _ _ _ _ (iblk6 V c 0 t) (iblk6 V c 1 t) _)
  isplitl [Hx]; · iexact Hx
  isplitl [Hw]; · iexact Hw
  isplitl [Hp]; · iexists _; iexact Hp
  iintro ⟨Hx, Hw, Hp⟩
  isplitl [HΦ]; · iexact HΦ
  isplitl [Howe]; · iexact Howe
  isplitl [Hx]; · iexact Hx
  isplitl [Hw]; · iexact Hw
  iexact Hp

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def colS7 (c : Dev nD) : ℕ → Vec F S1x64 .f32
  | 0 => k7_pay1
  | k + 1 => if h : k < cfg7.N then k7_pay4 (iblk7 V c 0 ⟨k, h⟩) (iblk7 V c 1 ⟨k, h⟩) (colS7 c k) else colS7 c k

def colQ7 (c : Dev nD) : ℕ → Vec F S1x64 .f32
  | 0 => k7_pay2
  | k + 1 => if h : k < cfg7.N then k7_pay5 (iblk7 V c 0 ⟨k, h⟩) (iblk7 V c 1 ⟨k, h⟩) (colQ7 c k) else colQ7 c k

theorem colS7_succ (c : Dev nD) (t : Fin cfg7.N) :
    colS7 V c (t.val + 1) = k7_pay4 (iblk7 V c 0 t) (iblk7 V c 1 t) (colS7 V c t.val) := by
  rw [colS7, dif_pos t.isLt]

theorem colQ7_succ (c : Dev nD) (t : Fin cfg7.N) :
    colQ7 V c (t.val + 1) = k7_pay5 (iblk7 V c 0 t) (iblk7 V c 1 t) (colQ7 V c t.val) := by
  rw [colQ7, dif_pos t.isLt]

def scratch7 (c : Dev nD) (t : Fin (cfg7.N + 1)) : sProp 𝕄 :=
  iprop(∃ (s q : Vec F S1x64 .f32), ⌜t.val ≠ 0 → s = colS7 V c t.val ∧ q = colQ7 V c t.val⌝
      ∗ owns (c : Thread nD τ) (Memref.whole cc7_scratch0 : Memref sig .tc .vmem S1x64 .f32) fullShare s
      ∗ owns (c : Thread nD τ) (Memref.whole cc7_scratch1 : Memref sig .tc .vmem S1x64 .f32) fullShare q)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => colS7 V c (t.val + 1)
    | ⟨3, _⟩ => colQ7 V c (t.val + 1)
  Φ t := iprop(scratch7 V c t
    ∗ Pipeline.scopedRestBut (Ix := Unit) (Name := ℕ) (U := UR sig nD τ) (Lvl := ℕ) (Val := Elt F) spec7 c [cc7_scratch0, cc7_scratch1]
    ∗ ∃ r, prngReg c r)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = colS7 V c (t.val + 1) := by dsimp only [dat7]
theorem after7_3 (c : Dev nD) (t : Fin cfg7.N) : (dat7 V c).after 3 t = colQ7 V c (t.val + 1) := by dsimp only [dat7]

theorem hin7 (c : Dev nD) : (iprop((∃ r, prngReg c r) ∗ Pipeline.scopedRest (Ix := Unit) (Name := ℕ) (U := UR sig nD τ) (Lvl := ℕ) spec7 c) : sProp 𝕄) ⊢ (dat7 V c).Φ 0 := by
  rw [scopedRest7_split]
  dsimp only [dat7]
  unfold scratch7
  simp only [owns_whole]
  iintro ⟨Hr, ⟨⟨%f0, H0⟩, ⟨%f1, H1⟩⟩, Hrest⟩
  isplitl [H0 H1]
  · iexists f0; iexists f1
    isplitr; · ipureintro; intro h; exact absurd rfl h
    isplitl [H0]; · iexact H0
    iexact H1
  isplitl [Hrest]; · iexact Hrest
  iexact Hr

theorem hout7 (c : Dev nD) : (dat7 V c).Φ (Fin.last cfg7.N) ⊢ (iprop((∃ r, prngReg c r) ∗ Pipeline.scopedRest (Ix := Unit) (Name := ℕ) (U := UR sig nD τ) (Lvl := ℕ) spec7 c) : sProp 𝕄) := by
  rw [scopedRest7_split]
  dsimp only [dat7]
  unfold scratch7
  simp only [owns_whole]
  iintro ⟨⟨%s, %q, -, H0, H1⟩, Hrest, Hr⟩
  isplitl [Hr]; · iexact Hr
  isplitr [Hrest]
  · isplitl [H0]
    · iexists s; iexact H0
    · iexists q; iexact H1
  iexact Hrest

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

theorem hcond7_1 : ∀ t : Fin cfg7.N, k7_cond2 (grid7.coords t) = 1#1 ↔ t.val % 10 = 9 :=
  (by decide +kernel : ∀ t : Fin grid7.N, k7_cond2 (grid7.coords t) = 1#1 ↔ t.val % 10 = 9)

private theorem zero2 : (![0, 0] : Fin 2 → Nat) = fun _ => 0 := funext fun a => by fin_cases a <;> rfl

private theorem loadedX7 {κ : Kind} {sp : Space} (v : View sig κ sp S10000x64 .f32) (f : v.ty.Contents (Elt F)) :
    v.readAt (Elt F) (Rect.unit (s := S10000x64) ![0, 0] S10000x64.size inb_S10000x64_S10000x64_0_0).toLoadRect f = v.read (Elt F) f :=
  (View.readAt_eq_ld v f _).trans (View.ld_unit_zero zero2 inb_S10000x64_S10000x64_0_0 _)

private theorem loadedR7 {κ : Kind} {sp : Space} (v : View sig κ sp S1x64 .f32) (f : v.ty.Contents (Elt F)) :
    v.readAt (Elt F) (Rect.unit (s := S1x64) ![0, 0] S1x64.size inb_S1x64_S1x64_0_0).toLoadRect f = v.read (Elt F) f :=
  (View.readAt_eq_ld v f _).trans (View.ld_unit_zero zero2 inb_S1x64_S1x64_0_0 _)

private theorem storedR7 {κ : Kind} {sp : Space} (v : View sig κ sp S1x64 .f32) (f : v.ty.Contents (Elt F)) (w : Vec F S1x64 .f32)
    (L : List (View.Piece (Elt F) S1x64 .f32)) :
    v.read (Elt F) (v.writes (Elt F) f ((⟨Rect.unit (s := S1x64) ![0, 0] S1x64.size inb_S1x64_S1x64_0_0, w⟩ : View.Piece (Elt F) S1x64 .f32) :: L)) = w := by
  have hcov : ∀ y : S1x64.Idx, ∃ p ∈ ((⟨Rect.unit (s := S1x64) ![0, 0] S1x64.size inb_S1x64_S1x64_0_0, w⟩ : View.Piece (Elt F) S1x64 .f32) :: L), y ∈ p.1.set :=
    fun y => ⟨⟨Rect.unit (s := S1x64) ![0, 0] S1x64.size inb_S1x64_S1x64_0_0, w⟩, List.mem_cons.mpr (Or.inl rfl),
      View.mem_set_unit_zero zero2 inb_S1x64_S1x64_0_0 y⟩
  rw [View.read_writes_eq_canon v f _ hcov]
  exact View.canon_cons_unit_zero zero2 inb_S1x64_S1x64_0_0 w L

private theorem coveredR7 {κ : Kind} {sp : Space} (v : View sig κ sp S1x64 .f32) (w : Vec F S1x64 .f32) :
    v.readCov [(⟨Rect.unit (s := S1x64) ![0, 0] S1x64.size inb_S1x64_S1x64_0_0, w⟩ : View.Piece (Elt F) S1x64 .f32)]
      (Rect.unit (s := S1x64) ![0, 0] S1x64.size inb_S1x64_S1x64_0_0).toLoadRect = w :=
  View.readCov_unit_zero v zero2 inb_S1x64_S1x64_0_0 w

set_option maxHeartbeats 1000000 in

theorem stats7_mid (c : Dev nD) (E : Set ℕ) (i : grid7.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc0 : ¬cond7_0 i) (hc1 : ¬k7_cond2 i = 1#1)
    (x : Vec F S10000x64 .f32) (b s q : Vec F S1x64 .f32) (K : PUnit → sProp 𝕄) :
    iprop(owns (c : Thread nD τ) arg1 fullShare x ∗ owns (c : Thread nD τ) arg2 fullShare b
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg5 fullShare (k7_pay4 x b s) ∗ owns (c : Thread nD τ) arg6 fullShare (k7_pay5 x b q)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f1, %hf1, H1⟩, ⟨%f2, %hf2, H2⟩, ⟨%f5, %hf5, H5⟩, ⟨%f6, %hf6, H6⟩, Hk⟩
  subst hf1 hf2 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro; (try sl_unfold_run_names); rw [storedR7, loadedX7, loadedR7, loadedR7]
  · iexists _; isplitr
    swap; · iexact H6
    ipureintro; (try sl_unfold_run_names); rw [storedR7, loadedX7, loadedR7, loadedR7]

set_option maxHeartbeats 1000000 in

theorem stats7_first (c : Dev nD) (E : Set ℕ) (i : grid7.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc0 : cond7_0 i) (hc1 : ¬k7_cond2 i = 1#1)
    (x : Vec F S10000x64 .f32) (b : Vec F S1x64 .f32) (K : PUnit → sProp 𝕄) :
    iprop(owns (c : Thread nD τ) arg1 fullShare x ∗ owns (c : Thread nD τ) arg2 fullShare b
        ∗ (∃ s, owns (c : Thread nD τ) arg5 fullShare s) ∗ (∃ q, owns (c : Thread nD τ) arg6 fullShare q)
        ∗ (iprop(owns (c : Thread nD τ) arg1 fullShare x ∗ owns (c : Thread nD τ) arg2 fullShare b
            ∗ owns (c : Thread nD τ) arg5 fullShare (k7_pay4 x b k7_pay1) ∗ owns (c : Thread nD τ) arg6 fullShare (k7_pay5 x b k7_pay2)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f1, %hf1, H1⟩, ⟨%f2, %hf2, H2⟩, ⟨%s, %f5, -, H5⟩, ⟨%q, %f6, -, H6⟩, Hk⟩
  subst hf1 hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro; (try sl_unfold_run_names); rw [storedR7, loadedX7, loadedR7, coveredR7]
  · iexists _; isplitr
    swap; · iexact H6
    ipureintro; (try sl_unfold_run_names); rw [storedR7, loadedX7, loadedR7, coveredR7]

set_option maxHeartbeats 1000000 in

theorem stats7_last (c : Dev nD) (E : Set ℕ) (i : grid7.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (hc0 : ¬cond7_0 i) (hc1 : k7_cond2 i = 1#1)
    (x : Vec F S10000x64 .f32) (b s q : Vec F S1x64 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (k7_pay4 x b s) ∗ owns (c : Thread nD τ) arg4 fullShare (k7_pay5 x b q)
            ∗ owns (c : Thread nD τ) arg5 fullShare (k7_pay4 x b s) ∗ owns (c : Thread nD τ) arg6 fullShare (k7_pay5 x b q)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1 hf2 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro; (try sl_unfold_run_names); rw [storedR7, coveredR7, loadedX7, loadedR7, loadedR7]
  isplitl [H4]
  · iexists _; isplitr
    swap; · iexact H4
    ipureintro; (try sl_unfold_run_names); rw [storedR7, coveredR7, loadedX7, loadedR7, loadedR7]
  isplitl [H5]
  · iexists _; isplitr
    swap; · iexact H5
    ipureintro; (try sl_unfold_run_names); rw [storedR7, loadedX7, loadedR7, loadedR7]
  · iexists _; isplitr
    swap; · iexact H6
    ipureintro; (try sl_unfold_run_names); rw [storedR7, loadedX7, loadedR7, loadedR7]

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

theorem hidle7_2 : ∀ t : Fin cfg7.N, cfg7.idle 2 (cfg7.grid.coords t) = true ↔ ¬t.val % 10 = 9 :=
  (by decide +kernel : ∀ t : Fin grid7.N, idle7 2 (grid7.coords t) = true ↔ ¬t.val % 10 = 9)
theorem hidle7_3 : ∀ t : Fin cfg7.N, cfg7.idle 3 (cfg7.grid.coords t) = true ↔ ¬t.val % 10 = 9 :=
  (by decide +kernel : ∀ t : Fin grid7.N, idle7 3 (grid7.coords t) = true ↔ ¬t.val % 10 = 9)

theorem leaves7_2_idle (c : Dev nD) (t : Fin cfg7.N) (h : ¬t.val % 10 = 9) :
    (dat7 V c).leavesExact 2 t = iprop(∃ d, owns (c : Thread nD τ) (st7_2 t) fullShare ((dat7 V c).before 2 t d)) :=
  (dat7 V c).leavesExact_idle 2 t ((hidle7_2 t).mpr h) (Bool.eq_false_iff.mpr fun hf => h ((flush7_2 t).mp hf))
theorem leaves7_3_idle (c : Dev nD) (t : Fin cfg7.N) (h : ¬t.val % 10 = 9) :
    (dat7 V c).leavesExact 3 t = iprop(∃ d, owns (c : Thread nD τ) (st7_3 t) fullShare ((dat7 V c).before 3 t d)) :=
  (dat7 V c).leavesExact_idle 3 t ((hidle7_3 t).mpr h) (Bool.eq_false_iff.mpr fun hf => h ((flush7_3 t).mp hf))

theorem leaves7_2_last (c : Dev nD) (t : Fin cfg7.N) (h : t.val % 10 = 9) :
    (dat7 V c).leavesExact 2 t = owns (c : Thread nD τ) (st7_2 t) fullShare (colS7 V c (t.val + 1)) := by
  have hi : cfg7.idle 2 (cfg7.grid.coords t) = false := Bool.eq_false_iff.mpr fun hi => (hidle7_2 t).mp hi h
  unfold Dat.leavesExact; rw [hi, after7_2]
theorem leaves7_3_last (c : Dev nD) (t : Fin cfg7.N) (h : t.val % 10 = 9) :
    (dat7 V c).leavesExact 3 t = owns (c : Thread nD τ) (st7_3 t) fullShare (colQ7 V c (t.val + 1)) := by
  have hi : cfg7.idle 3 (cfg7.grid.coords t) = false := Bool.eq_false_iff.mpr fun hi => (hidle7_3 t).mp hi h
  unfold Dat.leavesExact; rw [hi, after7_3]

theorem leaves7_0 (c : Dev nD) (t : Fin cfg7.N) :
    (dat7 V c).leavesExact 0 t = owns (c : Thread nD τ) (st7_0 t) fullShare (iblk7 V c 0 t) := by
  show owns (c : Thread nD τ) (st7_0 t) fullShare ((dat7 V c).after 0 t) = _; rw [after7_0]
theorem leaves7_1 (c : Dev nD) (t : Fin cfg7.N) :
    (dat7 V c).leavesExact 1 t = owns (c : Thread nD τ) (st7_1 t) fullShare (iblk7 V c 1 t) := by
  show owns (c : Thread nD τ) (st7_1 t) fullShare ((dat7 V c).after 1 t) = _; rw [after7_1]

theorem Φ7_eq (c : Dev nD) (t : Fin (cfg7.N + 1)) : (dat7 V c).Φ t = iprop(scratch7 V c t
    ∗ Pipeline.scopedRestBut (Ix := Unit) (Name := ℕ) (U := UR sig nD τ) (Lvl := ℕ) (Val := Elt F) spec7 c [cc7_scratch0, cc7_scratch1]
    ∗ ∃ r, prngReg c r) := by dsimp only [dat7]

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t)

set_option maxHeartbeats 1000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl, Φ7_eq, Φ7_eq, leaves7_0, leaves7_1]
  unfold scratch7
  have hN : t.val < 10 := lt_of_lt_of_eq t.isLt (show cfg7.N = 10 from N_7)
  have hcs : (t.castSucc : Fin (cfg7.N + 1)).val = t.val := rfl
  have hsu : (t.succ : Fin (cfg7.N + 1)).val = t.val + 1 := rfl
  by_cases h0 : t.val % 10 = 0
  ·
    have h9 : ¬t.val % 10 = 9 := by omega
    have ht : t.val = 0 := by omega
    rw [leaves7_2_idle V c t h9, leaves7_3_idle V c t h9]
    iintro ⟨⟨⟨%s, %q, -, Hs, Hq⟩, Hrest, Hr⟩, Ho, ⟨%d0, H0⟩, ⟨%d1, H1⟩, ⟨%d2, H2⟩, ⟨%d3, H3⟩⟩
    iapply (stats7_first c Set.univ (grid7.coords t) _ _ _ _ _ _ _ _ _ _ _ _ ((hcond7_0 t).mpr h0) (fun h => h9 ((hcond7_1 t).mp h))
      (iblk7 V c 0 t) (iblk7 V c 1 t) _)
    isplitl [H0]; · iexact H0
    isplitl [H1]; · iexact H1
    isplitl [Hs]; · iexists s; iexact Hs
    isplitl [Hq]; · iexists q; iexact Hq
    iintro ⟨H0, H1, Hs, Hq⟩
    isplitl [Hs Hq Hrest Hr]
    · isplitl [Hs Hq]
      · iexists _; iexists _
        isplitr
        · ipureintro; intro _
          rw [hsu, colS7_succ, colQ7_succ, ht]; exact ⟨rfl, rfl⟩
        isplitl [Hs]; · iexact Hs
        iexact Hq
      isplitl [Hrest]; · iexact Hrest
      iexact Hr
    isplitl [Ho]; · iexact Ho
    isplitl [H0]; · iexact H0
    isplitl [H1]; · iexact H1
    isplitl [H2]; · iexists d2; iexact H2
    iexists d3; iexact H3
  · by_cases h9 : t.val % 10 = 9
    ·
      rw [leaves7_2_last V c t h9, leaves7_3_last V c t h9]
      iintro ⟨⟨⟨%s, %q, %hsq, Hs, Hq⟩, Hrest, Hr⟩, Ho, ⟨%d0, H0⟩, ⟨%d1, H1⟩, ⟨%d2, H2⟩, ⟨%d3, H3⟩⟩
      obtain ⟨rfl, rfl⟩ := hsq (by rw [hcs]; omega)
      iapply (stats7_last c Set.univ (grid7.coords t) _ _ _ _ _ _ _ _ _ _ _ _ (fun h => h0 ((hcond7_0 t).mp h)) ((hcond7_1 t).mpr h9)
        (iblk7 V c 0 t) (iblk7 V c 1 t) _ _ _)
      isplitl [H0]; · iexact H0
      isplitl [H1]; · iexact H1
      isplitl [H2]; · iexists _; iexact H2
      isplitl [H3]; · iexists _; iexact H3
      isplitl [Hs]; · iexact Hs
      isplitl [Hq]; · iexact Hq
      iintro ⟨H0, H1, H2, H3, Hs, Hq⟩
      rw [hcs, ← colS7_succ, ← colQ7_succ]
      isplitl [Hs Hq Hrest Hr]
      · isplitl [Hs Hq]
        · iexists _; iexists _
          isplitr
          · ipureintro; intro _; rw [hsu]; exact ⟨rfl, rfl⟩
          isplitl [Hs]; · iexact Hs
          iexact Hq
        isplitl [Hrest]; · iexact Hrest
        iexact Hr
      isplitl [Ho]; · iexact Ho
      isplitl [H0]; · iexact H0
      isplitl [H1]; · iexact H1
      isplitl [H2]; · iexact H2
      iexact H3
    ·
      rw [leaves7_2_idle V c t h9, leaves7_3_idle V c t h9]
      iintro ⟨⟨⟨%s, %q, %hsq, Hs, Hq⟩, Hrest, Hr⟩, Ho, ⟨%d0, H0⟩, ⟨%d1, H1⟩, ⟨%d2, H2⟩, ⟨%d3, H3⟩⟩
      obtain ⟨rfl, rfl⟩ := hsq (by rw [hcs]; omega)
      iapply (stats7_mid c Set.univ (grid7.coords t) _ _ _ _ _ _ _ _ _ _ _ _ (fun h => h0 ((hcond7_0 t).mp h)) (fun h => h9 ((hcond7_1 t).mp h))
        (iblk7 V c 0 t) (iblk7 V c 1 t) _ _ _)
      isplitl [H0]; · iexact H0
      isplitl [H1]; · iexact H1
      isplitl [Hs]; · iexact Hs
      isplitl [Hq]; · iexact Hq
      iintro ⟨H0, H1, Hs, Hq⟩
      rw [hcs, ← colS7_succ, ← colQ7_succ]
      isplitl [Hs Hq Hrest Hr]
      · isplitl [Hs Hq]
        · iexists _; iexists _
          isplitr
          · ipureintro; intro _; rw [hsu]; exact ⟨rfl, rfl⟩
          isplitl [Hs]; · iexact Hs
          iexact Hq
        isplitl [Hrest]; · iexact Hrest
        iexact Hr
      isplitl [Ho]; · iexact Ho
      isplitl [H0]; · iexact H0
      isplitl [H1]; · iexact H1
      isplitl [H2]; · iexists d2; iexact H2
      iexists d3; iexact H3

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rowsRect8 : Rect S10000x64 := Rect.unit (s := S10000x64) ![0, 0] S10000x64.size inb_S10000x64_S10000x64_0_0

abbrev paramRect8 : Rect S1x64 := Rect.unit (s := S1x64) ![0, 0] S1x64.size inb_S1x64_S1x64_0_0

def bnReluBlk8 (x : Vec F S10000x64 .f32) (b mu var g be : Vec F S1x64 .f32) : Vec F S10000x64 .f32 :=
  View.canon [⟨rowsRect8, k8_pay1 (View.ld x rowsRect8) (View.ld b paramRect8) (View.ld var paramRect8)
    (View.ld mu paramRect8) (View.ld g paramRect8) (View.ld be paramRect8)⟩]

theorem cover8_6 (p : Vec F S10000x64 .f32) (y : S10000x64.Idx) :
    ∃ pc ∈ ([⟨rowsRect8, p⟩] : List (View.Piece (Elt F) S10000x64 .f32)), y ∈ pc.1.set :=
  View.cover_of_tiled [⟨rowsRect8, p⟩] S10000x64.size (by rfl) y

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => bnReluBlk8 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t =
    bnReluBlk8 (iblk8 V c 0 t) (iblk8 V c 1 t) (iblk8 V c 2 t) (iblk8 V c 3 t) (iblk8 V c 4 t) (iblk8 V c 5 t) := by
  dsimp only [dat8]

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)

theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)

theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)

theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

theorem before8_4 (c : Dev nD) (t : Fin cfg8.N) (d) : (dat8 V c).before 4 t d = iblk8 V c 4 t :=
  ((dat8 V c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)

theorem before8_5 (c : Dev nD) (t : Fin cfg8.N) (d) : (dat8 V c).before 5 t d = iblk8 V c 5 t :=
  ((dat8 V c).before_in_eq_fetched 5 rfl (fun _ => rfl) (fun _ _ _ => rfl)
    (fun t => by rw [after8_5]; unfold Dat.blockOf iblk8; rw [A_eq8]; try rfl) t d).trans
    (by unfold Dat.fetched Dat.blockOf iblk8; rw [A_eq8]; try rfl)

set_option maxHeartbeats 1000000 in

theorem sound_kernel8 (c : Dev nD) (E : Set ℕ) (i : grid8.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S10000x64 .f32) (harg7 : arg7.IsWhole)
    (x : Vec F S10000x64 .f32) (b mu var g be : Vec F S1x64 .f32) (K : PUnit → sProp 𝕄) :
    iprop(owns (c : Thread nD τ) arg1 fullShare x ∗ owns (c : Thread nD τ) arg2 fullShare b ∗ owns (c : Thread nD τ) arg3 fullShare mu
        ∗ owns (c : Thread nD τ) arg4 fullShare var ∗ owns (c : Thread nD τ) arg5 fullShare g ∗ owns (c : Thread nD τ) arg6 fullShare be
        ∗ (∃ d, owns (c : Thread nD τ) arg7 fullShare d)
        ∗ (iprop(owns (c : Thread nD τ) arg1 fullShare x ∗ owns (c : Thread nD τ) arg2 fullShare b ∗ owns (c : Thread nD τ) arg3 fullShare mu
            ∗ owns (c : Thread nD τ) arg4 fullShare var ∗ owns (c : Thread nD τ) arg5 fullShare g ∗ owns (c : Thread nD τ) arg6 fullShare be
            ∗ owns (c : Thread nD τ) arg7 fullShare (bnReluBlk8 x b mu var g be)) -∗ K ⟨⟩))
      ⊢ wp frame (wpE (defs₀ (F := F)) Variants.none c none) E
          (cc8__apply_kernel i arg1 harg1 arg2 harg2 arg3 harg3 arg4 harg4 arg5 harg5 arg6 harg6 arg7 harg7) K := by
  simp only [cc8__apply_kernel_eq_skeleton]; unfold cc8__apply_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_6 _)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t)
    (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«406238_j58506044506835_1_alg».proof.Proof.Gen.KernelIdeal.Launch
import proofs.«406238_j58506044506835_1_alg».proof.Proof.Gen.KernelIdeal.Points
import proofs.«406238_j58506044506835_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev hblk9 (c : Dev nD) (t : Fin cfg9.N) : Vec F S10000x64 .f32 := iblk9 V c 0 t
abbrev idblk9 (c : Dev nD) (t : Fin cfg9.N) : Vec F S10000x1 .i32 := iblk9 V c 1 t
abbrev wblk9 (c : Dev nD) (t : Fin cfg9.N) : Vec F S64x10 .f32 := iblk9 V c 2 t
abbrev bblk9 (c : Dev nD) (t : Fin cfg9.N) : Vec F S1x10 .f32 := iblk9 V c 3 t

def step9 (c : Dev nD) (t : Fin cfg9.N) (a : Vec F S64x65 .f32) : Vec F S64x65 .f32 :=
  k9_pay2 (idblk9 V c t) (hblk9 V c t) a

def acc9 (c : Dev nD) : ℕ → Vec F S64x65 .f32
  | 0 => k9_pay1
  | n + 1 => if h : n < cfg9.N then step9 V c ⟨n, h⟩ (acc9 c n) else acc9 c n

theorem acc9_succ (c : Dev nD) (t : Fin cfg9.N) : acc9 V c (t.val + 1) = step9 V c t (acc9 V c t.val) := by
  show (if h : t.val < cfg9.N then step9 V c ⟨t.val, h⟩ (acc9 V c t.val) else acc9 V c t.val) = _
  rw [dif_pos t.isLt]

abbrev rS9 : Rect S64x65 := Rect.unit (s := S64x65) ![0, 0] S64x64.size inb_S64x65_S64x64_0_0
abbrev rC9 : Rect S64x65 := Rect.unit (s := S64x65) ![0, 64] S64x1.size inb_S64x65_S64x1_0_64

def out9 (c : Dev nD) (t : Fin cfg9.N) : Vec F S64x10 .f32 :=
  k9_pay3 (View.ld (acc9 V c (t.val + 1)) rS9) (View.ld (acc9 V c (t.val + 1)) rC9) (wblk9 V c t) (bblk9 V c t)

def scr9 (c : Dev nD) (t : Fin (cfg9.N + 1)) : sProp 𝕄 :=
  if t.val = 0 then iprop(∃ f : Vec F S64x65 .f32, owns (c : Thread nD τ) (Memref.whole cc9_scratch0) fullShare f)
  else owns (c : Thread nD τ) (Memref.whole cc9_scratch0) fullShare (acc9 V c t.val)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 V c t
  Φ t := iprop(scr9 V c t ∗ Pipeline.scopedRestBut (Ix := Unit) (Name := ℕ) (U := UR sig nD τ) (Lvl := ℕ) (Val := Elt F) spec9 c [cc9_scratch0] ∗ ∃ r, prngReg c r)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9 V c t := by dsimp only [dat9]

theorem Φ9_eq (c : Dev nD) (t : Fin (cfg9.N + 1)) : (dat9 V c).Φ t
    = iprop(scr9 V c t ∗ Pipeline.scopedRestBut (Ix := Unit) (Name := ℕ) (U := UR sig nD τ) (Lvl := ℕ) (Val := Elt F) spec9 c [cc9_scratch0] ∗ ∃ r, prngReg c r) := by
  dsimp only [dat9]

theorem hin9 (c : Dev nD) : (iprop((∃ r, prngReg c r) ∗ Pipeline.scopedRest (Ix := Unit) (Name := ℕ) (U := UR sig nD τ) (Lvl := ℕ) spec9 c) : sProp 𝕄) ⊢ (dat9 V c).Φ 0 := by
  rw [Φ9_eq, scopedRest9_split]
  unfold scr9
  rw [if_pos (show ((0 : Fin (cfg9.N + 1))).val = 0 from rfl)]
  iintro ⟨Hr, ⟨%f, Hs⟩, Hrest⟩
  isplitl [Hs]
  · iexists f
    rw [owns_whole]
    iexact Hs
  isplitl [Hrest]
  · iexact Hrest
  iexact Hr

theorem hout9 (c : Dev nD) : (dat9 V c).Φ (Fin.last cfg9.N) ⊢ (iprop((∃ r, prngReg c r) ∗ Pipeline.scopedRest (Ix := Unit) (Name := ℕ) (U := UR sig nD τ) (Lvl := ℕ) spec9 c) : sProp 𝕄) := by
  rw [Φ9_eq, scopedRest9_split]
  unfold scr9
  rw [if_neg (show ¬ (Fin.last cfg9.N).val = 0 from by rw [Fin.val_last]; exact (by decide : cfg9.N ≠ 0))]
  rw [owns_whole]
  iintro ⟨Hs, Hrest, Hr⟩
  isplitl [Hr]
  · iexact Hr
  isplitl [Hs]
  · iexists _
    iexact Hs
  iexact Hrest

abbrev cond9_0 (i : grid9.Coords) : Prop :=
  (Scalar.cmpi .ne (Scalar.extui (Scalar.cmpi .eq (BitVec.ofNat 32 (i 0).val) 0#32)) 0#32) = 1#1

theorem hcond9_0 : ∀ t : Fin cfg9.N, cond9_0 (grid9.coords t) ↔ t.val % 10 = 0 :=
  (by decide +kernel : ∀ t : Fin grid9.N, cond9_0 (grid9.coords t) ↔ t.val % 10 = 0)

theorem hcond9_1 : ∀ t : Fin cfg9.N, k9_cond2 (grid9.coords t) = 1#1 ↔ t.val % 10 = 9 :=
  (by decide +kernel : ∀ t : Fin grid9.N, k9_cond2 (grid9.coords t) = 1#1 ↔ t.val % 10 = 9)

theorem idle9_4 : ∀ t : Fin cfg9.N, cfg9.idle 4 (cfg9.grid.coords t) = !(decide (t.val % 10 = 9)) :=
  (by decide +kernel : ∀ t : Fin grid9.N, idle9 4 (grid9.coords t) = !(decide (t.val % 10 = 9)))

theorem hz2 : (![0, 0] : Fin 2 → ℕ) = fun _ => 0 := by
  funext a; fin_cases a <;> rfl

theorem cover9 (w : S64x65.Idx → Elt F .f32) (y : S64x65.Idx) :
    ∃ p ∈ ([⟨Rect.unit (s := S64x65) ![0, 0] S64x65.size inb_S64x65_S64x65_0_0, w⟩] : List (View.Piece (Elt F) S64x65 .f32)), y ∈ p.1.set :=
  ⟨_, List.mem_singleton_self _, View.mem_set_unit_zero hz2 inb_S64x65_S64x65_0_0 y⟩

set_option maxHeartbeats 1000000 in

theorem run9_first (c : Dev nD) (i : grid9.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x65 .f32) (harg6 : arg6.IsWhole)
    (hc0 : cond9_0 i) (hc1 : ¬ k9_cond2 i = 1#1)
    (x0 : Vec F S10000x64 .f32) (x1 : Vec F S10000x1 .i32) (E : Set ℕ) (K : PUnit → sProp 𝕄) :
    iprop(owns (c : Thread nD τ) arg1 fullShare x0 ∗ owns (c : Thread nD τ) arg2 fullShare x1
        ∗ (∃ a, owns (c : Thread nD τ) arg6 fullShare a)
        ∗ (iprop(owns (c : Thread nD τ) arg1 fullShare x0 ∗ owns (c : Thread nD τ) arg2 fullShare x1
            ∗ owns (c : Thread nD τ) arg6 fullShare (k9_pay2 x1 x0 k9_pay1)) -∗ K ⟨⟩))
      ⊢ wp frame (wpE (defs₀ (F := F)) Variants.none c none) E
          (cc9__pool_kernel i arg1 harg1 arg2 harg2 arg3 harg3 arg4 harg4 arg5 harg5 arg6 harg6) K := by
  simp only [cc9__pool_kernel_eq_skeleton]; unfold cc9__pool_kernel_skel
  unfold owns
  iintro ⟨⟨%f0, %hf0, H0⟩, ⟨%f1, %hf1, H1⟩, ⟨%a, %f6, -, H6⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H6
  ipureintro
  sl_unfold_words
  rw [View.read_writes_eq_canon _ _ _ (fun y => ⟨_, List.mem_cons_self .., View.mem_set_unit_zero hz2 inb_S64x65_S64x65_0_0 y⟩)]
  rw [View.canon_cons_unit_zero (S := S64x65) hz2]
  simp only [View.readAt_eq_ld, harg1.read_unread, harg2.read_unread, harg6.read_unread,
    View.ld_unit_zero (S := S10000x64) hz2, View.ld_unit_zero (S := S10000x1) hz2, View.ld_unit_zero (S := S64x65) hz2,
    View.readCov_unit_zero (S := S64x65) _ hz2]

set_option maxHeartbeats 1000000 in

theorem run9_mid (c : Dev nD) (i : grid9.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x65 .f32) (harg6 : arg6.IsWhole)
    (hc0 : ¬ cond9_0 i) (hc1 : ¬ k9_cond2 i = 1#1)
    (x0 : Vec F S10000x64 .f32) (x1 : Vec F S10000x1 .i32) (a : Vec F S64x65 .f32) (E : Set ℕ) (K : PUnit → sProp 𝕄) :
    iprop(owns (c : Thread nD τ) arg1 fullShare x0 ∗ owns (c : Thread nD τ) arg2 fullShare x1
        ∗ owns (c : Thread nD τ) arg6 fullShare a
        ∗ (iprop(owns (c : Thread nD τ) arg1 fullShare x0 ∗ owns (c : Thread nD τ) arg2 fullShare x1
            ∗ owns (c : Thread nD τ) arg6 fullShare (k9_pay2 x1 x0 a)) -∗ K ⟨⟩))
      ⊢ wp frame (wpE (defs₀ (F := F)) Variants.none c none) E
          (cc9__pool_kernel i arg1 harg1 arg2 harg2 arg3 harg3 arg4 harg4 arg5 harg5 arg6 harg6) K := by
  simp only [cc9__pool_kernel_eq_skeleton]; unfold cc9__pool_kernel_skel
  unfold owns
  iintro ⟨⟨%f0, %hf0, H0⟩, ⟨%f1, %hf1, H1⟩, ⟨%f6, %hf6, H6⟩, Hk⟩
  obtain rfl := harg1.eq_unread hf0; obtain rfl := harg2.eq_unread hf1; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H6
  ipureintro
  sl_unfold_words
  rw [View.read_writes_eq_canon _ _ _ (fun y => ⟨_, List.mem_cons_self .., View.mem_set_unit_zero hz2 inb_S64x65_S64x65_0_0 y⟩)]
  rw [View.canon_cons_unit_zero (S := S64x65) hz2]
  simp only [View.readAt_eq_ld, harg1.read_unread, harg2.read_unread, harg6.read_unread,
    View.ld_unit_zero (S := S10000x64) hz2, View.ld_unit_zero (S := S10000x1) hz2, View.ld_unit_zero (S := S64x65) hz2,
    View.readCov_unit_zero (S := S64x65) _ hz2]

set_option maxHeartbeats 1000000 in

theorem run9_last (c : Dev nD) (i : grid9.Coords)
    (arg1 : Memref sig .tc .vmem S10000x64 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x65 .f32) (harg6 : arg6.IsWhole)
    (hc0 : ¬ cond9_0 i) (hc1 : k9_cond2 i = 1#1)
    (x0 : Vec F S10000x64 .f32) (x1 : Vec F S10000x1 .i32) (x2 : Vec F S64x10 .f32) (x3 : Vec F S1x10 .f32)
    (a : Vec F S64x65 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare
                (k9_pay3 (View.ld (k9_pay2 x1 x0 a) rS9) (View.ld (k9_pay2 x1 x0 a) rC9) x2 x3)
            ∗ owns (c : Thread nD τ) arg6 fullShare (k9_pay2 x1 x0 a)) -∗ K ⟨⟩))
      ⊢ wp frame (wpE (defs₀ (F := F)) Variants.none c none) E
          (cc9__pool_kernel i arg1 harg1 arg2 harg2 arg3 harg3 arg4 harg4 arg5 harg5 arg6 harg6) K := by
  simp only [cc9__pool_kernel_eq_skeleton]; unfold cc9__pool_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.mem_cons_self .., View.mem_set_unit_zero hz2 inb_S64x10_S64x10_0_0 y⟩)]
    rw [View.canon_cons_unit_zero (S := S64x10) hz2]
    rw [View.readCov_eq_canon_ld _ _ rS9 (cover9 _), View.readCov_eq_canon_ld _ _ rC9 (cover9 _),
      View.canon_unit_zero (S := S64x65) hz2]
    simp only [View.readAt_eq_ld, harg1.read_unread, harg2.read_unread, harg3.read_unread, harg4.read_unread, harg6.read_unread,
      View.ld_unit_zero (S := S10000x64) hz2, View.ld_unit_zero (S := S10000x1) hz2, View.ld_unit_zero (S := S64x65) hz2,
      View.ld_unit_zero (S := S64x10) hz2, View.ld_unit_zero (S := S1x10) hz2]
  iexists _; isplitr
  swap; · iexact H6
  ipureintro
  sl_unfold_words
  rw [View.read_writes_eq_canon _ _ _ (fun y => ⟨_, List.mem_cons_self .., View.mem_set_unit_zero hz2 inb_S64x65_S64x65_0_0 y⟩)]
  rw [View.canon_cons_unit_zero (S := S64x65) hz2]
  simp only [View.readAt_eq_ld, harg1.read_unread, harg2.read_unread, harg6.read_unread,
    View.ld_unit_zero (S := S10000x64) hz2, View.ld_unit_zero (S := S10000x1) hz2, View.ld_unit_zero (S := S64x65) hz2,
    View.readCov_unit_zero (S := S64x65) _ hz2]

theorem before9_0 (c : Dev nD) (t : Fin cfg9.N) (d) : (dat9 V c).before 0 t d = iblk9 V c 0 t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

theorem before9_1 (c : Dev nD) (t : Fin cfg9.N) (d) : (dat9 V c).before 1 t d = iblk9 V c 1 t :=
  ((dat9 V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)

theorem before9_2 (c : Dev nD) (t : Fin cfg9.N) (d) : (dat9 V c).before 2 t d = iblk9 V c 2 t :=
  ((dat9 V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)

theorem before9_3 (c : Dev nD) (t : Fin cfg9.N) (d) : (dat9 V c).before 3 t d = iblk9 V c 3 t :=
  ((dat9 V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ (dat9 V c).leavesExact 4 t)

theorem leavesExact_live9 {c : Dev nD} (dat : Dat τ (Elt F) Unit ℕ (UR sig nD τ) ℕ cfg9 c) (t : Fin cfg9.N)
    (hi : cfg9.idle 4 (cfg9.grid.coords t) = false) :
    dat.leavesExact 4 t = owns (c : Thread nD τ) ((cfg9.win 4).stage (cfg9.slots t 4)) fullShare (dat.after 4 t) := by
  unfold Dat.leavesExact; rw [hi]

theorem scr9_first (c : Dev nD) (t : Fin cfg9.N) (h : t.val = 0) :
    scr9 V c t.castSucc = iprop(∃ f : Vec F S64x65 .f32, owns (c : Thread nD τ) (Memref.whole cc9_scratch0) fullShare f) := by
  unfold scr9; rw [if_pos (show (t.castSucc).val = 0 from h)]

theorem scr9_later (c : Dev nD) (t : Fin cfg9.N) (h : t.val ≠ 0) :
    scr9 V c t.castSucc = owns (c : Thread nD τ) (Memref.whole cc9_scratch0) fullShare (acc9 V c t.val) := by
  unfold scr9; rw [if_neg (show ¬ (t.castSucc).val = 0 from h)]; rfl

theorem scr9_succ (c : Dev nD) (t : Fin cfg9.N) :
    scr9 V c t.succ = owns (c : Thread nD τ) (Memref.whole cc9_scratch0) fullShare (step9 V c t (acc9 V c t.val)) := by
  unfold scr9; rw [if_neg (show ¬ (t.succ).val = 0 from Nat.succ_ne_zero _)]
  rw [show (t.succ).val = t.val + 1 from rfl, acc9_succ]

set_option maxHeartbeats 800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).owesAt () t.succ = (dat9 V c).owesAt () t.castSucc from rfl,
    after9_0, after9_1, after9_2, after9_3, Φ9_eq, Φ9_eq, scr9_succ]
  have hN : t.val < 10 := lt_of_lt_of_eq t.isLt (show cfg9.N = 10 from N_9)
  by_cases h0 : t.val % 10 = 0
  · have h9 : ¬ t.val % 10 = 9 := by omega
    have hidle : cfg9.idle 4 (cfg9.grid.coords t) = true := by rw [idle9_4]; simp only [h9, decide_false, Bool.not_false]
    have hfl : (cfg9.win 4).flush t = false := Bool.eq_false_iff.mpr fun h => h9 ((flush9_4 t).mp h)
    rw [scr9_first V c t (by omega), (dat9 V c).leavesExact_idle 4 t hidle hfl]
    rw [show acc9 V c t.val = k9_pay1 from by rw [show t.val = 0 from by omega]; rfl]
    unfold step9
    iintro ⟨⟨Hs, Hrest, Hr⟩, Ho, ⟨%d0, H0⟩, ⟨%d1, H1⟩, ⟨%d2, H2⟩, ⟨%d3, H3⟩, ⟨%d4, H4⟩⟩
    iapply (run9_first c (grid9.coords t) _ _ _ _ _ _ _ _ _ _ _ _ ((hcond9_0 t).mpr h0) (fun h => h9 ((hcond9_1 t).mp h))
      (hblk9 V c t) (idblk9 V c t) Set.univ _)
    isplitl [H0]; · iexact H0
    isplitl [H1]; · iexact H1
    isplitl [Hs]; · iexact Hs
    iintro ⟨H0, H1, Hs⟩
    isplitl [Hs Hrest Hr]
    · isplitl [Hs]; · iexact Hs
      isplitl [Hrest]; · iexact Hrest
      iexact Hr
    isplitl [Ho]; · iexact Ho
    isplitl [H0]; · iexact H0
    isplitl [H1]; · iexact H1
    isplitl [H2]; · iexact H2
    isplitl [H3]; · iexact H3
    iexists d4; iexact H4
  · by_cases h9 : t.val % 10 = 9
    · have hidle : cfg9.idle 4 (cfg9.grid.coords t) = false := by rw [idle9_4]; simp only [h9, decide_true, Bool.not_true]
      rw [scr9_later V c t (by omega), leavesExact_live9 (dat9 V c) t hidle, after9_4]
      unfold out9
      rw [acc9_succ]
      unfold step9
      iintro ⟨⟨Hs, Hrest, Hr⟩, Ho, ⟨%d0, H0⟩, ⟨%d1, H1⟩, ⟨%d2, H2⟩, ⟨%d3, H3⟩, ⟨%d4, H4⟩⟩
      iapply (run9_last c (grid9.coords t) _ _ _ _ _ _ _ _ _ _ _ _ (fun h => h0 ((hcond9_0 t).mp h)) ((hcond9_1 t).mpr h9)
        (hblk9 V c t) (idblk9 V c t) (wblk9 V c t) (bblk9 V c t) (acc9 V c t.val) Set.univ _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hs Hrest Hr]
      · isplitl [Hs]; · iexact Hs
        isplitl [Hrest]; · iexact Hrest
        iexact Hr
      isplitl [Ho]; · iexact Ho
      isplitl [H0]; · iexact H0
      isplitl [H1]; · iexact H1
      isplitl [H2]; · iexact H2
      isplitl [H3]; · iexact H3
      iexact H4
    · have hidle : cfg9.idle 4 (cfg9.grid.coords t) = true := by rw [idle9_4]; simp only [h9, decide_false, Bool.not_false]
      have hfl : (cfg9.win 4).flush t = false := Bool.eq_false_iff.mpr fun h => h9 ((flush9_4 t).mp h)
      rw [scr9_later V c t (by omega), (dat9 V c).leavesExact_idle 4 t hidle hfl]
      unfold step9
      iintro ⟨⟨Hs, Hrest, Hr⟩, Ho, ⟨%d0, H0⟩, ⟨%d1, H1⟩, ⟨%d2, H2⟩, ⟨%d3, H3⟩, ⟨%d4, H4⟩⟩
      iapply (run9_mid c (grid9.coords t) _ _ _ _ _ _ _ _ _ _ _ _ (fun h => h0 ((hcond9_0 t).mp h)) (fun h => h9 ((hcond9_1 t).mp h))
        (hblk9 V c t) (idblk9 V c t) (acc9 V c t.val) Set.univ _)
      isplitl [H0]; · iexact H0
      isplitl [H1]; · iexact H1
      isplitl [Hs]; · iexact Hs
      iintro ⟨H0, H1, Hs⟩
      isplitl [Hs Hrest Hr]
      · isplitl [Hs]; · iexact Hs
        isplitl [Hrest]; · iexact Hrest
        iexact Hr
      isplitl [Ho]; · iexact Ho
      isplitl [H0]; · iexact H0
      isplitl [H1]; · iexact H1
      isplitl [H2]; · iexact H2
      isplitl [H3]; · iexact H3
      iexists d4; iexact H4

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Chain.lean ====
import proofs.«406238_j58506044506835_1_alg».proof.Proof.KI.R0
import proofs.«406238_j58506044506835_1_alg».proof.Proof.KI.R1
import proofs.«406238_j58506044506835_1_alg».proof.Proof.KI.R2
import proofs.«406238_j58506044506835_1_alg».proof.Proof.KI.R3
import proofs.«406238_j58506044506835_1_alg».proof.Proof.KI.R4
import proofs.«406238_j58506044506835_1_alg».proof.Proof.KI.R5
import proofs.«406238_j58506044506835_1_alg».proof.Proof.KI.R6
import proofs.«406238_j58506044506835_1_alg».proof.Proof.KI.R7
import proofs.«406238_j58506044506835_1_alg».proof.Proof.KI.R8
import proofs.«406238_j58506044506835_1_alg».proof.Proof.KI.R9
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev atTc (W : Dev nD → Valuation τ sig (Elt F)) : (c : Dev nD) → (b : Ref sig .tc) → Buf (Elt F) ((c : Thread nD τ).loc b) := fun c b => W c b

theorem hinA {gr W : Nat} (spec : Fin W → Pipeline.WinSpec sig gr) (c : Dev nD) :
    (iprop((∃ r, prngReg c r) ∗ Pipeline.scopedRest (Ix := Unit) (Name := ℕ) (U := UR sig nD τ) (Lvl := ℕ) spec c) : sProp 𝕄) ⊢ Pipeline.ΦA spec c := by
  unfold Pipeline.ΦA
  iintro ⟨Hreg, Hrest⟩
  isplitl [Hrest]; · iexact Hrest
  iexact Hreg

theorem houtA {gr W : Nat} (spec : Fin W → Pipeline.WinSpec sig gr) (c : Dev nD) :
    Pipeline.ΦA spec c ⊢ (iprop((∃ r, prngReg c r) ∗ Pipeline.scopedRest (Ix := Unit) (Name := ℕ) (U := UR sig nD τ) (Lvl := ℕ) spec c) : sProp 𝕄) := by
  unfold Pipeline.ΦA
  iintro ⟨Hrest, Hreg⟩
  isplitl [Hreg]; · iexact Hreg
  iexact Hrest

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev W8 : Dev nD → Valuation τ sig (Elt F) := fun c => StableHlo.after hostOps4 (W7 m ρ c)

abbrev V8 : (c : Dev nD) → (b : Ref sig .tc) → Buf (Elt F) ((c : Thread nD τ).loc b) := fun c b => W8 m ρ c b

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

abbrev W10 : Dev nD → Valuation τ sig (Elt F) := fun c => StableHlo.after hostOps5 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb

abbrev V11 : (c : Dev nD) → (b : Ref sig .tc) → Buf (Elt F) ((c : Thread nD τ).loc b) := fun c b => W11 m ρ c b

def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb

abbrev W13 : Dev nD → Valuation τ sig (Elt F) := fun c => StableHlo.after hostOps7 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb

abbrev W15 : Dev nD → Valuation τ sig (Elt F) := fun c => StableHlo.after hostOps8 (W14 m ρ c)

abbrev V15 : (c : Dev nD) → (b : Ref sig .tc) → Buf (Elt F) ((c : Thread nD τ).loc b) := fun c b => W15 m ρ c b

def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb

abbrev W17 : Dev nD → Valuation τ sig (Elt F) := fun c => StableHlo.after hostOps9 (W16 m ρ c)

abbrev V17 : (c : Dev nD) → (b : Ref sig .tc) → Buf (Elt F) ((c : Thread nD τ).loc b) := fun c b => W17 m ρ c b

def W18 (c : Dev nD) : Valuation τ sig (Elt F) :=
  Pipeline.withArrays spec9 c (W17 m ρ c) fun w => (dat9 (V17 m ρ) c).arrAt w cfg9.N
theorem W18_arr (c : Dev nD) (w : Fin cfg9.W) :
    W18 m ρ c (Proc.devRef .tc (Pipeline.arrRef spec9 w)) = (dat9 (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
  | ⟨8, _⟩ => fun c => dat8 (V15 m ρ) c
  | ⟨9, _⟩ => fun c => dat9 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W18 m ρ c) ∗ ∃ r, prngReg c r)

end Cert.KernelIdeal.Hand

end
-- ==== Proof.KI.Reg.lean ====
import proofs.«406238_j58506044506835_1_alg».proof.Proof.KI.Chain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

-- One proof of a kernel region as an item of the run, for all ten regions: what differs between them enters as hypotheses.
def regOf (p : Fin 10) (lf : Pipeline.LaunchFacts (nD := nD) (τ := τ) cfgs p)
    (Win Wout : Dev nD → Valuation τ sig (Elt F)) (post : Dev nD → sProp 𝕄)
    (hbody : ∀ c, BodyObligation (pdats m ρ p c) (defs₀ (F := F)) Variants.none () Set.univ)
    (howed : ∀ c t, (pdats m ρ p c).owed t = 0) (hrec : ∀ c t, (pdats m ρ p c).recorded t = Set.univ) (hq : ∀ c w, (pdats m ρ p c).q w = fullShare)
    (hA : ∀ c w, (pdats m ρ p c).A w = atTc Win c (Pipeline.arrRef (cfgs p).spec w))
    (hin : ∀ c : Dev nD, (iprop((∃ r, prngReg c r) ∗ Pipeline.scopedRest (Ix := Unit) (Name := ℕ) (U := UR sig nD τ) (Lvl := ℕ) (cfgs p).spec c) : sProp 𝕄) ⊢ (pdats m ρ p c).Φ 0)
    (hout : ∀ c : Dev nD, (pdats m ρ p c).Φ (Fin.last (cfgs p).N) ⊢ (iprop((∃ r, prngReg c r) ∗ Pipeline.scopedRest (Ix := Unit) (Name := ℕ) (U := UR sig nD τ) (Lvl := ℕ) (cfgs p).spec c) : sProp 𝕄))
    (harr : ∀ c w, Wout c (Proc.devRef .tc (Pipeline.arrRef (cfgs p).spec w)) = (pdats m ρ p c).arrAt w (cfgs p).N)
    (hne : ∀ c (b : Ref sig .tc), (∀ w, Pipeline.arrRef (cfgs p).spec w ≠ b) → Wout c (Proc.devRef .tc b) = Win c (Proc.devRef .tc b))
    (hpost : ∀ c : Dev nD, iprop(StableHlo.held (c : Thread nD τ) (Pipeline.ucRefs τ sig) (Wout c) ∗ R c) ⊢ post c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl ((hrec c 0).symm ▸ Set.mem_univ _)
      iexact HO
    isplitl [Hg]; · iexact Hg
    iexact Hrest
  hin c := by
    refine BIBase.Entails.trans ?_ (hin c)
    iintro ⟨Hg, -, Hs⟩
    isplitl [Hg]; · iexact Hg
    iexact Hs
  hout c := by
    rw [Pipeline.ownSems0_none]
    refine BIBase.Entails.trans (hout c) ?_
    iintro ⟨Hg, Hs⟩
    isplitl [Hg]; · iexact Hg
    isplitr; · iempintro
    iexact Hs
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m ρ 0 launch0 (W1 m ρ) (W2 m ρ) _ (body_obligation0 (V1 m ρ)) (fun _ _ => rfl) (fun _ _ => rfl) (fun _ _ => rfl)
  (A_eq0 (V1 m ρ)) (hinA _) (houtA _) (W2_arr m ρ) (W2_of_ne m ρ) fun _ => .rfl
def reg1 := regOf m ρ 1 launch1 (W3 m ρ) (W4 m ρ) _ (body_obligation1 (V3 m ρ)) (fun _ _ => rfl) (fun _ _ => rfl) (fun _ _ => rfl)
  (A_eq1 (V3 m ρ)) (hin1 (V3 m ρ)) (hout1 (V3 m ρ)) (W4_arr m ρ) (W4_of_ne m ρ) fun _ => .rfl
def reg2 := regOf m ρ 2 launch2 (W5 m ρ) (W6 m ρ) _ (body_obligation2 (V5 m ρ)) (fun _ _ => rfl) (fun _ _ => rfl) (fun _ _ => rfl)
  (A_eq2 (V5 m ρ)) (hinA _) (houtA _) (W6_arr m ρ) (W6_of_ne m ρ) fun _ => .rfl
def reg3 := regOf m ρ 3 launch3 (W6 m ρ) (W7 m ρ) _ (body_obligation3 (V6 m ρ)) (fun _ _ => rfl) (fun _ _ => rfl) (fun _ _ => rfl)
  (A_eq3 (V6 m ρ)) (hinA _) (houtA _) (W7_arr m ρ) (W7_of_ne m ρ) fun _ => .rfl
def reg4 := regOf m ρ 4 launch4 (W8 m ρ) (W9 m ρ) _ (body_obligation4 (V8 m ρ)) (fun _ _ => rfl) (fun _ _ => rfl) (fun _ _ => rfl)
  (A_eq4 (V8 m ρ)) (hin4 (V8 m ρ)) (hout4 (V8 m ρ)) (W9_arr m ρ) (W9_of_ne m ρ) fun _ => .rfl
def reg5 := regOf m ρ 5 launch5 (W10 m ρ) (W11 m ρ) _ (body_obligation5 (V10 m ρ)) (fun _ _ => rfl) (fun _ _ => rfl) (fun _ _ => rfl)
  (A_eq5 (V10 m ρ)) (hinA _) (houtA _) (W11_arr m ρ) (W11_of_ne m ρ) fun _ => .rfl
def reg6 := regOf m ρ 6 launch6 (W11 m ρ) (W12 m ρ) _ (body_obligation6 (V11 m ρ)) (fun _ _ => rfl) (fun _ _ => rfl) (fun _ _ => rfl)
  (A_eq6 (V11 m ρ)) (hinA _) (houtA _) (W12_arr m ρ) (W12_of_ne m ρ) fun _ => .rfl
def reg7 := regOf m ρ 7 launch7 (W13 m ρ) (W14 m ρ) _ (body_obligation7 (V13 m ρ)) (fun _ _ => rfl) (fun _ _ => rfl) (fun _ _ => rfl)
  (A_eq7 (V13 m ρ)) (hin7 (V13 m ρ)) (hout7 (V13 m ρ)) (W14_arr m ρ) (W14_of_ne m ρ) fun _ => .rfl
def reg8 := regOf m ρ 8 launch8 (W15 m ρ) (W16 m ρ) _ (body_obligation8 (V15 m ρ)) (fun _ _ => rfl) (fun _ _ => rfl) (fun _ _ => rfl)
  (A_eq8 (V15 m ρ)) (hinA _) (houtA _) (W16_arr m ρ) (W16_of_ne m ρ) fun _ => .rfl
def reg9 := regOf m ρ 9 launch9 (W17 m ρ) (W18 m ρ) (fun c => iprop(Tₙ m ρ c ∗ ∃ W, owes (c : Thread nD τ) (0 : CellTallies nD τ sig Unit) W))
  (body_obligation9 (V17 m ρ)) (fun _ _ => rfl) (fun _ _ => rfl) (fun _ _ => rfl)
  (A_eq9 (V17 m ρ)) (hin9 (V17 m ρ)) (hout9 (V17 m ρ)) (W18_arr m ρ) (W18_of_ne m ρ) fun c => by
    iintro ⟨Hh, HY, HO⟩
    isplitl [Hh HY]
    · isplitl [Hh]; · iexact Hh
      iexact HY
    iexact HO

end Cert.KernelIdeal.Hand

end
-- ==== Proof.KI.Launch.lean ====
import proofs.«406238_j58506044506835_1_alg».proof.Proof.KI.Reg
import proofs.«406238_j58506044506835_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .region (reg9 m ρ) ]

theorem main_run (c : Dev nD) : main (F := F) c = Pipeline.Seg.run (segs m ρ) := by
  rw [main_chain c, Pipeline.Seg.run_eq_chain]
  rfl

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by

      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = W18 m ρ c b)
    (hfin := fun c s' => by

      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c => h c)

end Cert.KernelIdeal.Hand

end
-- ==== Proof.KI.Keep.lean ====
import proofs.«406238_j58506044506835_1_alg».proof.Proof.KI.Chain
import proofs.«406238_j58506044506835_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

-- A region leaves every buffer outside its list of outputs as it found it.
theorem keepReg (p : Fin 10) (Win Wout : Dev nD → Valuation τ sig (Elt F)) (outs : List (Ref sig .tc))
    (harr : ∀ c w, Wout c (Proc.devRef .tc (Pipeline.arrRef (cfgs p).spec w)) = (pdats m ρ p c).arrAt w (cfgs p).N)
    (hne : ∀ c (b : Ref sig .tc), (∀ w, Pipeline.arrRef (cfgs p).spec w ≠ b) → Wout c (Proc.devRef .tc b) = Win c (Proc.devRef .tc b))
    (hA : ∀ c w, (pdats m ρ p c).A w = atTc Win c (Pipeline.arrRef (cfgs p).spec w))
    (hin : ∀ w, Pipeline.arrRef (cfgs p).spec w ∉ outs → ((cfgs p).win w).isOut = false)
    (c : Dev nD) (r : Ref sig .tc) (h : r ∉ outs) :
    Wout c (Proc.devRef .tc r) = Win c (Proc.devRef .tc r) := by
  by_cases hr : ∃ w, Pipeline.arrRef (cfgs p).spec w = r
  · obtain ⟨w, rfl⟩ := hr
    exact (harr c w).trans (((pdats m ρ p c).arrAt_in w (hin w h) _).trans (hA c w))
  · exact hne c r fun w e => hr ⟨w, e⟩

theorem keep1 (c : Dev nD) (r : Ref sig .tc) (h : r ∉ hostOps0_W) :
    W1 m ρ c (Proc.devRef .tc r) = W0 m ρ c (Proc.devRef .tc r) :=
  StableHlo.after_of_writes_sub hostOps0 _ hostOps0_writes h

theorem keep2 (c : Dev nD) (r : Ref sig .tc) (h : r ∉ ([main_v27] : List (Ref sig .tc))) :
    W2 m ρ c (Proc.devRef .tc r) = W1 m ρ c (Proc.devRef .tc r) :=
  keepReg m ρ 0 (W1 m ρ) (W2 m ρ) _ (W2_arr m ρ) (W2_of_ne m ρ) (A_eq0 (V1 m ρ)) (by decide) c r h

theorem keep3 (c : Dev nD) (r : Ref sig .tc) (h : r ∉ hostOps1_W) :
    W3 m ρ c (Proc.devRef .tc r) = W2 m ρ c (Proc.devRef .tc r) :=
  StableHlo.after_of_writes_sub hostOps1 _ hostOps1_writes h

theorem keep4 (c : Dev nD) (r : Ref sig .tc) (h : r ∉ ([main_v42_0, main_v42_1] : List (Ref sig .tc))) :
    W4 m ρ c (Proc.devRef .tc r) = W3 m ρ c (Proc.devRef .tc r) :=
  keepReg m ρ 1 (W3 m ρ) (W4 m ρ) _ (W4_arr m ρ) (W4_of_ne m ρ) (A_eq1 (V3 m ρ)) (by decide) c r h

theorem keep5 (c : Dev nD) (r : Ref sig .tc) (h : r ∉ hostOps2_W) :
    W5 m ρ c (Proc.devRef .tc r) = W4 m ρ c (Proc.devRef .tc r) :=
  StableHlo.after_of_writes_sub hostOps2 _ hostOps2_writes h

theorem keep6 (c : Dev nD) (r : Ref sig .tc) (h : r ∉ ([main_v52] : List (Ref sig .tc))) :
    W6 m ρ c (Proc.devRef .tc r) = W5 m ρ c (Proc.devRef .tc r) :=
  keepReg m ρ 2 (W5 m ρ) (W6 m ρ) _ (W6_arr m ρ) (W6_of_ne m ρ) (A_eq2 (V5 m ρ)) (by decide) c r h

theorem keep7 (c : Dev nD) (r : Ref sig .tc) (h : r ∉ ([main_v53] : List (Ref sig .tc))) :
    W7 m ρ c (Proc.devRef .tc r) = W6 m ρ c (Proc.devRef .tc r) :=
  keepReg m ρ 3 (W6 m ρ) (W7 m ρ) _ (W7_arr m ρ) (W7_of_ne m ρ) (A_eq3 (V6 m ρ)) (by decide) c r h

theorem keep8 (c : Dev nD) (r : Ref sig .tc) (h : r ∉ hostOps4_W) :
    W8 m ρ c (Proc.devRef .tc r) = W7 m ρ c (Proc.devRef .tc r) :=
  StableHlo.after_of_writes_sub hostOps4 _ hostOps4_writes h

theorem keep9 (c : Dev nD) (r : Ref sig .tc) (h : r ∉ ([main_v68_0, main_v68_1] : List (Ref sig .tc))) :
    W9 m ρ c (Proc.devRef .tc r) = W8 m ρ c (Proc.devRef .tc r) :=
  keepReg m ρ 4 (W8 m ρ) (W9 m ρ) _ (W9_arr m ρ) (W9_of_ne m ρ) (A_eq4 (V8 m ρ)) (by decide) c r h

theorem keep10 (c : Dev nD) (r : Ref sig .tc) (h : r ∉ hostOps5_W) :
    W10 m ρ c (Proc.devRef .tc r) = W9 m ρ c (Proc.devRef .tc r) :=
  StableHlo.after_of_writes_sub hostOps5 _ hostOps5_writes h

theorem keep11 (c : Dev nD) (r : Ref sig .tc) (h : r ∉ ([main_v78] : List (Ref sig .tc))) :
    W11 m ρ c (Proc.devRef .tc r) = W10 m ρ c (Proc.devRef .tc r) :=
  keepReg m ρ 5 (W10 m ρ) (W11 m ρ) _ (W11_arr m ρ) (W11_of_ne m ρ) (A_eq5 (V10 m ρ)) (by decide) c r h

theorem keep12 (c : Dev nD) (r : Ref sig .tc) (h : r ∉ ([main_v79] : List (Ref sig .tc))) :
    W12 m ρ c (Proc.devRef .tc r) = W11 m ρ c (Proc.devRef .tc r) :=
  keepReg m ρ 6 (W11 m ρ) (W12 m ρ) _ (W12_arr m ρ) (W12_of_ne m ρ) (A_eq6 (V11 m ρ)) (by decide) c r h

theorem keep13 (c : Dev nD) (r : Ref sig .tc) (h : r ∉ hostOps7_W) :
    W13 m ρ c (Proc.devRef .tc r) = W12 m ρ c (Proc.devRef .tc r) :=
  StableHlo.after_of_writes_sub hostOps7 _ hostOps7_writes h

theorem keep14 (c : Dev nD) (r : Ref sig .tc) (h : r ∉ ([main_v94_0, main_v94_1] : List (Ref sig .tc))) :
    W14 m ρ c (Proc.devRef .tc r) = W13 m ρ c (Proc.devRef .tc r) :=
  keepReg m ρ 7 (W13 m ρ) (W14 m ρ) _ (W14_arr m ρ) (W14_of_ne m ρ) (A_eq7 (V13 m ρ)) (by decide) c r h

theorem keep15 (c : Dev nD) (r : Ref sig .tc) (h : r ∉ hostOps8_W) :
    W15 m ρ c (Proc.devRef .tc r) = W14 m ρ c (Proc.devRef .tc r) :=
  StableHlo.after_of_writes_sub hostOps8 _ hostOps8_writes h

theorem keep16 (c : Dev nD) (r : Ref sig .tc) (h : r ∉ ([main_v104] : List (Ref sig .tc))) :
    W16 m ρ c (Proc.devRef .tc r) = W15 m ρ c (Proc.devRef .tc r) :=
  keepReg m ρ 8 (W15 m ρ) (W16 m ρ) _ (W16_arr m ρ) (W16_of_ne m ρ) (A_eq8 (V15 m ρ)) (by decide) c r h

theorem keep17 (c : Dev nD) (r : Ref sig .tc) (h : r ∉ hostOps9_W) :
    W17 m ρ c (Proc.devRef .tc r) = W16 m ρ c (Proc.devRef .tc r) :=
  StableHlo.after_of_writes_sub hostOps9 _ hostOps9_writes h

theorem keep18 (c : Dev nD) (r : Ref sig .tc) (h : r ∉ ([main_v107] : List (Ref sig .tc))) :
    W18 m ρ c (Proc.devRef .tc r) = W17 m ρ c (Proc.devRef .tc r) :=
  keepReg m ρ 9 (W17 m ρ) (W18 m ρ) _ (W18_arr m ρ) (W18_of_ne m ρ) (A_eq9 (V17 m ρ)) (by decide) c r h

abbrev written : Fin 18 → List (Ref sig .tc) :=
  ![hostOps0_W, [main_v27], hostOps1_W, [main_v42_0, main_v42_1], hostOps2_W, [main_v52], [main_v53], hostOps4_W, [main_v68_0, main_v68_1], hostOps5_W, [main_v78], [main_v79], hostOps7_W, [main_v94_0, main_v94_1], hostOps8_W, [main_v104], hostOps9_W, [main_v107]]

-- A buffer no item of @main writes holds its launch contents at the last boundary.
theorem W18_keep (c : Dev nD) (r : Ref sig .tc) (h : ∀ i, r ∉ written i) :
    W18 m ρ c (Proc.devRef .tc r) = m ((c : Thread nD τ).loc r) :=
  (keep18 m ρ c r (h 17)).trans <|
  (keep17 m ρ c r (h 16)).trans <|
  (keep16 m ρ c r (h 15)).trans <|
  (keep15 m ρ c r (h 14)).trans <|
  (keep14 m ρ c r (h 13)).trans <|
  (keep13 m ρ c r (h 12)).trans <|
  (keep12 m ρ c r (h 11)).trans <|
  (keep11 m ρ c r (h 10)).trans <|
  (keep10 m ρ c r (h 9)).trans <|
  (keep9 m ρ c r (h 8)).trans <|
  (keep8 m ρ c r (h 7)).trans <|
  (keep7 m ρ c r (h 6)).trans <|
  (keep6 m ρ c r (h 5)).trans <|
  (keep5 m ρ c r (h 4)).trans <|
  (keep4 m ρ c r (h 3)).trans <|
  (keep3 m ρ c r (h 2)).trans <|
  (keep2 m ρ c r (h 1)).trans <|
  (keep1 m ρ c r (h 0)).trans rfl

end Cert.KernelIdeal.Hand

end
-- ==== Proof.KI.Out.lean ====
import proofs.«406238_j58506044506835_1_alg».proof.Proof.KI.Launch
import proofs.«406238_j58506044506835_1_alg».proof.Proof.KI.Keep

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v107) = W18 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v107 (by decide)),
     (h c _ (mem_uc main_arg0 (by decide))).trans (W18_keep m ρ c main_arg0 (by decide)),
     (h c _ (mem_uc main_arg1 (by decide))).trans (W18_keep m ρ c main_arg1 (by decide)),
     (h c _ (mem_uc main_arg2 (by decide))).trans (W18_keep m ρ c main_arg2 (by decide)),
     (h c _ (mem_uc main_arg3 (by decide))).trans (W18_keep m ρ c main_arg3 (by decide)),
     (h c _ (mem_uc main_arg4 (by decide))).trans (W18_keep m ρ c main_arg4 (by decide)),
     (h c _ (mem_uc main_arg5 (by decide))).trans (W18_keep m ρ c main_arg5 (by decide)),
     (h c _ (mem_uc main_arg6 (by decide))).trans (W18_keep m ρ c main_arg6 (by decide)),
     (h c _ (mem_uc main_arg7 (by decide))).trans (W18_keep m ρ c main_arg7 (by decide)),
     (h c _ (mem_uc main_arg8 (by decide))).trans (W18_keep m ρ c main_arg8 (by decide)),
     (h c _ (mem_uc main_arg9 (by decide))).trans (W18_keep m ρ c main_arg9 (by decide)),
     (h c _ (mem_uc main_arg10 (by decide))).trans (W18_keep m ρ c main_arg10 (by decide)),
     (h c _ (mem_uc main_arg11 (by decide))).trans (W18_keep m ρ c main_arg11 (by decide)),
     (h c _ (mem_uc main_arg12 (by decide))).trans (W18_keep m ρ c main_arg12 (by decide)),
     (h c _ (mem_uc main_arg13 (by decide))).trans (W18_keep m ρ c main_arg13 (by decide)),
     (h c _ (mem_uc main_arg14 (by decide))).trans (W18_keep m ρ c main_arg14 (by decide)),
     (h c _ (mem_uc main_arg15 (by decide))).trans (W18_keep m ρ c main_arg15 (by decide)),
     (h c _ (mem_uc main_arg16 (by decide))).trans (W18_keep m ρ c main_arg16 (by decide))⟩)
    (run_all m ρ)

theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_result m ρ)

end Cert.KernelIdeal.Hand

end
-- ==== Proof.LibVecScatter.lean ====
import Idealize.ShloMosaic.Lib.ValueIdx
import Idealize.ShloMosaic.PureOps.Contract

noncomputable section

open scoped BigOperators

namespace Cert.LibRows

open Idealize.ShloMosaic Idealize.ShloMosaic.ValueIdx

section VecScatter

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vecScatter_start (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e)
      ⟨List.idxOf (0 : Fin 1) (vecScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window (e : Fin E) : (vecScatter N E wf).window (ix1 e) (0 : Fin 1) = 0 := by
  unfold ScatterDims.window
  rw [dif_neg (show (0 : Fin 1) ∉ (vecScatter N E wf).sKept from by
    simp [ScatterDims.sKept, Shape.kept, List.mem_filter, List.mem_finRange])]

theorem vecScatter_resultIdx?_eq_some (idx : IVec ⟨2, ![E, 1]⟩ w) (e : Fin E) (n : Fin N) :
    (vecScatter N E wf).resultIdx? (ix1 e) idx = some (ix1 n)
      ↔ (idx (ix2 e (0 : Fin 1))).toInt = (n.val : ℤ) := by
  have hs := vecScatter_start wf idx e
  have hw := vecScatter_window wf e
  constructor
  · intro h
    unfold ScatterDims.resultIdx? at h
    split at h
    · rename_i hall
      have h' := Option.some.inj h
      have e0 : ((vecScatter N E wf).start (ix1 e) idx (0 : Fin 1)
          + ((vecScatter N E wf).window (ix1 e) (0 : Fin 1) : ℤ)).toNat = n.val :=
        congrArg (fun f => (f (0 : Fin 1)).val) h'
      have b0 := (hall (0 : Fin 1)).1
      rw [hs, hw] at e0 b0
      omega
    · exact absurd h (by simp)
  · intro hn
    unfold ScatterDims.resultIdx?
    have hall : ∀ a, 0 ≤ (vecScatter N E wf).start (ix1 e) idx a + ((vecScatter N E wf).window (ix1 e) a : ℤ)
        ∧ (vecScatter N E wf).start (ix1 e) idx a + ((vecScatter N E wf).window (ix1 e) a : ℤ)
          < (((⟨1, ![N]⟩ : Shape).size a : ℕ) : ℤ) := by
      intro a
      match a with
      | ⟨0, _⟩ =>
        show 0 ≤ (vecScatter N E wf).start (ix1 e) idx (0 : Fin 1)
            + ((vecScatter N E wf).window (ix1 e) (0 : Fin 1) : ℤ)
          ∧ (vecScatter N E wf).start (ix1 e) idx (0 : Fin 1)
            + ((vecScatter N E wf).window (ix1 e) (0 : Fin 1) : ℤ) < ((N : ℕ) : ℤ)
        rw [hs, hw, hn]; have := n.isLt; omega
    rw [dif_pos hall]
    congr 1
    funext a
    refine Fin.ext ?_
    match a with
    | ⟨0, _⟩ =>
      show ((vecScatter N E wf).start (ix1 e) idx (0 : Fin 1)
          + ((vecScatter N E wf).window (ix1 e) (0 : Fin 1) : ℤ)).toNat = n.val
      rw [hs, hw, hn]; omega

theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1

  refine Finset.sum_nbij' (fun u : (⟨1, ![E]⟩ : Shape).Idx => (u 0 : Fin E)) (fun e : Fin E => ix1 e) ?_ ?_ ?_ ?_ ?_
  · intro u hu
    obtain ⟨e, rfl⟩ : ∃ e : Fin E, u = ix1 e := ⟨u 0, eq_ix1 u⟩
    exact Finset.mem_filter.mpr ⟨Finset.mem_univ _,
      (vecScatter_resultIdx?_eq_some wf idx e n).mp (Finset.mem_filter.mp hu).2⟩
  · intro e he
    exact Finset.mem_filter.mpr ⟨Finset.mem_univ _,
      (vecScatter_resultIdx?_eq_some wf idx e n).mpr (Finset.mem_filter.mp he).2⟩
  · intro u _
    exact (eq_ix1 u).symm
  · intro e _
    rfl
  · intro u _
    exact congrArg upd (eq_ix1 u)

theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (F := Ideal) (vecScatter N E wf) x idx upd (ix1 n)
      = x (ix1 n) + ∑ e ∈ Finset.univ.filter (fun e : Fin E => (idx (ix2 e (0 : Fin 1))).toInt = (n.val : ℤ)),
          upd (ix1 e) := by
  unfold Host.scatterAdd
  rw [Ideal.hostScatterAdd_def]
  exact scatterAdd_vec_apply wf x idx upd n

end VecScatter

end Cert.LibRows

end
-- ==== Proof.LibRowGatherScatter.lean ====
import Idealize.ShloMosaic.Lib.ValueIdx
import Idealize.ShloMosaic.PureOps.Contract

noncomputable section

open scoped BigOperators

namespace Cert.LibRows

open Idealize.ShloMosaic Idealize.ShloMosaic.ValueIdx

section Gather
variable {α : Type}

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide

  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

section Scatter

abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1

  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

end Cert.LibRows

end
-- ==== Proof.Spec.PoolBridge.lean ====
import Idealize.ShloMosaic.PureOps.Ideal
import Idealize.ShloMosaic.PureOps.Ideal.Laws
import Idealize.ShloMosaic.Lib.ValueIdx
import proofs.«406238_j58506044506835_1_alg».proof.Proof.LibVecScatter
import proofs.«406238_j58506044506835_1_alg».proof.Proof.LibRowGatherScatter

noncomputable section

namespace Cert.Spec

open Idealize.ShloMosaic Idealize.ShloMosaic.ValueIdx
open scoped BigOperators

def onehot {n : ℕ} (ids : Fin n → BitVec 32) (i : Fin n) (b : ℕ) : EReal :=
  if ids i = BitVec.ofNat 32 b then 1 else 0

def segSum {n d : ℕ} (ids : Fin n → BitVec 32) (h : Fin n → Fin d → EReal) (b : ℕ) (f : Fin d) : EReal :=
  ∑ i : Fin n, if ids i = BitVec.ofNat 32 b then h i f else 0

def segCount {n : ℕ} (ids : Fin n → BitVec 32) (b : ℕ) : EReal :=
  ∑ i : Fin n, if ids i = BitVec.ofNat 32 b then 1 else 0

theorem onehot_mul {n : ℕ} (ids : Fin n → BitVec 32) (i : Fin n) (b : ℕ) (x : EReal) :
    onehot ids i b * x = if ids i = BitVec.ofNat 32 b then x else 0 := by
  unfold onehot
  split
  · exact one_mul x
  · exact zero_mul x

theorem sum_onehot_mul {n d : ℕ} (ids : Fin n → BitVec 32) (h : Fin n → Fin d → EReal) (b : ℕ) (f : Fin d) :
    ∑ i : Fin n, onehot ids i b * h i f = segSum ids h b f :=
  Finset.sum_congr rfl fun i _ => onehot_mul ids i b (h i f)

theorem sum_onehot_mul_one {n : ℕ} (ids : Fin n → BitVec 32) (b : ℕ) :
    ∑ i : Fin n, onehot ids i b * 1 = segCount ids b :=
  Finset.sum_congr rfl fun i _ => onehot_mul ids i b 1

theorem sitofp_extui_cmpi_eq (a w : BitVec 32) :
    ((((IntOp.cmpi .eq a w).setWidth 32).toInt : ℝ) : EReal) = if a = w then 1 else 0 := by
  unfold IntOp.cmpi
  by_cases h : a = w
  · subst h
    rw [if_pos rfl]
    simp
  · rw [if_neg h]
    have : (a == w) = false := by simpa using h
    simp [this]

theorem toInt_eq_natCast_iff (w : BitVec 32) (b : ℕ) (hb : b < 2 ^ 31) :
    w.toInt = (b : ℤ) ↔ w = BitVec.ofNat 32 b := by
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    have h1 : b % 2 ^ 32 = b := Nat.mod_eq_of_lt (by omega)
    rw [h1, if_pos (by omega)]

theorem scatterAdd_rows_zero_apply {φ : FTy} {B N C : ℕ} (hB : B ≤ 2 ^ 31)
    (wf : ScatterDims.WF ⟨2, ![B, C]⟩ ⟨2, ![N, 1]⟩ ⟨2, ![N, C]⟩ [1] [0] [0] 1)
    (x : FVec Ideal ⟨2, ![B, C]⟩ φ) (idx : IVec ⟨2, ![N, 1]⟩ 32) (upd : FVec Ideal ⟨2, ![N, C]⟩ φ)
    (b : Fin B) (f : Fin C) (hx : x (ix2 b f) = (0 : EReal)) :
    Host.scatterAdd (F := Ideal) (Cert.LibRows.rowScatter B N C wf) x idx upd (ix2 b f)
      = segSum (fun i : Fin N => idx (ix2 i (0 : Fin 1))) (fun i j => upd (ix2 i j)) b.val f := by
  rw [Cert.LibRows.host_scatterAdd_rows_apply wf x idx upd b f, hx, zero_add, Finset.sum_filter]
  unfold segSum
  refine Finset.sum_congr rfl fun i _ => ?_
  exact if_congr (toInt_eq_natCast_iff _ _ (by have := b.isLt; omega)) rfl rfl

theorem scatterAdd_vec_zero_ones_apply {φ : FTy} {B N : ℕ} (hB : B ≤ 2 ^ 31)
    (wf : ScatterDims.WF ⟨1, ![B]⟩ ⟨2, ![N, 1]⟩ ⟨1, ![N]⟩ [] [0] [0] 1)
    (x : FVec Ideal ⟨1, ![B]⟩ φ) (idx : IVec ⟨2, ![N, 1]⟩ 32) (upd : FVec Ideal ⟨1, ![N]⟩ φ)
    (b : Fin B) (hx : x (ix1 b) = (0 : EReal)) (hu : ∀ i : Fin N, upd (ix1 i) = (1 : EReal)) :
    Host.scatterAdd (F := Ideal) (Cert.LibRows.vecScatter B N wf) x idx upd (ix1 b)
      = segCount (fun i : Fin N => idx (ix2 i (0 : Fin 1))) b.val := by
  rw [Cert.LibRows.host_scatterAdd_vec_apply wf x idx upd b, hx, zero_add, Finset.sum_filter]
  unfold segCount
  refine Finset.sum_congr rfl fun i _ => ?_
  rw [hu i]
  exact if_congr (toInt_eq_natCast_iff _ _ (by have := b.isLt; omega)) rfl rfl

end Cert.Spec

end
-- ==== Proof.Val.PoolPay.lean ====
import proofs.«406238_j58506044506835_1_alg».proof.Proof.Spec.PoolBridge
import proofs.«406238_j58506044506835_1_alg».proof.Proof.Gen.KernelIdeal.Skeleton
import Idealize.ShloMosaic.Lib.ValueIdx
import Idealize.ShloMosaic.Lib.IdealHost
import Idealize.ShloMosaic.PureOps.Ideal.Laws
import Idealize.ShloMosaic.Lib.Pipeline.Value

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx

theorem pool_pay1_ix2 (b : Fin 64) (j : Fin 65) : k9_pay1 (F := Ideal) (ix2 b j) = (0 : EReal) := by
  unfold k9_pay1
  rw [shapeCast_self]
  exact Ideal.ofBits_zero_f32

theorem pool_ids_spread (ids : IVec S10000x1 32) (hb : S10000x1.Broadcasts S10000x64) (r : Fin 10000) (b : Fin 64) :
    broadcastTo S10000x64 ids hb (ix2 r b) = ids (ix2 r (0 : Fin 1)) :=
  broadcastTo_apply ids hb (ix2 r b) (ix2 r (0 : Fin 1)) (fun a => by
    match a with
    | ⟨0, _⟩ => show r.val = if (10000 : ℕ) = 1 then 0 else r.val; rw [if_neg (by decide)]
    | ⟨1, _⟩ => show (0 : ℕ) = if (1 : ℕ) = 1 then 0 else b.val; rw [if_pos rfl])

theorem pool_iota_spread (hi : S1x64.Iotas .tc 32 [1]) (hb : S1x64.Broadcasts S10000x64) (r : Fin 10000) (b : Fin 64) :
    broadcastTo S10000x64 (iota .tc S1x64 32 [1] hi) hb (ix2 r b) = BitVec.ofNat 32 b.val := by
  rw [broadcastTo_apply (iota .tc S1x64 32 [1] hi) hb (ix2 r b) (ix2 (0 : Fin 1) b) (fun a => by
    match a with
    | ⟨0, _⟩ => show (0 : ℕ) = if (1 : ℕ) = 1 then 0 else r.val; rw [if_pos rfl]
    | ⟨1, _⟩ => show b.val = if (64 : ℕ) = 1 then 0 else b.val; rw [if_neg (by decide)])]
  exact iota_single_apply .tc S1x64 32 1 hi (ix2 (0 : Fin 1) b)

theorem pool_member_ix2 (ids : IVec S10000x1 32) (hb1 : S10000x1.Broadcasts S10000x64)
    (hi : S1x64.Iotas .tc 32 [1]) (hb2 : S1x64.Broadcasts S10000x64) (hlt : 1 < 32) (r : Fin 10000) (b : Fin 64) :
    (sitofp .f32 (extui 32 (cmpi .eq (broadcastTo S10000x64 ids hb1)
        (broadcastTo S10000x64 (iota .tc S1x64 32 [1] hi) hb2)) hlt) : FVec Ideal S10000x64 .f32) (ix2 r b)
      = Cert.Spec.onehot (fun r : Fin 10000 => ids (ix2 r (0 : Fin 1))) r b.val := by
  show ((((IntOp.cmpi .eq (broadcastTo S10000x64 ids hb1 (ix2 r b))
      (broadcastTo S10000x64 (iota .tc S1x64 32 [1] hi) hb2 (ix2 r b))).setWidth 32).toInt : ℝ) : EReal) = _
  rw [pool_ids_spread, pool_iota_spread, Cert.Spec.sitofp_extui_cmpi_eq]
  rfl

theorem pool_join_left (h : FVec Ideal S10000x64 .f32) (o : FVec Ideal S10000x1 .f32)
    (hc : Shape.Concatenates [S10000x64, S10000x1] S10000x65 1) (r : Fin 10000) (f : Fin 64) :
    concatenate S10000x65 1 [⟨S10000x64, h⟩, ⟨S10000x1, o⟩] hc (ix2 r (⟨f.val, by omega⟩ : Fin 65)) = h (ix2 r f) :=
  concatenate_pair_apply_left (1 : Fin S10000x65.rank) h o hc (ix2 r (⟨f.val, by omega⟩ : Fin 65)) rfl (ix2 r f)
    (fun b => by
      match b with
      | ⟨0, _⟩ => rfl
      | ⟨1, _⟩ => rfl)

theorem pool_join_right (h : FVec Ideal S10000x64 .f32) (o : FVec Ideal S10000x1 .f32)
    (hc : Shape.Concatenates [S10000x64, S10000x1] S10000x65 1) (r : Fin 10000) :
    concatenate S10000x65 1 [⟨S10000x64, h⟩, ⟨S10000x1, o⟩] hc (ix2 r (⟨64, by decide⟩ : Fin 65))
      = o (ix2 r (0 : Fin 1)) :=
  concatenate_pair_apply_right (1 : Fin S10000x65.rank) h o hc (ix2 r (⟨64, by decide⟩ : Fin 65)) rfl rfl
    (ix2 r (0 : Fin 1))
    (fun b hb => by
      match b with
      | ⟨0, _⟩ => rfl
      | ⟨1, _⟩ => exact absurd rfl hb)
    rfl

def feat65 (h : FVec Ideal S10000x64 .f32) (r : Fin 10000) (j : Fin 65) : EReal :=
  if hj : j.val < 64 then h (ix2 r (⟨j.val, hj⟩ : Fin 64)) else 1

theorem feat65_lt (h : FVec Ideal S10000x64 .f32) (r : Fin 10000) (f : Fin 64) :
    feat65 h r (⟨f.val, by omega⟩ : Fin 65) = h (ix2 r f) := by
  unfold feat65
  rw [dif_pos (show (⟨f.val, by omega⟩ : Fin 65).val < 64 from f.isLt)]

theorem feat65_last (h : FVec Ideal S10000x64 .f32) (r : Fin 10000) :
    feat65 h r (⟨64, by decide⟩ : Fin 65) = 1 := by
  unfold feat65
  rw [dif_neg (show ¬ (⟨64, by decide⟩ : Fin 65).val < 64 from Nat.lt_irrefl 64)]

theorem pool_join_ix2 (h : FVec Ideal S10000x64 .f32)
    (hc : Shape.Concatenates [S10000x64, S10000x1] S10000x65 1) (r : Fin 10000) (j : Fin 65) :
    concatenate S10000x65 1
        [⟨S10000x64, h⟩, ⟨S10000x1, (broadcast S10000x1 (Scalar.ofBits (F := Ideal) .f32 0x3F800000#32) : FVec Ideal S10000x1 .f32)⟩]
        hc (ix2 r j) = feat65 h r j := by
  unfold feat65
  by_cases hj : j.val < 64
  · rw [dif_pos hj]
    exact pool_join_left h _ hc r (⟨j.val, hj⟩ : Fin 64)
  · rw [dif_neg hj]
    have hj' : j = (⟨64, by decide⟩ : Fin 65) := Fin.ext (by have := j.isLt; show j.val = 64; omega)
    subst hj'
    rw [pool_join_right]
    exact Ideal.ofBits_one_f32

theorem lhs_pool_0 (i : S64x65.Idx) (q : dot_S10000x64_S10000x65_S64x65_0_0_1_1_n_n.contr.Idx) :
    (dot_S10000x64_S10000x65_S64x65_0_0_1_1_n_n.lhsIdx i q 0).val = (q ⟨0, by decide⟩).val :=
  dot_S10000x64_S10000x65_S64x65_0_0_1_1_n_n.lhsIdx_val_of_single rfl i q
theorem lhs_pool_1 (i : S64x65.Idx) (q : dot_S10000x64_S10000x65_S64x65_0_0_1_1_n_n.contr.Idx) :
    (dot_S10000x64_S10000x65_S64x65_0_0_1_1_n_n.lhsIdx i q 1).val = (i 0).val := by
  unfold DotDims.lhsIdx
  rw [dif_neg (show ¬(1 : Fin S10000x64.rank) ∈ dot_S10000x64_S10000x65_S64x65_0_0_1_1_n_n.lhsBatch by decide), dif_pos (show (1 : Fin S10000x64.rank) ∈ dot_S10000x64_S10000x65_S64x65_0_0_1_1_n_n.lhsNonContracting by decide)]
  rfl
theorem rhs_pool_0 (i : S64x65.Idx) (q : dot_S10000x64_S10000x65_S64x65_0_0_1_1_n_n.contr.Idx) :
    (dot_S10000x64_S10000x65_S64x65_0_0_1_1_n_n.rhsIdx i q 0).val = (q ⟨0, by decide⟩).val :=
  dot_S10000x64_S10000x65_S64x65_0_0_1_1_n_n.rhsIdx_val_of_single rfl i q
theorem rhs_pool_1 (i : S64x65.Idx) (q : dot_S10000x64_S10000x65_S64x65_0_0_1_1_n_n.contr.Idx) :
    (dot_S10000x64_S10000x65_S64x65_0_0_1_1_n_n.rhsIdx i q 1).val = (i 1).val := by
  unfold DotDims.rhsIdx
  rw [dif_neg (show ¬(1 : Fin S10000x65.rank) ∈ dot_S10000x64_S10000x65_S64x65_0_0_1_1_n_n.rhsBatch by decide), dif_pos (show (1 : Fin S10000x65.rank) ∈ dot_S10000x64_S10000x65_S64x65_0_0_1_1_n_n.rhsNonContracting by decide)]
  rfl

theorem pool_matmul_ix2 {φ₁ φ₂ : FTy} (L : FVec Ideal S10000x64 φ₁) (R : FVec Ideal S10000x65 φ₂) (b : Fin 64) (j : Fin 65) :
    matmul dot_S10000x64_S10000x65_S64x65_0_0_1_1_n_n none L R (constant S64x65 .f32 0x00000000#32) (ix2 b j)
      = ∑ r : Fin 10000, L (ix2 r b) * R (ix2 r j) := by
  simp only [matmul]
  rw [Ideal.matmul_constant_zero_apply, ← Equiv.sum_comp (ValueIdx.contrEquiv1 dot_S10000x64_S10000x65_S64x65_0_0_1_1_n_n 10000 rfl rfl).symm]
  refine Finset.sum_congr rfl fun r _ => ?_
  have hr := ValueIdx.contrEquiv1_symm_val dot_S10000x64_S10000x65_S64x65_0_0_1_1_n_n 10000 rfl rfl r
  have el : dot_S10000x64_S10000x65_S64x65_0_0_1_1_n_n.lhsIdx (ix2 b j) ((ValueIdx.contrEquiv1 dot_S10000x64_S10000x65_S64x65_0_0_1_1_n_n 10000 rfl rfl).symm r) = ix2 r b := funext fun a => Fin.ext (by
    match a with
    | ⟨0, _⟩ => exact (lhs_pool_0 _ _).trans hr
    | ⟨1, _⟩ => exact lhs_pool_1 _ _)
  have er : dot_S10000x64_S10000x65_S64x65_0_0_1_1_n_n.rhsIdx (ix2 b j) ((ValueIdx.contrEquiv1 dot_S10000x64_S10000x65_S64x65_0_0_1_1_n_n 10000 rfl rfl).symm r) = ix2 r j := funext fun a => Fin.ext (by
    match a with
    | ⟨0, _⟩ => exact (rhs_pool_0 _ _).trans hr
    | ⟨1, _⟩ => exact rhs_pool_1 _ _)
  rw [el, er]

theorem pool_pay2_ix2 (ids : Vec Ideal S10000x1 .i32) (h : Vec Ideal S10000x64 .f32) (a : Vec Ideal S64x65 .f32)
    (b : Fin 64) (j : Fin 65) :
    k9_pay2 (F := Ideal) ids h a (ix2 b j)
      = a (ix2 b j) + ∑ r : Fin 10000,
          Cert.Spec.onehot (fun r : Fin 10000 => ids (ix2 r (0 : Fin 1))) r b.val * feat65 h r j := by
  unfold k9_pay2
  simp only [shapeCast_self]
  rw [addf_apply, pool_matmul_ix2]
  congr 1
  refine Finset.sum_congr rfl fun r _ => ?_
  rw [truncf_apply, truncf_apply, pool_member_ix2, pool_join_ix2, shapeCast_self]

theorem pool_pay2_sum_ix2 (ids : Vec Ideal S10000x1 .i32) (h : Vec Ideal S10000x64 .f32) (a : Vec Ideal S64x65 .f32)
    (b f : Fin 64) :
    k9_pay2 (F := Ideal) ids h a (ix2 b (⟨f.val, by omega⟩ : Fin 65))
      = a (ix2 b (⟨f.val, by omega⟩ : Fin 65)) + ∑ r : Fin 10000,
          Cert.Spec.onehot (fun r : Fin 10000 => ids (ix2 r (0 : Fin 1))) r b.val * h (ix2 r f) := by
  rw [pool_pay2_ix2]
  exact congrArg (a (ix2 b (⟨f.val, by omega⟩ : Fin 65)) + ·) (Finset.sum_congr rfl fun r _ => by rw [feat65_lt])

theorem pool_pay2_count_ix2 (ids : Vec Ideal S10000x1 .i32) (h : Vec Ideal S10000x64 .f32) (a : Vec Ideal S64x65 .f32)
    (b : Fin 64) :
    k9_pay2 (F := Ideal) ids h a (ix2 b (⟨64, by decide⟩ : Fin 65))
      = a (ix2 b (⟨64, by decide⟩ : Fin 65)) + ∑ r : Fin 10000,
          Cert.Spec.onehot (fun r : Fin 10000 => ids (ix2 r (0 : Fin 1))) r b.val * 1 := by
  rw [pool_pay2_ix2]
  exact congrArg (a (ix2 b (⟨64, by decide⟩ : Fin 65)) + ·) (Finset.sum_congr rfl fun r _ => by rw [feat65_last])

theorem pool_pay2_segSum (ids : Vec Ideal S10000x1 .i32) (h : Vec Ideal S10000x64 .f32) (a : Vec Ideal S64x65 .f32)
    (b f : Fin 64) :
    k9_pay2 (F := Ideal) ids h a (ix2 b (⟨f.val, by omega⟩ : Fin 65))
      = a (ix2 b (⟨f.val, by omega⟩ : Fin 65))
        + Cert.Spec.segSum (fun r : Fin 10000 => ids (ix2 r (0 : Fin 1))) (fun r j => h (ix2 r j)) b.val f := by
  rw [pool_pay2_sum_ix2, ← Cert.Spec.sum_onehot_mul]

theorem pool_pay2_segCount (ids : Vec Ideal S10000x1 .i32) (h : Vec Ideal S10000x64 .f32) (a : Vec Ideal S64x65 .f32)
    (b : Fin 64) :
    k9_pay2 (F := Ideal) ids h a (ix2 b (⟨64, by decide⟩ : Fin 65))
      = a (ix2 b (⟨64, by decide⟩ : Fin 65))
        + Cert.Spec.segCount (fun r : Fin 10000 => ids (ix2 r (0 : Fin 1))) b.val := by
  rw [pool_pay2_count_ix2, ← Cert.Spec.sum_onehot_mul_one]

theorem lhs_fc_0 (i : S64x10.Idx) (q : dot_S64x64_S64x10_S64x10_1_0_0_1_n_n.contr.Idx) :
    (dot_S64x64_S64x10_S64x10_1_0_0_1_n_n.lhsIdx i q 0).val = (i 0).val := by
  unfold DotDims.lhsIdx
  rw [dif_neg (show ¬(0 : Fin S64x64.rank) ∈ dot_S64x64_S64x10_S64x10_1_0_0_1_n_n.lhsBatch by decide), dif_pos (show (0 : Fin S64x64.rank) ∈ dot_S64x64_S64x10_S64x10_1_0_0_1_n_n.lhsNonContracting by decide)]
  rfl
theorem lhs_fc_1 (i : S64x10.Idx) (q : dot_S64x64_S64x10_S64x10_1_0_0_1_n_n.contr.Idx) :
    (dot_S64x64_S64x10_S64x10_1_0_0_1_n_n.lhsIdx i q 1).val = (q ⟨0, by decide⟩).val :=
  dot_S64x64_S64x10_S64x10_1_0_0_1_n_n.lhsIdx_val_of_single rfl i q
theorem rhs_fc_0 (i : S64x10.Idx) (q : dot_S64x64_S64x10_S64x10_1_0_0_1_n_n.contr.Idx) :
    (dot_S64x64_S64x10_S64x10_1_0_0_1_n_n.rhsIdx i q 0).val = (q ⟨0, by decide⟩).val :=
  dot_S64x64_S64x10_S64x10_1_0_0_1_n_n.rhsIdx_val_of_single rfl i q
theorem rhs_fc_1 (i : S64x10.Idx) (q : dot_S64x64_S64x10_S64x10_1_0_0_1_n_n.contr.Idx) :
    (dot_S64x64_S64x10_S64x10_1_0_0_1_n_n.rhsIdx i q 1).val = (i 1).val := by
  unfold DotDims.rhsIdx
  rw [dif_neg (show ¬(1 : Fin S64x10.rank) ∈ dot_S64x64_S64x10_S64x10_1_0_0_1_n_n.rhsBatch by decide), dif_pos (show (1 : Fin S64x10.rank) ∈ dot_S64x64_S64x10_S64x10_1_0_0_1_n_n.rhsNonContracting by decide)]
  rfl

theorem pool_fc_matmul_ix2 {φ₁ φ₂ : FTy} (L : FVec Ideal S64x64 φ₁) (R : FVec Ideal S64x10 φ₂) (b : Fin 64) (o : Fin 10) :
    matmul dot_S64x64_S64x10_S64x10_1_0_0_1_n_n none L R (constant S64x10 .f32 0x00000000#32) (ix2 b o)
      = ∑ f : Fin 64, L (ix2 b f) * R (ix2 f o) := by
  simp only [matmul]
  rw [Ideal.matmul_constant_zero_apply, ← Equiv.sum_comp (ValueIdx.contrEquiv1 dot_S64x64_S64x10_S64x10_1_0_0_1_n_n 64 rfl rfl).symm]
  refine Finset.sum_congr rfl fun f _ => ?_
  have hf := ValueIdx.contrEquiv1_symm_val dot_S64x64_S64x10_S64x10_1_0_0_1_n_n 64 rfl rfl f
  have el : dot_S64x64_S64x10_S64x10_1_0_0_1_n_n.lhsIdx (ix2 b o) ((ValueIdx.contrEquiv1 dot_S64x64_S64x10_S64x10_1_0_0_1_n_n 64 rfl rfl).symm f) = ix2 b f := funext fun a => Fin.ext (by
    match a with
    | ⟨0, _⟩ => exact lhs_fc_0 _ _
    | ⟨1, _⟩ => exact (lhs_fc_1 _ _).trans hf)
  have er : dot_S64x64_S64x10_S64x10_1_0_0_1_n_n.rhsIdx (ix2 b o) ((ValueIdx.contrEquiv1 dot_S64x64_S64x10_S64x10_1_0_0_1_n_n 64 rfl rfl).symm f) = ix2 f o := funext fun a => Fin.ext (by
    match a with
    | ⟨0, _⟩ => exact (rhs_fc_0 _ _).trans hf
    | ⟨1, _⟩ => exact rhs_fc_1 _ _)
  rw [el, er]

theorem pool_cnt_spread (c : FVec Ideal S64x1 .f32) (hb : S64x1.Broadcasts S64x64) (b f : Fin 64) :
    broadcastTo S64x64 c hb (ix2 b f) = c (ix2 b (0 : Fin 1)) :=
  broadcastTo_apply c hb (ix2 b f) (ix2 b (0 : Fin 1)) (fun a => by
    match a with
    | ⟨0, _⟩ => show b.val = if (64 : ℕ) = 1 then 0 else b.val; rw [if_neg (by decide)]
    | ⟨1, _⟩ => show (0 : ℕ) = if (1 : ℕ) = 1 then 0 else f.val; rw [if_pos rfl])

theorem pool_bias_spread (v : FVec Ideal S1x10 .f32) (hb : S1x10.Broadcasts S64x10) (b : Fin 64) (o : Fin 10) :
    broadcastTo S64x10 v hb (ix2 b o) = v (ix2 (0 : Fin 1) o) :=
  broadcastTo_apply v hb (ix2 b o) (ix2 (0 : Fin 1) o) (fun a => by
    match a with
    | ⟨0, _⟩ => show (0 : ℕ) = if (1 : ℕ) = 1 then 0 else b.val; rw [if_pos rfl]
    | ⟨1, _⟩ => show o.val = if (10 : ℕ) = 1 then 0 else o.val; rw [if_neg (by decide)])

theorem pool_pay3_ix2 (s : Vec Ideal S64x64 .f32) (cnt : Vec Ideal S64x1 .f32) (w : Vec Ideal S64x10 .f32)
    (bias : Vec Ideal S1x10 .f32) (b : Fin 64) (o : Fin 10) :
    k9_pay3 (F := Ideal) s cnt w bias (ix2 b o)
      = (∑ f : Fin 64, Ideal.div (s (ix2 b f)) (max (cnt (ix2 b (0 : Fin 1))) 1) * w (ix2 f o))
        + bias (ix2 (0 : Fin 1) o) := by
  unfold k9_pay3
  simp only [shapeCast_self]
  rw [addf_apply, pool_fc_matmul_ix2, pool_bias_spread]
  congr 1
  refine Finset.sum_congr rfl fun f _ => ?_
  rw [truncf_apply, truncf_apply, divf_apply, pool_cnt_spread, maximumf_apply]
  show Ideal.div (s (ix2 b f)) (max (cnt (ix2 b (0 : Fin 1))) (Ideal.ofBits .f32 0x3F800000#32)) * w (ix2 f o) = _
  rw [Ideal.ofBits_one_f32]

end Cert.KernelIdeal.HandVal

end
-- ==== Proof.Spec.Blocks.lean ====
import Idealize.ShloMosaic.PureOps.Ideal
import Mathlib.Algebra.BigOperators.Fin
import proofs.«406238_j58506044506835_1_alg».proof.Proof.Spec.PoolBridge

noncomputable section

namespace Cert.Spec

open scoped BigOperators

def blockRow {T M n : ℕ} (hn : T * M = n) (t : Fin T) (r : Fin M) : Fin n :=
  ⟨t.val * M + r.val, by
    have h1 : t.val * M + r.val < (t.val + 1) * M := by have := r.isLt; rw [Nat.add_mul, Nat.one_mul]; omega
    have h2 : (t.val + 1) * M ≤ T * M := Nat.mul_le_mul_right M t.isLt
    omega⟩

theorem sum_blocks {R : Type*} [AddCommMonoid R] {T M n : ℕ} (hn : T * M = n) (g : Fin n → R) :
    ∑ i : Fin n, g i = ∑ t : Fin T, ∑ r : Fin M, g (blockRow hn t r) := by
  subst hn
  rw [← Fintype.sum_prod_type']
  refine (Fintype.sum_equiv finProdFinEquiv _ _ fun p => ?_).symm
  congr 1
  refine Fin.ext ?_
  show p.1.val * M + p.2.val = p.2.val + M * p.1.val
  rw [Nat.mul_comm, Nat.add_comm]

theorem segSum_blocks {T M n d : ℕ} (hn : T * M = n) (ids : Fin n → BitVec 32) (h : Fin n → Fin d → EReal)
    (b : ℕ) (f : Fin d) :
    segSum ids h b f
      = ∑ t : Fin T, segSum (fun r : Fin M => ids (blockRow hn t r)) (fun r j => h (blockRow hn t r) j) b f := by
  unfold segSum
  exact sum_blocks hn _

theorem segCount_blocks {T M n : ℕ} (hn : T * M = n) (ids : Fin n → BitVec 32) (b : ℕ) :
    segCount ids b = ∑ t : Fin T, segCount (fun r : Fin M => ids (blockRow hn t r)) b := by
  unfold segCount
  exact sum_blocks hn _

theorem run_eq_sum {T : ℕ} (a : ℕ → EReal) (g : Fin T → EReal) (h0 : a 0 = 0)
    (hs : ∀ t : Fin T, a (t.val + 1) = a t.val + g t) : a T = ∑ t : Fin T, g t := by
  induction T with
  | zero => simpa using h0
  | succ k ih =>
    rw [Fin.sum_univ_castSucc]
    have hk := hs (Fin.last k)
    rw [Fin.val_last] at hk
    rw [hk, ih (fun t => g t.castSucc) (fun t => hs t.castSucc)]

end Cert.Spec

end
-- ==== Proof.Val.R9Val.lean ====
import proofs.«406238_j58506044506835_1_alg».proof.Proof.KI.R9
import proofs.«406238_j58506044506835_1_alg».proof.Proof.Val.PoolPay
import proofs.«406238_j58506044506835_1_alg».proof.Proof.Spec.Blocks
import Idealize.ShloMosaic.Lib.Pipeline.Value
import Idealize.ShloMosaic.Lib.ValueIdx
import Idealize.ShloMosaic.PureOps.Ideal

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation cellOf)
open scoped BigOperators

section Generic

variable {F : FTy → Type} [FloatOps F]
variable (V : (c : Dev nD) → (b : Ref sig .tc) → Buf (Elt F) ((c : Thread nD τ).loc b))

abbrev harr9 (c : Dev nD) : Vec F S100000x64 .f32 := V c main_v104
abbrev idarr9 (c : Dev nD) : Vec F S100000x1 .i32 := V c main_v105
abbrev warr9 (c : Dev nD) : Vec F S64x10 .f32 := V c main_arg15
abbrev barr9 (c : Dev nD) : Vec F S1x10 .f32 := V c main_v106

abbrev result9 (c : Dev nD) : Buf (Elt F) ((c : Thread nD τ).loc main_v107) := out9 V c t9_9

theorem flushed9_4 (c : Dev nD) (t : Fin cfg9.N) (hf : (cfg9.win 4).flush t = true) :
    (dat9 V c).flushed 4 t = ((cfg9.win 4).blk t).view.read (Elt F) (result9 V c) := by
  have hN : cfg9.N = 10 := N_9
  have hlast : t.val = 9 := by have := (flush9_4 t).mp hf; have := t.isLt; omega
  obtain rfl : t = t9_9 := Fin.ext hlast
  show (cfg9.win 4).cut (grid9.coords t9_9) ((dat9 V c).after 4 t9_9) = _
  rw [after9_4]
  have hoff : (fun a => win9_4.index t9_9 a * main_v107.ty.shape.size a) = fun _ => 0 :=
    funext fun a => by fin_cases a <;> decide
  exact (Memref.read_access_unit_zero (Elt F) main_v107 hoff (fun a => by rw [congrFun hoff a]; simp) (result9 V c)).symm

theorem mem_block9_4 (c : Dev nD) (i : ((cfg9.win 4).arr.view.loc (c.tc : Thread nD τ)).2.ty.Idx) :
    i ∈ ((cfg9.win 4).blk t9_9).view.set := by
  show i ∈ ((View.whole main_v107).slice (win9_4.rect t9_9)).set
  rw [View.set_slice_whole, Rect.mem_set_unit]
  have hlo : ∀ a, win9_4.index t9_9 a * win9_4.size a = 0 := by decide +kernel
  have hsz : ∀ a, win9_4.xsize (grid9.coords t9_9) a = main_v107.ty.shape.size a := by decide +kernel
  intro a
  show win9_4.index t9_9 a * win9_4.size a ≤ (i a : Nat) ∧ (i a : Nat) < win9_4.index t9_9 a * win9_4.size a + win9_4.xsize (grid9.coords t9_9) a
  rw [hlo a, hsz a]
  exact ⟨Nat.zero_le _, by rw [Nat.zero_add]; exact (i a).isLt⟩

theorem final9_4 (c : Dev nD) : (dat9 V c).arrAt 4 cfg9.N = result9 V c :=
  (dat9 V c).arrAt_eq_of_cover 4 (result9 V c) (flushed9_4 V c) fun i =>
    ⟨t9_9, (flush9_4 t9_9).mpr rfl, mem_block9_4 c i⟩

theorem index9_0 : ∀ t : Fin cfg9.N, win9_0.index t 0 = t.val ∧ win9_0.index t 1 = 0 :=
  (by decide +kernel : ∀ t : Fin grid9.N, win9_0.index t 0 = t.val ∧ win9_0.index t 1 = 0)
theorem index9_1 : ∀ t : Fin cfg9.N, win9_1.index t 0 = t.val ∧ win9_1.index t 1 = 0 :=
  (by decide +kernel : ∀ t : Fin grid9.N, win9_1.index t 0 = t.val ∧ win9_1.index t 1 = 0)
theorem index9_2 : ∀ t : Fin cfg9.N, win9_2.index t 0 = 0 ∧ win9_2.index t 1 = 0 :=
  (by decide +kernel : ∀ t : Fin grid9.N, win9_2.index t 0 = 0 ∧ win9_2.index t 1 = 0)
theorem index9_3 : ∀ t : Fin cfg9.N, win9_3.index t 0 = 0 ∧ win9_3.index t 1 = 0 :=
  (by decide +kernel : ∀ t : Fin grid9.N, win9_3.index t 0 = 0 ∧ win9_3.index t 1 = 0)

theorem hblk9_apply (c : Dev nD) (t : Fin cfg9.N) (r : Fin 10000) (f : Fin 64) (hrow : t.val * 10000 + r.val < 100000) :
    hblk9 V c t (ix2 r f) = harr9 V c (ix2 (⟨t.val * 10000 + r.val, hrow⟩ : Fin 100000) f) := by
  show iblk9 V c 0 t (ix2 r f) = _
  unfold iblk9
  rw [View.read_apply]
  show V c main_v104 _ = V c main_v104 _
  congr 1
  funext a
  apply Fin.ext
  match a with
  | ⟨0, _⟩ => show win9_0.index t 0 * 10000 + 1 * r.val = t.val * 10000 + r.val; rw [(index9_0 t).1]; omega
  | ⟨1, _⟩ => show win9_0.index t 1 * 64 + 1 * f.val = f.val; rw [(index9_0 t).2]; omega

theorem idblk9_apply (c : Dev nD) (t : Fin cfg9.N) (r : Fin 10000) (hrow : t.val * 10000 + r.val < 100000) :
    idblk9 V c t (ix2 r (0 : Fin 1)) = idarr9 V c (ix2 (⟨t.val * 10000 + r.val, hrow⟩ : Fin 100000) (0 : Fin 1)) := by
  show iblk9 V c 1 t (ix2 r (0 : Fin 1)) = _
  unfold iblk9
  rw [View.read_apply]
  show V c main_v105 _ = V c main_v105 _
  congr 1
  funext a
  apply Fin.ext
  match a with
  | ⟨0, _⟩ => show win9_1.index t 0 * 10000 + 1 * r.val = t.val * 10000 + r.val; rw [(index9_1 t).1]; omega
  | ⟨1, _⟩ => show win9_1.index t 1 * 1 + 1 * 0 = 0; rw [(index9_1 t).2]

theorem wblk9_eq (c : Dev nD) (t : Fin cfg9.N) : wblk9 V c t = warr9 V c := by
  funext j
  obtain ⟨p, q, rfl⟩ : ∃ p q, j = ix2 p q := ⟨j 0, j 1, eq_ix2 j⟩
  show iblk9 V c 2 t (ix2 p q) = _
  unfold iblk9
  rw [View.read_apply]
  show V c main_arg15 _ = V c main_arg15 _
  congr 1
  funext a
  apply Fin.ext
  match a with
  | ⟨0, _⟩ => show win9_2.index t 0 * 64 + 1 * p.val = p.val; rw [(index9_2 t).1]; omega
  | ⟨1, _⟩ => show win9_2.index t 1 * 10 + 1 * q.val = q.val; rw [(index9_2 t).2]; omega

theorem bblk9_eq (c : Dev nD) (t : Fin cfg9.N) : bblk9 V c t = barr9 V c := by
  funext j
  obtain ⟨p, q, rfl⟩ : ∃ p q, j = ix2 p q := ⟨j 0, j 1, eq_ix2 j⟩
  show iblk9 V c 3 t (ix2 p q) = _
  unfold iblk9
  rw [View.read_apply]
  show V c main_v106 _ = V c main_v106 _
  congr 1
  funext a
  apply Fin.ext
  match a with
  | ⟨0, _⟩ => show win9_3.index t 0 * 1 + 1 * p.val = p.val; rw [(index9_3 t).1]; omega
  | ⟨1, _⟩ => show win9_3.index t 1 * 10 + 1 * q.val = q.val; rw [(index9_3 t).2]; omega

theorem ld_rS9 (A : Vec F S64x65 .f32) (b : Fin 64) (f : Fin 64) :
    View.ld A rS9 (ix2 b f) = A (ix2 b (⟨f.val, by have := f.isLt; omega⟩ : Fin 65)) := by
  show A _ = A _
  congr 1
  funext a
  apply Fin.ext
  match a with
  | ⟨0, _⟩ => show 0 + 1 * b.val = b.val; omega
  | ⟨1, _⟩ => show 0 + 1 * f.val = f.val; omega

theorem ld_rC9 (A : Vec F S64x65 .f32) (b : Fin 64) :
    View.ld A rC9 (ix2 b (0 : Fin 1)) = A (ix2 b (⟨64, by decide⟩ : Fin 65)) := by
  show A _ = A _
  congr 1
  funext a
  apply Fin.ext
  match a with
  | ⟨0, _⟩ => show 0 + 1 * b.val = b.val; omega
  | ⟨1, _⟩ => show 64 + 1 * 0 = 64; rfl

end Generic

section AtIdeal

variable (V : (c : Dev nD) → (b : Ref sig .tc) → Buf (Elt Ideal) ((c : Thread nD τ).loc b))

def ids9 (c : Dev nD) : Fin 100000 → BitVec 32 := fun i => idarr9 V c (ix2 i (0 : Fin 1))
def feat9 (c : Dev nD) : Fin 100000 → Fin 64 → EReal := fun i f => harr9 V c (ix2 i f)

theorem rows9 : cfg9.N * 10000 = 100000 := by rw [show cfg9.N = 10 from N_9]

theorem idblk9_rows (c : Dev nD) (t : Fin cfg9.N) :
    (fun r : Fin 10000 => idblk9 V c t (ix2 r (0 : Fin 1))) = fun r => ids9 V c (Cert.Spec.blockRow rows9 t r) := by
  funext r
  exact idblk9_apply V c t r (Cert.Spec.blockRow rows9 t r).isLt

theorem hblk9_rows (c : Dev nD) (t : Fin cfg9.N) :
    (fun (r : Fin 10000) (j : Fin 64) => hblk9 V c t (ix2 r j)) = fun r j => feat9 V c (Cert.Spec.blockRow rows9 t r) j := by
  funext r j
  exact hblk9_apply V c t r j (Cert.Spec.blockRow rows9 t r).isLt

theorem acc9_sums (c : Dev nD) (b f : Fin 64) :
    acc9 V c cfg9.N (ix2 b (⟨f.val, by have := f.isLt; omega⟩ : Fin 65)) = Cert.Spec.segSum (ids9 V c) (feat9 V c) b.val f := by
  rw [Cert.Spec.segSum_blocks rows9]
  refine Cert.Spec.run_eq_sum (fun n => acc9 V c n (ix2 b (⟨f.val, by have := f.isLt; omega⟩ : Fin 65))) _
    (pool_pay1_ix2 b _) fun t => ?_
  show acc9 V c (t.val + 1) (ix2 b _) = acc9 V c t.val (ix2 b _) + _
  rw [acc9_succ]
  unfold step9
  rw [pool_pay2_segSum, idblk9_rows, hblk9_rows]

theorem acc9_counts (c : Dev nD) (b : Fin 64) :
    acc9 V c cfg9.N (ix2 b (⟨64, by decide⟩ : Fin 65)) = Cert.Spec.segCount (ids9 V c) b.val := by
  rw [Cert.Spec.segCount_blocks rows9]
  refine Cert.Spec.run_eq_sum (fun n => acc9 V c n (ix2 b (⟨64, by decide⟩ : Fin 65))) _
    (pool_pay1_ix2 b _) fun t => ?_
  show acc9 V c (t.val + 1) (ix2 b _) = acc9 V c t.val (ix2 b _) + _
  rw [acc9_succ]
  unfold step9
  rw [pool_pay2_segCount, idblk9_rows]

theorem result9_apply (c : Dev nD) (b : Fin 64) (o : Fin 10) :
    result9 V c (ix2 b o)
      = (∑ f : Fin 64, Ideal.div (Cert.Spec.segSum (ids9 V c) (feat9 V c) b.val f)
            (max (Cert.Spec.segCount (ids9 V c) b.val) 1) * warr9 V c (ix2 f o))
        + barr9 V c (ix2 (0 : Fin 1) o) := by
  show out9 V c t9_9 (ix2 b o) = _
  unfold out9
  have hlast : t9_9.val + 1 = cfg9.N := by rw [show cfg9.N = 10 from N_9]; rfl
  rw [pool_pay3_ix2, ld_rC9, wblk9_eq, bblk9_eq, hlast, acc9_counts]
  refine congrArg (fun x : EReal => x + barr9 V c (ix2 (0 : Fin 1) o)) ?_
  refine Finset.sum_congr rfl fun f _ => ?_
  rw [ld_rS9, acc9_sums]

end AtIdeal

end Cert.KernelIdeal.HandVal

end
-- ==== Proof.Spec.BatchNorm.lean ====
import Idealize.ShloMosaic.PureOps.Ideal
import Idealize.ShloMosaic.PureOps.Ideal.Laws

noncomputable section

namespace Cert.Spec

open Idealize.ShloMosaic
open scoped BigOperators

abbrev IsReal (x : EReal) : Prop := ∃ r : ℝ, x = (r : EReal)

theorem isReal_zero : IsReal (0 : EReal) := ⟨0, EReal.coe_zero.symm⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem coe_max (a b : ℝ) : ((max a b : ℝ) : EReal) = max (a : EReal) (b : EReal) :=
  EReal.coe_strictMono.monotone.map_max

theorem isReal_max {x y : EReal} (hx : IsReal x) (hy : IsReal y) : IsReal (max x y) := by
  obtain ⟨a, rfl⟩ := hx; obtain ⟨b, rfl⟩ := hy; exact ⟨max a b, (coe_max a b).symm⟩

theorem isReal_max_zero {x : EReal} (hx : IsReal x) : IsReal (max x 0) := isReal_max hx isReal_zero

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_sum_mul {ι : Type*} (s : Finset ι) (f g : ι → EReal)
    (hf : ∀ i ∈ s, IsReal (f i)) (hg : ∀ i ∈ s, IsReal (g i)) : IsReal (∑ i ∈ s, f i * g i) :=
  isReal_sum s _ fun i hi => isReal_mul (hf i hi) (hg i hi)

theorem isReal_sum_univ_mul {ι : Type*} [Fintype ι] (f g : ι → EReal)
    (hf : ∀ i, IsReal (f i)) (hg : ∀ i, IsReal (g i)) : IsReal (∑ i, f i * g i) :=
  isReal_sum_mul _ f g (fun i _ => hf i) (fun i _ => hg i)

theorem sum_one_eq_card {ι : Type*} (s : Finset ι) : (∑ _i ∈ s, (1 : EReal)) = ((s.card : ℝ) : EReal) := by
  rw [← EReal.coe_one, ← coe_sum]; simp

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem rsqrt_pos_real {x : EReal} {r : ℝ} (hx : x = (r : EReal)) (hr : 0 < r) :
    ∃ s : ℝ, 0 < s ∧ Ideal.rsqrt x = (s : EReal) := by
  subst hx
  exact ⟨(Real.sqrt r)⁻¹, inv_pos.mpr (Real.sqrt_pos.mpr hr), rsqrt_coe_pos hr⟩

theorem rsqrt_real_of_one_le {x : EReal} {r : ℝ} (hx : x = (r : EReal)) (hr : 1 ≤ r) :
    ∃ s : ℝ, 0 < s ∧ Ideal.rsqrt x = (s : EReal) :=
  rsqrt_pos_real hx (lt_of_lt_of_le one_pos hr)

theorem isReal_rsqrt_of_pos {x : EReal} {r : ℝ} (hx : x = (r : EReal)) (hr : 0 < r) : IsReal (Ideal.rsqrt x) := by
  obtain ⟨s, _, hs⟩ := rsqrt_pos_real hx hr; exact ⟨s, hs⟩

variable {n d : ℕ}

def addRow (x : Fin n → Fin d → EReal) (b : Fin d → EReal) : Fin n → Fin d → EReal :=
  fun i j => x i j + b j

def colSum (y : Fin n → Fin d → EReal) (j : Fin d) : EReal := ∑ i : Fin n, y i j
def colSumSq (y : Fin n → Fin d → EReal) (j : Fin d) : EReal := ∑ i : Fin n, y i j * y i j

def bnMean (y : Fin n → Fin d → EReal) (c : EReal) (j : Fin d) : EReal := Ideal.div (colSum y j) c

def bnVarKernel (y : Fin n → Fin d → EReal) (c : EReal) (j : Fin d) : EReal :=
  Ideal.div (colSumSq y j) c - bnMean y c j * bnMean y c j

def bnVarReference (y : Fin n → Fin d → EReal) (c : EReal) (j : Fin d) : EReal :=
  Ideal.div (∑ i : Fin n, (y i j - bnMean y c j) * (y i j - bnMean y c j)) c

def bnApply (y : Fin n → Fin d → EReal) (mean var g be : Fin d → EReal) (eps : EReal) :
    Fin n → Fin d → EReal :=
  fun i j => max (((y i j - mean j) * Ideal.rsqrt (var j + eps)) * g j + be j) 0

def bnKernel (y : Fin n → Fin d → EReal) (g be : Fin d → EReal) (eps c : EReal) : Fin n → Fin d → EReal :=
  bnApply y (bnMean y c) (bnVarKernel y c) g be eps

def bnReference (y : Fin n → Fin d → EReal) (g be : Fin d → EReal) (eps c : EReal) : Fin n → Fin d → EReal :=
  bnApply y (bnMean y c) (bnVarReference y c) g be eps

theorem real_var_identity {N : ℝ} (hN : N ≠ 0) (r : Fin n → ℝ) (hcard : (n : ℝ) = N) :
    (∑ i, (r i - (∑ i, r i) / N) * (r i - (∑ i, r i) / N)) / N
      = (∑ i, r i * r i) / N - ((∑ i, r i) / N) * ((∑ i, r i) / N) := by
  set S : ℝ := ∑ i, r i with hS
  have hexp : ∑ i, (r i - S / N) * (r i - S / N)
      = (∑ i, r i * r i) - 2 * (S / N) * S + N * ((S / N) * (S / N)) := by
    have h1 : ∀ i, (r i - S / N) * (r i - S / N)
        = r i * r i - 2 * (S / N) * r i + (S / N) * (S / N) := fun i => by ring
    rw [Finset.sum_congr rfl fun i _ => h1 i, Finset.sum_add_distrib, Finset.sum_sub_distrib,
      ← Finset.mul_sum, Finset.sum_const, Finset.card_univ, Fintype.card_fin, nsmul_eq_mul, hcard]
  rw [hexp]
  field_simp
  ring

theorem real_var_nonneg {N : ℝ} (hN : 0 < N) (r : Fin n → ℝ) (m : ℝ) :
    0 ≤ (∑ i, (r i - m) * (r i - m)) / N :=
  div_nonneg (Finset.sum_nonneg fun i _ => mul_self_nonneg _) hN.le

section Coe
variable (r : Fin n → Fin d → ℝ) (N : ℝ) (j : Fin d)

theorem colSum_coe : colSum (fun i j => (r i j : EReal)) j = ((∑ i, r i j : ℝ) : EReal) := by
  unfold colSum; rw [coe_sum]

theorem colSumSq_coe : colSumSq (fun i j => (r i j : EReal)) j = ((∑ i, r i j * r i j : ℝ) : EReal) := by
  unfold colSumSq; rw [coe_sum]
  exact Finset.sum_congr rfl fun i _ => (EReal.coe_mul _ _).symm

theorem bnMean_coe (hN : N ≠ 0) :
    bnMean (fun i j => (r i j : EReal)) (N : EReal) j = (((∑ i, r i j) / N : ℝ) : EReal) := by
  unfold bnMean; rw [colSum_coe, div_coe_coe _ hN]

theorem bnVarKernel_coe (hN : N ≠ 0) :
    bnVarKernel (fun i j => (r i j : EReal)) (N : EReal) j
      = (((∑ i, r i j * r i j) / N - ((∑ i, r i j) / N) * ((∑ i, r i j) / N) : ℝ) : EReal) := by
  unfold bnVarKernel
  rw [colSumSq_coe, bnMean_coe r N j hN, div_coe_coe _ hN, ← EReal.coe_mul, ← EReal.coe_sub]

theorem bnVarReference_coe (hN : N ≠ 0) :
    bnVarReference (fun i j => (r i j : EReal)) (N : EReal) j
      = (((∑ i, (r i j - (∑ i, r i j) / N) * (r i j - (∑ i, r i j) / N)) / N : ℝ) : EReal) := by
  unfold bnVarReference
  rw [bnMean_coe r N j hN]
  have : (∑ i : Fin n, ((r i j : EReal) - (((∑ i, r i j) / N : ℝ) : EReal)) * ((r i j : EReal) - (((∑ i, r i j) / N : ℝ) : EReal)))
      = ((∑ i, (r i j - (∑ i, r i j) / N) * (r i j - (∑ i, r i j) / N) : ℝ) : EReal) := by
    rw [coe_sum]
    exact Finset.sum_congr rfl fun i _ => by rw [← EReal.coe_sub, ← EReal.coe_mul]
  rw [this, div_coe_coe _ hN]

end Coe

theorem exists_real_array {y : Fin n → Fin d → EReal} (hy : ∀ i j, IsReal (y i j)) :
    ∃ r : Fin n → Fin d → ℝ, y = fun i j => (r i j : EReal) := by
  choose r hr using hy
  exact ⟨r, funext fun i => funext fun j => hr i j⟩

theorem natCast_ne_zero_real (hn : n ≠ 0) : ((n : ℝ)) ≠ 0 := Nat.cast_ne_zero.mpr hn

theorem bnMean_real (y : Fin n → Fin d → EReal) (c : EReal)
    (hy : ∀ i j, IsReal (y i j)) (hn : n ≠ 0) (hc : c = ((n : ℝ) : EReal)) :
    ∀ j, IsReal (bnMean y c j) := by
  obtain ⟨r, rfl⟩ := exists_real_array hy
  subst hc
  exact fun j => ⟨_, bnMean_coe r _ j (natCast_ne_zero_real hn)⟩

theorem bnVar_agree (y : Fin n → Fin d → EReal) (c : EReal)
    (hy : ∀ i j, IsReal (y i j)) (hn : n ≠ 0) (hc : c = ((n : ℝ) : EReal)) :
    bnVarKernel y c = bnVarReference y c := by
  obtain ⟨r, rfl⟩ := exists_real_array hy
  subst hc
  have hN : ((n : ℝ)) ≠ 0 := natCast_ne_zero_real hn
  funext j
  rw [bnVarKernel_coe r _ j hN, bnVarReference_coe r _ j hN,
    real_var_identity hN (fun i => r i j) rfl]

theorem bnVarReference_nonneg (y : Fin n → Fin d → EReal) (c : EReal)
    (hy : ∀ i j, IsReal (y i j)) (hn : n ≠ 0) (hc : c = ((n : ℝ) : EReal)) :
    ∀ j, ∃ v : ℝ, 0 ≤ v ∧ bnVarReference y c j = (v : EReal) := by
  obtain ⟨r, rfl⟩ := exists_real_array hy
  subst hc
  have hN : ((n : ℝ)) ≠ 0 := natCast_ne_zero_real hn
  have hpos : (0 : ℝ) < (n : ℝ) := Nat.cast_pos.mpr (Nat.pos_of_ne_zero hn)
  exact fun j => ⟨_, real_var_nonneg hpos (fun i => r i j) _, bnVarReference_coe r _ j hN⟩

theorem bnApply_real (y : Fin n → Fin d → EReal) (mean var g be : Fin d → EReal) (eps : EReal)
    (hy : ∀ i j, IsReal (y i j)) (hmean : ∀ j, IsReal (mean j))
    (hvar : ∀ j, ∃ v : ℝ, 0 ≤ v ∧ var j = (v : EReal))
    (hg : ∀ j, IsReal (g j)) (hbe : ∀ j, IsReal (be j))
    (heps : ∃ e : ℝ, 0 < e ∧ eps = (e : EReal)) :
    ∀ i j, IsReal (bnApply y mean var g be eps i j) := by
  intro i j
  obtain ⟨e, he, rfl⟩ := heps
  obtain ⟨v, hv, hvj⟩ := hvar j
  have hrs : IsReal (Ideal.rsqrt (var j + (e : EReal))) :=
    isReal_rsqrt_of_pos (r := v + e) (by rw [hvj, EReal.coe_add]) (add_pos_of_nonneg_of_pos hv he)
  exact isReal_max_zero
    (isReal_add (isReal_mul (isReal_mul (isReal_sub (hy i j) (hmean j)) hrs) (hg j)) (hbe j))

theorem bn_agree (y : Fin n → Fin d → EReal) (g be : Fin d → EReal) (eps c : EReal)
    (hy : ∀ i j, IsReal (y i j)) (hn : n ≠ 0) (hc : c = ((n : ℝ) : EReal)) :
    bnKernel y g be eps c = bnReference y g be eps c := by
  unfold bnKernel bnReference
  rw [bnVar_agree y c hy hn hc]

theorem bn_real (y : Fin n → Fin d → EReal) (g be : Fin d → EReal) (eps c : EReal)
    (hy : ∀ i j, IsReal (y i j)) (hg : ∀ j, IsReal (g j)) (hbe : ∀ j, IsReal (be j))
    (heps : ∃ e : ℝ, 0 < e ∧ eps = (e : EReal)) (hn : n ≠ 0) (hc : c = ((n : ℝ) : EReal)) :
    ∀ i j, IsReal (bnReference y g be eps c i j) :=
  bnApply_real y _ _ g be eps hy (bnMean_real y c hy hn hc) (bnVarReference_nonneg y c hy hn hc) hg hbe heps

theorem ofBits_count : Ideal.ofBits .f32 0x47C35000#32 = (((100000 : ℕ) : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(2 ^ 23 + 2606508 : ℕ) * (2 : ℝ) ^ ((110 : ℤ) - 127 - 23), by positivity, ?_⟩
  simp [Ideal.ofBits, Ideal.ieee, -EReal.coe_mul]

end Cert.Spec
-- ==== Proof.Val.Tail.lean ====
import proofs.«406238_j58506044506835_1_alg».proof.Proof.KI.Keep
import proofs.«406238_j58506044506835_1_alg».proof.Proof.Spec.BatchNorm
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem W16_main_arg2 : W16 m ρ c (Proc.devRef .tc main_arg2) = m ((c : Thread nD τ).loc main_arg2) :=
  (keep16 m ρ c main_arg2 (by decide)).trans <| (keep15 m ρ c main_arg2 (by decide)).trans <| (keep14 m ρ c main_arg2 (by decide)).trans <| (keep13 m ρ c main_arg2 (by decide)).trans <| (keep12 m ρ c main_arg2 (by decide)).trans <| (keep11 m ρ c main_arg2 (by decide)).trans <| (keep10 m ρ c main_arg2 (by decide)).trans <| (keep9 m ρ c main_arg2 (by decide)).trans <| (keep8 m ρ c main_arg2 (by decide)).trans <| (keep7 m ρ c main_arg2 (by decide)).trans <| (keep6 m ρ c main_arg2 (by decide)).trans <| (keep5 m ρ c main_arg2 (by decide)).trans <| (keep4 m ρ c main_arg2 (by decide)).trans <| (keep3 m ρ c main_arg2 (by decide)).trans <| (keep2 m ρ c main_arg2 (by decide)).trans <| (keep1 m ρ c main_arg2 (by decide)).trans rfl
theorem W16_main_arg16 : W16 m ρ c (Proc.devRef .tc main_arg16) = m ((c : Thread nD τ).loc main_arg16) :=
  (keep16 m ρ c main_arg16 (by decide)).trans <| (keep15 m ρ c main_arg16 (by decide)).trans <| (keep14 m ρ c main_arg16 (by decide)).trans <| (keep13 m ρ c main_arg16 (by decide)).trans <| (keep12 m ρ c main_arg16 (by decide)).trans <| (keep11 m ρ c main_arg16 (by decide)).trans <| (keep10 m ρ c main_arg16 (by decide)).trans <| (keep9 m ρ c main_arg16 (by decide)).trans <| (keep8 m ρ c main_arg16 (by decide)).trans <| (keep7 m ρ c main_arg16 (by decide)).trans <| (keep6 m ρ c main_arg16 (by decide)).trans <| (keep5 m ρ c main_arg16 (by decide)).trans <| (keep4 m ρ c main_arg16 (by decide)).trans <| (keep3 m ρ c main_arg16 (by decide)).trans <| (keep2 m ρ c main_arg16 (by decide)).trans <| (keep1 m ρ c main_arg16 (by decide)).trans rfl
theorem W17_main_arg15 : W17 m ρ c (Proc.devRef .tc main_arg15) = m ((c : Thread nD τ).loc main_arg15) :=
  (keep17 m ρ c main_arg15 (by decide)).trans <| (keep16 m ρ c main_arg15 (by decide)).trans <| (keep15 m ρ c main_arg15 (by decide)).trans <| (keep14 m ρ c main_arg15 (by decide)).trans <| (keep13 m ρ c main_arg15 (by decide)).trans <| (keep12 m ρ c main_arg15 (by decide)).trans <| (keep11 m ρ c main_arg15 (by decide)).trans <| (keep10 m ρ c main_arg15 (by decide)).trans <| (keep9 m ρ c main_arg15 (by decide)).trans <| (keep8 m ρ c main_arg15 (by decide)).trans <| (keep7 m ρ c main_arg15 (by decide)).trans <| (keep6 m ρ c main_arg15 (by decide)).trans <| (keep5 m ρ c main_arg15 (by decide)).trans <| (keep4 m ρ c main_arg15 (by decide)).trans <| (keep3 m ρ c main_arg15 (by decide)).trans <| (keep2 m ρ c main_arg15 (by decide)).trans <| (keep1 m ρ c main_arg15 (by decide)).trans rfl

theorem W17_ids_eq : (W17 m ρ c (Proc.devRef .tc main_v105) : IVec S100000x1 32)
    = shapeCast S100000x1 (W16 m ρ c (Proc.devRef .tc main_arg2) : IVec S100000 32) shapeCasts_S100000_S100000x1 := by
  show StableHlo.after hostOps9 _ (Proc.devRef .tc main_v105) = _
  after_results
  rfl

theorem W17_fcb_eq : (W17 m ρ c (Proc.devRef .tc main_v106) : FVec Ideal S1x10 .f32)
    = shapeCast S1x10 (W16 m ρ c (Proc.devRef .tc main_arg16) : FVec Ideal S10 .f32) shapeCasts_S10_S1x10 := by
  show StableHlo.after hostOps9 _ (Proc.devRef .tc main_v106) = _
  after_results
  rfl

theorem W17_ids (i : Fin 100000) : (W17 m ρ c (Proc.devRef .tc main_v105) : IVec S100000x1 32) (ix2 i 0)
    = (m ((c : Thread nD τ).loc main_arg2) : IVec S100000 32) (ix1 i) := by
  rw [W17_ids_eq]
  refine (shapeCast_a_a1_apply (a := 100000) _ _ i 0).trans ?_
  rw [W16_main_arg2]

theorem W17_fcb (o : Fin 10) : (W17 m ρ c (Proc.devRef .tc main_v106) : FVec Ideal S1x10 .f32) (ix2 0 o)
    = (m ((c : Thread nD τ).loc main_arg16) : FVec Ideal S10 .f32) (ix1 o) := by
  rw [W17_fcb_eq]
  refine (shapeCast_a_1a_apply (a := 10) _ _ 0 o).trans ?_
  rw [W16_main_arg16]

theorem W17_feat : W17 m ρ c (Proc.devRef .tc main_v104) = W16 m ρ c (Proc.devRef .tc main_v104) :=
  keep17 m ρ c main_v104 (by decide)

end Cert.KernelIdeal.HandVal

end
-- ==== Proof.Val.HostFns.lean ====
import proofs.«406238_j58506044506835_1_alg».proof.Proof.Gen.KernelIdeal
import Idealize.ShloMosaic.PureOps.Ideal

set_option maxRecDepth 16384

noncomputable section

namespace Cert.KernelIdeal.HandVal

open Cert.KernelIdeal Cert.KernelIdeal.Gen
open Idealize.ShloMosaic Idealize.SL.Sem

abbrev EdgeIn : Type := IVec S2x1600000 32

abbrev MsgIx : Type := IVec S1700000 32

abbrev MsgW : Type := FVec Ideal S1700000 .f32

def srcIdx (e : EdgeIn) : MsgIx :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

def dstIdx (e : EdgeIn) : MsgIx :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

def wrapIdx (i : MsgIx) : MsgIx :=
  select (cmpi .slt i (broadcastInDim S1700000 ![] bcast_S_S1700000 (constantI S_ 32 0#32)))
    (addi i (broadcastInDim S1700000 ![] bcast_S_S1700000 (constantI S_ 32 100000#32))) i

def asCol {α : Type} (i : S1700000.Idx → α) : S1700000x1.Idx → α :=
  broadcastInDim S1700000x1 ![0] bcast_S1700000_S1700000x1_0 i

def invSqrtDeg (e : EdgeIn) : FVec Ideal S100000 .f32 :=
  Host.rsqrt (F := Ideal) (Host.scatterAdd (F := Ideal) scatter_S100000_S1700000x1_S1700000_n_0_0_1
    (broadcastInDim S100000 ![] bcast_S_S100000 (constant (F := Ideal) S_ .f32 0x00000000#32))
    (asCol (dstIdx e))
    (broadcastInDim S1700000 ![] bcast_S_S1700000 (constant (F := Ideal) S_ .f32 0x3F800000#32)))

def edgeNorm (e : EdgeIn) : MsgW :=
  mulf (F := Ideal) (Host.gather gather_S100000_S1700000x1_S1700000_n_0_n_n_0_1_1 (invSqrtDeg e) (asCol (wrapIdx (srcIdx e))))
       (Host.gather gather_S100000_S1700000x1_S1700000_n_0_n_n_0_1_1 (invSqrtDeg e) (asCol (wrapIdx (dstIdx e))))

def aggOf16 (xw : FVec Ideal S100000x16 .f32) (e : EdgeIn) : FVec Ideal S100000x16 .f32 :=
  Host.scatterAdd (F := Ideal) scatter_S100000x16_S1700000x1_S1700000x16_1_0_0_1
    (broadcastInDim S100000x16 ![] bcast_S_S100000x16 (constant (F := Ideal) S_ .f32 0x00000000#32))
    (asCol (dstIdx e))
    (mulf (F := Ideal) (Host.gather gather_S100000x16_S1700000x1_S1700000x16_1_0_n_n_0_1_116 xw (asCol (wrapIdx (srcIdx e))))
          (broadcastInDim S1700000x16 ![0, 1] bcast_S1700000x1_S1700000x16_0_1 (asCol (edgeNorm e))))

def aggOf32 (xw : FVec Ideal S100000x32 .f32) (e : EdgeIn) : FVec Ideal S100000x32 .f32 :=
  Host.scatterAdd (F := Ideal) scatter_S100000x32_S1700000x1_S1700000x32_1_0_0_1
    (broadcastInDim S100000x32 ![] bcast_S_S100000x32 (constant (F := Ideal) S_ .f32 0x00000000#32))
    (asCol (dstIdx e))
    (mulf (F := Ideal) (Host.gather gather_S100000x32_S1700000x1_S1700000x32_1_0_n_n_0_1_132 xw (asCol (wrapIdx (srcIdx e))))
          (broadcastInDim S1700000x32 ![0, 1] bcast_S1700000x1_S1700000x32_0_1 (asCol (edgeNorm e))))

def aggOf64 (xw : FVec Ideal S100000x64 .f32) (e : EdgeIn) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (asCol (dstIdx e))
    (mulf (F := Ideal) (Host.gather gather_S100000x64_S1700000x1_S1700000x64_1_0_n_n_0_1_164 xw (asCol (wrapIdx (srcIdx e))))
          (broadcastInDim S1700000x64 ![0, 1] bcast_S1700000x1_S1700000x64_0_1 (asCol (edgeNorm e))))

end Cert.KernelIdeal.HandVal

end
-- ==== Proof.Val.Host0.lean ====
import proofs.«406238_j58506044506835_1_alg».proof.Proof.KI.Keep
import proofs.«406238_j58506044506835_1_alg».proof.Proof.Val.HostFns

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

abbrev edges (c : Dev nD) : EdgeIn := m ((c : Thread nD τ).loc main_arg1)

theorem W1_src (c : Dev nD) : (W1 m ρ c (Proc.devRef .tc main_v3) : MsgIx) = srcIdx (edges m c) := by
  show StableHlo.after hostOps0 _ (Proc.devRef .tc main_v3) = _
  after_results
  rfl

theorem W1_dst (c : Dev nD) : (W1 m ρ c (Proc.devRef .tc main_v6) : MsgIx) = dstIdx (edges m c) := by
  show StableHlo.after hostOps0 _ (Proc.devRef .tc main_v6) = _
  after_results
  rfl

theorem W1_norm (c : Dev nD) : (W1 m ρ c (Proc.devRef .tc main_v26) : MsgW) = edgeNorm (edges m c) := by
  show StableHlo.after hostOps0 _ (Proc.devRef .tc main_v26) = _
  after_results_simp
  rfl

theorem W2_src (c : Dev nD) : (W2 m ρ c (Proc.devRef .tc main_v3) : MsgIx) = srcIdx (edges m c) :=
  ((keep2 m ρ c main_v3 (by decide))).trans (W1_src m ρ c)
theorem W2_dst (c : Dev nD) : (W2 m ρ c (Proc.devRef .tc main_v6) : MsgIx) = dstIdx (edges m c) :=
  ((keep2 m ρ c main_v6 (by decide))).trans (W1_dst m ρ c)
theorem W2_norm (c : Dev nD) : (W2 m ρ c (Proc.devRef .tc main_v26) : MsgW) = edgeNorm (edges m c) :=
  ((keep2 m ρ c main_v26 (by decide))).trans (W1_norm m ρ c)

theorem W7_src (c : Dev nD) : (W7 m ρ c (Proc.devRef .tc main_v3) : MsgIx) = srcIdx (edges m c) :=
  ((keep7 m ρ c main_v3 (by decide)).trans <| (keep6 m ρ c main_v3 (by decide)).trans <| (keep5 m ρ c main_v3 (by decide)).trans <| (keep4 m ρ c main_v3 (by decide)).trans <| (keep3 m ρ c main_v3 (by decide)).trans <| (keep2 m ρ c main_v3 (by decide))).trans (W1_src m ρ c)
theorem W7_dst (c : Dev nD) : (W7 m ρ c (Proc.devRef .tc main_v6) : MsgIx) = dstIdx (edges m c) :=
  ((keep7 m ρ c main_v6 (by decide)).trans <| (keep6 m ρ c main_v6 (by decide)).trans <| (keep5 m ρ c main_v6 (by decide)).trans <| (keep4 m ρ c main_v6 (by decide)).trans <| (keep3 m ρ c main_v6 (by decide)).trans <| (keep2 m ρ c main_v6 (by decide))).trans (W1_dst m ρ c)
theorem W7_norm (c : Dev nD) : (W7 m ρ c (Proc.devRef .tc main_v26) : MsgW) = edgeNorm (edges m c) :=
  ((keep7 m ρ c main_v26 (by decide)).trans <| (keep6 m ρ c main_v26 (by decide)).trans <| (keep5 m ρ c main_v26 (by decide)).trans <| (keep4 m ρ c main_v26 (by decide)).trans <| (keep3 m ρ c main_v26 (by decide)).trans <| (keep2 m ρ c main_v26 (by decide))).trans (W1_norm m ρ c)

theorem W12_src (c : Dev nD) : (W12 m ρ c (Proc.devRef .tc main_v3) : MsgIx) = srcIdx (edges m c) :=
  ((keep12 m ρ c main_v3 (by decide)).trans <| (keep11 m ρ c main_v3 (by decide)).trans <| (keep10 m ρ c main_v3 (by decide)).trans <| (keep9 m ρ c main_v3 (by decide)).trans <| (keep8 m ρ c main_v3 (by decide)).trans <| (keep7 m ρ c main_v3 (by decide)).trans <| (keep6 m ρ c main_v3 (by decide)).trans <| (keep5 m ρ c main_v3 (by decide)).trans <| (keep4 m ρ c main_v3 (by decide)).trans <| (keep3 m ρ c main_v3 (by decide)).trans <| (keep2 m ρ c main_v3 (by decide))).trans (W1_src m ρ c)
theorem W12_dst (c : Dev nD) : (W12 m ρ c (Proc.devRef .tc main_v6) : MsgIx) = dstIdx (edges m c) :=
  ((keep12 m ρ c main_v6 (by decide)).trans <| (keep11 m ρ c main_v6 (by decide)).trans <| (keep10 m ρ c main_v6 (by decide)).trans <| (keep9 m ρ c main_v6 (by decide)).trans <| (keep8 m ρ c main_v6 (by decide)).trans <| (keep7 m ρ c main_v6 (by decide)).trans <| (keep6 m ρ c main_v6 (by decide)).trans <| (keep5 m ρ c main_v6 (by decide)).trans <| (keep4 m ρ c main_v6 (by decide)).trans <| (keep3 m ρ c main_v6 (by decide)).trans <| (keep2 m ρ c main_v6 (by decide))).trans (W1_dst m ρ c)
theorem W12_norm (c : Dev nD) : (W12 m ρ c (Proc.devRef .tc main_v26) : MsgW) = edgeNorm (edges m c) :=
  ((keep12 m ρ c main_v26 (by decide)).trans <| (keep11 m ρ c main_v26 (by decide)).trans <| (keep10 m ρ c main_v26 (by decide)).trans <| (keep9 m ρ c main_v26 (by decide)).trans <| (keep8 m ρ c main_v26 (by decide)).trans <| (keep7 m ρ c main_v26 (by decide)).trans <| (keep6 m ρ c main_v26 (by decide)).trans <| (keep5 m ρ c main_v26 (by decide)).trans <| (keep4 m ρ c main_v26 (by decide)).trans <| (keep3 m ρ c main_v26 (by decide)).trans <| (keep2 m ρ c main_v26 (by decide))).trans (W1_norm m ρ c)

theorem W2_bias (c : Dev nD) : (W2 m ρ c (Proc.devRef .tc main_arg4) : FVec Ideal S16 .f32) = m ((c : Thread nD τ).loc main_arg4) :=
  (keep2 m ρ c main_arg4 (by decide)).trans <| (keep1 m ρ c main_arg4 (by decide)).trans rfl
theorem W7_bias (c : Dev nD) : (W7 m ρ c (Proc.devRef .tc main_arg8) : FVec Ideal S32 .f32) = m ((c : Thread nD τ).loc main_arg8) :=
  (keep7 m ρ c main_arg8 (by decide)).trans <| (keep6 m ρ c main_arg8 (by decide)).trans <| (keep5 m ρ c main_arg8 (by decide)).trans <| (keep4 m ρ c main_arg8 (by decide)).trans <| (keep3 m ρ c main_arg8 (by decide)).trans <| (keep2 m ρ c main_arg8 (by decide)).trans <| (keep1 m ρ c main_arg8 (by decide)).trans rfl
theorem W12_bias (c : Dev nD) : (W12 m ρ c (Proc.devRef .tc main_arg12) : FVec Ideal S64 .f32) = m ((c : Thread nD τ).loc main_arg12) :=
  (keep12 m ρ c main_arg12 (by decide)).trans <| (keep11 m ρ c main_arg12 (by decide)).trans <| (keep10 m ρ c main_arg12 (by decide)).trans <| (keep9 m ρ c main_arg12 (by decide)).trans <| (keep8 m ρ c main_arg12 (by decide)).trans <| (keep7 m ρ c main_arg12 (by decide)).trans <| (keep6 m ρ c main_arg12 (by decide)).trans <| (keep5 m ρ c main_arg12 (by decide)).trans <| (keep4 m ρ c main_arg12 (by decide)).trans <| (keep3 m ρ c main_arg12 (by decide)).trans <| (keep2 m ρ c main_arg12 (by decide)).trans <| (keep1 m ρ c main_arg12 (by decide)).trans rfl

end Cert.KernelIdeal.HandVal

end
-- ==== Proof.Spec.MatRows.lean ====
import Idealize.ShloMosaic.PureOps.Ideal
import Idealize.ShloMosaic.Lib.ValueIdx

noncomputable section

open scoped BigOperators

namespace Cert.Spec.MatRows

open Idealize.ShloMosaic Idealize.ShloMosaic.ValueIdx

def rowsMul {n k m : ℕ} (x : Fin n → Fin k → EReal) (w : Fin k → Fin m → EReal) (i : Fin n) (j : Fin m) : EReal :=
  ∑ l : Fin k, x i l * w l j

def matRows (n k m : ℕ) (x : (⟨2, ![n, k]⟩ : Shape).Idx → EReal) (w : (⟨2, ![k, m]⟩ : Shape).Idx → EReal) :
    (⟨2, ![n, m]⟩ : Shape).Idx → EReal :=
  fun i => rowsMul (fun a l => x (ix2 a l)) (fun l b => w (ix2 l b)) (i 0) (i 1)

theorem matRows_ix2 (n k m : ℕ) (x : (⟨2, ![n, k]⟩ : Shape).Idx → EReal) (w : (⟨2, ![k, m]⟩ : Shape).Idx → EReal)
    (i : Fin n) (j : Fin m) : matRows n k m x w (ix2 i j) = ∑ l : Fin k, x (ix2 i l) * w (ix2 l j) := rfl

end Cert.Spec.MatRows

end
-- ==== Proof.Val.R0Val.lean ====
import proofs.«406238_j58506044506835_1_alg».proof.Proof.KI.R0
import proofs.«406238_j58506044506835_1_alg».proof.Proof.Spec.MatRows
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec.MatRows

variable (V : (c : Dev nD) → (b : Ref sig .tc) → Buf (Elt Ideal) ((c : Thread nD τ).loc b))

theorem lhs_lin0_0 (i : S10000x16.Idx) (q : dot_S10000x3_S3x16_S10000x16_1_0_0_1_n_n.contr.Idx) :
    (dot_S10000x3_S3x16_S10000x16_1_0_0_1_n_n.lhsIdx i q 0).val = (i 0).val := by
  unfold DotDims.lhsIdx
  rw [dif_neg (show ¬(0 : Fin S10000x3.rank) ∈ dot_S10000x3_S3x16_S10000x16_1_0_0_1_n_n.lhsBatch by decide), dif_pos (show (0 : Fin S10000x3.rank) ∈ dot_S10000x3_S3x16_S10000x16_1_0_0_1_n_n.lhsNonContracting by decide)]
  rfl
theorem lhs_lin0_1 (i : S10000x16.Idx) (q : dot_S10000x3_S3x16_S10000x16_1_0_0_1_n_n.contr.Idx) :
    (dot_S10000x3_S3x16_S10000x16_1_0_0_1_n_n.lhsIdx i q 1).val = (q ⟨0, by decide⟩).val :=
  dot_S10000x3_S3x16_S10000x16_1_0_0_1_n_n.lhsIdx_val_of_single rfl i q
theorem rhs_lin0_0 (i : S10000x16.Idx) (q : dot_S10000x3_S3x16_S10000x16_1_0_0_1_n_n.contr.Idx) :
    (dot_S10000x3_S3x16_S10000x16_1_0_0_1_n_n.rhsIdx i q 0).val = (q ⟨0, by decide⟩).val :=
  dot_S10000x3_S3x16_S10000x16_1_0_0_1_n_n.rhsIdx_val_of_single rfl i q
theorem rhs_lin0_1 (i : S10000x16.Idx) (q : dot_S10000x3_S3x16_S10000x16_1_0_0_1_n_n.contr.Idx) :
    (dot_S10000x3_S3x16_S10000x16_1_0_0_1_n_n.rhsIdx i q 1).val = (i 1).val := by
  unfold DotDims.rhsIdx
  rw [dif_neg (show ¬(1 : Fin S3x16.rank) ∈ dot_S10000x3_S3x16_S10000x16_1_0_0_1_n_n.rhsBatch by decide), dif_pos (show (1 : Fin S3x16.rank) ∈ dot_S10000x3_S3x16_S10000x16_1_0_0_1_n_n.rhsNonContracting by decide)]
  rfl

theorem lin0_pay_ix2 (xs : FVec Ideal S10000x3 .f32) (ws : FVec Ideal S3x16 .f32) (p : Fin 10000) (q : Fin 16) :
    k0_pay1 (F := Ideal) xs ws (ix2 p q) = ∑ l : Fin 3, xs (ix2 p l) * ws (ix2 l q) := by
  unfold k0_pay1
  simp only [matmul]
  rw [Ideal.matmul_constant_zero_apply, ← Equiv.sum_comp (ValueIdx.contrEquiv1 dot_S10000x3_S3x16_S10000x16_1_0_0_1_n_n 3 rfl rfl).symm]
  refine Finset.sum_congr rfl fun l _ => ?_
  have hl := ValueIdx.contrEquiv1_symm_val dot_S10000x3_S3x16_S10000x16_1_0_0_1_n_n 3 rfl rfl l
  have el : dot_S10000x3_S3x16_S10000x16_1_0_0_1_n_n.lhsIdx (ix2 p q) ((ValueIdx.contrEquiv1 dot_S10000x3_S3x16_S10000x16_1_0_0_1_n_n 3 rfl rfl).symm l) = ix2 p l := funext fun a => Fin.ext (by
    match a with
    | ⟨0, _⟩ => exact lhs_lin0_0 _ _
    | ⟨1, _⟩ => exact (lhs_lin0_1 _ _).trans hl)
  have er : dot_S10000x3_S3x16_S10000x16_1_0_0_1_n_n.rhsIdx (ix2 p q) ((ValueIdx.contrEquiv1 dot_S10000x3_S3x16_S10000x16_1_0_0_1_n_n 3 rfl rfl).symm l) = ix2 l q := funext fun a => Fin.ext (by
    match a with
    | ⟨0, _⟩ => exact (rhs_lin0_0 _ _).trans hl
    | ⟨1, _⟩ => exact rhs_lin0_1 _ _)
  simp only [ValueIdx.truncf_apply, shapeCast_self, el, er]

theorem zeroOff0 : (![0, 0] : Fin 2 → Nat) = fun _ => 0 := funext fun a => by fin_cases a <;> rfl

theorem lin0_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

theorem lin0_index_onto : ∀ b : Fin 10, ∃ t : Fin cfg0.N, win0_2.index t = ![b.val, 0] :=
  (by decide +kernel : ∀ b : Fin 10, ∃ t : Fin grid0.N, win0_2.index t = ![b.val, 0])

theorem lin0_read_prod (G : S100000x16.Idx → EReal) (t : Fin cfg0.N) (p : Fin 10000) (q : Fin 16)
    (hrow : win0_2.index t (0 : Fin 2) * 10000 + p.val < 100000) :
    ((cfg0.win 2).blk t).view.read (Elt Ideal) G (ix2 p q)
      = G (ix2 (⟨win0_2.index t (0 : Fin 2) * 10000 + p.val, hrow⟩ : Fin 100000) q) := by
  obtain ⟨e0, e1, e2, e3, e4, e5⟩ := lin0_index t
  have hq : q.val < 16 := q.isLt
  show G (((cfg0.win 2).blk t).view.emb (ix2 p q)) = _
  refine congrArg G (funext fun a => Fin.ext ?_)
  match a with
  | ⟨0, _⟩ => show win0_2.index t (0 : Fin 2) * 10000 + 1 * p.val = win0_2.index t (0 : Fin 2) * 10000 + p.val; omega
  | ⟨1, _⟩ => show win0_2.index t (1 : Fin 2) * 16 + 1 * q.val = q.val; omega

theorem lin0_read_rows (X : S100000x3.Idx → EReal) (t : Fin cfg0.N) (p : Fin 10000) (l : Fin 3)
    (hrow : win0_2.index t (0 : Fin 2) * 10000 + p.val < 100000) :
    ((cfg0.win 0).blk t).view.read (Elt Ideal) X (ix2 p l)
      = X (ix2 (⟨win0_2.index t (0 : Fin 2) * 10000 + p.val, hrow⟩ : Fin 100000) l) := by
  obtain ⟨e0, e1, e2, e3, e4, e5⟩ := lin0_index t
  have hl : l.val < 3 := l.isLt
  show X (((cfg0.win 0).blk t).view.emb (ix2 p l)) = _
  refine congrArg X (funext fun a => Fin.ext ?_)
  match a with
  | ⟨0, _⟩ => show win0_0.index t (0 : Fin 2) * 10000 + 1 * p.val = win0_2.index t (0 : Fin 2) * 10000 + p.val; omega
  | ⟨1, _⟩ => show win0_0.index t (1 : Fin 2) * 3 + 1 * l.val = l.val; omega

theorem lin0_read_weight (W : S3x16.Idx → EReal) (t : Fin cfg0.N) (l : Fin 3) (q : Fin 16) :
    ((cfg0.win 1).blk t).view.read (Elt Ideal) W (ix2 l q) = W (ix2 l q) := by
  obtain ⟨e0, e1, e2, e3, e4, e5⟩ := lin0_index t
  have hl : l.val < 3 := l.isLt
  have hq : q.val < 16 := q.isLt
  show W (((cfg0.win 1).blk t).view.emb (ix2 l q)) = _
  refine congrArg W (funext fun a => Fin.ext ?_)
  match a with
  | ⟨0, _⟩ => show win0_1.index t (0 : Fin 2) * 3 + 1 * l.val = l.val; omega
  | ⟨1, _⟩ => show win0_1.index t (1 : Fin 2) * 16 + 1 * q.val = q.val; omega

theorem lin0_flushed (c : Dev nD) (t : Fin cfg0.N) :
    (dat0 V c).flushed 2 t = ((cfg0.win 2).blk t).view.read (Elt Ideal)
      (matRows 100000 3 16 (V c (Pipeline.arrRef spec0 0)) (V c (Pipeline.arrRef spec0 1))) := by
  show (cfg0.win 2).cut (grid0.coords t) ((dat0 V c).after 2 t) = _
  rw [after0_2]
  unfold prodBlock0
  rw [View.canon_unit_zero zeroOff0]
  simp only [View.ld_unit_zero (S := S10000x3) zeroOff0, View.ld_unit_zero (S := S3x16) zeroOff0]
  funext j
  obtain ⟨p, q, rfl⟩ : ∃ (p : Fin 10000) (q : Fin 16), j = ix2 p q := ⟨j 0, j 1, eq_ix2 j⟩
  have hp : p.val < 10000 := p.isLt
  have hrow : win0_2.index t (0 : Fin 2) * 10000 + p.val < 100000 := by
    have e5 := (lin0_index t).2.2.2.2.2
    omega

  refine Eq.trans ?_ (lin0_read_prod (matRows 100000 3 16 (V c (Pipeline.arrRef spec0 0)) (V c (Pipeline.arrRef spec0 1))) t p q hrow).symm
  rw [matRows_ix2]

  refine (lin0_pay_ix2 (iblk0 V c 0 t) (iblk0 V c 1 t) p q).trans ?_
  refine Finset.sum_congr rfl fun l _ => ?_
  exact congrArg₂ (fun a b : EReal => a * b)
    (lin0_read_rows (V c (Pipeline.arrRef spec0 0)) t p l hrow)
    (lin0_read_weight (V c (Pipeline.arrRef spec0 1)) t l q)

theorem lin0_mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v27).slice (win0_2.rect t)).set ↔ _
  rw [View.set_slice_whole, Rect.mem_set_unit]
  exact Iff.rfl

theorem lin0_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := lin0_index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [lin0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

theorem final0_2 (c : Dev nD) :
    (dat0 V c).arrAt 2 cfg0.N = matRows 100000 3 16 (V c (Pipeline.arrRef spec0 0)) (V c (Pipeline.arrRef spec0 1)) :=
  (dat0 V c).arrAt_eq_of_cover 2 _ (fun t _ => lin0_flushed V c t) lin0_cover

end Cert.KernelIdeal.Hand

end
-- ==== Proof.Val.R1Val.lean ====
import proofs.«406238_j58506044506835_1_alg».proof.Proof.Spec.Blocks
import proofs.«406238_j58506044506835_1_alg».proof.Proof.KI.R1
import proofs.«406238_j58506044506835_1_alg».proof.Proof.Spec.BatchNorm
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem stats1_pay1_ix2 (u : Fin 1) (j : Fin 16) : k1_pay1 (F := Ideal) (ix2 u j) = (0 : EReal) := by
  unfold k1_pay1
  rw [shapeCast_self]
  exact Ideal.ofBits_zero_f32

theorem stats1_pay2_ix2 (u : Fin 1) (j : Fin 16) : k1_pay2 (F := Ideal) (ix2 u j) = (0 : EReal) := by
  unfold k1_pay2
  rw [shapeCast_self]
  exact Ideal.ofBits_zero_f32

theorem stats1_pay3_ix2 (x : Vec Ideal S10000x16 .f32) (b : Vec Ideal S1x16 .f32) (r : Fin 10000) (j : Fin 16) :
    k1_pay3 (F := Ideal) x b (ix2 r j) = x (ix2 r j) + b (ix2 (0 : Fin 1) j) := by
  unfold k1_pay3
  simp only [shapeCast_self]
  rw [addf_apply, broadcastTo_1b_ab_apply]

theorem stats1_lift (h : S10000x16.Reduces [0] S16) (j : Fin 16) (r : Fin 10000) :
    h.lift (ix1 j) r = (ix2 r j : S10000x16.Idx) :=
  funext fun a => Fin.ext (by
    match a with
    | ⟨0, _⟩ => rfl
    | ⟨1, _⟩ => rfl)

theorem stats1_pay4_ix2 (x : Vec Ideal S10000x16 .f32) (b s : Vec Ideal S1x16 .f32) (u : Fin 1) (j : Fin 16) :
    k1_pay4 (F := Ideal) x b s (ix2 u j)
      = s (ix2 u j) + ∑ r : Fin 10000, (x (ix2 r j) + b (ix2 (0 : Fin 1) j)) := by
  unfold k1_pay4
  simp only [shapeCast_self]
  rw [addf_apply, shapeCast_a_1a_apply]
  refine congrArg (s (ix2 u j) + ·) ?_
  refine (Ideal.multiReduction_add_single (k1_pay3 (F := Ideal) x b) 0x00000000#32 reduces_S10000x16_S16 (.inl rfl) rfl
    (ix1 j)).trans ?_
  show ∑ r : Fin 10000, k1_pay3 (F := Ideal) x b (reduces_S10000x16_S16.lift (ix1 j) r) = _
  exact Finset.sum_congr rfl fun r _ => by rw [stats1_lift, stats1_pay3_ix2]

theorem stats1_pay5_ix2 (x : Vec Ideal S10000x16 .f32) (b q : Vec Ideal S1x16 .f32) (u : Fin 1) (j : Fin 16) :
    k1_pay5 (F := Ideal) x b q (ix2 u j)
      = q (ix2 u j) + ∑ r : Fin 10000,
          (x (ix2 r j) + b (ix2 (0 : Fin 1) j)) * (x (ix2 r j) + b (ix2 (0 : Fin 1) j)) := by
  unfold k1_pay5
  simp only [shapeCast_self]
  rw [addf_apply, shapeCast_a_1a_apply]
  refine congrArg (q (ix2 u j) + ·) ?_
  refine (Ideal.multiReduction_add_single (mulf (k1_pay3 (F := Ideal) x b) (k1_pay3 (F := Ideal) x b)) 0x00000000#32
    reduces_S10000x16_S16 (.inl rfl) rfl (ix1 j)).trans ?_
  show ∑ r : Fin 10000, mulf (k1_pay3 (F := Ideal) x b) (k1_pay3 (F := Ideal) x b) (reduces_S10000x16_S16.lift (ix1 j) r) = _
  exact Finset.sum_congr rfl fun r _ => by rw [stats1_lift, mulf_apply, stats1_pay3_ix2]

abbrev xblk1 (c : Dev nD) (t : Fin cfg1.N) : Vec Ideal S10000x16 .f32 := iblk1 V c 0 t
abbrev bblk1 (c : Dev nD) (t : Fin cfg1.N) : Vec Ideal S1x16 .f32 := iblk1 V c 1 t

abbrev xs1 (c : Dev nD) : Fin 100000 → Fin 16 → EReal :=
  fun i j => (V c (Pipeline.arrRef spec1 0) (ix2 i j : S100000x16.Idx) : EReal)
abbrev bs1 (c : Dev nD) : Fin 16 → EReal :=
  fun j => (V c (Pipeline.arrRef spec1 1) (ix2 (0 : Fin 1) j : S1x16.Idx) : EReal)

theorem stats1_rows : cfg1.N * 10000 = 100000 := by rw [show cfg1.N = 10 from N_1]

theorem stats1_index : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0 :=
  (by decide +kernel : ∀ t : Fin grid1.N, _)

theorem stats1_x_ix2 (c : Dev nD) (t : Fin cfg1.N) (r : Fin 10000) (j : Fin 16) :
    xblk1 V c t (ix2 r j) = xs1 V c (Cert.Spec.blockRow stats1_rows t r) j := by
  obtain ⟨e0, e1, -⟩ := stats1_index t
  have hr : r.val < 10000 := r.isLt
  have hj : j.val < 16 := j.isLt
  show V c (Pipeline.arrRef spec1 0) (((cfg1.win 0).blk t).view.emb (ix2 r j)) = _
  refine congrArg _ (funext fun a => Fin.ext ?_)
  match a with
  | ⟨0, _⟩ => show win1_0.index t (0 : Fin 2) * 10000 + 1 * r.val = t.val * 10000 + r.val; omega
  | ⟨1, _⟩ => show win1_0.index t (1 : Fin 2) * 16 + 1 * j.val = j.val; omega

theorem stats1_b_ix2 (c : Dev nD) (t : Fin cfg1.N) (u : Fin 1) (j : Fin 16) :
    bblk1 V c t (ix2 u j) = bs1 V c j := by
  obtain ⟨-, -, e0, e1, -⟩ := stats1_index t
  have hu : u.val = 0 := by omega
  have hj : j.val < 16 := j.isLt
  show V c (Pipeline.arrRef spec1 1) (((cfg1.win 1).blk t).view.emb (ix2 u j)) = _
  refine congrArg _ (funext fun a => Fin.ext ?_)
  match a with
  | ⟨0, _⟩ => show win1_1.index t (0 : Fin 2) * 1 + 1 * u.val = 0; omega
  | ⟨1, _⟩ => show win1_1.index t (1 : Fin 2) * 16 + 1 * j.val = j.val; omega

theorem stats1_colS (c : Dev nD) (u : Fin 1) (j : Fin 16) :
    colS1 V c cfg1.N (ix2 u j) = Cert.Spec.colSum (Cert.Spec.addRow (xs1 V c) (bs1 V c)) j := by
  have h := Cert.Spec.run_eq_sum (T := cfg1.N) (fun n => (colS1 V c n (ix2 u j) : EReal))
    (fun t => ∑ r : Fin 10000, (xblk1 V c t (ix2 r j) + bblk1 V c t (ix2 (0 : Fin 1) j)))
    (stats1_pay1_ix2 u j)
    (fun t => by
      show colS1 V c (t.val + 1) (ix2 u j) = _
      rw [colS1_succ, stats1_pay4_ix2])
  refine h.trans ?_
  unfold Cert.Spec.colSum Cert.Spec.addRow
  rw [Cert.Spec.sum_blocks stats1_rows (fun i => xs1 V c i j + bs1 V c j)]
  refine Finset.sum_congr rfl fun t _ => Finset.sum_congr rfl fun r _ => ?_
  rw [stats1_x_ix2, stats1_b_ix2]

theorem stats1_colQ (c : Dev nD) (u : Fin 1) (j : Fin 16) :
    colQ1 V c cfg1.N (ix2 u j) = Cert.Spec.colSumSq (Cert.Spec.addRow (xs1 V c) (bs1 V c)) j := by
  have h := Cert.Spec.run_eq_sum (T := cfg1.N) (fun n => (colQ1 V c n (ix2 u j) : EReal))
    (fun t => ∑ r : Fin 10000, (xblk1 V c t (ix2 r j) + bblk1 V c t (ix2 (0 : Fin 1) j))
      * (xblk1 V c t (ix2 r j) + bblk1 V c t (ix2 (0 : Fin 1) j)))
    (stats1_pay2_ix2 u j)
    (fun t => by
      show colQ1 V c (t.val + 1) (ix2 u j) = _
      rw [colQ1_succ, stats1_pay5_ix2])
  refine h.trans ?_
  unfold Cert.Spec.colSumSq Cert.Spec.addRow
  rw [Cert.Spec.sum_blocks stats1_rows (fun i => (xs1 V c i j + bs1 V c j) * (xs1 V c i j + bs1 V c j))]
  refine Finset.sum_congr rfl fun t _ => Finset.sum_congr rfl fun r _ => ?_
  rw [stats1_x_ix2, stats1_b_ix2]

def rowArr16 (g : Fin 16 → EReal) : (⟨2, ![1, 16]⟩ : Shape).Idx → EReal := fun i => g (i 1)

theorem rowArr16_ix2 (g : Fin 16 → EReal) (u : Fin 1) (j : Fin 16) : rowArr16 g (ix2 u j) = g j := rfl

theorem stats1_last_succ (t : Fin cfg1.N) (h : t.val % 10 = 9) : t.val + 1 = cfg1.N := by
  have hN : cfg1.N = 10 := N_1
  have := t.isLt
  omega

theorem stats1_read_blk_2 (t : Fin cfg1.N) (G : S1x16.Idx → EReal) (u : Fin 1) (j : Fin 16) :
    ((cfg1.win 2).blk t).view.read (Elt Ideal) G (ix2 u j) = G (ix2 (0 : Fin 1) j) := by
  obtain ⟨-, -, -, -, e0, e1, -⟩ := stats1_index t
  have hu : u.val = 0 := by omega
  have hj : j.val < 16 := j.isLt
  show G (((cfg1.win 2).blk t).view.emb (ix2 u j)) = _
  refine congrArg G (funext fun a => Fin.ext ?_)
  match a with
  | ⟨0, _⟩ => show win1_2.index t (0 : Fin 2) * 1 + 1 * u.val = 0; omega
  | ⟨1, _⟩ => show win1_2.index t (1 : Fin 2) * 16 + 1 * j.val = j.val; omega

theorem stats1_read_blk_3 (t : Fin cfg1.N) (G : S1x16.Idx → EReal) (u : Fin 1) (j : Fin 16) :
    ((cfg1.win 3).blk t).view.read (Elt Ideal) G (ix2 u j) = G (ix2 (0 : Fin 1) j) := by
  obtain ⟨-, -, -, -, -, -, e0, e1⟩ := stats1_index t
  have hu : u.val = 0 := by omega
  have hj : j.val < 16 := j.isLt
  show G (((cfg1.win 3).blk t).view.emb (ix2 u j)) = _
  refine congrArg G (funext fun a => Fin.ext ?_)
  match a with
  | ⟨0, _⟩ => show win1_3.index t (0 : Fin 2) * 1 + 1 * u.val = 0; omega
  | ⟨1, _⟩ => show win1_3.index t (1 : Fin 2) * 16 + 1 * j.val = j.val; omega

theorem stats1_flushed_2 (c : Dev nD) (t : Fin cfg1.N) (hf : (cfg1.win 2).flush t = true) :
    (dat1 V c).flushed 2 t = ((cfg1.win 2).blk t).view.read (Elt Ideal)
      (rowArr16 (Cert.Spec.colSum (Cert.Spec.addRow (xs1 V c) (bs1 V c)))) := by
  have h9 := (flush1_2 t).mp hf
  show (cfg1.win 2).cut (grid1.coords t) ((dat1 V c).after 2 t) = _
  rw [after1_2, stats1_last_succ t h9]
  funext i
  obtain ⟨u, j, rfl⟩ : ∃ (u : Fin 1) (j : Fin 16), i = ix2 u j := ⟨i 0, i 1, eq_ix2 i⟩
  exact (stats1_colS V c u j).trans
    ((rowArr16_ix2 _ (0 : Fin 1) j).symm.trans (stats1_read_blk_2 t _ u j).symm)

theorem stats1_flushed_3 (c : Dev nD) (t : Fin cfg1.N) (hf : (cfg1.win 3).flush t = true) :
    (dat1 V c).flushed 3 t = ((cfg1.win 3).blk t).view.read (Elt Ideal)
      (rowArr16 (Cert.Spec.colSumSq (Cert.Spec.addRow (xs1 V c) (bs1 V c)))) := by
  have h9 := (flush1_3 t).mp hf
  show (cfg1.win 3).cut (grid1.coords t) ((dat1 V c).after 3 t) = _
  rw [after1_3, stats1_last_succ t h9]
  funext i
  obtain ⟨u, j, rfl⟩ : ∃ (u : Fin 1) (j : Fin 16), i = ix2 u j := ⟨i 0, i 1, eq_ix2 i⟩
  exact (stats1_colQ V c u j).trans
    ((rowArr16_ix2 _ (0 : Fin 1) j).symm.trans (stats1_read_blk_3 t _ u j).symm)

def stats1_lastPt : Fin cfg1.N := ⟨9, by rw [show cfg1.N = 10 from N_1]; decide⟩

theorem stats1_mem_blk_2 (t : Fin cfg1.N) (i : S1x16.Idx) :
    i ∈ ((cfg1.win 2).blk t).view.set ↔ ∀ a : Fin 2, win1_2.index t a * S1x16.size a ≤ (i a).val ∧ (i a).val < win1_2.index t a * S1x16.size a + S1x16.size a := by
  show i ∈ ((View.whole main_v42_0).slice (win1_2.rect t)).set ↔ _
  rw [View.set_slice_whole, Rect.mem_set_unit]
  exact Iff.rfl
theorem stats1_mem_blk_3 (t : Fin cfg1.N) (i : S1x16.Idx) :
    i ∈ ((cfg1.win 3).blk t).view.set ↔ ∀ a : Fin 2, win1_3.index t a * S1x16.size a ≤ (i a).val ∧ (i a).val < win1_3.index t a * S1x16.size a + S1x16.size a := by
  show i ∈ ((View.whole main_v42_1).slice (win1_3.rect t)).set ↔ _
  rw [View.set_slice_whole, Rect.mem_set_unit]
  exact Iff.rfl

theorem stats1_cover_2 (i : S1x16.Idx) :
    ∃ t : Fin cfg1.N, (cfg1.win 2).flush t = true ∧ i ∈ ((cfg1.win 2).blk t).view.set := by
  have hi0 : (i 0).val < 1 := (i 0).isLt
  have hi1 : (i 1).val < 16 := (i 1).isLt
  obtain ⟨-, -, -, -, e0, e1, -⟩ := stats1_index stats1_lastPt
  refine ⟨stats1_lastPt, (flush1_2 stats1_lastPt).mpr rfl, ?_⟩
  rw [stats1_mem_blk_2]
  intro a
  match a with
  | ⟨0, _⟩ => show win1_2.index stats1_lastPt (0 : Fin 2) * 1 ≤ (i 0).val ∧ (i 0).val < win1_2.index stats1_lastPt (0 : Fin 2) * 1 + 1; omega
  | ⟨1, _⟩ => show win1_2.index stats1_lastPt (1 : Fin 2) * 16 ≤ (i 1).val ∧ (i 1).val < win1_2.index stats1_lastPt (1 : Fin 2) * 16 + 16; omega

theorem stats1_cover_3 (i : S1x16.Idx) :
    ∃ t : Fin cfg1.N, (cfg1.win 3).flush t = true ∧ i ∈ ((cfg1.win 3).blk t).view.set := by
  have hi0 : (i 0).val < 1 := (i 0).isLt
  have hi1 : (i 1).val < 16 := (i 1).isLt
  obtain ⟨-, -, -, -, -, -, e0, e1⟩ := stats1_index stats1_lastPt
  refine ⟨stats1_lastPt, (flush1_3 stats1_lastPt).mpr rfl, ?_⟩
  rw [stats1_mem_blk_3]
  intro a
  match a with
  | ⟨0, _⟩ => show win1_3.index stats1_lastPt (0 : Fin 2) * 1 ≤ (i 0).val ∧ (i 0).val < win1_3.index stats1_lastPt (0 : Fin 2) * 1 + 1; omega
  | ⟨1, _⟩ => show win1_3.index stats1_lastPt (1 : Fin 2) * 16 ≤ (i 1).val ∧ (i 1).val < win1_3.index stats1_lastPt (1 : Fin 2) * 16 + 16; omega

theorem final1_2_arr (c : Dev nD) :
    (dat1 V c).arrAt 2 cfg1.N = rowArr16 (Cert.Spec.colSum (Cert.Spec.addRow (xs1 V c) (bs1 V c))) :=
  (dat1 V c).arrAt_eq_of_cover 2 _ (fun t hf => stats1_flushed_2 V c t hf) stats1_cover_2

theorem final1_3_arr (c : Dev nD) :
    (dat1 V c).arrAt 3 cfg1.N = rowArr16 (Cert.Spec.colSumSq (Cert.Spec.addRow (xs1 V c) (bs1 V c))) :=
  (dat1 V c).arrAt_eq_of_cover 3 _ (fun t hf => stats1_flushed_3 V c t hf) stats1_cover_3

theorem final1_2 (c : Dev nD) (j : Fin 16) :
    (dat1 V c).arrAt 2 cfg1.N (ix2 (0 : Fin 1) j : S1x16.Idx)
      = Cert.Spec.colSum (Cert.Spec.addRow
          (fun (i : Fin 100000) (j : Fin 16) => (V c (Pipeline.arrRef spec1 0) (ix2 i j : S100000x16.Idx) : EReal))
          (fun j : Fin 16 => (V c (Pipeline.arrRef spec1 1) (ix2 (0 : Fin 1) j : S1x16.Idx) : EReal))) j := by
  rw [final1_2_arr]; rfl

theorem final1_3 (c : Dev nD) (j : Fin 16) :
    (dat1 V c).arrAt 3 cfg1.N (ix2 (0 : Fin 1) j : S1x16.Idx)
      = Cert.Spec.colSumSq (Cert.Spec.addRow
          (fun (i : Fin 100000) (j : Fin 16) => (V c (Pipeline.arrRef spec1 0) (ix2 i j : S100000x16.Idx) : EReal))
          (fun j : Fin 16 => (V c (Pipeline.arrRef spec1 1) (ix2 (0 : Fin 1) j : S1x16.Idx) : EReal))) j := by
  rw [final1_3_arr]; rfl

end Cert.KernelIdeal.Hand

end
-- ==== Proof.Spec.Apply.lean ====
import Idealize.ShloMosaic.PureOps.Ideal
import Idealize.ShloMosaic.PureOps.Ideal.Laws
import Idealize.ShloMosaic.Lib.ValueIdx
import proofs.«406238_j58506044506835_1_alg».proof.Proof.Spec.BatchNorm

noncomputable section

namespace Cert.Spec

open Idealize.ShloMosaic Idealize.ShloMosaic.ValueIdx

def bnReluEntry {F : FTy → Type} [FloatOps F] (x b mean var g be : F .f32) : F .f32 :=
  FloatOps.maximumf
    (FloatOps.addf
      (FloatOps.mulf
        (FloatOps.mulf (FloatOps.subf (FloatOps.addf x b) mean)
          (FloatOps.rsqrt (FloatOps.addf var (Scalar.ofBits .f32 0x3727C5AC#32))))
        g)
      be)
    (Scalar.ofBits .f32 0x00000000#32)

theorem bnReluEntry_congr {F : FTy → Type} [FloatOps F] {x x' b b' mean mean' var var' g g' be be' : F .f32}
    (hx : x = x') (hb : b = b') (hmean : mean = mean') (hvar : var = var') (hg : g = g') (hbe : be = be') :
    bnReluEntry x b mean var g be = bnReluEntry x' b' mean' var' g' be' := by
  rw [hx, hb, hmean, hvar, hg, hbe]

variable {n d : ℕ}

abbrev rowOver (i : (⟨2, ![n, d]⟩ : Shape).Idx) : (⟨2, ![1, d]⟩ : Shape).Idx := ix2 (0 : Fin 1) (i 1 : Fin d)

def bnReluArr {F : FTy → Type} [FloatOps F] (x : (⟨2, ![n, d]⟩ : Shape).Idx → F .f32)
    (b mean var g be : (⟨2, ![1, d]⟩ : Shape).Idx → F .f32) : (⟨2, ![n, d]⟩ : Shape).Idx → F .f32 := fun i =>
  bnReluEntry (x i) (b (rowOver i)) (mean (rowOver i)) (var (rowOver i)) (g (rowOver i)) (be (rowOver i))

theorem bnReluArr_ideal_apply (x : (⟨2, ![n, d]⟩ : Shape).Idx → Ideal .f32)
    (b mean var g be : (⟨2, ![1, d]⟩ : Shape).Idx → Ideal .f32) (i : Fin n) (j : Fin d) :
    bnReluArr (F := Ideal) x b mean var g be (ix2 i j)
      = bnApply (addRow (fun i j => x (ix2 i j)) (fun j => b (ix2 0 j))) (fun j => mean (ix2 0 j)) (fun j => var (ix2 0 j))
          (fun j => g (ix2 0 j)) (fun j => be (ix2 0 j)) (Ideal.ofBits .f32 0x3727C5AC#32) i j := by
  show max (((x (ix2 i j) + b (ix2 0 j) - mean (ix2 0 j)) * Ideal.rsqrt (var (ix2 0 j) + Ideal.ofBits .f32 0x3727C5AC#32)) * g (ix2 0 j)
      + be (ix2 0 j)) (Ideal.ofBits .f32 0x00000000#32) = _
  rw [Ideal.ofBits_zero_f32]
  rfl

end Cert.Spec

end
-- ==== Proof.Val.R2Val.lean ====
import proofs.«406238_j58506044506835_1_alg».proof.Proof.KI.R2
import proofs.«406238_j58506044506835_1_alg».proof.Proof.Spec.Apply
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem zeroOffsets2 : (![0, 0] : Fin 2 → Nat) = fun _ => 0 := funext fun a => by fin_cases a <;> rfl

theorem pay2_eq (x : Vec F S10000x16 .f32) (b var mu g be : Vec F S1x16 .f32) :
    k2_pay1 x b var mu g be
      = maximumf (addf (mulf (mulf (subf (addf x (broadcastTo S10000x16 b broadcasts_S1x16_S10000x16))
            (broadcastTo S10000x16 mu broadcasts_S1x16_S10000x16))
          (broadcastTo S10000x16 (rsqrt (addf var (broadcast S1x16 (Scalar.ofBits .f32 0x3727C5AC#32)))) broadcasts_S1x16_S10000x16))
          (broadcastTo S10000x16 g broadcasts_S1x16_S10000x16)) (broadcastTo S10000x16 be broadcasts_S1x16_S10000x16))
        (broadcast S10000x16 (Scalar.ofBits .f32 0x00000000#32)) := by
  unfold k2_pay1
  simp only [shapeCast_self]

theorem bcastRow2 (r : Vec F S1x16 .f32) (j : S10000x16.Idx) :
    broadcastTo S10000x16 r broadcasts_S1x16_S10000x16 j = r (ix2 (0 : Fin 1) (j 1)) :=
  broadcastTo_apply r _ j (ix2 (0 : Fin 1) (j 1)) (fun a => by match a with | ⟨0, _⟩ => rfl | ⟨1, _⟩ => rfl)

theorem pay2_at (x : Vec F S10000x16 .f32) (b var mu g be : Vec F S1x16 .f32) (j : S10000x16.Idx) :
    k2_pay1 x b var mu g be j
      = Cert.Spec.bnReluEntry (x j) (b (ix2 (0 : Fin 1) (j 1))) (mu (ix2 (0 : Fin 1) (j 1))) (var (ix2 (0 : Fin 1) (j 1)))
          (g (ix2 (0 : Fin 1) (j 1))) (be (ix2 (0 : Fin 1) (j 1))) := by
  rw [pay2_eq]
  show FloatOps.maximumf (FloatOps.addf (FloatOps.mulf (FloatOps.mulf (FloatOps.subf
      (FloatOps.addf (x j) (broadcastTo S10000x16 b broadcasts_S1x16_S10000x16 j))
      (broadcastTo S10000x16 mu broadcasts_S1x16_S10000x16 j))
      (broadcastTo S10000x16 (rsqrt (addf var (broadcast S1x16 (Scalar.ofBits .f32 0x3727C5AC#32)))) broadcasts_S1x16_S10000x16 j))
      (broadcastTo S10000x16 g broadcasts_S1x16_S10000x16 j))
      (broadcastTo S10000x16 be broadcasts_S1x16_S10000x16 j)) (Scalar.ofBits .f32 0x00000000#32) = _
  rw [bcastRow2, bcastRow2, bcastRow2, bcastRow2, bcastRow2]
  rfl

theorem idx_rows2 : ∀ t : Fin cfg2.N, win2_0.index t (0 : Fin 2) = win2_6.index t (0 : Fin 2) ∧ win2_0.index t (1 : Fin 2) = 0 :=
  (by decide +kernel : ∀ t : Fin grid2.N, _)
theorem idx_cols2_6 : ∀ t : Fin cfg2.N, win2_6.index t (1 : Fin 2) = 0 :=
  (by decide +kernel : ∀ t : Fin grid2.N, _)

theorem idx_param2_1 : ∀ t : Fin cfg2.N, win2_1.index t (0 : Fin 2) = 0 ∧ win2_1.index t (1 : Fin 2) = 0 :=
  (by decide +kernel : ∀ t : Fin grid2.N, _)
theorem idx_param2_2 : ∀ t : Fin cfg2.N, win2_2.index t (0 : Fin 2) = 0 ∧ win2_2.index t (1 : Fin 2) = 0 :=
  (by decide +kernel : ∀ t : Fin grid2.N, _)
theorem idx_param2_3 : ∀ t : Fin cfg2.N, win2_3.index t (0 : Fin 2) = 0 ∧ win2_3.index t (1 : Fin 2) = 0 :=
  (by decide +kernel : ∀ t : Fin grid2.N, _)
theorem idx_param2_4 : ∀ t : Fin cfg2.N, win2_4.index t (0 : Fin 2) = 0 ∧ win2_4.index t (1 : Fin 2) = 0 :=
  (by decide +kernel : ∀ t : Fin grid2.N, _)
theorem idx_param2_5 : ∀ t : Fin cfg2.N, win2_5.index t (0 : Fin 2) = 0 ∧ win2_5.index t (1 : Fin 2) = 0 :=
  (by decide +kernel : ∀ t : Fin grid2.N, _)

theorem rows2_at (c : Dev nD) (t : Fin cfg2.N) (j : S10000x16.Idx) :
    iblk2 V c 0 t j = V c (Pipeline.arrRef spec2 0) (((cfg2.win 6).blk t).view.emb j) := by
  obtain ⟨e0, e1⟩ := idx_rows2 t
  have e6 := idx_cols2_6 t
  show V c (Pipeline.arrRef spec2 0) (((cfg2.win 0).blk t).view.emb j) = _
  refine congrArg _ (funext fun a => Fin.ext ?_)
  match a with
  | ⟨0, _⟩ => show win2_0.index t (0 : Fin 2) * 10000 + 1 * (j 0).val = win2_6.index t (0 : Fin 2) * 10000 + 1 * (j 0).val; rw [e0]
  | ⟨1, _⟩ => show win2_0.index t (1 : Fin 2) * 16 + 1 * (j 1).val = win2_6.index t (1 : Fin 2) * 16 + 1 * (j 1).val; rw [e1, e6]

theorem bias2_at (c : Dev nD) (t : Fin cfg2.N) (j : S10000x16.Idx) :
    iblk2 V c 1 t (ix2 (0 : Fin 1) (j 1)) = V c (Pipeline.arrRef spec2 1) (Cert.Spec.rowOver (((cfg2.win 6).blk t).view.emb j)) := by
  obtain ⟨e0, e1⟩ := idx_param2_1 t
  have e6 := idx_cols2_6 t
  show V c (Pipeline.arrRef spec2 1) (((cfg2.win 1).blk t).view.emb (ix2 (0 : Fin 1) (j 1))) = _
  refine congrArg _ (funext fun a => Fin.ext ?_)
  match a with
  | ⟨0, _⟩ => show win2_1.index t (0 : Fin 2) * 1 + 1 * 0 = 0; rw [e0]
  | ⟨1, _⟩ => show win2_1.index t (1 : Fin 2) * 16 + 1 * (j 1).val = win2_6.index t (1 : Fin 2) * 16 + 1 * (j 1).val; rw [e1, e6]

theorem mean2_at (c : Dev nD) (t : Fin cfg2.N) (j : S10000x16.Idx) :
    iblk2 V c 2 t (ix2 (0 : Fin 1) (j 1)) = V c (Pipeline.arrRef spec2 2) (Cert.Spec.rowOver (((cfg2.win 6).blk t).view.emb j)) := by
  obtain ⟨e0, e1⟩ := idx_param2_2 t
  have e6 := idx_cols2_6 t
  show V c (Pipeline.arrRef spec2 2) (((cfg2.win 2).blk t).view.emb (ix2 (0 : Fin 1) (j 1))) = _
  refine congrArg _ (funext fun a => Fin.ext ?_)
  match a with
  | ⟨0, _⟩ => show win2_2.index t (0 : Fin 2) * 1 + 1 * 0 = 0; rw [e0]
  | ⟨1, _⟩ => show win2_2.index t (1 : Fin 2) * 16 + 1 * (j 1).val = win2_6.index t (1 : Fin 2) * 16 + 1 * (j 1).val; rw [e1, e6]

theorem var2_at (c : Dev nD) (t : Fin cfg2.N) (j : S10000x16.Idx) :
    iblk2 V c 3 t (ix2 (0 : Fin 1) (j 1)) = V c (Pipeline.arrRef spec2 3) (Cert.Spec.rowOver (((cfg2.win 6).blk t).view.emb j)) := by
  obtain ⟨e0, e1⟩ := idx_param2_3 t
  have e6 := idx_cols2_6 t
  show V c (Pipeline.arrRef spec2 3) (((cfg2.win 3).blk t).view.emb (ix2 (0 : Fin 1) (j 1))) = _
  refine congrArg _ (funext fun a => Fin.ext ?_)
  match a with
  | ⟨0, _⟩ => show win2_3.index t (0 : Fin 2) * 1 + 1 * 0 = 0; rw [e0]
  | ⟨1, _⟩ => show win2_3.index t (1 : Fin 2) * 16 + 1 * (j 1).val = win2_6.index t (1 : Fin 2) * 16 + 1 * (j 1).val; rw [e1, e6]

theorem scale2_at (c : Dev nD) (t : Fin cfg2.N) (j : S10000x16.Idx) :
    iblk2 V c 4 t (ix2 (0 : Fin 1) (j 1)) = V c (Pipeline.arrRef spec2 4) (Cert.Spec.rowOver (((cfg2.win 6).blk t).view.emb j)) := by
  obtain ⟨e0, e1⟩ := idx_param2_4 t
  have e6 := idx_cols2_6 t
  show V c (Pipeline.arrRef spec2 4) (((cfg2.win 4).blk t).view.emb (ix2 (0 : Fin 1) (j 1))) = _
  refine congrArg _ (funext fun a => Fin.ext ?_)
  match a with
  | ⟨0, _⟩ => show win2_4.index t (0 : Fin 2) * 1 + 1 * 0 = 0; rw [e0]
  | ⟨1, _⟩ => show win2_4.index t (1 : Fin 2) * 16 + 1 * (j 1).val = win2_6.index t (1 : Fin 2) * 16 + 1 * (j 1).val; rw [e1, e6]

theorem shift2_at (c : Dev nD) (t : Fin cfg2.N) (j : S10000x16.Idx) :
    iblk2 V c 5 t (ix2 (0 : Fin 1) (j 1)) = V c (Pipeline.arrRef spec2 5) (Cert.Spec.rowOver (((cfg2.win 6).blk t).view.emb j)) := by
  obtain ⟨e0, e1⟩ := idx_param2_5 t
  have e6 := idx_cols2_6 t
  show V c (Pipeline.arrRef spec2 5) (((cfg2.win 5).blk t).view.emb (ix2 (0 : Fin 1) (j 1))) = _
  refine congrArg _ (funext fun a => Fin.ext ?_)
  match a with
  | ⟨0, _⟩ => show win2_5.index t (0 : Fin 2) * 1 + 1 * 0 = 0; rw [e0]
  | ⟨1, _⟩ => show win2_5.index t (1 : Fin 2) * 16 + 1 * (j 1).val = win2_6.index t (1 : Fin 2) * 16 + 1 * (j 1).val; rw [e1, e6]

theorem entry2_6 (c : Dev nD) (t : Fin cfg2.N) (j : S10000x16.Idx) :
    k2_pay1 (iblk2 V c 0 t) (iblk2 V c 1 t) (iblk2 V c 3 t) (iblk2 V c 2 t) (iblk2 V c 4 t) (iblk2 V c 5 t) j
      = Cert.Spec.bnReluArr (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (((cfg2.win 6).blk t).view.emb j) :=
  (pay2_at _ _ _ _ _ _ j).trans (Cert.Spec.bnReluEntry_congr (rows2_at V c t j) (bias2_at V c t j) (mean2_at V c t j)
    (var2_at V c t j) (scale2_at V c t j) (shift2_at V c t j))

theorem flushed2_6_eq (c : Dev nD) (t : Fin cfg2.N) :
    (dat2 V c).flushed 6 t = ((cfg2.win 6).blk t).view.read (Elt F) (Cert.Spec.bnReluArr (V c (Pipeline.arrRef spec2 0))
      (V c (Pipeline.arrRef spec2 1)) (V c (Pipeline.arrRef spec2 2)) (V c (Pipeline.arrRef spec2 3)) (V c (Pipeline.arrRef spec2 4))
      (V c (Pipeline.arrRef spec2 5))) := by
  show (cfg2.win 6).cut (grid2.coords t) ((dat2 V c).after 6 t) = _
  rw [after2_6]
  unfold bnReluBlk2
  rw [View.canon_unit_zero zeroOffsets2]
  simp only [View.ld_unit_zero (S := S10000x16) zeroOffsets2, View.ld_unit_zero (S := S1x16) zeroOffsets2]
  exact funext fun (j : S10000x16.Idx) => entry2_6 V c t j

theorem mem_blk2_6 (t : Fin cfg2.N) (i : S100000x16.Idx) :
    i ∈ ((cfg2.win 6).blk t).view.set ↔ ∀ a : Fin 2, win2_6.index t a * S10000x16.size a ≤ (i a).val
      ∧ (i a).val < win2_6.index t a * S10000x16.size a + S10000x16.size a := by
  show i ∈ ((View.whole main_v52).slice (win2_6.rect t)).set ↔ _
  rw [View.set_slice_whole, Rect.mem_set_unit]
  exact Iff.rfl

theorem idx_onto2_6 : ∀ q : Fin 10, ∃ t : Fin cfg2.N, win2_6.index t (0 : Fin 2) = q.val :=
  (by decide +kernel : ∀ q : Fin 10, ∃ t : Fin grid2.N, win2_6.index t (0 : Fin 2) = q.val)

theorem covered2_6 (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  obtain ⟨t, ht⟩ := idx_onto2_6 ⟨(i 0).val / 10000, by omega⟩
  have ht' : win2_6.index t (0 : Fin 2) = (i 0).val / 10000 := ht
  have e6 := idx_cols2_6 t
  refine ⟨t, flush2_6 t, (mem_blk2_6 t i).2 fun a => ?_⟩
  match a with
  | ⟨0, _⟩ =>
    show win2_6.index t (0 : Fin 2) * 10000 ≤ (i 0).val ∧ (i 0).val < win2_6.index t (0 : Fin 2) * 10000 + 10000
    omega
  | ⟨1, _⟩ =>
    show win2_6.index t (1 : Fin 2) * 16 ≤ (i 1).val ∧ (i 1).val < win2_6.index t (1 : Fin 2) * 16 + 16
    omega

theorem final2_6 (c : Dev nD) : (dat2 V c).arrAt 6 cfg2.N = Cert.Spec.bnReluArr (V c (Pipeline.arrRef spec2 0))
    (V c (Pipeline.arrRef spec2 1)) (V c (Pipeline.arrRef spec2 2)) (V c (Pipeline.arrRef spec2 3)) (V c (Pipeline.arrRef spec2 4))
    (V c (Pipeline.arrRef spec2 5)) :=
  (dat2 V c).arrAt_eq_of_cover 6 _ (fun t _ => flushed2_6_eq V c t) covered2_6

end Cert.KernelIdeal.Hand

end
-- ==== Proof.Val.Agg1.lean ====
import proofs.«406238_j58506044506835_1_alg».proof.Proof.KI.Keep
import proofs.«406238_j58506044506835_1_alg».proof.Proof.Val.Host0
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

theorem agg1 (c : Dev nD) :
    (W3 m ρ c (Proc.devRef .tc main_v40) : FVec Ideal S100000x16 .f32) = aggOf16 (W2 m ρ c (Proc.devRef .tc main_v27)) (edges m c) := by
  show StableHlo.after hostOps1 _ (Proc.devRef .tc main_v40) = _
  after_results_simp
  rw [W2_src m ρ c, W2_dst m ρ c, W2_norm m ρ c]
  rfl

abbrev bias1 (c : Dev nD) : FVec Ideal S16 .f32 := m ((c : Thread nD τ).loc main_arg4)

end Cert.KernelIdeal.HandVal

end
-- ==== Proof.Val.Agg2.lean ====
import proofs.«406238_j58506044506835_1_alg».proof.Proof.KI.Keep
import proofs.«406238_j58506044506835_1_alg».proof.Proof.Val.Host0
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

theorem agg2 (c : Dev nD) :
    (W8 m ρ c (Proc.devRef .tc main_v66) : FVec Ideal S100000x32 .f32) = aggOf32 (W7 m ρ c (Proc.devRef .tc main_v53)) (edges m c) := by
  show StableHlo.after hostOps4 _ (Proc.devRef .tc main_v66) = _
  after_results_simp
  rw [W7_src m ρ c, W7_dst m ρ c, W7_norm m ρ c]
  rfl

abbrev bias2 (c : Dev nD) : FVec Ideal S32 .f32 := m ((c : Thread nD τ).loc main_arg8)

end Cert.KernelIdeal.HandVal

end
-- ==== Proof.Val.Agg3.lean ====
import proofs.«406238_j58506044506835_1_alg».proof.Proof.KI.Keep
import proofs.«406238_j58506044506835_1_alg».proof.Proof.Val.Host0
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

theorem agg3 (c : Dev nD) :
    (W13 m ρ c (Proc.devRef .tc main_v92) : FVec Ideal S100000x64 .f32) = aggOf64 (W12 m ρ c (Proc.devRef .tc main_v79)) (edges m c) := by
  show StableHlo.after hostOps7 _ (Proc.devRef .tc main_v92) = _
  after_results_simp
  rw [W12_src m ρ c, W12_dst m ρ c, W12_norm m ρ c]
  rfl

abbrev bias3 (c : Dev nD) : FVec Ideal S64 .f32 := m ((c : Thread nD τ).loc main_arg12)

end Cert.KernelIdeal.HandVal

end
-- ==== Proof.Val.HostRef.lean ====
import proofs.«406238_j58506044506835_1_alg».proof.Proof.Ref.ReadP
import proofs.«406238_j58506044506835_1_alg».proof.Proof.Val.HostFns

set_option maxRecDepth 16384

noncomputable section

namespace Cert.KernelIdeal.HandVal

open Cert.ReferenceIdeal.Read
open Idealize.ShloMosaic Idealize.SL.Sem

theorem ref_src (e : EdgeIn) : val_main_v3 (F := Ideal) e = srcIdx e := rfl

theorem ref_dst (e : EdgeIn) : val_main_v6 (F := Ideal) e = dstIdx e := rfl

theorem ref_norm (e : EdgeIn) : val_main_v27 (F := Ideal) e = edgeNorm e := rfl

theorem ref_norm2 (e : EdgeIn) : val_main_v85 (F := Ideal) e = edgeNorm e := rfl

theorem ref_norm3 (e : EdgeIn) : val_main_v143 (F := Ideal) e = edgeNorm e := rfl

theorem ref_agg1 (x0 : (⟨Cert.ReferenceIdeal.S100000x3, .f32⟩ : BufTy).Contents (Elt Ideal)) (e : EdgeIn) (x3 : (⟨Cert.ReferenceIdeal.S3x16, .f32⟩ : BufTy).Contents (Elt Ideal)) :
    val_main_v40 (F := Ideal) x0 e x3 = aggOf16 (val_main_v12 (F := Ideal) x0 x3) e := rfl

theorem ref_agg2 (x0 : (⟨Cert.ReferenceIdeal.S100000x3, .f32⟩ : BufTy).Contents (Elt Ideal)) (e : EdgeIn) (x3 : (⟨Cert.ReferenceIdeal.S3x16, .f32⟩ : BufTy).Contents (Elt Ideal))
    (x4 x5 x6 : (⟨Cert.ReferenceIdeal.S16, .f32⟩ : BufTy).Contents (Elt Ideal)) (x7 : (⟨Cert.ReferenceIdeal.S16x32, .f32⟩ : BufTy).Contents (Elt Ideal)) :
    val_main_v98 (F := Ideal) x0 e x3 x4 x5 x6 x7 = aggOf32 (val_main_v70 (F := Ideal) x0 e x3 x4 x5 x6 x7) e := rfl

theorem ref_agg3 (x0 : (⟨Cert.ReferenceIdeal.S100000x3, .f32⟩ : BufTy).Contents (Elt Ideal)) (e : EdgeIn) (x3 : (⟨Cert.ReferenceIdeal.S3x16, .f32⟩ : BufTy).Contents (Elt Ideal))
    (x4 x5 x6 : (⟨Cert.ReferenceIdeal.S16, .f32⟩ : BufTy).Contents (Elt Ideal)) (x7 : (⟨Cert.ReferenceIdeal.S16x32, .f32⟩ : BufTy).Contents (Elt Ideal))
    (x8 x9 x10 : (⟨Cert.ReferenceIdeal.S32, .f32⟩ : BufTy).Contents (Elt Ideal)) (x11 : (⟨Cert.ReferenceIdeal.S32x64, .f32⟩ : BufTy).Contents (Elt Ideal)) :
    val_main_v156 (F := Ideal) x0 e x3 x4 x5 x6 x7 x8 x9 x10 x11 = aggOf64 (val_main_v128 (F := Ideal) x0 e x3 x4 x5 x6 x7 x8 x9 x10 x11) e := rfl

end Cert.KernelIdeal.HandVal

end
-- ==== Proof.Val.HostAgree.lean ====
import proofs.«406238_j58506044506835_1_alg».proof.Proof.Val.Agg1
import proofs.«406238_j58506044506835_1_alg».proof.Proof.Val.Agg2
import proofs.«406238_j58506044506835_1_alg».proof.Proof.Val.Agg3
import proofs.«406238_j58506044506835_1_alg».proof.Proof.Val.HostRef

set_option maxRecDepth 16384

noncomputable section

namespace Cert.KernelIdeal.HandVal

open Cert.KernelIdeal Cert.KernelIdeal.Gen Cert.KernelIdeal.Hand
open Cert.ReferenceIdeal.Read
open Idealize.ShloMosaic Idealize.ShloMosaic.TcCoe Idealize.SL.Sem

variable (m : (ℓ : Loc nD τ sig) → Buf (Elt Ideal) ℓ) (ρ : Dev nD → PrngReg)

theorem agg1_ref (c : Dev nD) (x0 : (⟨Cert.ReferenceIdeal.S100000x3, .f32⟩ : BufTy).Contents (Elt Ideal)) (x3 : (⟨Cert.ReferenceIdeal.S3x16, .f32⟩ : BufTy).Contents (Elt Ideal))
    (hproj : (W2 m ρ c (Proc.devRef .tc main_v27) : FVec Ideal S100000x16 .f32) = val_main_v12 (F := Ideal) x0 x3) :
    (W3 m ρ c (Proc.devRef .tc main_v40) : FVec Ideal S100000x16 .f32) = val_main_v40 (F := Ideal) x0 (edges m c) x3 :=
  (agg1 m ρ c).trans ((congrArg (fun xw => aggOf16 xw (edges m c)) hproj).trans (ref_agg1 x0 (edges m c) x3).symm)

theorem agg2_ref (c : Dev nD) (x0 : (⟨Cert.ReferenceIdeal.S100000x3, .f32⟩ : BufTy).Contents (Elt Ideal)) (x3 : (⟨Cert.ReferenceIdeal.S3x16, .f32⟩ : BufTy).Contents (Elt Ideal))
    (x4 x5 x6 : (⟨Cert.ReferenceIdeal.S16, .f32⟩ : BufTy).Contents (Elt Ideal)) (x7 : (⟨Cert.ReferenceIdeal.S16x32, .f32⟩ : BufTy).Contents (Elt Ideal))
    (hproj : (W7 m ρ c (Proc.devRef .tc main_v53) : FVec Ideal S100000x32 .f32) = val_main_v70 (F := Ideal) x0 (edges m c) x3 x4 x5 x6 x7) :
    (W8 m ρ c (Proc.devRef .tc main_v66) : FVec Ideal S100000x32 .f32) = val_main_v98 (F := Ideal) x0 (edges m c) x3 x4 x5 x6 x7 :=
  (agg2 m ρ c).trans ((congrArg (fun xw => aggOf32 xw (edges m c)) hproj).trans (ref_agg2 x0 (edges m c) x3 x4 x5 x6 x7).symm)

theorem agg3_ref (c : Dev nD) (x0 : (⟨Cert.ReferenceIdeal.S100000x3, .f32⟩ : BufTy).Contents (Elt Ideal)) (x3 : (⟨Cert.ReferenceIdeal.S3x16, .f32⟩ : BufTy).Contents (Elt Ideal))
    (x4 x5 x6 : (⟨Cert.ReferenceIdeal.S16, .f32⟩ : BufTy).Contents (Elt Ideal)) (x7 : (⟨Cert.ReferenceIdeal.S16x32, .f32⟩ : BufTy).Contents (Elt Ideal))
    (x8 x9 x10 : (⟨Cert.ReferenceIdeal.S32, .f32⟩ : BufTy).Contents (Elt Ideal)) (x11 : (⟨Cert.ReferenceIdeal.S32x64, .f32⟩ : BufTy).Contents (Elt Ideal))
    (hproj : (W12 m ρ c (Proc.devRef .tc main_v79) : FVec Ideal S100000x64 .f32) = val_main_v128 (F := Ideal) x0 (edges m c) x3 x4 x5 x6 x7 x8 x9 x10 x11) :
    (W13 m ρ c (Proc.devRef .tc main_v92) : FVec Ideal S100000x64 .f32) = val_main_v156 (F := Ideal) x0 (edges m c) x3 x4 x5 x6 x7 x8 x9 x10 x11 :=
  (agg3 m ρ c).trans ((congrArg (fun xw => aggOf64 xw (edges m c)) hproj).trans (ref_agg3 x0 (edges m c) x3 x4 x5 x6 x7 x8 x9 x10 x11).symm)

end Cert.KernelIdeal.HandVal

end
-- ==== Proof.Val.Stat1.lean ====
import proofs.«406238_j58506044506835_1_alg».proof.Proof.KI.Keep
import proofs.«406238_j58506044506835_1_alg».proof.Proof.Spec.BatchNorm
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

theorem W4_main_arg4 : W4 m ρ c (Proc.devRef .tc main_arg4) = m ((c : Thread nD τ).loc main_arg4) :=
  (keep4 m ρ c main_arg4 (by decide)).trans <| (keep3 m ρ c main_arg4 (by decide)).trans <| (keep2 m ρ c main_arg4 (by decide)).trans <| (keep1 m ρ c main_arg4 (by decide)).trans rfl
theorem W4_main_arg5 : W4 m ρ c (Proc.devRef .tc main_arg5) = m ((c : Thread nD τ).loc main_arg5) :=
  (keep4 m ρ c main_arg5 (by decide)).trans <| (keep3 m ρ c main_arg5 (by decide)).trans <| (keep2 m ρ c main_arg5 (by decide)).trans <| (keep1 m ρ c main_arg5 (by decide)).trans rfl
theorem W4_main_arg6 : W4 m ρ c (Proc.devRef .tc main_arg6) = m ((c : Thread nD τ).loc main_arg6) :=
  (keep4 m ρ c main_arg6 (by decide)).trans <| (keep3 m ρ c main_arg6 (by decide)).trans <| (keep2 m ρ c main_arg6 (by decide)).trans <| (keep1 m ρ c main_arg6 (by decide)).trans rfl
theorem W2_main_arg4 : W2 m ρ c (Proc.devRef .tc main_arg4) = m ((c : Thread nD τ).loc main_arg4) :=
  (keep2 m ρ c main_arg4 (by decide)).trans <| (keep1 m ρ c main_arg4 (by decide)).trans rfl

abbrev cN : EReal := Ideal.ofBits .f32 0x47C35000#32

theorem W5_mean_eq : (W5 m ρ c (Proc.devRef .tc main_v44) : FVec Ideal S1x16 .f32)
    = Host.divf (W4 m ρ c (Proc.devRef .tc main_v42_0) : FVec Ideal S1x16 .f32)
        (broadcastInDim S1x16 ![] bcast_S_S1x16 (constant (F := Ideal) S_ .f32 0x47C35000#32)) := by
  show StableHlo.after hostOps2 _ (Proc.devRef .tc main_v44) = _
  after_results

theorem W5_var_eq : (W5 m ρ c (Proc.devRef .tc main_v48) : FVec Ideal S1x16 .f32)
    = subf (Host.divf (W4 m ρ c (Proc.devRef .tc main_v42_1) : FVec Ideal S1x16 .f32)
              (broadcastInDim S1x16 ![] bcast_S_S1x16 (constant (F := Ideal) S_ .f32 0x47C35000#32)))
        (mulf (Host.divf (W4 m ρ c (Proc.devRef .tc main_v42_0) : FVec Ideal S1x16 .f32)
                (broadcastInDim S1x16 ![] bcast_S_S1x16 (constant (F := Ideal) S_ .f32 0x47C35000#32)))
              (Host.divf (W4 m ρ c (Proc.devRef .tc main_v42_0) : FVec Ideal S1x16 .f32)
                (broadcastInDim S1x16 ![] bcast_S_S1x16 (constant (F := Ideal) S_ .f32 0x47C35000#32)))) := by
  show StableHlo.after hostOps2 _ (Proc.devRef .tc main_v48) = _
  after_results

theorem W5_bias_eq : (W5 m ρ c (Proc.devRef .tc main_v49) : FVec Ideal S1x16 .f32)
    = shapeCast S1x16 (W4 m ρ c (Proc.devRef .tc main_arg4) : FVec Ideal S16 .f32) shapeCasts_S16_S1x16 := by
  show StableHlo.after hostOps2 _ (Proc.devRef .tc main_v49) = _
  after_results
  rfl
theorem W5_scale_eq : (W5 m ρ c (Proc.devRef .tc main_v50) : FVec Ideal S1x16 .f32)
    = shapeCast S1x16 (W4 m ρ c (Proc.devRef .tc main_arg5) : FVec Ideal S16 .f32) shapeCasts_S16_S1x16 := by
  show StableHlo.after hostOps2 _ (Proc.devRef .tc main_v50) = _
  after_results
  rfl
theorem W5_shift_eq : (W5 m ρ c (Proc.devRef .tc main_v51) : FVec Ideal S1x16 .f32)
    = shapeCast S1x16 (W4 m ρ c (Proc.devRef .tc main_arg6) : FVec Ideal S16 .f32) shapeCasts_S16_S1x16 := by
  show StableHlo.after hostOps2 _ (Proc.devRef .tc main_v51) = _
  after_results
  rfl

theorem W3_bias_eq : (W3 m ρ c (Proc.devRef .tc main_v41) : FVec Ideal S1x16 .f32)
    = shapeCast S1x16 (W2 m ρ c (Proc.devRef .tc main_arg4) : FVec Ideal S16 .f32) shapeCasts_S16_S1x16 := by
  show StableHlo.after hostOps1 _ (Proc.devRef .tc main_v41) = _
  after_results
  rfl

theorem W5_mean (j : Fin 16) : (W5 m ρ c (Proc.devRef .tc main_v44) : FVec Ideal S1x16 .f32) (ix2 0 j)
    = Ideal.div ((W4 m ρ c (Proc.devRef .tc main_v42_0) : FVec Ideal S1x16 .f32) (ix2 0 j)) cN := by
  rw [W5_mean_eq]; rfl

theorem W5_var (j : Fin 16) : (W5 m ρ c (Proc.devRef .tc main_v48) : FVec Ideal S1x16 .f32) (ix2 0 j)
    = Ideal.div ((W4 m ρ c (Proc.devRef .tc main_v42_1) : FVec Ideal S1x16 .f32) (ix2 0 j)) cN
      - Ideal.div ((W4 m ρ c (Proc.devRef .tc main_v42_0) : FVec Ideal S1x16 .f32) (ix2 0 j)) cN
        * Ideal.div ((W4 m ρ c (Proc.devRef .tc main_v42_0) : FVec Ideal S1x16 .f32) (ix2 0 j)) cN := by
  rw [W5_var_eq]; rfl

theorem W5_bias (j : Fin 16) : (W5 m ρ c (Proc.devRef .tc main_v49) : FVec Ideal S1x16 .f32) (ix2 0 j)
    = (m ((c : Thread nD τ).loc main_arg4) : FVec Ideal S16 .f32) (ix1 j) := by
  rw [W5_bias_eq]
  refine (shapeCast_a_1a_apply (a := 16) _ _ 0 j).trans ?_
  rw [W4_main_arg4]
theorem W5_scale (j : Fin 16) : (W5 m ρ c (Proc.devRef .tc main_v50) : FVec Ideal S1x16 .f32) (ix2 0 j)
    = (m ((c : Thread nD τ).loc main_arg5) : FVec Ideal S16 .f32) (ix1 j) := by
  rw [W5_scale_eq]
  refine (shapeCast_a_1a_apply (a := 16) _ _ 0 j).trans ?_
  rw [W4_main_arg5]
theorem W5_shift (j : Fin 16) : (W5 m ρ c (Proc.devRef .tc main_v51) : FVec Ideal S1x16 .f32) (ix2 0 j)
    = (m ((c : Thread nD τ).loc main_arg6) : FVec Ideal S16 .f32) (ix1 j) := by
  rw [W5_shift_eq]
  refine (shapeCast_a_1a_apply (a := 16) _ _ 0 j).trans ?_
  rw [W4_main_arg6]
theorem W3_bias (j : Fin 16) : (W3 m ρ c (Proc.devRef .tc main_v41) : FVec Ideal S1x16 .f32) (ix2 0 j)
    = (m ((c : Thread nD τ).loc main_arg4) : FVec Ideal S16 .f32) (ix1 j) := by
  rw [W3_bias_eq]
  refine (shapeCast_a_1a_apply (a := 16) _ _ 0 j).trans ?_
  rw [W2_main_arg4]

theorem W5_agg : W5 m ρ c (Proc.devRef .tc main_v40) = W3 m ρ c (Proc.devRef .tc main_v40) :=
  (keep5 m ρ c main_v40 (by decide)).trans (keep4 m ρ c main_v40 (by decide))

end Cert.KernelIdeal.HandVal

end
-- ==== Proof.Ref.RefLayer1.lean ====
import proofs.«406238_j58506044506835_1_alg».proof.Proof.Ref.ReadP
import proofs.«406238_j58506044506835_1_alg».proof.Proof.Spec.BatchNorm

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x0 : (⟨S100000x3, .f32⟩ : BufTy).Contents (Elt Ideal)) (x1 : (⟨S2x1600000, .i32⟩ : BufTy).Contents (Elt Ideal))
  (x3 : (⟨S3x16, .f32⟩ : BufTy).Contents (Elt Ideal)) (x4 x5 x6 : (⟨S16, .f32⟩ : BufTy).Contents (Elt Ideal))

theorem bias1_at (i : Fin 100000) (j : Fin 16) :
    val_main_v42 (F := Ideal) x4 (ix2 i j) = x4 (ix1 j) := by
  rw [val_main_v42_apply, val_main_v41_apply]
  exact congrArg x4 (funext fun a => Fin.ext (by match a with | ⟨0, _⟩ => rfl))

theorem gamma1_at (i : Fin 100000) (j : Fin 16) :
    val_main_v64 (F := Ideal) x5 (ix2 i j) = x5 (ix1 j) := by
  rw [val_main_v64_apply, val_main_v63_apply]
  exact congrArg x5 (funext fun a => Fin.ext (by match a with | ⟨0, _⟩ => rfl))

theorem beta1_at (i : Fin 100000) (j : Fin 16) :
    val_main_v67 (F := Ideal) x6 (ix2 i j) = x6 (ix1 j) := by
  rw [val_main_v67_apply, val_main_v66_apply]
  exact congrArg x6 (funext fun a => Fin.ext (by match a with | ⟨0, _⟩ => rfl))

theorem meanSq1_at (i : Fin 100000) (j : Fin 16) :
    val_main_v48 (F := Ideal) x0 x1 x3 x4 (ix2 i j) = val_main_v46 (F := Ideal) x0 x1 x3 x4 (ix1 j) := by
  rw [val_main_v48_apply, val_main_v47_apply]
  exact congrArg (val_main_v46 (F := Ideal) x0 x1 x3 x4) (funext fun a => Fin.ext (by match a with | ⟨0, _⟩ => rfl))

theorem meanDev1_at (i : Fin 100000) (j : Fin 16) :
    val_main_v55 (F := Ideal) x0 x1 x3 x4 (ix2 i j) = val_main_v46 (F := Ideal) x0 x1 x3 x4 (ix1 j) := by
  rw [val_main_v55_apply, val_main_v54_apply]
  exact congrArg (val_main_v46 (F := Ideal) x0 x1 x3 x4) (funext fun a => Fin.ext (by match a with | ⟨0, _⟩ => rfl))

theorem rstd1_at (i : Fin 100000) (j : Fin 16) :
    val_main_v61 (F := Ideal) x0 x1 x3 x4 (ix2 i j) = val_main_v59 (F := Ideal) x0 x1 x3 x4 (ix1 j) := by
  rw [val_main_v61_apply, val_main_v60_apply]
  exact congrArg (val_main_v59 (F := Ideal) x0 x1 x3 x4) (funext fun a => Fin.ext (by match a with | ⟨0, _⟩ => rfl))

theorem floor1_at (i : Fin 100000) (j : Fin 16) :
    val_main_call0_v0 (F := Ideal) (ix2 i j) = (0 : EReal) := by
  rw [val_main_call0_v0_apply, val_main_call0_cst_apply]
  simp only [Ideal.ofBits_def, Ideal.ofBits_zero_f32]

theorem pre1_at (i : Fin 100000) (j : Fin 16) :
    val_main_v43 (F := Ideal) x0 x1 x3 x4 (ix2 i j)
      = Cert.Spec.addRow (fun i j => val_main_v40 (F := Ideal) x0 x1 x3 (ix2 i j)) (fun j => x4 (ix1 j)) i j := by
  rw [val_main_v43_apply, bias1_at]
  simp only [Ideal.addf_def, Cert.Spec.addRow]

theorem mean1_at (j : Fin 16) :
    val_main_v46 (F := Ideal) x0 x1 x3 x4 (ix1 j)
      = Cert.Spec.bnMean (Cert.Spec.addRow (fun i j => val_main_v40 (F := Ideal) x0 x1 x3 (ix2 i j)) (fun j => x4 (ix1 j)))
          (Ideal.ofBits .f32 0x47C35000#32) j := by
  have hs : (∑ k : Fin 100000, val_main_v43 (F := Ideal) x0 x1 x3 x4 (idx_main_v44 (ix1 j) k))
      = ∑ k : Fin 100000, Cert.Spec.addRow (fun i j => val_main_v40 (F := Ideal) x0 x1 x3 (ix2 i j)) (fun j => x4 (ix1 j)) k j :=
    Finset.sum_congr rfl fun k _ => by
      rw [show idx_main_v44 (ix1 j) k = ix2 k j from funext fun a => Fin.ext (by match a with | ⟨0, _⟩ => rfl | ⟨1, _⟩ => rfl)]
      exact pre1_at x0 x1 x3 x4 k j
  unfold Cert.Spec.bnMean Cert.Spec.colSum
  rw [val_main_v46_apply, val_main_v44_apply, val_main_v45_apply, val_main_cst_8_apply, val_main_cst_7_apply, hs]
  simp only [Ideal.hostDivf_def, Ideal.ofBits_def, Ideal.ofBits_zero_f32, zero_add]

theorem var1_at (j : Fin 16) :
    val_main_v53 (F := Ideal) x0 x1 x3 x4 (ix1 j)
      = Cert.Spec.bnVarReference (Cert.Spec.addRow (fun i j => val_main_v40 (F := Ideal) x0 x1 x3 (ix2 i j)) (fun j => x4 (ix1 j)))
          (Ideal.ofBits .f32 0x47C35000#32) j := by
  have hs : (∑ k : Fin 100000, val_main_v50 (F := Ideal) x0 x1 x3 x4 (idx_main_v51 (ix1 j) k))
      = ∑ k : Fin 100000,
          (Cert.Spec.addRow (fun i j => val_main_v40 (F := Ideal) x0 x1 x3 (ix2 i j)) (fun j => x4 (ix1 j)) k j
              - Cert.Spec.bnMean (Cert.Spec.addRow (fun i j => val_main_v40 (F := Ideal) x0 x1 x3 (ix2 i j)) (fun j => x4 (ix1 j))) (Ideal.ofBits .f32 0x47C35000#32) j)
            * (Cert.Spec.addRow (fun i j => val_main_v40 (F := Ideal) x0 x1 x3 (ix2 i j)) (fun j => x4 (ix1 j)) k j
              - Cert.Spec.bnMean (Cert.Spec.addRow (fun i j => val_main_v40 (F := Ideal) x0 x1 x3 (ix2 i j)) (fun j => x4 (ix1 j))) (Ideal.ofBits .f32 0x47C35000#32) j) :=
    Finset.sum_congr rfl fun k _ => by
      rw [show idx_main_v51 (ix1 j) k = ix2 k j from funext fun a => Fin.ext (by match a with | ⟨0, _⟩ => rfl | ⟨1, _⟩ => rfl),
        val_main_v50_apply, val_main_v49_apply, meanSq1_at, pre1_at, mean1_at]
      simp only [Ideal.mulf_def, Ideal.subf_def]
  unfold Cert.Spec.bnVarReference
  rw [val_main_v53_apply, val_main_v51_apply, val_main_v52_apply, val_main_cst_10_apply, val_main_cst_9_apply, hs]
  simp only [Ideal.hostDivf_def, Ideal.ofBits_def, Ideal.ofBits_zero_f32, zero_add]

theorem ref_bn1 (i : Fin 100000) (j : Fin 16) :
    val_main_v69 (F := Ideal) x0 x1 x3 x4 x5 x6 (ix2 i j)
      = Cert.Spec.bnReference
          (Cert.Spec.addRow (fun i j => val_main_v40 (F := Ideal) x0 x1 x3 (ix2 i j)) (fun j => x4 (ix1 j)))
          (fun j => x5 (ix1 j)) (fun j => x6 (ix1 j))
          (Ideal.ofBits .f32 0x3727C5AC#32) (Ideal.ofBits .f32 0x47C35000#32) i j := by
  rw [val_main_v69_apply, val_main_v68_apply, val_main_v65_apply, val_main_v62_apply, val_main_v56_apply,
    floor1_at, beta1_at, gamma1_at, rstd1_at, meanDev1_at, val_main_v59_apply, val_main_v58_apply,
    val_main_v57_apply, val_main_cst_11_apply, pre1_at, mean1_at, var1_at]
  simp only [Ideal.maximumf_def, Ideal.addf_def, Ideal.mulf_def, Ideal.subf_def, Ideal.hostUnary_rsqrt_def,
    Ideal.ofBits_def, Cert.Spec.bnReference, Cert.Spec.bnApply]

theorem ref_lin1 (i : Fin 100000) (j : Fin 16) :
    val_main_v12 (F := Ideal) x0 x3 (ix2 i j) = ∑ k : Fin 3, x0 (ix2 i k) * x3 (ix2 k j) := by
  rw [val_main_v12_apply]
  refine Finset.sum_congr rfl fun k _ => ?_
  have el : lidx_main_v12 (ix2 i j) k = ix2 i k :=
    funext fun a => Fin.ext (by match a with | ⟨0, _⟩ => rfl | ⟨1, _⟩ => rfl)
  have er : ridx_main_v12 (ix2 i j) k = ix2 k j :=
    funext fun a => Fin.ext (by match a with | ⟨0, _⟩ => rfl | ⟨1, _⟩ => rfl)
  rw [el, er]

end Cert.ReferenceIdeal.Hand

end
-- ==== Proof.Val.Layer1.lean ====
import proofs.«406238_j58506044506835_1_alg».proof.Proof.KI.Keep
import proofs.«406238_j58506044506835_1_alg».proof.Proof.Val.R0Val
import proofs.«406238_j58506044506835_1_alg».proof.Proof.Val.R1Val
import proofs.«406238_j58506044506835_1_alg».proof.Proof.Val.R2Val
import proofs.«406238_j58506044506835_1_alg».proof.Proof.Val.HostAgree
import proofs.«406238_j58506044506835_1_alg».proof.Proof.Val.Stat1
import proofs.«406238_j58506044506835_1_alg».proof.Proof.Ref.RefLayer1
import proofs.«406238_j58506044506835_1_alg».proof.Proof.Spec.BatchNorm
import proofs.«406238_j58506044506835_1_alg».proof.Proof.Spec.Apply
import proofs.«406238_j58506044506835_1_alg».proof.Proof.Spec.MatRows

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.Spec.MatRows
open Cert.ReferenceIdeal.Read Cert.ReferenceIdeal.Hand
open scoped BigOperators

variable (m : (ℓ : Loc nD τ sig) → Buf (Elt Ideal) ℓ) (ρ : Dev nD → PrngReg) (c : Dev nD)

theorem V1_arg0 : Hand.V1 m ρ c main_arg0 = m ((c : Thread nD τ).loc main_arg0) := (keep1 m ρ c main_arg0 (by decide)).trans rfl
theorem V1_arg3 : Hand.V1 m ρ c main_arg3 = m ((c : Thread nD τ).loc main_arg3) := (keep1 m ρ c main_arg3 (by decide)).trans rfl

theorem proj1 : (W2 m ρ c (Proc.devRef .tc main_v27) : FVec Ideal S100000x16 .f32)
    = val_main_v12 (F := Ideal) (m ((c : Thread nD τ).loc main_arg0)) (m ((c : Thread nD τ).loc main_arg3)) := by
  have h : (W2 m ρ c (Proc.devRef .tc main_v27) : FVec Ideal S100000x16 .f32)
      = matRows 100000 3 16 (Hand.V1 m ρ c main_arg0) (Hand.V1 m ρ c main_arg3) :=
    (W2_arr m ρ c 2).trans (final0_2 (Hand.V1 m ρ) c)
  funext idx
  obtain ⟨i, j, rfl⟩ : ∃ i j, idx = ix2 i j := ⟨idx 0, idx 1, eq_ix2 idx⟩
  rw [h, V1_arg0, V1_arg3, matRows_ix2, ref_lin1]

theorem aggr1 : (W3 m ρ c (Proc.devRef .tc main_v40) : FVec Ideal S100000x16 .f32)
    = val_main_v40 (F := Ideal) (m ((c : Thread nD τ).loc main_arg0)) (edges m c) (m ((c : Thread nD τ).loc main_arg3)) :=
  agg1_ref m ρ c _ _ (proj1 m ρ c)

def rows1 : Fin 100000 → Fin 16 → EReal :=
  addRow (fun i j => (W3 m ρ c (Proc.devRef .tc main_v40) : FVec Ideal S100000x16 .f32) (ix2 i j))
    (fun j => ((m ((c : Thread nD τ).loc main_arg4)) : FVec Ideal S16 .f32) (ix1 j))

theorem sum1 (j : Fin 16) :
    (W4 m ρ c (Proc.devRef .tc main_v42_0) : FVec Ideal S1x16 .f32) (ix2 0 j) = colSum (rows1 m ρ c) j := by
  have h : (W4 m ρ c (Proc.devRef .tc main_v42_0) : FVec Ideal S1x16 .f32) (ix2 0 j)
      = colSum (addRow (fun i j => (W3 m ρ c (Proc.devRef .tc main_v40) : FVec Ideal S100000x16 .f32) (ix2 i j))
          (fun j => (W3 m ρ c (Proc.devRef .tc main_v41) : FVec Ideal S1x16 .f32) (ix2 0 j))) j :=
    (congrFun (W4_arr m ρ c 2) (ix2 0 j)).trans (final1_2 (Hand.V3 m ρ) c j)
  rw [h, show (fun j : Fin 16 => (W3 m ρ c (Proc.devRef .tc main_v41) : FVec Ideal S1x16 .f32) (ix2 0 j))
      = fun j => ((m ((c : Thread nD τ).loc main_arg4)) : FVec Ideal S16 .f32) (ix1 j) from funext fun j => W3_bias m ρ c j]
  rfl

theorem sumsq1 (j : Fin 16) :
    (W4 m ρ c (Proc.devRef .tc main_v42_1) : FVec Ideal S1x16 .f32) (ix2 0 j) = colSumSq (rows1 m ρ c) j := by
  have h : (W4 m ρ c (Proc.devRef .tc main_v42_1) : FVec Ideal S1x16 .f32) (ix2 0 j)
      = colSumSq (addRow (fun i j => (W3 m ρ c (Proc.devRef .tc main_v40) : FVec Ideal S100000x16 .f32) (ix2 i j))
          (fun j => (W3 m ρ c (Proc.devRef .tc main_v41) : FVec Ideal S1x16 .f32) (ix2 0 j))) j :=
    (congrFun (W4_arr m ρ c 3) (ix2 0 j)).trans (final1_3 (Hand.V3 m ρ) c j)
  rw [h, show (fun j : Fin 16 => (W3 m ρ c (Proc.devRef .tc main_v41) : FVec Ideal S1x16 .f32) (ix2 0 j))
      = fun j => ((m ((c : Thread nD τ).loc main_arg4)) : FVec Ideal S16 .f32) (ix1 j) from funext fun j => W3_bias m ρ c j]
  rfl

theorem mean1 (j : Fin 16) :
    (W5 m ρ c (Proc.devRef .tc main_v44) : FVec Ideal S1x16 .f32) (ix2 0 j) = bnMean (rows1 m ρ c) (Ideal.ofBits .f32 0x47C35000#32) j := by
  rw [W5_mean m ρ c j, sum1 m ρ c j]; rfl

theorem var1 (j : Fin 16) :
    (W5 m ρ c (Proc.devRef .tc main_v48) : FVec Ideal S1x16 .f32) (ix2 0 j) = bnVarKernel (rows1 m ρ c) (Ideal.ofBits .f32 0x47C35000#32) j := by
  rw [W5_var m ρ c j, sum1 m ρ c j, sumsq1 m ρ c j]; rfl

theorem bnApply_congr {n d : ℕ} {y y' : Fin n → Fin d → EReal} {mean mean' var var' g g' be be' : Fin d → EReal}
    (eps : EReal) (i : Fin n) (j : Fin d) (hy : y i j = y' i j) (hm : mean j = mean' j) (hv : var j = var' j)
    (hg : g j = g' j) (hbe : be j = be' j) :
    bnApply y mean var g be eps i j = bnApply y' mean' var' g' be' eps i j := by
  unfold bnApply; rw [hy, hm, hv, hg, hbe]

theorem kern1 (i : Fin 100000) (j : Fin 16) :
    (W6 m ρ c (Proc.devRef .tc main_v52) : FVec Ideal S100000x16 .f32) (ix2 i j)
      = bnKernel (rows1 m ρ c) (fun j => ((m ((c : Thread nD τ).loc main_arg5)) : FVec Ideal S16 .f32) (ix1 j))
          (fun j => ((m ((c : Thread nD τ).loc main_arg6)) : FVec Ideal S16 .f32) (ix1 j)) (Ideal.ofBits .f32 0x3727C5AC#32) (Ideal.ofBits .f32 0x47C35000#32) i j := by
  have h : (W6 m ρ c (Proc.devRef .tc main_v52) : FVec Ideal S100000x16 .f32)
      = bnReluArr (F := Ideal) (n := 100000) (d := 16) (Hand.V5 m ρ c main_v40) (Hand.V5 m ρ c main_v49) (Hand.V5 m ρ c main_v44)
          (Hand.V5 m ρ c main_v48) (Hand.V5 m ρ c main_v50) (Hand.V5 m ρ c main_v51) :=
    (W6_arr m ρ c 6).trans (final2_6 (Hand.V5 m ρ) c)
  rw [h, bnReluArr_ideal_apply]
  unfold bnKernel
  exact bnApply_congr _ i j
    (congrArg₂ (fun a b : EReal => a + b) (congrFun (W5_agg m ρ c) (ix2 i j)) (W5_bias m ρ c j))
    (mean1 m ρ c j) (var1 m ρ c j) (W5_scale m ρ c j) (W5_shift m ρ c j)

theorem layer1
    (hy : ∀ i j, IsReal (addRow (fun i j => val_main_v40 (F := Ideal) (m ((c : Thread nD τ).loc main_arg0)) (edges m c) (m ((c : Thread nD τ).loc main_arg3)) (ix2 i j))
      (fun j => ((m ((c : Thread nD τ).loc main_arg4)) : FVec Ideal S16 .f32) (ix1 j)) i j)) :
    (W6 m ρ c (Proc.devRef .tc main_v52) : FVec Ideal S100000x16 .f32)
      = val_main_v69 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) := by
  funext idx
  obtain ⟨i, j, rfl⟩ : ∃ i j, idx = ix2 i j := ⟨idx 0, idx 1, eq_ix2 idx⟩
  have hrows : rows1 m ρ c = addRow (fun i j => val_main_v40 (F := Ideal) (m ((c : Thread nD τ).loc main_arg0)) (edges m c) (m ((c : Thread nD τ).loc main_arg3)) (ix2 i j))
      (fun j => ((m ((c : Thread nD τ).loc main_arg4)) : FVec Ideal S16 .f32) (ix1 j)) := by
    unfold rows1; rw [aggr1 m ρ c]
  rw [kern1 m ρ c i j, ref_bn1, hrows, bn_agree _ _ _ _ _ hy (by norm_num) ofBits_count]

end Cert.KernelIdeal.HandVal

end
-- ==== Proof.Val.R3Val.lean ====
import proofs.«406238_j58506044506835_1_alg».proof.Proof.KI.R3
import proofs.«406238_j58506044506835_1_alg».proof.Proof.Spec.MatRows
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec.MatRows

variable (V : (c : Dev nD) → (b : Ref sig .tc) → Buf (Elt Ideal) ((c : Thread nD τ).loc b))

theorem lhs_lin3_0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem lhs_lin3_1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
theorem rhs_lin3_0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
theorem rhs_lin3_1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

theorem lin3_pay_ix2 (xs : FVec Ideal S10000x16 .f32) (ws : FVec Ideal S16x32 .f32) (p : Fin 10000) (q : Fin 32) :
    k3_pay1 (F := Ideal) xs ws (ix2 p q) = ∑ l : Fin 16, xs (ix2 p l) * ws (ix2 l q) := by
  unfold k3_pay1
  simp only [matmul]
  rw [Ideal.matmul_constant_zero_apply, ← Equiv.sum_comp (ValueIdx.contrEquiv1 dot_S10000x16_S16x32_S10000x32_1_0_0_1_n_n 16 rfl rfl).symm]
  refine Finset.sum_congr rfl fun l _ => ?_
  have hl := ValueIdx.contrEquiv1_symm_val dot_S10000x16_S16x32_S10000x32_1_0_0_1_n_n 16 rfl rfl l
  have el : dot_S10000x16_S16x32_S10000x32_1_0_0_1_n_n.lhsIdx (ix2 p q) ((ValueIdx.contrEquiv1 dot_S10000x16_S16x32_S10000x32_1_0_0_1_n_n 16 rfl rfl).symm l) = ix2 p l := funext fun a => Fin.ext (by
    match a with
    | ⟨0, _⟩ => exact lhs_lin3_0 _ _
    | ⟨1, _⟩ => exact (lhs_lin3_1 _ _).trans hl)
  have er : dot_S10000x16_S16x32_S10000x32_1_0_0_1_n_n.rhsIdx (ix2 p q) ((ValueIdx.contrEquiv1 dot_S10000x16_S16x32_S10000x32_1_0_0_1_n_n 16 rfl rfl).symm l) = ix2 l q := funext fun a => Fin.ext (by
    match a with
    | ⟨0, _⟩ => exact (rhs_lin3_0 _ _).trans hl
    | ⟨1, _⟩ => exact rhs_lin3_1 _ _)
  simp only [ValueIdx.truncf_apply, shapeCast_self, el, er]

theorem zeroOff3 : (![0, 0] : Fin 2 → Nat) = fun _ => 0 := funext fun a => by fin_cases a <;> rfl

theorem lin3_index : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

theorem lin3_index_onto : ∀ b : Fin 10, ∃ t : Fin cfg3.N, win3_2.index t = ![b.val, 0] :=
  (by decide +kernel : ∀ b : Fin 10, ∃ t : Fin grid3.N, win3_2.index t = ![b.val, 0])

theorem lin3_read_prod (G : S100000x32.Idx → EReal) (t : Fin cfg3.N) (p : Fin 10000) (q : Fin 32)
    (hrow : win3_2.index t (0 : Fin 2) * 10000 + p.val < 100000) :
    ((cfg3.win 2).blk t).view.read (Elt Ideal) G (ix2 p q)
      = G (ix2 (⟨win3_2.index t (0 : Fin 2) * 10000 + p.val, hrow⟩ : Fin 100000) q) := by
  obtain ⟨e0, e1, e2, e3, e4, e5⟩ := lin3_index t
  have hq : q.val < 32 := q.isLt
  show G (((cfg3.win 2).blk t).view.emb (ix2 p q)) = _
  refine congrArg G (funext fun a => Fin.ext ?_)
  match a with
  | ⟨0, _⟩ => show win3_2.index t (0 : Fin 2) * 10000 + 1 * p.val = win3_2.index t (0 : Fin 2) * 10000 + p.val; omega
  | ⟨1, _⟩ => show win3_2.index t (1 : Fin 2) * 32 + 1 * q.val = q.val; omega

theorem lin3_read_rows (X : S100000x16.Idx → EReal) (t : Fin cfg3.N) (p : Fin 10000) (l : Fin 16)
    (hrow : win3_2.index t (0 : Fin 2) * 10000 + p.val < 100000) :
    ((cfg3.win 0).blk t).view.read (Elt Ideal) X (ix2 p l)
      = X (ix2 (⟨win3_2.index t (0 : Fin 2) * 10000 + p.val, hrow⟩ : Fin 100000) l) := by
  obtain ⟨e0, e1, e2, e3, e4, e5⟩ := lin3_index t
  have hl : l.val < 16 := l.isLt
  show X (((cfg3.win 0).blk t).view.emb (ix2 p l)) = _
  refine congrArg X (funext fun a => Fin.ext ?_)
  match a with
  | ⟨0, _⟩ => show win3_0.index t (0 : Fin 2) * 10000 + 1 * p.val = win3_2.index t (0 : Fin 2) * 10000 + p.val; omega
  | ⟨1, _⟩ => show win3_0.index t (1 : Fin 2) * 16 + 1 * l.val = l.val; omega

theorem lin3_read_weight (W : S16x32.Idx → EReal) (t : Fin cfg3.N) (l : Fin 16) (q : Fin 32) :
    ((cfg3.win 1).blk t).view.read (Elt Ideal) W (ix2 l q) = W (ix2 l q) := by
  obtain ⟨e0, e1, e2, e3, e4, e5⟩ := lin3_index t
  have hl : l.val < 16 := l.isLt
  have hq : q.val < 32 := q.isLt
  show W (((cfg3.win 1).blk t).view.emb (ix2 l q)) = _
  refine congrArg W (funext fun a => Fin.ext ?_)
  match a with
  | ⟨0, _⟩ => show win3_1.index t (0 : Fin 2) * 16 + 1 * l.val = l.val; omega
  | ⟨1, _⟩ => show win3_1.index t (1 : Fin 2) * 32 + 1 * q.val = q.val; omega

theorem lin3_flushed (c : Dev nD) (t : Fin cfg3.N) :
    (dat3 V c).flushed 2 t = ((cfg3.win 2).blk t).view.read (Elt Ideal)
      (matRows 100000 16 32 (V c (Pipeline.arrRef spec3 0)) (V c (Pipeline.arrRef spec3 1))) := by
  show (cfg3.win 2).cut (grid3.coords t) ((dat3 V c).after 2 t) = _
  rw [after3_2]
  unfold prodBlock3
  rw [View.canon_unit_zero zeroOff3]
  simp only [View.ld_unit_zero (S := S10000x16) zeroOff3, View.ld_unit_zero (S := S16x32) zeroOff3]
  funext j
  obtain ⟨p, q, rfl⟩ : ∃ (p : Fin 10000) (q : Fin 32), j = ix2 p q := ⟨j 0, j 1, eq_ix2 j⟩
  have hp : p.val < 10000 := p.isLt
  have hrow : win3_2.index t (0 : Fin 2) * 10000 + p.val < 100000 := by
    have e5 := (lin3_index t).2.2.2.2.2
    omega

  refine Eq.trans ?_ (lin3_read_prod (matRows 100000 16 32 (V c (Pipeline.arrRef spec3 0)) (V c (Pipeline.arrRef spec3 1))) t p q hrow).symm
  rw [matRows_ix2]

  refine (lin3_pay_ix2 (iblk3 V c 0 t) (iblk3 V c 1 t) p q).trans ?_
  refine Finset.sum_congr rfl fun l _ => ?_
  exact congrArg₂ (fun a b : EReal => a * b)
    (lin3_read_rows (V c (Pipeline.arrRef spec3 0)) t p l hrow)
    (lin3_read_weight (V c (Pipeline.arrRef spec3 1)) t l q)

theorem lin3_mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v53).slice (win3_2.rect t)).set ↔ _
  rw [View.set_slice_whole, Rect.mem_set_unit]
  exact Iff.rfl

theorem lin3_cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := lin3_index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [lin3_mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

theorem final3_2 (c : Dev nD) :
    (dat3 V c).arrAt 2 cfg3.N = matRows 100000 16 32 (V c (Pipeline.arrRef spec3 0)) (V c (Pipeline.arrRef spec3 1)) :=
  (dat3 V c).arrAt_eq_of_cover 2 _ (fun t _ => lin3_flushed V c t) lin3_cover

theorem final3_2_ix2 (c : Dev nD) (i : Fin 100000) (j : Fin 32) :
    (dat3 V c).arrAt 2 cfg3.N (ix2 i j : S100000x32.Idx)
      = rowsMul (fun a l => (V c (Pipeline.arrRef spec3 0) (ix2 a l : S100000x16.Idx) : EReal))
          (fun l b => (V c (Pipeline.arrRef spec3 1) (ix2 l b : S16x32.Idx) : EReal)) i j := by
  rw [final3_2]; rfl

end Cert.KernelIdeal.Hand

end
-- ==== Proof.Val.R4Val.lean ====
import proofs.«406238_j58506044506835_1_alg».proof.Proof.Spec.Blocks
import proofs.«406238_j58506044506835_1_alg».proof.Proof.KI.R4
import proofs.«406238_j58506044506835_1_alg».proof.Proof.Spec.BatchNorm
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem stats4_pay1_ix2 (u : Fin 1) (j : Fin 32) : k4_pay1 (F := Ideal) (ix2 u j) = (0 : EReal) := by
  unfold k4_pay1
  rw [shapeCast_self]
  exact Ideal.ofBits_zero_f32

theorem stats4_pay2_ix2 (u : Fin 1) (j : Fin 32) : k4_pay2 (F := Ideal) (ix2 u j) = (0 : EReal) := by
  unfold k4_pay2
  rw [shapeCast_self]
  exact Ideal.ofBits_zero_f32

theorem stats4_pay3_ix2 (x : Vec Ideal S10000x32 .f32) (b : Vec Ideal S1x32 .f32) (r : Fin 10000) (j : Fin 32) :
    k4_pay3 (F := Ideal) x b (ix2 r j) = x (ix2 r j) + b (ix2 (0 : Fin 1) j) := by
  unfold k4_pay3
  simp only [shapeCast_self]
  rw [addf_apply, broadcastTo_1b_ab_apply]

theorem stats4_lift (h : S10000x32.Reduces [0] S32) (j : Fin 32) (r : Fin 10000) :
    h.lift (ix1 j) r = (ix2 r j : S10000x32.Idx) :=
  funext fun a => Fin.ext (by
    match a with
    | ⟨0, _⟩ => rfl
    | ⟨1, _⟩ => rfl)

theorem stats4_pay4_ix2 (x : Vec Ideal S10000x32 .f32) (b s : Vec Ideal S1x32 .f32) (u : Fin 1) (j : Fin 32) :
    k4_pay4 (F := Ideal) x b s (ix2 u j)
      = s (ix2 u j) + ∑ r : Fin 10000, (x (ix2 r j) + b (ix2 (0 : Fin 1) j)) := by
  unfold k4_pay4
  simp only [shapeCast_self]
  rw [addf_apply, shapeCast_a_1a_apply]
  refine congrArg (s (ix2 u j) + ·) ?_
  refine (Ideal.multiReduction_add_single (k4_pay3 (F := Ideal) x b) 0x00000000#32 reduces_S10000x32_S32 (.inl rfl) rfl
    (ix1 j)).trans ?_
  show ∑ r : Fin 10000, k4_pay3 (F := Ideal) x b (reduces_S10000x32_S32.lift (ix1 j) r) = _
  exact Finset.sum_congr rfl fun r _ => by rw [stats4_lift, stats4_pay3_ix2]

theorem stats4_pay5_ix2 (x : Vec Ideal S10000x32 .f32) (b q : Vec Ideal S1x32 .f32) (u : Fin 1) (j : Fin 32) :
    k4_pay5 (F := Ideal) x b q (ix2 u j)
      = q (ix2 u j) + ∑ r : Fin 10000,
          (x (ix2 r j) + b (ix2 (0 : Fin 1) j)) * (x (ix2 r j) + b (ix2 (0 : Fin 1) j)) := by
  unfold k4_pay5
  simp only [shapeCast_self]
  rw [addf_apply, shapeCast_a_1a_apply]
  refine congrArg (q (ix2 u j) + ·) ?_
  refine (Ideal.multiReduction_add_single (mulf (k4_pay3 (F := Ideal) x b) (k4_pay3 (F := Ideal) x b)) 0x00000000#32
    reduces_S10000x32_S32 (.inl rfl) rfl (ix1 j)).trans ?_
  show ∑ r : Fin 10000, mulf (k4_pay3 (F := Ideal) x b) (k4_pay3 (F := Ideal) x b) (reduces_S10000x32_S32.lift (ix1 j) r) = _
  exact Finset.sum_congr rfl fun r _ => by rw [stats4_lift, mulf_apply, stats4_pay3_ix2]

abbrev xblk4 (c : Dev nD) (t : Fin cfg4.N) : Vec Ideal S10000x32 .f32 := iblk4 V c 0 t
abbrev bblk4 (c : Dev nD) (t : Fin cfg4.N) : Vec Ideal S1x32 .f32 := iblk4 V c 1 t

abbrev xs4 (c : Dev nD) : Fin 100000 → Fin 32 → EReal :=
  fun i j => (V c (Pipeline.arrRef spec4 0) (ix2 i j : S100000x32.Idx) : EReal)
abbrev bs4 (c : Dev nD) : Fin 32 → EReal :=
  fun j => (V c (Pipeline.arrRef spec4 1) (ix2 (0 : Fin 1) j : S1x32.Idx) : EReal)

theorem stats4_rows : cfg4.N * 10000 = 100000 := by rw [show cfg4.N = 10 from N_4]

theorem stats4_index : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0 :=
  (by decide +kernel : ∀ t : Fin grid4.N, _)

theorem stats4_x_ix2 (c : Dev nD) (t : Fin cfg4.N) (r : Fin 10000) (j : Fin 32) :
    xblk4 V c t (ix2 r j) = xs4 V c (Cert.Spec.blockRow stats4_rows t r) j := by
  obtain ⟨e0, e1, -⟩ := stats4_index t
  have hr : r.val < 10000 := r.isLt
  have hj : j.val < 32 := j.isLt
  show V c (Pipeline.arrRef spec4 0) (((cfg4.win 0).blk t).view.emb (ix2 r j)) = _
  refine congrArg _ (funext fun a => Fin.ext ?_)
  match a with
  | ⟨0, _⟩ => show win4_0.index t (0 : Fin 2) * 10000 + 1 * r.val = t.val * 10000 + r.val; omega
  | ⟨1, _⟩ => show win4_0.index t (1 : Fin 2) * 32 + 1 * j.val = j.val; omega

theorem stats4_b_ix2 (c : Dev nD) (t : Fin cfg4.N) (u : Fin 1) (j : Fin 32) :
    bblk4 V c t (ix2 u j) = bs4 V c j := by
  obtain ⟨-, -, e0, e1, -⟩ := stats4_index t
  have hu : u.val = 0 := by omega
  have hj : j.val < 32 := j.isLt
  show V c (Pipeline.arrRef spec4 1) (((cfg4.win 1).blk t).view.emb (ix2 u j)) = _
  refine congrArg _ (funext fun a => Fin.ext ?_)
  match a with
  | ⟨0, _⟩ => show win4_1.index t (0 : Fin 2) * 1 + 1 * u.val = 0; omega
  | ⟨1, _⟩ => show win4_1.index t (1 : Fin 2) * 32 + 1 * j.val = j.val; omega

theorem stats4_colS (c : Dev nD) (u : Fin 1) (j : Fin 32) :
    colS4 V c cfg4.N (ix2 u j) = Cert.Spec.colSum (Cert.Spec.addRow (xs4 V c) (bs4 V c)) j := by
  have h := Cert.Spec.run_eq_sum (T := cfg4.N) (fun n => (colS4 V c n (ix2 u j) : EReal))
    (fun t => ∑ r : Fin 10000, (xblk4 V c t (ix2 r j) + bblk4 V c t (ix2 (0 : Fin 1) j)))
    (stats4_pay1_ix2 u j)
    (fun t => by
      show colS4 V c (t.val + 1) (ix2 u j) = _
      rw [colS4_succ, stats4_pay4_ix2])
  refine h.trans ?_
  unfold Cert.Spec.colSum Cert.Spec.addRow
  rw [Cert.Spec.sum_blocks stats4_rows (fun i => xs4 V c i j + bs4 V c j)]
  refine Finset.sum_congr rfl fun t _ => Finset.sum_congr rfl fun r _ => ?_
  rw [stats4_x_ix2, stats4_b_ix2]

theorem stats4_colQ (c : Dev nD) (u : Fin 1) (j : Fin 32) :
    colQ4 V c cfg4.N (ix2 u j) = Cert.Spec.colSumSq (Cert.Spec.addRow (xs4 V c) (bs4 V c)) j := by
  have h := Cert.Spec.run_eq_sum (T := cfg4.N) (fun n => (colQ4 V c n (ix2 u j) : EReal))
    (fun t => ∑ r : Fin 10000, (xblk4 V c t (ix2 r j) + bblk4 V c t (ix2 (0 : Fin 1) j))
      * (xblk4 V c t (ix2 r j) + bblk4 V c t (ix2 (0 : Fin 1) j)))
    (stats4_pay2_ix2 u j)
    (fun t => by
      show colQ4 V c (t.val + 1) (ix2 u j) = _
      rw [colQ4_succ, stats4_pay5_ix2])
  refine h.trans ?_
  unfold Cert.Spec.colSumSq Cert.Spec.addRow
  rw [Cert.Spec.sum_blocks stats4_rows (fun i => (xs4 V c i j + bs4 V c j) * (xs4 V c i j + bs4 V c j))]
  refine Finset.sum_congr rfl fun t _ => Finset.sum_congr rfl fun r _ => ?_
  rw [stats4_x_ix2, stats4_b_ix2]

def rowArr32 (g : Fin 32 → EReal) : (⟨2, ![1, 32]⟩ : Shape).Idx → EReal := fun i => g (i 1)

theorem rowArr32_ix2 (g : Fin 32 → EReal) (u : Fin 1) (j : Fin 32) : rowArr32 g (ix2 u j) = g j := rfl

theorem stats4_last_succ (t : Fin cfg4.N) (h : t.val % 10 = 9) : t.val + 1 = cfg4.N := by
  have hN : cfg4.N = 10 := N_4
  have := t.isLt
  omega

theorem stats4_read_blk_2 (t : Fin cfg4.N) (G : S1x32.Idx → EReal) (u : Fin 1) (j : Fin 32) :
    ((cfg4.win 2).blk t).view.read (Elt Ideal) G (ix2 u j) = G (ix2 (0 : Fin 1) j) := by
  obtain ⟨-, -, -, -, e0, e1, -⟩ := stats4_index t
  have hu : u.val = 0 := by omega
  have hj : j.val < 32 := j.isLt
  show G (((cfg4.win 2).blk t).view.emb (ix2 u j)) = _
  refine congrArg G (funext fun a => Fin.ext ?_)
  match a with
  | ⟨0, _⟩ => show win4_2.index t (0 : Fin 2) * 1 + 1 * u.val = 0; omega
  | ⟨1, _⟩ => show win4_2.index t (1 : Fin 2) * 32 + 1 * j.val = j.val; omega

theorem stats4_read_blk_3 (t : Fin cfg4.N) (G : S1x32.Idx → EReal) (u : Fin 1) (j : Fin 32) :
    ((cfg4.win 3).blk t).view.read (Elt Ideal) G (ix2 u j) = G (ix2 (0 : Fin 1) j) := by
  obtain ⟨-, -, -, -, -, -, e0, e1⟩ := stats4_index t
  have hu : u.val = 0 := by omega
  have hj : j.val < 32 := j.isLt
  show G (((cfg4.win 3).blk t).view.emb (ix2 u j)) = _
  refine congrArg G (funext fun a => Fin.ext ?_)
  match a with
  | ⟨0, _⟩ => show win4_3.index t (0 : Fin 2) * 1 + 1 * u.val = 0; omega
  | ⟨1, _⟩ => show win4_3.index t (1 : Fin 2) * 32 + 1 * j.val = j.val; omega

theorem stats4_flushed_2 (c : Dev nD) (t : Fin cfg4.N) (hf : (cfg4.win 2).flush t = true) :
    (dat4 V c).flushed 2 t = ((cfg4.win 2).blk t).view.read (Elt Ideal)
      (rowArr32 (Cert.Spec.colSum (Cert.Spec.addRow (xs4 V c) (bs4 V c)))) := by
  have h9 := (flush4_2 t).mp hf
  show (cfg4.win 2).cut (grid4.coords t) ((dat4 V c).after 2 t) = _
  rw [after4_2, stats4_last_succ t h9]
  funext i
  obtain ⟨u, j, rfl⟩ : ∃ (u : Fin 1) (j : Fin 32), i = ix2 u j := ⟨i 0, i 1, eq_ix2 i⟩
  exact (stats4_colS V c u j).trans
    ((rowArr32_ix2 _ (0 : Fin 1) j).symm.trans (stats4_read_blk_2 t _ u j).symm)

theorem stats4_flushed_3 (c : Dev nD) (t : Fin cfg4.N) (hf : (cfg4.win 3).flush t = true) :
    (dat4 V c).flushed 3 t = ((cfg4.win 3).blk t).view.read (Elt Ideal)
      (rowArr32 (Cert.Spec.colSumSq (Cert.Spec.addRow (xs4 V c) (bs4 V c)))) := by
  have h9 := (flush4_3 t).mp hf
  show (cfg4.win 3).cut (grid4.coords t) ((dat4 V c).after 3 t) = _
  rw [after4_3, stats4_last_succ t h9]
  funext i
  obtain ⟨u, j, rfl⟩ : ∃ (u : Fin 1) (j : Fin 32), i = ix2 u j := ⟨i 0, i 1, eq_ix2 i⟩
  exact (stats4_colQ V c u j).trans
    ((rowArr32_ix2 _ (0 : Fin 1) j).symm.trans (stats4_read_blk_3 t _ u j).symm)

def stats4_lastPt : Fin cfg4.N := ⟨9, by rw [show cfg4.N = 10 from N_4]; decide⟩

theorem stats4_mem_blk_2 (t : Fin cfg4.N) (i : S1x32.Idx) :
    i ∈ ((cfg4.win 2).blk t).view.set ↔ ∀ a : Fin 2, win4_2.index t a * S1x32.size a ≤ (i a).val ∧ (i a).val < win4_2.index t a * S1x32.size a + S1x32.size a := by
  show i ∈ ((View.whole main_v68_0).slice (win4_2.rect t)).set ↔ _
  rw [View.set_slice_whole, Rect.mem_set_unit]
  exact Iff.rfl
theorem stats4_mem_blk_3 (t : Fin cfg4.N) (i : S1x32.Idx) :
    i ∈ ((cfg4.win 3).blk t).view.set ↔ ∀ a : Fin 2, win4_3.index t a * S1x32.size a ≤ (i a).val ∧ (i a).val < win4_3.index t a * S1x32.size a + S1x32.size a := by
  show i ∈ ((View.whole main_v68_1).slice (win4_3.rect t)).set ↔ _
  rw [View.set_slice_whole, Rect.mem_set_unit]
  exact Iff.rfl

theorem stats4_cover_2 (i : S1x32.Idx) :
    ∃ t : Fin cfg4.N, (cfg4.win 2).flush t = true ∧ i ∈ ((cfg4.win 2).blk t).view.set := by
  have hi0 : (i 0).val < 1 := (i 0).isLt
  have hi1 : (i 1).val < 32 := (i 1).isLt
  obtain ⟨-, -, -, -, e0, e1, -⟩ := stats4_index stats4_lastPt
  refine ⟨stats4_lastPt, (flush4_2 stats4_lastPt).mpr rfl, ?_⟩
  rw [stats4_mem_blk_2]
  intro a
  match a with
  | ⟨0, _⟩ => show win4_2.index stats4_lastPt (0 : Fin 2) * 1 ≤ (i 0).val ∧ (i 0).val < win4_2.index stats4_lastPt (0 : Fin 2) * 1 + 1; omega
  | ⟨1, _⟩ => show win4_2.index stats4_lastPt (1 : Fin 2) * 32 ≤ (i 1).val ∧ (i 1).val < win4_2.index stats4_lastPt (1 : Fin 2) * 32 + 32; omega

theorem stats4_cover_3 (i : S1x32.Idx) :
    ∃ t : Fin cfg4.N, (cfg4.win 3).flush t = true ∧ i ∈ ((cfg4.win 3).blk t).view.set := by
  have hi0 : (i 0).val < 1 := (i 0).isLt
  have hi1 : (i 1).val < 32 := (i 1).isLt
  obtain ⟨-, -, -, -, -, -, e0, e1⟩ := stats4_index stats4_lastPt
  refine ⟨stats4_lastPt, (flush4_3 stats4_lastPt).mpr rfl, ?_⟩
  rw [stats4_mem_blk_3]
  intro a
  match a with
  | ⟨0, _⟩ => show win4_3.index stats4_lastPt (0 : Fin 2) * 1 ≤ (i 0).val ∧ (i 0).val < win4_3.index stats4_lastPt (0 : Fin 2) * 1 + 1; omega
  | ⟨1, _⟩ => show win4_3.index stats4_lastPt (1 : Fin 2) * 32 ≤ (i 1).val ∧ (i 1).val < win4_3.index stats4_lastPt (1 : Fin 2) * 32 + 32; omega

theorem final4_2_arr (c : Dev nD) :
    (dat4 V c).arrAt 2 cfg4.N = rowArr32 (Cert.Spec.colSum (Cert.Spec.addRow (xs4 V c) (bs4 V c))) :=
  (dat4 V c).arrAt_eq_of_cover 2 _ (fun t hf => stats4_flushed_2 V c t hf) stats4_cover_2

theorem final4_3_arr (c : Dev nD) :
    (dat4 V c).arrAt 3 cfg4.N = rowArr32 (Cert.Spec.colSumSq (Cert.Spec.addRow (xs4 V c) (bs4 V c))) :=
  (dat4 V c).arrAt_eq_of_cover 3 _ (fun t hf => stats4_flushed_3 V c t hf) stats4_cover_3

theorem final4_2 (c : Dev nD) (j : Fin 32) :
    (dat4 V c).arrAt 2 cfg4.N (ix2 (0 : Fin 1) j : S1x32.Idx)
      = Cert.Spec.colSum (Cert.Spec.addRow
          (fun (i : Fin 100000) (j : Fin 32) => (V c (Pipeline.arrRef spec4 0) (ix2 i j : S100000x32.Idx) : EReal))
          (fun j : Fin 32 => (V c (Pipeline.arrRef spec4 1) (ix2 (0 : Fin 1) j : S1x32.Idx) : EReal))) j := by
  rw [final4_2_arr]; rfl

theorem final4_3 (c : Dev nD) (j : Fin 32) :
    (dat4 V c).arrAt 3 cfg4.N (ix2 (0 : Fin 1) j : S1x32.Idx)
      = Cert.Spec.colSumSq (Cert.Spec.addRow
          (fun (i : Fin 100000) (j : Fin 32) => (V c (Pipeline.arrRef spec4 0) (ix2 i j : S100000x32.Idx) : EReal))
          (fun j : Fin 32 => (V c (Pipeline.arrRef spec4 1) (ix2 (0 : Fin 1) j : S1x32.Idx) : EReal))) j := by
  rw [final4_3_arr]; rfl

end Cert.KernelIdeal.Hand

end
-- ==== Proof.Val.R5Val.lean ====
import proofs.«406238_j58506044506835_1_alg».proof.Proof.KI.R5
import proofs.«406238_j58506044506835_1_alg».proof.Proof.Spec.Apply
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem zeroOffsets5 : (![0, 0] : Fin 2 → Nat) = fun _ => 0 := funext fun a => by fin_cases a <;> rfl

theorem pay5_eq (x : Vec F S10000x32 .f32) (b var mu g be : Vec F S1x32 .f32) :
    k5_pay1 x b var mu g be
      = maximumf (addf (mulf (mulf (subf (addf x (broadcastTo S10000x32 b broadcasts_S1x32_S10000x32))
            (broadcastTo S10000x32 mu broadcasts_S1x32_S10000x32))
          (broadcastTo S10000x32 (rsqrt (addf var (broadcast S1x32 (Scalar.ofBits .f32 0x3727C5AC#32)))) broadcasts_S1x32_S10000x32))
          (broadcastTo S10000x32 g broadcasts_S1x32_S10000x32)) (broadcastTo S10000x32 be broadcasts_S1x32_S10000x32))
        (broadcast S10000x32 (Scalar.ofBits .f32 0x00000000#32)) := by
  unfold k5_pay1
  simp only [shapeCast_self]

theorem bcastRow5 (r : Vec F S1x32 .f32) (j : S10000x32.Idx) :
    broadcastTo S10000x32 r broadcasts_S1x32_S10000x32 j = r (ix2 (0 : Fin 1) (j 1)) :=
  broadcastTo_apply r _ j (ix2 (0 : Fin 1) (j 1)) (fun a => by match a with | ⟨0, _⟩ => rfl | ⟨1, _⟩ => rfl)

theorem pay5_at (x : Vec F S10000x32 .f32) (b var mu g be : Vec F S1x32 .f32) (j : S10000x32.Idx) :
    k5_pay1 x b var mu g be j
      = Cert.Spec.bnReluEntry (x j) (b (ix2 (0 : Fin 1) (j 1))) (mu (ix2 (0 : Fin 1) (j 1))) (var (ix2 (0 : Fin 1) (j 1)))
          (g (ix2 (0 : Fin 1) (j 1))) (be (ix2 (0 : Fin 1) (j 1))) := by
  rw [pay5_eq]
  show FloatOps.maximumf (FloatOps.addf (FloatOps.mulf (FloatOps.mulf (FloatOps.subf
      (FloatOps.addf (x j) (broadcastTo S10000x32 b broadcasts_S1x32_S10000x32 j))
      (broadcastTo S10000x32 mu broadcasts_S1x32_S10000x32 j))
      (broadcastTo S10000x32 (rsqrt (addf var (broadcast S1x32 (Scalar.ofBits .f32 0x3727C5AC#32)))) broadcasts_S1x32_S10000x32 j))
      (broadcastTo S10000x32 g broadcasts_S1x32_S10000x32 j))
      (broadcastTo S10000x32 be broadcasts_S1x32_S10000x32 j)) (Scalar.ofBits .f32 0x00000000#32) = _
  rw [bcastRow5, bcastRow5, bcastRow5, bcastRow5, bcastRow5]
  rfl

theorem idx_rows5 : ∀ t : Fin cfg5.N, win5_0.index t (0 : Fin 2) = win5_6.index t (0 : Fin 2) ∧ win5_0.index t (1 : Fin 2) = 0 :=
  (by decide +kernel : ∀ t : Fin grid5.N, _)
theorem idx_cols5_6 : ∀ t : Fin cfg5.N, win5_6.index t (1 : Fin 2) = 0 :=
  (by decide +kernel : ∀ t : Fin grid5.N, _)

theorem idx_param5_1 : ∀ t : Fin cfg5.N, win5_1.index t (0 : Fin 2) = 0 ∧ win5_1.index t (1 : Fin 2) = 0 :=
  (by decide +kernel : ∀ t : Fin grid5.N, _)
theorem idx_param5_2 : ∀ t : Fin cfg5.N, win5_2.index t (0 : Fin 2) = 0 ∧ win5_2.index t (1 : Fin 2) = 0 :=
  (by decide +kernel : ∀ t : Fin grid5.N, _)
theorem idx_param5_3 : ∀ t : Fin cfg5.N, win5_3.index t (0 : Fin 2) = 0 ∧ win5_3.index t (1 : Fin 2) = 0 :=
  (by decide +kernel : ∀ t : Fin grid5.N, _)
theorem idx_param5_4 : ∀ t : Fin cfg5.N, win5_4.index t (0 : Fin 2) = 0 ∧ win5_4.index t (1 : Fin 2) = 0 :=
  (by decide +kernel : ∀ t : Fin grid5.N, _)
theorem idx_param5_5 : ∀ t : Fin cfg5.N, win5_5.index t (0 : Fin 2) = 0 ∧ win5_5.index t (1 : Fin 2) = 0 :=
  (by decide +kernel : ∀ t : Fin grid5.N, _)

theorem rows5_at (c : Dev nD) (t : Fin cfg5.N) (j : S10000x32.Idx) :
    iblk5 V c 0 t j = V c (Pipeline.arrRef spec5 0) (((cfg5.win 6).blk t).view.emb j) := by
  obtain ⟨e0, e1⟩ := idx_rows5 t
  have e6 := idx_cols5_6 t
  show V c (Pipeline.arrRef spec5 0) (((cfg5.win 0).blk t).view.emb j) = _
  refine congrArg _ (funext fun a => Fin.ext ?_)
  match a with
  | ⟨0, _⟩ => show win5_0.index t (0 : Fin 2) * 10000 + 1 * (j 0).val = win5_6.index t (0 : Fin 2) * 10000 + 1 * (j 0).val; rw [e0]
  | ⟨1, _⟩ => show win5_0.index t (1 : Fin 2) * 32 + 1 * (j 1).val = win5_6.index t (1 : Fin 2) * 32 + 1 * (j 1).val; rw [e1, e6]

theorem bias5_at (c : Dev nD) (t : Fin cfg5.N) (j : S10000x32.Idx) :
    iblk5 V c 1 t (ix2 (0 : Fin 1) (j 1)) = V c (Pipeline.arrRef spec5 1) (Cert.Spec.rowOver (((cfg5.win 6).blk t).view.emb j)) := by
  obtain ⟨e0, e1⟩ := idx_param5_1 t
  have e6 := idx_cols5_6 t
  show V c (Pipeline.arrRef spec5 1) (((cfg5.win 1).blk t).view.emb (ix2 (0 : Fin 1) (j 1))) = _
  refine congrArg _ (funext fun a => Fin.ext ?_)
  match a with
  | ⟨0, _⟩ => show win5_1.index t (0 : Fin 2) * 1 + 1 * 0 = 0; rw [e0]
  | ⟨1, _⟩ => show win5_1.index t (1 : Fin 2) * 32 + 1 * (j 1).val = win5_6.index t (1 : Fin 2) * 32 + 1 * (j 1).val; rw [e1, e6]

theorem mean5_at (c : Dev nD) (t : Fin cfg5.N) (j : S10000x32.Idx) :
    iblk5 V c 2 t (ix2 (0 : Fin 1) (j 1)) = V c (Pipeline.arrRef spec5 2) (Cert.Spec.rowOver (((cfg5.win 6).blk t).view.emb j)) := by
  obtain ⟨e0, e1⟩ := idx_param5_2 t
  have e6 := idx_cols5_6 t
  show V c (Pipeline.arrRef spec5 2) (((cfg5.win 2).blk t).view.emb (ix2 (0 : Fin 1) (j 1))) = _
  refine congrArg _ (funext fun a => Fin.ext ?_)
  match a with
  | ⟨0, _⟩ => show win5_2.index t (0 : Fin 2) * 1 + 1 * 0 = 0; rw [e0]
  | ⟨1, _⟩ => show win5_2.index t (1 : Fin 2) * 32 + 1 * (j 1).val = win5_6.index t (1 : Fin 2) * 32 + 1 * (j 1).val; rw [e1, e6]

theorem var5_at (c : Dev nD) (t : Fin cfg5.N) (j : S10000x32.Idx) :
    iblk5 V c 3 t (ix2 (0 : Fin 1) (j 1)) = V c (Pipeline.arrRef spec5 3) (Cert.Spec.rowOver (((cfg5.win 6).blk t).view.emb j)) := by
  obtain ⟨e0, e1⟩ := idx_param5_3 t
  have e6 := idx_cols5_6 t
  show V c (Pipeline.arrRef spec5 3) (((cfg5.win 3).blk t).view.emb (ix2 (0 : Fin 1) (j 1))) = _
  refine congrArg _ (funext fun a => Fin.ext ?_)
  match a with
  | ⟨0, _⟩ => show win5_3.index t (0 : Fin 2) * 1 + 1 * 0 = 0; rw [e0]
  | ⟨1, _⟩ => show win5_3.index t (1 : Fin 2) * 32 + 1 * (j 1).val = win5_6.index t (1 : Fin 2) * 32 + 1 * (j 1).val; rw [e1, e6]

theorem scale5_at (c : Dev nD) (t : Fin cfg5.N) (j : S10000x32.Idx) :
    iblk5 V c 4 t (ix2 (0 : Fin 1) (j 1)) = V c (Pipeline.arrRef spec5 4) (Cert.Spec.rowOver (((cfg5.win 6).blk t).view.emb j)) := by
  obtain ⟨e0, e1⟩ := idx_param5_4 t
  have e6 := idx_cols5_6 t
  show V c (Pipeline.arrRef spec5 4) (((cfg5.win 4).blk t).view.emb (ix2 (0 : Fin 1) (j 1))) = _
  refine congrArg _ (funext fun a => Fin.ext ?_)
  match a with
  | ⟨0, _⟩ => show win5_4.index t (0 : Fin 2) * 1 + 1 * 0 = 0; rw [e0]
  | ⟨1, _⟩ => show win5_4.index t (1 : Fin 2) * 32 + 1 * (j 1).val = win5_6.index t (1 : Fin 2) * 32 + 1 * (j 1).val; rw [e1, e6]

theorem shift5_at (c : Dev nD) (t : Fin cfg5.N) (j : S10000x32.Idx) :
    iblk5 V c 5 t (ix2 (0 : Fin 1) (j 1)) = V c (Pipeline.arrRef spec5 5) (Cert.Spec.rowOver (((cfg5.win 6).blk t).view.emb j)) := by
  obtain ⟨e0, e1⟩ := idx_param5_5 t
  have e6 := idx_cols5_6 t
  show V c (Pipeline.arrRef spec5 5) (((cfg5.win 5).blk t).view.emb (ix2 (0 : Fin 1) (j 1))) = _
  refine congrArg _ (funext fun a => Fin.ext ?_)
  match a with
  | ⟨0, _⟩ => show win5_5.index t (0 : Fin 2) * 1 + 1 * 0 = 0; rw [e0]
  | ⟨1, _⟩ => show win5_5.index t (1 : Fin 2) * 32 + 1 * (j 1).val = win5_6.index t (1 : Fin 2) * 32 + 1 * (j 1).val; rw [e1, e6]

theorem entry5_6 (c : Dev nD) (t : Fin cfg5.N) (j : S10000x32.Idx) :
    k5_pay1 (iblk5 V c 0 t) (iblk5 V c 1 t) (iblk5 V c 3 t) (iblk5 V c 2 t) (iblk5 V c 4 t) (iblk5 V c 5 t) j
      = Cert.Spec.bnReluArr (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) (((cfg5.win 6).blk t).view.emb j) :=
  (pay5_at _ _ _ _ _ _ j).trans (Cert.Spec.bnReluEntry_congr (rows5_at V c t j) (bias5_at V c t j) (mean5_at V c t j)
    (var5_at V c t j) (scale5_at V c t j) (shift5_at V c t j))

theorem flushed5_6_eq (c : Dev nD) (t : Fin cfg5.N) :
    (dat5 V c).flushed 6 t = ((cfg5.win 6).blk t).view.read (Elt F) (Cert.Spec.bnReluArr (V c (Pipeline.arrRef spec5 0))
      (V c (Pipeline.arrRef spec5 1)) (V c (Pipeline.arrRef spec5 2)) (V c (Pipeline.arrRef spec5 3)) (V c (Pipeline.arrRef spec5 4))
      (V c (Pipeline.arrRef spec5 5))) := by
  show (cfg5.win 6).cut (grid5.coords t) ((dat5 V c).after 6 t) = _
  rw [after5_6]
  unfold bnReluBlk5
  rw [View.canon_unit_zero zeroOffsets5]
  simp only [View.ld_unit_zero (S := S10000x32) zeroOffsets5, View.ld_unit_zero (S := S1x32) zeroOffsets5]
  exact funext fun (j : S10000x32.Idx) => entry5_6 V c t j

theorem mem_blk5_6 (t : Fin cfg5.N) (i : S100000x32.Idx) :
    i ∈ ((cfg5.win 6).blk t).view.set ↔ ∀ a : Fin 2, win5_6.index t a * S10000x32.size a ≤ (i a).val
      ∧ (i a).val < win5_6.index t a * S10000x32.size a + S10000x32.size a := by
  show i ∈ ((View.whole main_v78).slice (win5_6.rect t)).set ↔ _
  rw [View.set_slice_whole, Rect.mem_set_unit]
  exact Iff.rfl

theorem idx_onto5_6 : ∀ q : Fin 10, ∃ t : Fin cfg5.N, win5_6.index t (0 : Fin 2) = q.val :=
  (by decide +kernel : ∀ q : Fin 10, ∃ t : Fin grid5.N, win5_6.index t (0 : Fin 2) = q.val)

theorem covered5_6 (i : S100000x32.Idx) : ∃ t : Fin cfg5.N, (cfg5.win 6).flush t = true ∧ i ∈ ((cfg5.win 6).blk t).view.set := by
  have hi0 : (i 0).val < 100000 := (i 0).isLt
  have hi1 : (i 1).val < 32 := (i 1).isLt
  obtain ⟨t, ht⟩ := idx_onto5_6 ⟨(i 0).val / 10000, by omega⟩
  have ht' : win5_6.index t (0 : Fin 2) = (i 0).val / 10000 := ht
  have e6 := idx_cols5_6 t
  refine ⟨t, flush5_6 t, (mem_blk5_6 t i).2 fun a => ?_⟩
  match a with
  | ⟨0, _⟩ =>
    show win5_6.index t (0 : Fin 2) * 10000 ≤ (i 0).val ∧ (i 0).val < win5_6.index t (0 : Fin 2) * 10000 + 10000
    omega
  | ⟨1, _⟩ =>
    show win5_6.index t (1 : Fin 2) * 32 ≤ (i 1).val ∧ (i 1).val < win5_6.index t (1 : Fin 2) * 32 + 32
    omega

theorem final5_6 (c : Dev nD) : (dat5 V c).arrAt 6 cfg5.N = Cert.Spec.bnReluArr (V c (Pipeline.arrRef spec5 0))
    (V c (Pipeline.arrRef spec5 1)) (V c (Pipeline.arrRef spec5 2)) (V c (Pipeline.arrRef spec5 3)) (V c (Pipeline.arrRef spec5 4))
    (V c (Pipeline.arrRef spec5 5)) :=
  (dat5 V c).arrAt_eq_of_cover 6 _ (fun t _ => flushed5_6_eq V c t) covered5_6

end Cert.KernelIdeal.Hand

end
-- ==== Proof.Val.Stat2.lean ====
import proofs.«406238_j58506044506835_1_alg».proof.Proof.KI.Keep
import proofs.«406238_j58506044506835_1_alg».proof.Proof.Val.Stat1
import proofs.«406238_j58506044506835_1_alg».proof.Proof.Spec.BatchNorm
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

theorem W9_main_arg8 : W9 m ρ c (Proc.devRef .tc main_arg8) = m ((c : Thread nD τ).loc main_arg8) :=
  (keep9 m ρ c main_arg8 (by decide)).trans <| (keep8 m ρ c main_arg8 (by decide)).trans <| (keep7 m ρ c main_arg8 (by decide)).trans <| (keep6 m ρ c main_arg8 (by decide)).trans <| (keep5 m ρ c main_arg8 (by decide)).trans <| (keep4 m ρ c main_arg8 (by decide)).trans <| (keep3 m ρ c main_arg8 (by decide)).trans <| (keep2 m ρ c main_arg8 (by decide)).trans <| (keep1 m ρ c main_arg8 (by decide)).trans rfl
theorem W9_main_arg9 : W9 m ρ c (Proc.devRef .tc main_arg9) = m ((c : Thread nD τ).loc main_arg9) :=
  (keep9 m ρ c main_arg9 (by decide)).trans <| (keep8 m ρ c main_arg9 (by decide)).trans <| (keep7 m ρ c main_arg9 (by decide)).trans <| (keep6 m ρ c main_arg9 (by decide)).trans <| (keep5 m ρ c main_arg9 (by decide)).trans <| (keep4 m ρ c main_arg9 (by decide)).trans <| (keep3 m ρ c main_arg9 (by decide)).trans <| (keep2 m ρ c main_arg9 (by decide)).trans <| (keep1 m ρ c main_arg9 (by decide)).trans rfl
theorem W9_main_arg10 : W9 m ρ c (Proc.devRef .tc main_arg10) = m ((c : Thread nD τ).loc main_arg10) :=
  (keep9 m ρ c main_arg10 (by decide)).trans <| (keep8 m ρ c main_arg10 (by decide)).trans <| (keep7 m ρ c main_arg10 (by decide)).trans <| (keep6 m ρ c main_arg10 (by decide)).trans <| (keep5 m ρ c main_arg10 (by decide)).trans <| (keep4 m ρ c main_arg10 (by decide)).trans <| (keep3 m ρ c main_arg10 (by decide)).trans <| (keep2 m ρ c main_arg10 (by decide)).trans <| (keep1 m ρ c main_arg10 (by decide)).trans rfl
theorem W7_main_arg8 : W7 m ρ c (Proc.devRef .tc main_arg8) = m ((c : Thread nD τ).loc main_arg8) :=
  (keep7 m ρ c main_arg8 (by decide)).trans <| (keep6 m ρ c main_arg8 (by decide)).trans <| (keep5 m ρ c main_arg8 (by decide)).trans <| (keep4 m ρ c main_arg8 (by decide)).trans <| (keep3 m ρ c main_arg8 (by decide)).trans <| (keep2 m ρ c main_arg8 (by decide)).trans <| (keep1 m ρ c main_arg8 (by decide)).trans rfl

theorem W10_mean_eq : (W10 m ρ c (Proc.devRef .tc main_v70) : FVec Ideal S1x32 .f32)
    = Host.divf (W9 m ρ c (Proc.devRef .tc main_v68_0) : FVec Ideal S1x32 .f32)
        (broadcastInDim S1x32 ![] bcast_S_S1x32 (constant (F := Ideal) S_ .f32 0x47C35000#32)) := by
  show StableHlo.after hostOps5 _ (Proc.devRef .tc main_v70) = _
  after_results

theorem W10_var_eq : (W10 m ρ c (Proc.devRef .tc main_v74) : FVec Ideal S1x32 .f32)
    = subf (Host.divf (W9 m ρ c (Proc.devRef .tc main_v68_1) : FVec Ideal S1x32 .f32)
              (broadcastInDim S1x32 ![] bcast_S_S1x32 (constant (F := Ideal) S_ .f32 0x47C35000#32)))
        (mulf (Host.divf (W9 m ρ c (Proc.devRef .tc main_v68_0) : FVec Ideal S1x32 .f32)
                (broadcastInDim S1x32 ![] bcast_S_S1x32 (constant (F := Ideal) S_ .f32 0x47C35000#32)))
              (Host.divf (W9 m ρ c (Proc.devRef .tc main_v68_0) : FVec Ideal S1x32 .f32)
                (broadcastInDim S1x32 ![] bcast_S_S1x32 (constant (F := Ideal) S_ .f32 0x47C35000#32)))) := by
  show StableHlo.after hostOps5 _ (Proc.devRef .tc main_v74) = _
  after_results

theorem W10_bias_eq : (W10 m ρ c (Proc.devRef .tc main_v75) : FVec Ideal S1x32 .f32)
    = shapeCast S1x32 (W9 m ρ c (Proc.devRef .tc main_arg8) : FVec Ideal S32 .f32) shapeCasts_S32_S1x32 := by
  show StableHlo.after hostOps5 _ (Proc.devRef .tc main_v75) = _
  after_results
  rfl
theorem W10_scale_eq : (W10 m ρ c (Proc.devRef .tc main_v76) : FVec Ideal S1x32 .f32)
    = shapeCast S1x32 (W9 m ρ c (Proc.devRef .tc main_arg9) : FVec Ideal S32 .f32) shapeCasts_S32_S1x32 := by
  show StableHlo.after hostOps5 _ (Proc.devRef .tc main_v76) = _
  after_results
  rfl
theorem W10_shift_eq : (W10 m ρ c (Proc.devRef .tc main_v77) : FVec Ideal S1x32 .f32)
    = shapeCast S1x32 (W9 m ρ c (Proc.devRef .tc main_arg10) : FVec Ideal S32 .f32) shapeCasts_S32_S1x32 := by
  show StableHlo.after hostOps5 _ (Proc.devRef .tc main_v77) = _
  after_results
  rfl

theorem W8_bias_eq : (W8 m ρ c (Proc.devRef .tc main_v67) : FVec Ideal S1x32 .f32)
    = shapeCast S1x32 (W7 m ρ c (Proc.devRef .tc main_arg8) : FVec Ideal S32 .f32) shapeCasts_S32_S1x32 := by
  show StableHlo.after hostOps4 _ (Proc.devRef .tc main_v67) = _
  after_results
  rfl

theorem W10_mean (j : Fin 32) : (W10 m ρ c (Proc.devRef .tc main_v70) : FVec Ideal S1x32 .f32) (ix2 0 j)
    = Ideal.div ((W9 m ρ c (Proc.devRef .tc main_v68_0) : FVec Ideal S1x32 .f32) (ix2 0 j)) cN := by
  rw [W10_mean_eq]; rfl

theorem W10_var (j : Fin 32) : (W10 m ρ c (Proc.devRef .tc main_v74) : FVec Ideal S1x32 .f32) (ix2 0 j)
    = Ideal.div ((W9 m ρ c (Proc.devRef .tc main_v68_1) : FVec Ideal S1x32 .f32) (ix2 0 j)) cN
      - Ideal.div ((W9 m ρ c (Proc.devRef .tc main_v68_0) : FVec Ideal S1x32 .f32) (ix2 0 j)) cN
        * Ideal.div ((W9 m ρ c (Proc.devRef .tc main_v68_0) : FVec Ideal S1x32 .f32) (ix2 0 j)) cN := by
  rw [W10_var_eq]; rfl

theorem W10_bias (j : Fin 32) : (W10 m ρ c (Proc.devRef .tc main_v75) : FVec Ideal S1x32 .f32) (ix2 0 j)
    = (m ((c : Thread nD τ).loc main_arg8) : FVec Ideal S32 .f32) (ix1 j) := by
  rw [W10_bias_eq]
  refine (shapeCast_a_1a_apply (a := 32) _ _ 0 j).trans ?_
  rw [W9_main_arg8]
theorem W10_scale (j : Fin 32) : (W10 m ρ c (Proc.devRef .tc main_v76) : FVec Ideal S1x32 .f32) (ix2 0 j)
    = (m ((c : Thread nD τ).loc main_arg9) : FVec Ideal S32 .f32) (ix1 j) := by
  rw [W10_scale_eq]
  refine (shapeCast_a_1a_apply (a := 32) _ _ 0 j).trans ?_
  rw [W9_main_arg9]
theorem W10_shift (j : Fin 32) : (W10 m ρ c (Proc.devRef .tc main_v77) : FVec Ideal S1x32 .f32) (ix2 0 j)
    = (m ((c : Thread nD τ).loc main_arg10) : FVec Ideal S32 .f32) (ix1 j) := by
  rw [W10_shift_eq]
  refine (shapeCast_a_1a_apply (a := 32) _ _ 0 j).trans ?_
  rw [W9_main_arg10]
theorem W8_bias (j : Fin 32) : (W8 m ρ c (Proc.devRef .tc main_v67) : FVec Ideal S1x32 .f32) (ix2 0 j)
    = (m ((c : Thread nD τ).loc main_arg8) : FVec Ideal S32 .f32) (ix1 j) := by
  rw [W8_bias_eq]
  refine (shapeCast_a_1a_apply (a := 32) _ _ 0 j).trans ?_
  rw [W7_main_arg8]

theorem W10_agg : W10 m ρ c (Proc.devRef .tc main_v66) = W8 m ρ c (Proc.devRef .tc main_v66) :=
  (keep10 m ρ c main_v66 (by decide)).trans (keep9 m ρ c main_v66 (by decide))

end Cert.KernelIdeal.HandVal

end
-- ==== Proof.Ref.RefLayer2.lean ====
import proofs.«406238_j58506044506835_1_alg».proof.Proof.Ref.ReadP
import proofs.«406238_j58506044506835_1_alg».proof.Proof.Spec.BatchNorm

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x0 : (⟨S100000x3, .f32⟩ : BufTy).Contents (Elt Ideal)) (x1 : (⟨S2x1600000, .i32⟩ : BufTy).Contents (Elt Ideal))
  (x3 : (⟨S3x16, .f32⟩ : BufTy).Contents (Elt Ideal)) (x4 x5 x6 : (⟨S16, .f32⟩ : BufTy).Contents (Elt Ideal))
  (x7 : (⟨S16x32, .f32⟩ : BufTy).Contents (Elt Ideal)) (x8 x9 x10 : (⟨S32, .f32⟩ : BufTy).Contents (Elt Ideal))

theorem bias2_at (i : Fin 100000) (j : Fin 32) :
    val_main_v100 (F := Ideal) x8 (ix2 i j) = x8 (ix1 j) := by
  rw [val_main_v100_apply, val_main_v99_apply]
  exact congrArg x8 (funext fun a => Fin.ext (by match a with | ⟨0, _⟩ => rfl))

theorem gamma2_at (i : Fin 100000) (j : Fin 32) :
    val_main_v122 (F := Ideal) x9 (ix2 i j) = x9 (ix1 j) := by
  rw [val_main_v122_apply, val_main_v121_apply]
  exact congrArg x9 (funext fun a => Fin.ext (by match a with | ⟨0, _⟩ => rfl))

theorem beta2_at (i : Fin 100000) (j : Fin 32) :
    val_main_v125 (F := Ideal) x10 (ix2 i j) = x10 (ix1 j) := by
  rw [val_main_v125_apply, val_main_v124_apply]
  exact congrArg x10 (funext fun a => Fin.ext (by match a with | ⟨0, _⟩ => rfl))

theorem meanSq2_at (i : Fin 100000) (j : Fin 32) :
    val_main_v106 (F := Ideal) x0 x1 x3 x4 x5 x6 x7 x8 (ix2 i j) = val_main_v104 (F := Ideal) x0 x1 x3 x4 x5 x6 x7 x8 (ix1 j) := by
  rw [val_main_v106_apply, val_main_v105_apply]
  exact congrArg (val_main_v104 (F := Ideal) x0 x1 x3 x4 x5 x6 x7 x8) (funext fun a => Fin.ext (by match a with | ⟨0, _⟩ => rfl))

theorem meanDev2_at (i : Fin 100000) (j : Fin 32) :
    val_main_v113 (F := Ideal) x0 x1 x3 x4 x5 x6 x7 x8 (ix2 i j) = val_main_v104 (F := Ideal) x0 x1 x3 x4 x5 x6 x7 x8 (ix1 j) := by
  rw [val_main_v113_apply, val_main_v112_apply]
  exact congrArg (val_main_v104 (F := Ideal) x0 x1 x3 x4 x5 x6 x7 x8) (funext fun a => Fin.ext (by match a with | ⟨0, _⟩ => rfl))

theorem rstd2_at (i : Fin 100000) (j : Fin 32) :
    val_main_v119 (F := Ideal) x0 x1 x3 x4 x5 x6 x7 x8 (ix2 i j) = val_main_v117 (F := Ideal) x0 x1 x3 x4 x5 x6 x7 x8 (ix1 j) := by
  rw [val_main_v119_apply, val_main_v118_apply]
  exact congrArg (val_main_v117 (F := Ideal) x0 x1 x3 x4 x5 x6 x7 x8) (funext fun a => Fin.ext (by match a with | ⟨0, _⟩ => rfl))

theorem floor2_at (i : Fin 100000) (j : Fin 32) :
    val_main_call1_v0 (F := Ideal) (ix2 i j) = (0 : EReal) := by
  rw [val_main_call1_v0_apply, val_main_call1_cst_apply]
  simp only [Ideal.ofBits_def, Ideal.ofBits_zero_f32]

theorem pre2_at (i : Fin 100000) (j : Fin 32) :
    val_main_v101 (F := Ideal) x0 x1 x3 x4 x5 x6 x7 x8 (ix2 i j)
      = Cert.Spec.addRow (fun i j => val_main_v98 (F := Ideal) x0 x1 x3 x4 x5 x6 x7 (ix2 i j)) (fun j => x8 (ix1 j)) i j := by
  rw [val_main_v101_apply, bias2_at]
  simp only [Ideal.addf_def, Cert.Spec.addRow]

theorem mean2_at (j : Fin 32) :
    val_main_v104 (F := Ideal) x0 x1 x3 x4 x5 x6 x7 x8 (ix1 j)
      = Cert.Spec.bnMean (Cert.Spec.addRow (fun i j => val_main_v98 (F := Ideal) x0 x1 x3 x4 x5 x6 x7 (ix2 i j)) (fun j => x8 (ix1 j)))
          (Ideal.ofBits .f32 0x47C35000#32) j := by
  have hs : (∑ k : Fin 100000, val_main_v101 (F := Ideal) x0 x1 x3 x4 x5 x6 x7 x8 (idx_main_v102 (ix1 j) k))
      = ∑ k : Fin 100000, Cert.Spec.addRow (fun i j => val_main_v98 (F := Ideal) x0 x1 x3 x4 x5 x6 x7 (ix2 i j)) (fun j => x8 (ix1 j)) k j :=
    Finset.sum_congr rfl fun k _ => by
      rw [show idx_main_v102 (ix1 j) k = ix2 k j from funext fun a => Fin.ext (by match a with | ⟨0, _⟩ => rfl | ⟨1, _⟩ => rfl)]
      exact pre2_at x0 x1 x3 x4 x5 x6 x7 x8 k j
  unfold Cert.Spec.bnMean Cert.Spec.colSum
  rw [val_main_v104_apply, val_main_v102_apply, val_main_v103_apply, val_main_cst_20_apply, val_main_cst_19_apply, hs]
  simp only [Ideal.hostDivf_def, Ideal.ofBits_def, Ideal.ofBits_zero_f32, zero_add]

theorem var2_at (j : Fin 32) :
    val_main_v111 (F := Ideal) x0 x1 x3 x4 x5 x6 x7 x8 (ix1 j)
      = Cert.Spec.bnVarReference (Cert.Spec.addRow (fun i j => val_main_v98 (F := Ideal) x0 x1 x3 x4 x5 x6 x7 (ix2 i j)) (fun j => x8 (ix1 j)))
          (Ideal.ofBits .f32 0x47C35000#32) j := by
  have hs : (∑ k : Fin 100000, val_main_v108 (F := Ideal) x0 x1 x3 x4 x5 x6 x7 x8 (idx_main_v109 (ix1 j) k))
      = ∑ k : Fin 100000,
          (Cert.Spec.addRow (fun i j => val_main_v98 (F := Ideal) x0 x1 x3 x4 x5 x6 x7 (ix2 i j)) (fun j => x8 (ix1 j)) k j
              - Cert.Spec.bnMean (Cert.Spec.addRow (fun i j => val_main_v98 (F := Ideal) x0 x1 x3 x4 x5 x6 x7 (ix2 i j)) (fun j => x8 (ix1 j))) (Ideal.ofBits .f32 0x47C35000#32) j)
            * (Cert.Spec.addRow (fun i j => val_main_v98 (F := Ideal) x0 x1 x3 x4 x5 x6 x7 (ix2 i j)) (fun j => x8 (ix1 j)) k j
              - Cert.Spec.bnMean (Cert.Spec.addRow (fun i j => val_main_v98 (F := Ideal) x0 x1 x3 x4 x5 x6 x7 (ix2 i j)) (fun j => x8 (ix1 j))) (Ideal.ofBits .f32 0x47C35000#32) j) :=
    Finset.sum_congr rfl fun k _ => by
      rw [show idx_main_v109 (ix1 j) k = ix2 k j from funext fun a => Fin.ext (by match a with | ⟨0, _⟩ => rfl | ⟨1, _⟩ => rfl),
        val_main_v108_apply, val_main_v107_apply, meanSq2_at, pre2_at, mean2_at]
      simp only [Ideal.mulf_def, Ideal.subf_def]
  unfold Cert.Spec.bnVarReference
  rw [val_main_v111_apply, val_main_v109_apply, val_main_v110_apply, val_main_cst_22_apply, val_main_cst_21_apply, hs]
  simp only [Ideal.hostDivf_def, Ideal.ofBits_def, Ideal.ofBits_zero_f32, zero_add]

theorem ref_bn2 (i : Fin 100000) (j : Fin 32) :
    val_main_v127 (F := Ideal) x0 x1 x3 x4 x5 x6 x7 x8 x9 x10 (ix2 i j)
      = Cert.Spec.bnReference
          (Cert.Spec.addRow (fun i j => val_main_v98 (F := Ideal) x0 x1 x3 x4 x5 x6 x7 (ix2 i j)) (fun j => x8 (ix1 j)))
          (fun j => x9 (ix1 j)) (fun j => x10 (ix1 j))
          (Ideal.ofBits .f32 0x3727C5AC#32) (Ideal.ofBits .f32 0x47C35000#32) i j := by
  rw [val_main_v127_apply, val_main_v126_apply, val_main_v123_apply, val_main_v120_apply, val_main_v114_apply,
    floor2_at, beta2_at, gamma2_at, rstd2_at, meanDev2_at, val_main_v117_apply, val_main_v116_apply,
    val_main_v115_apply, val_main_cst_23_apply, pre2_at, mean2_at, var2_at]
  simp only [Ideal.maximumf_def, Ideal.addf_def, Ideal.mulf_def, Ideal.subf_def, Ideal.hostUnary_rsqrt_def,
    Ideal.ofBits_def, Cert.Spec.bnReference, Cert.Spec.bnApply]

theorem ref_lin2 (i : Fin 100000) (j : Fin 32) :
    val_main_v70 (F := Ideal) x0 x1 x3 x4 x5 x6 x7 (ix2 i j) = ∑ k : Fin 16, val_main_v69 (F := Ideal) x0 x1 x3 x4 x5 x6 (ix2 i k) * x7 (ix2 k j) := by
  rw [val_main_v70_apply]
  refine Finset.sum_congr rfl fun k _ => ?_
  have el : lidx_main_v70 (ix2 i j) k = ix2 i k :=
    funext fun a => Fin.ext (by match a with | ⟨0, _⟩ => rfl | ⟨1, _⟩ => rfl)
  have er : ridx_main_v70 (ix2 i j) k = ix2 k j :=
    funext fun a => Fin.ext (by match a with | ⟨0, _⟩ => rfl | ⟨1, _⟩ => rfl)
  rw [el, er]

end Cert.ReferenceIdeal.Hand

end
-- ==== Proof.Val.Layer2.lean ====
import proofs.«406238_j58506044506835_1_alg».proof.Proof.KI.Keep
import proofs.«406238_j58506044506835_1_alg».proof.Proof.Val.Layer1
import proofs.«406238_j58506044506835_1_alg».proof.Proof.Val.R3Val
import proofs.«406238_j58506044506835_1_alg».proof.Proof.Val.R4Val
import proofs.«406238_j58506044506835_1_alg».proof.Proof.Val.R5Val
import proofs.«406238_j58506044506835_1_alg».proof.Proof.Val.HostAgree
import proofs.«406238_j58506044506835_1_alg».proof.Proof.Val.Stat2
import proofs.«406238_j58506044506835_1_alg».proof.Proof.Ref.RefLayer2
import proofs.«406238_j58506044506835_1_alg».proof.Proof.Spec.BatchNorm
import proofs.«406238_j58506044506835_1_alg».proof.Proof.Spec.Apply
import proofs.«406238_j58506044506835_1_alg».proof.Proof.Spec.MatRows

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.Spec.MatRows
open Cert.ReferenceIdeal.Read Cert.ReferenceIdeal.Hand
open scoped BigOperators

variable (m : (ℓ : Loc nD τ sig) → Buf (Elt Ideal) ℓ) (ρ : Dev nD → PrngReg) (c : Dev nD)

theorem V6_arg7 : Hand.V6 m ρ c main_arg7 = m ((c : Thread nD τ).loc main_arg7) :=
  (keep6 m ρ c main_arg7 (by decide)).trans <| (keep5 m ρ c main_arg7 (by decide)).trans <| (keep4 m ρ c main_arg7 (by decide)).trans <| (keep3 m ρ c main_arg7 (by decide)).trans <| (keep2 m ρ c main_arg7 (by decide)).trans <| (keep1 m ρ c main_arg7 (by decide)).trans <| rfl

theorem proj2 (hprev : (W6 m ρ c (Proc.devRef .tc main_v52) : FVec Ideal S100000x16 .f32) = val_main_v69 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6))) :
    (W7 m ρ c (Proc.devRef .tc main_v53) : FVec Ideal S100000x32 .f32) = val_main_v70 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) := by
  have h : (W7 m ρ c (Proc.devRef .tc main_v53) : FVec Ideal S100000x32 .f32)
      = matRows 100000 16 32 (W6 m ρ c (Proc.devRef .tc main_v52) : FVec Ideal S100000x16 .f32) (Hand.V6 m ρ c main_arg7) :=
    (W7_arr m ρ c 2).trans (final3_2 (Hand.V6 m ρ) c)
  funext idx
  obtain ⟨i, j, rfl⟩ : ∃ i j, idx = ix2 i j := ⟨idx 0, idx 1, eq_ix2 idx⟩
  rw [h, V6_arg7, hprev, matRows_ix2, ref_lin2]

theorem aggr2 (hprev : (W6 m ρ c (Proc.devRef .tc main_v52) : FVec Ideal S100000x16 .f32) = val_main_v69 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6))) :
    (W8 m ρ c (Proc.devRef .tc main_v66) : FVec Ideal S100000x32 .f32) = val_main_v98 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) :=
  agg2_ref m ρ c _ _ _ _ _ _ (proj2 m ρ c hprev)

def rows2 : Fin 100000 → Fin 32 → EReal :=
  addRow (fun i j => (W8 m ρ c (Proc.devRef .tc main_v66) : FVec Ideal S100000x32 .f32) (ix2 i j))
    (fun j => ((m ((c : Thread nD τ).loc main_arg8)) : FVec Ideal S32 .f32) (ix1 j))

theorem sum2 (j : Fin 32) :
    (W9 m ρ c (Proc.devRef .tc main_v68_0) : FVec Ideal S1x32 .f32) (ix2 0 j) = colSum (rows2 m ρ c) j := by
  have h : (W9 m ρ c (Proc.devRef .tc main_v68_0) : FVec Ideal S1x32 .f32) (ix2 0 j)
      = colSum (addRow (fun i j => (W8 m ρ c (Proc.devRef .tc main_v66) : FVec Ideal S100000x32 .f32) (ix2 i j))
          (fun j => (W8 m ρ c (Proc.devRef .tc main_v67) : FVec Ideal S1x32 .f32) (ix2 0 j))) j :=
    (congrFun (W9_arr m ρ c 2) (ix2 0 j)).trans (final4_2 (Hand.V8 m ρ) c j)
  rw [h, show (fun j : Fin 32 => (W8 m ρ c (Proc.devRef .tc main_v67) : FVec Ideal S1x32 .f32) (ix2 0 j))
      = fun j => ((m ((c : Thread nD τ).loc main_arg8)) : FVec Ideal S32 .f32) (ix1 j) from funext fun j => W8_bias m ρ c j]
  rfl

theorem sumsq2 (j : Fin 32) :
    (W9 m ρ c (Proc.devRef .tc main_v68_1) : FVec Ideal S1x32 .f32) (ix2 0 j) = colSumSq (rows2 m ρ c) j := by
  have h : (W9 m ρ c (Proc.devRef .tc main_v68_1) : FVec Ideal S1x32 .f32) (ix2 0 j)
      = colSumSq (addRow (fun i j => (W8 m ρ c (Proc.devRef .tc main_v66) : FVec Ideal S100000x32 .f32) (ix2 i j))
          (fun j => (W8 m ρ c (Proc.devRef .tc main_v67) : FVec Ideal S1x32 .f32) (ix2 0 j))) j :=
    (congrFun (W9_arr m ρ c 3) (ix2 0 j)).trans (final4_3 (Hand.V8 m ρ) c j)
  rw [h, show (fun j : Fin 32 => (W8 m ρ c (Proc.devRef .tc main_v67) : FVec Ideal S1x32 .f32) (ix2 0 j))
      = fun j => ((m ((c : Thread nD τ).loc main_arg8)) : FVec Ideal S32 .f32) (ix1 j) from funext fun j => W8_bias m ρ c j]
  rfl

theorem mean2 (j : Fin 32) :
    (W10 m ρ c (Proc.devRef .tc main_v70) : FVec Ideal S1x32 .f32) (ix2 0 j) = bnMean (rows2 m ρ c) (Ideal.ofBits .f32 0x47C35000#32) j := by
  rw [W10_mean m ρ c j, sum2 m ρ c j]; rfl

theorem var2 (j : Fin 32) :
    (W10 m ρ c (Proc.devRef .tc main_v74) : FVec Ideal S1x32 .f32) (ix2 0 j) = bnVarKernel (rows2 m ρ c) (Ideal.ofBits .f32 0x47C35000#32) j := by
  rw [W10_var m ρ c j, sum2 m ρ c j, sumsq2 m ρ c j]; rfl

theorem kern2 (i : Fin 100000) (j : Fin 32) :
    (W11 m ρ c (Proc.devRef .tc main_v78) : FVec Ideal S100000x32 .f32) (ix2 i j)
      = bnKernel (rows2 m ρ c) (fun j => ((m ((c : Thread nD τ).loc main_arg9)) : FVec Ideal S32 .f32) (ix1 j))
          (fun j => ((m ((c : Thread nD τ).loc main_arg10)) : FVec Ideal S32 .f32) (ix1 j)) (Ideal.ofBits .f32 0x3727C5AC#32) (Ideal.ofBits .f32 0x47C35000#32) i j := by
  have h : (W11 m ρ c (Proc.devRef .tc main_v78) : FVec Ideal S100000x32 .f32)
      = bnReluArr (F := Ideal) (n := 100000) (d := 32) (Hand.V10 m ρ c main_v66) (Hand.V10 m ρ c main_v75) (Hand.V10 m ρ c main_v70)
          (Hand.V10 m ρ c main_v74) (Hand.V10 m ρ c main_v76) (Hand.V10 m ρ c main_v77) :=
    (W11_arr m ρ c 6).trans (final5_6 (Hand.V10 m ρ) c)
  rw [h, bnReluArr_ideal_apply]
  unfold bnKernel
  exact bnApply_congr _ i j
    (congrArg₂ (fun a b : EReal => a + b) (congrFun (W10_agg m ρ c) (ix2 i j)) (W10_bias m ρ c j))
    (mean2 m ρ c j) (var2 m ρ c j) (W10_scale m ρ c j) (W10_shift m ρ c j)

theorem layer2
    (hprev : (W6 m ρ c (Proc.devRef .tc main_v52) : FVec Ideal S100000x16 .f32) = val_main_v69 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)))
    (hy : ∀ i j, IsReal (addRow (fun i j => val_main_v98 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (ix2 i j))
      (fun j => ((m ((c : Thread nD τ).loc main_arg8)) : FVec Ideal S32 .f32) (ix1 j)) i j)) :
    (W11 m ρ c (Proc.devRef .tc main_v78) : FVec Ideal S100000x32 .f32)
      = val_main_v127 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext idx
  obtain ⟨i, j, rfl⟩ : ∃ i j, idx = ix2 i j := ⟨idx 0, idx 1, eq_ix2 idx⟩
  have hrows : rows2 m ρ c = addRow (fun i j => val_main_v98 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (ix2 i j))
      (fun j => ((m ((c : Thread nD τ).loc main_arg8)) : FVec Ideal S32 .f32) (ix1 j)) := by
    unfold rows2; rw [aggr2 m ρ c hprev]
  rw [kern2 m ρ c i j, ref_bn2, hrows, bn_agree _ _ _ _ _ hy (by norm_num) ofBits_count]

end Cert.KernelIdeal.HandVal

end
-- ==== Proof.Val.R6Val.lean ====
import proofs.«406238_j58506044506835_1_alg».proof.Proof.KI.R6
import proofs.«406238_j58506044506835_1_alg».proof.Proof.Spec.MatRows
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec.MatRows

variable (V : (c : Dev nD) → (b : Ref sig .tc) → Buf (Elt Ideal) ((c : Thread nD τ).loc b))

theorem lhs_lin6_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_lin6_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_lin6_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_lin6_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

theorem lin6_pay_ix2 (xs : FVec Ideal S10000x32 .f32) (ws : FVec Ideal S32x64 .f32) (p : Fin 10000) (q : Fin 64) :
    k6_pay1 (F := Ideal) xs ws (ix2 p q) = ∑ l : Fin 32, xs (ix2 p l) * ws (ix2 l q) := by
  unfold k6_pay1
  simp only [matmul]
  rw [Ideal.matmul_constant_zero_apply, ← Equiv.sum_comp (ValueIdx.contrEquiv1 dot_S10000x32_S32x64_S10000x64_1_0_0_1_n_n 32 rfl rfl).symm]
  refine Finset.sum_congr rfl fun l _ => ?_
  have hl := ValueIdx.contrEquiv1_symm_val dot_S10000x32_S32x64_S10000x64_1_0_0_1_n_n 32 rfl rfl l
  have el : dot_S10000x32_S32x64_S10000x64_1_0_0_1_n_n.lhsIdx (ix2 p q) ((ValueIdx.contrEquiv1 dot_S10000x32_S32x64_S10000x64_1_0_0_1_n_n 32 rfl rfl).symm l) = ix2 p l := funext fun a => Fin.ext (by
    match a with
    | ⟨0, _⟩ => exact lhs_lin6_0 _ _
    | ⟨1, _⟩ => exact (lhs_lin6_1 _ _).trans hl)
  have er : dot_S10000x32_S32x64_S10000x64_1_0_0_1_n_n.rhsIdx (ix2 p q) ((ValueIdx.contrEquiv1 dot_S10000x32_S32x64_S10000x64_1_0_0_1_n_n 32 rfl rfl).symm l) = ix2 l q := funext fun a => Fin.ext (by
    match a with
    | ⟨0, _⟩ => exact (rhs_lin6_0 _ _).trans hl
    | ⟨1, _⟩ => exact rhs_lin6_1 _ _)
  simp only [ValueIdx.truncf_apply, shapeCast_self, el, er]

theorem zeroOff6 : (![0, 0] : Fin 2 → Nat) = fun _ => 0 := funext fun a => by fin_cases a <;> rfl

theorem lin6_index : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

theorem lin6_index_onto : ∀ b : Fin 10, ∃ t : Fin cfg6.N, win6_2.index t = ![b.val, 0] :=
  (by decide +kernel : ∀ b : Fin 10, ∃ t : Fin grid6.N, win6_2.index t = ![b.val, 0])

theorem lin6_read_prod (G : S100000x64.Idx → EReal) (t : Fin cfg6.N) (p : Fin 10000) (q : Fin 64)
    (hrow : win6_2.index t (0 : Fin 2) * 10000 + p.val < 100000) :
    ((cfg6.win 2).blk t).view.read (Elt Ideal) G (ix2 p q)
      = G (ix2 (⟨win6_2.index t (0 : Fin 2) * 10000 + p.val, hrow⟩ : Fin 100000) q) := by
  obtain ⟨e0, e1, e2, e3, e4, e5⟩ := lin6_index t
  have hq : q.val < 64 := q.isLt
  show G (((cfg6.win 2).blk t).view.emb (ix2 p q)) = _
  refine congrArg G (funext fun a => Fin.ext ?_)
  match a with
  | ⟨0, _⟩ => show win6_2.index t (0 : Fin 2) * 10000 + 1 * p.val = win6_2.index t (0 : Fin 2) * 10000 + p.val; omega
  | ⟨1, _⟩ => show win6_2.index t (1 : Fin 2) * 64 + 1 * q.val = q.val; omega

theorem lin6_read_rows (X : S100000x32.Idx → EReal) (t : Fin cfg6.N) (p : Fin 10000) (l : Fin 32)
    (hrow : win6_2.index t (0 : Fin 2) * 10000 + p.val < 100000) :
    ((cfg6.win 0).blk t).view.read (Elt Ideal) X (ix2 p l)
      = X (ix2 (⟨win6_2.index t (0 : Fin 2) * 10000 + p.val, hrow⟩ : Fin 100000) l) := by
  obtain ⟨e0, e1, e2, e3, e4, e5⟩ := lin6_index t
  have hl : l.val < 32 := l.isLt
  show X (((cfg6.win 0).blk t).view.emb (ix2 p l)) = _
  refine congrArg X (funext fun a => Fin.ext ?_)
  match a with
  | ⟨0, _⟩ => show win6_0.index t (0 : Fin 2) * 10000 + 1 * p.val = win6_2.index t (0 : Fin 2) * 10000 + p.val; omega
  | ⟨1, _⟩ => show win6_0.index t (1 : Fin 2) * 32 + 1 * l.val = l.val; omega

theorem lin6_read_weight (W : S32x64.Idx → EReal) (t : Fin cfg6.N) (l : Fin 32) (q : Fin 64) :
    ((cfg6.win 1).blk t).view.read (Elt Ideal) W (ix2 l q) = W (ix2 l q) := by
  obtain ⟨e0, e1, e2, e3, e4, e5⟩ := lin6_index t
  have hl : l.val < 32 := l.isLt
  have hq : q.val < 64 := q.isLt
  show W (((cfg6.win 1).blk t).view.emb (ix2 l q)) = _
  refine congrArg W (funext fun a => Fin.ext ?_)
  match a with
  | ⟨0, _⟩ => show win6_1.index t (0 : Fin 2) * 32 + 1 * l.val = l.val; omega
  | ⟨1, _⟩ => show win6_1.index t (1 : Fin 2) * 64 + 1 * q.val = q.val; omega

theorem lin6_flushed (c : Dev nD) (t : Fin cfg6.N) :
    (dat6 V c).flushed 2 t = ((cfg6.win 2).blk t).view.read (Elt Ideal)
      (matRows 100000 32 64 (V c (Pipeline.arrRef spec6 0)) (V c (Pipeline.arrRef spec6 1))) := by
  show (cfg6.win 2).cut (grid6.coords t) ((dat6 V c).after 2 t) = _
  rw [after6_2]
  unfold prodBlock6
  rw [View.canon_unit_zero zeroOff6]
  simp only [View.ld_unit_zero (S := S10000x32) zeroOff6, View.ld_unit_zero (S := S32x64) zeroOff6]
  funext j
  obtain ⟨p, q, rfl⟩ : ∃ (p : Fin 10000) (q : Fin 64), j = ix2 p q := ⟨j 0, j 1, eq_ix2 j⟩
  have hp : p.val < 10000 := p.isLt
  have hrow : win6_2.index t (0 : Fin 2) * 10000 + p.val < 100000 := by
    have e5 := (lin6_index t).2.2.2.2.2
    omega

  refine Eq.trans ?_ (lin6_read_prod (matRows 100000 32 64 (V c (Pipeline.arrRef spec6 0)) (V c (Pipeline.arrRef spec6 1))) t p q hrow).symm
  rw [matRows_ix2]

  refine (lin6_pay_ix2 (iblk6 V c 0 t) (iblk6 V c 1 t) p q).trans ?_
  refine Finset.sum_congr rfl fun l _ => ?_
  exact congrArg₂ (fun a b : EReal => a * b)
    (lin6_read_rows (V c (Pipeline.arrRef spec6 0)) t p l hrow)
    (lin6_read_weight (V c (Pipeline.arrRef spec6 1)) t l q)

theorem lin6_mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v79).slice (win6_2.rect t)).set ↔ _
  rw [View.set_slice_whole, Rect.mem_set_unit]
  exact Iff.rfl

theorem lin6_cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := lin6_index_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [lin6_mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

theorem final6_2 (c : Dev nD) :
    (dat6 V c).arrAt 2 cfg6.N = matRows 100000 32 64 (V c (Pipeline.arrRef spec6 0)) (V c (Pipeline.arrRef spec6 1)) :=
  (dat6 V c).arrAt_eq_of_cover 2 _ (fun t _ => lin6_flushed V c t) lin6_cover

theorem final6_2_ix2 (c : Dev nD) (i : Fin 100000) (j : Fin 64) :
    (dat6 V c).arrAt 2 cfg6.N (ix2 i j : S100000x64.Idx)
      = rowsMul (fun a l => (V c (Pipeline.arrRef spec6 0) (ix2 a l : S100000x32.Idx) : EReal))
          (fun l b => (V c (Pipeline.arrRef spec6 1) (ix2 l b : S32x64.Idx) : EReal)) i j := by
  rw [final6_2]; rfl

end Cert.KernelIdeal.Hand

end
-- ==== Proof.Val.R7Val.lean ====
import proofs.«406238_j58506044506835_1_alg».proof.Proof.Spec.Blocks
import proofs.«406238_j58506044506835_1_alg».proof.Proof.KI.R7
import proofs.«406238_j58506044506835_1_alg».proof.Proof.Spec.BatchNorm
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem stats7_pay1_ix2 (u : Fin 1) (j : Fin 64) : k7_pay1 (F := Ideal) (ix2 u j) = (0 : EReal) := by
  unfold k7_pay1
  rw [shapeCast_self]
  exact Ideal.ofBits_zero_f32

theorem stats7_pay2_ix2 (u : Fin 1) (j : Fin 64) : k7_pay2 (F := Ideal) (ix2 u j) = (0 : EReal) := by
  unfold k7_pay2
  rw [shapeCast_self]
  exact Ideal.ofBits_zero_f32

theorem stats7_pay3_ix2 (x : Vec Ideal S10000x64 .f32) (b : Vec Ideal S1x64 .f32) (r : Fin 10000) (j : Fin 64) :
    k7_pay3 (F := Ideal) x b (ix2 r j) = x (ix2 r j) + b (ix2 (0 : Fin 1) j) := by
  unfold k7_pay3
  simp only [shapeCast_self]
  rw [addf_apply, broadcastTo_1b_ab_apply]

theorem stats7_lift (h : S10000x64.Reduces [0] S64) (j : Fin 64) (r : Fin 10000) :
    h.lift (ix1 j) r = (ix2 r j : S10000x64.Idx) :=
  funext fun a => Fin.ext (by
    match a with
    | ⟨0, _⟩ => rfl
    | ⟨1, _⟩ => rfl)

theorem stats7_pay4_ix2 (x : Vec Ideal S10000x64 .f32) (b s : Vec Ideal S1x64 .f32) (u : Fin 1) (j : Fin 64) :
    k7_pay4 (F := Ideal) x b s (ix2 u j)
      = s (ix2 u j) + ∑ r : Fin 10000, (x (ix2 r j) + b (ix2 (0 : Fin 1) j)) := by
  unfold k7_pay4
  simp only [shapeCast_self]
  rw [addf_apply, shapeCast_a_1a_apply]
  refine congrArg (s (ix2 u j) + ·) ?_
  refine (Ideal.multiReduction_add_single (k7_pay3 (F := Ideal) x b) 0x00000000#32 reduces_S10000x64_S64 (.inl rfl) rfl
    (ix1 j)).trans ?_
  show ∑ r : Fin 10000, k7_pay3 (F := Ideal) x b (reduces_S10000x64_S64.lift (ix1 j) r) = _
  exact Finset.sum_congr rfl fun r _ => by rw [stats7_lift, stats7_pay3_ix2]

theorem stats7_pay5_ix2 (x : Vec Ideal S10000x64 .f32) (b q : Vec Ideal S1x64 .f32) (u : Fin 1) (j : Fin 64) :
    k7_pay5 (F := Ideal) x b q (ix2 u j)
      = q (ix2 u j) + ∑ r : Fin 10000,
          (x (ix2 r j) + b (ix2 (0 : Fin 1) j)) * (x (ix2 r j) + b (ix2 (0 : Fin 1) j)) := by
  unfold k7_pay5
  simp only [shapeCast_self]
  rw [addf_apply, shapeCast_a_1a_apply]
  refine congrArg (q (ix2 u j) + ·) ?_
  refine (Ideal.multiReduction_add_single (mulf (k7_pay3 (F := Ideal) x b) (k7_pay3 (F := Ideal) x b)) 0x00000000#32
    reduces_S10000x64_S64 (.inl rfl) rfl (ix1 j)).trans ?_
  show ∑ r : Fin 10000, mulf (k7_pay3 (F := Ideal) x b) (k7_pay3 (F := Ideal) x b) (reduces_S10000x64_S64.lift (ix1 j) r) = _
  exact Finset.sum_congr rfl fun r _ => by rw [stats7_lift, mulf_apply, stats7_pay3_ix2]

abbrev xblk7 (c : Dev nD) (t : Fin cfg7.N) : Vec Ideal S10000x64 .f32 := iblk7 V c 0 t
abbrev bblk7 (c : Dev nD) (t : Fin cfg7.N) : Vec Ideal S1x64 .f32 := iblk7 V c 1 t

abbrev xs7 (c : Dev nD) : Fin 100000 → Fin 64 → EReal :=
  fun i j => (V c (Pipeline.arrRef spec7 0) (ix2 i j : S100000x64.Idx) : EReal)
abbrev bs7 (c : Dev nD) : Fin 64 → EReal :=
  fun j => (V c (Pipeline.arrRef spec7 1) (ix2 (0 : Fin 1) j : S1x64.Idx) : EReal)

theorem stats7_rows : cfg7.N * 10000 = 100000 := by rw [show cfg7.N = 10 from N_7]

theorem stats7_index : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0 :=
  (by decide +kernel : ∀ t : Fin grid7.N, _)

theorem stats7_x_ix2 (c : Dev nD) (t : Fin cfg7.N) (r : Fin 10000) (j : Fin 64) :
    xblk7 V c t (ix2 r j) = xs7 V c (Cert.Spec.blockRow stats7_rows t r) j := by
  obtain ⟨e0, e1, -⟩ := stats7_index t
  have hr : r.val < 10000 := r.isLt
  have hj : j.val < 64 := j.isLt
  show V c (Pipeline.arrRef spec7 0) (((cfg7.win 0).blk t).view.emb (ix2 r j)) = _
  refine congrArg _ (funext fun a => Fin.ext ?_)
  match a with
  | ⟨0, _⟩ => show win7_0.index t (0 : Fin 2) * 10000 + 1 * r.val = t.val * 10000 + r.val; omega
  | ⟨1, _⟩ => show win7_0.index t (1 : Fin 2) * 64 + 1 * j.val = j.val; omega

theorem stats7_b_ix2 (c : Dev nD) (t : Fin cfg7.N) (u : Fin 1) (j : Fin 64) :
    bblk7 V c t (ix2 u j) = bs7 V c j := by
  obtain ⟨-, -, e0, e1, -⟩ := stats7_index t
  have hu : u.val = 0 := by omega
  have hj : j.val < 64 := j.isLt
  show V c (Pipeline.arrRef spec7 1) (((cfg7.win 1).blk t).view.emb (ix2 u j)) = _
  refine congrArg _ (funext fun a => Fin.ext ?_)
  match a with
  | ⟨0, _⟩ => show win7_1.index t (0 : Fin 2) * 1 + 1 * u.val = 0; omega
  | ⟨1, _⟩ => show win7_1.index t (1 : Fin 2) * 64 + 1 * j.val = j.val; omega

theorem stats7_colS (c : Dev nD) (u : Fin 1) (j : Fin 64) :
    colS7 V c cfg7.N (ix2 u j) = Cert.Spec.colSum (Cert.Spec.addRow (xs7 V c) (bs7 V c)) j := by
  have h := Cert.Spec.run_eq_sum (T := cfg7.N) (fun n => (colS7 V c n (ix2 u j) : EReal))
    (fun t => ∑ r : Fin 10000, (xblk7 V c t (ix2 r j) + bblk7 V c t (ix2 (0 : Fin 1) j)))
    (stats7_pay1_ix2 u j)
    (fun t => by
      show colS7 V c (t.val + 1) (ix2 u j) = _
      rw [colS7_succ, stats7_pay4_ix2])
  refine h.trans ?_
  unfold Cert.Spec.colSum Cert.Spec.addRow
  rw [Cert.Spec.sum_blocks stats7_rows (fun i => xs7 V c i j + bs7 V c j)]
  refine Finset.sum_congr rfl fun t _ => Finset.sum_congr rfl fun r _ => ?_
  rw [stats7_x_ix2, stats7_b_ix2]

theorem stats7_colQ (c : Dev nD) (u : Fin 1) (j : Fin 64) :
    colQ7 V c cfg7.N (ix2 u j) = Cert.Spec.colSumSq (Cert.Spec.addRow (xs7 V c) (bs7 V c)) j := by
  have h := Cert.Spec.run_eq_sum (T := cfg7.N) (fun n => (colQ7 V c n (ix2 u j) : EReal))
    (fun t => ∑ r : Fin 10000, (xblk7 V c t (ix2 r j) + bblk7 V c t (ix2 (0 : Fin 1) j))
      * (xblk7 V c t (ix2 r j) + bblk7 V c t (ix2 (0 : Fin 1) j)))
    (stats7_pay2_ix2 u j)
    (fun t => by
      show colQ7 V c (t.val + 1) (ix2 u j) = _
      rw [colQ7_succ, stats7_pay5_ix2])
  refine h.trans ?_
  unfold Cert.Spec.colSumSq Cert.Spec.addRow
  rw [Cert.Spec.sum_blocks stats7_rows (fun i => (xs7 V c i j + bs7 V c j) * (xs7 V c i j + bs7 V c j))]
  refine Finset.sum_congr rfl fun t _ => Finset.sum_congr rfl fun r _ => ?_
  rw [stats7_x_ix2, stats7_b_ix2]

def rowArr64 (g : Fin 64 → EReal) : (⟨2, ![1, 64]⟩ : Shape).Idx → EReal := fun i => g (i 1)

theorem rowArr64_ix2 (g : Fin 64 → EReal) (u : Fin 1) (j : Fin 64) : rowArr64 g (ix2 u j) = g j := rfl

theorem stats7_last_succ (t : Fin cfg7.N) (h : t.val % 10 = 9) : t.val + 1 = cfg7.N := by
  have hN : cfg7.N = 10 := N_7
  have := t.isLt
  omega

theorem stats7_read_blk_2 (t : Fin cfg7.N) (G : S1x64.Idx → EReal) (u : Fin 1) (j : Fin 64) :
    ((cfg7.win 2).blk t).view.read (Elt Ideal) G (ix2 u j) = G (ix2 (0 : Fin 1) j) := by
  obtain ⟨-, -, -, -, e0, e1, -⟩ := stats7_index t
  have hu : u.val = 0 := by omega
  have hj : j.val < 64 := j.isLt
  show G (((cfg7.win 2).blk t).view.emb (ix2 u j)) = _
  refine congrArg G (funext fun a => Fin.ext ?_)
  match a with
  | ⟨0, _⟩ => show win7_2.index t (0 : Fin 2) * 1 + 1 * u.val = 0; omega
  | ⟨1, _⟩ => show win7_2.index t (1 : Fin 2) * 64 + 1 * j.val = j.val; omega

theorem stats7_read_blk_3 (t : Fin cfg7.N) (G : S1x64.Idx → EReal) (u : Fin 1) (j : Fin 64) :
    ((cfg7.win 3).blk t).view.read (Elt Ideal) G (ix2 u j) = G (ix2 (0 : Fin 1) j) := by
  obtain ⟨-, -, -, -, -, -, e0, e1⟩ := stats7_index t
  have hu : u.val = 0 := by omega
  have hj : j.val < 64 := j.isLt
  show G (((cfg7.win 3).blk t).view.emb (ix2 u j)) = _
  refine congrArg G (funext fun a => Fin.ext ?_)
  match a with
  | ⟨0, _⟩ => show win7_3.index t (0 : Fin 2) * 1 + 1 * u.val = 0; omega
  | ⟨1, _⟩ => show win7_3.index t (1 : Fin 2) * 64 + 1 * j.val = j.val; omega

theorem stats7_flushed_2 (c : Dev nD) (t : Fin cfg7.N) (hf : (cfg7.win 2).flush t = true) :
    (dat7 V c).flushed 2 t = ((cfg7.win 2).blk t).view.read (Elt Ideal)
      (rowArr64 (Cert.Spec.colSum (Cert.Spec.addRow (xs7 V c) (bs7 V c)))) := by
  have h9 := (flush7_2 t).mp hf
  show (cfg7.win 2).cut (grid7.coords t) ((dat7 V c).after 2 t) = _
  rw [after7_2, stats7_last_succ t h9]
  funext i
  obtain ⟨u, j, rfl⟩ : ∃ (u : Fin 1) (j : Fin 64), i = ix2 u j := ⟨i 0, i 1, eq_ix2 i⟩
  exact (stats7_colS V c u j).trans
    ((rowArr64_ix2 _ (0 : Fin 1) j).symm.trans (stats7_read_blk_2 t _ u j).symm)

theorem stats7_flushed_3 (c : Dev nD) (t : Fin cfg7.N) (hf : (cfg7.win 3).flush t = true) :
    (dat7 V c).flushed 3 t = ((cfg7.win 3).blk t).view.read (Elt Ideal)
      (rowArr64 (Cert.Spec.colSumSq (Cert.Spec.addRow (xs7 V c) (bs7 V c)))) := by
  have h9 := (flush7_3 t).mp hf
  show (cfg7.win 3).cut (grid7.coords t) ((dat7 V c).after 3 t) = _
  rw [after7_3, stats7_last_succ t h9]
  funext i
  obtain ⟨u, j, rfl⟩ : ∃ (u : Fin 1) (j : Fin 64), i = ix2 u j := ⟨i 0, i 1, eq_ix2 i⟩
  exact (stats7_colQ V c u j).trans
    ((rowArr64_ix2 _ (0 : Fin 1) j).symm.trans (stats7_read_blk_3 t _ u j).symm)

def stats7_lastPt : Fin cfg7.N := ⟨9, by rw [show cfg7.N = 10 from N_7]; decide⟩

theorem stats7_mem_blk_2 (t : Fin cfg7.N) (i : S1x64.Idx) :
    i ∈ ((cfg7.win 2).blk t).view.set ↔ ∀ a : Fin 2, win7_2.index t a * S1x64.size a ≤ (i a).val ∧ (i a).val < win7_2.index t a * S1x64.size a + S1x64.size a := by
  show i ∈ ((View.whole main_v94_0).slice (win7_2.rect t)).set ↔ _
  rw [View.set_slice_whole, Rect.mem_set_unit]
  exact Iff.rfl
theorem stats7_mem_blk_3 (t : Fin cfg7.N) (i : S1x64.Idx) :
    i ∈ ((cfg7.win 3).blk t).view.set ↔ ∀ a : Fin 2, win7_3.index t a * S1x64.size a ≤ (i a).val ∧ (i a).val < win7_3.index t a * S1x64.size a + S1x64.size a := by
  show i ∈ ((View.whole main_v94_1).slice (win7_3.rect t)).set ↔ _
  rw [View.set_slice_whole, Rect.mem_set_unit]
  exact Iff.rfl

theorem stats7_cover_2 (i : S1x64.Idx) :
    ∃ t : Fin cfg7.N, (cfg7.win 2).flush t = true ∧ i ∈ ((cfg7.win 2).blk t).view.set := by
  have hi0 : (i 0).val < 1 := (i 0).isLt
  have hi1 : (i 1).val < 64 := (i 1).isLt
  obtain ⟨-, -, -, -, e0, e1, -⟩ := stats7_index stats7_lastPt
  refine ⟨stats7_lastPt, (flush7_2 stats7_lastPt).mpr rfl, ?_⟩
  rw [stats7_mem_blk_2]
  intro a
  match a with
  | ⟨0, _⟩ => show win7_2.index stats7_lastPt (0 : Fin 2) * 1 ≤ (i 0).val ∧ (i 0).val < win7_2.index stats7_lastPt (0 : Fin 2) * 1 + 1; omega
  | ⟨1, _⟩ => show win7_2.index stats7_lastPt (1 : Fin 2) * 64 ≤ (i 1).val ∧ (i 1).val < win7_2.index stats7_lastPt (1 : Fin 2) * 64 + 64; omega

theorem stats7_cover_3 (i : S1x64.Idx) :
    ∃ t : Fin cfg7.N, (cfg7.win 3).flush t = true ∧ i ∈ ((cfg7.win 3).blk t).view.set := by
  have hi0 : (i 0).val < 1 := (i 0).isLt
  have hi1 : (i 1).val < 64 := (i 1).isLt
  obtain ⟨-, -, -, -, -, -, e0, e1⟩ := stats7_index stats7_lastPt
  refine ⟨stats7_lastPt, (flush7_3 stats7_lastPt).mpr rfl, ?_⟩
  rw [stats7_mem_blk_3]
  intro a
  match a with
  | ⟨0, _⟩ => show win7_3.index stats7_lastPt (0 : Fin 2) * 1 ≤ (i 0).val ∧ (i 0).val < win7_3.index stats7_lastPt (0 : Fin 2) * 1 + 1; omega
  | ⟨1, _⟩ => show win7_3.index stats7_lastPt (1 : Fin 2) * 64 ≤ (i 1).val ∧ (i 1).val < win7_3.index stats7_lastPt (1 : Fin 2) * 64 + 64; omega

theorem final7_2_arr (c : Dev nD) :
    (dat7 V c).arrAt 2 cfg7.N = rowArr64 (Cert.Spec.colSum (Cert.Spec.addRow (xs7 V c) (bs7 V c))) :=
  (dat7 V c).arrAt_eq_of_cover 2 _ (fun t hf => stats7_flushed_2 V c t hf) stats7_cover_2

theorem final7_3_arr (c : Dev nD) :
    (dat7 V c).arrAt 3 cfg7.N = rowArr64 (Cert.Spec.colSumSq (Cert.Spec.addRow (xs7 V c) (bs7 V c))) :=
  (dat7 V c).arrAt_eq_of_cover 3 _ (fun t hf => stats7_flushed_3 V c t hf) stats7_cover_3

theorem final7_2 (c : Dev nD) (j : Fin 64) :
    (dat7 V c).arrAt 2 cfg7.N (ix2 (0 : Fin 1) j : S1x64.Idx)
      = Cert.Spec.colSum (Cert.Spec.addRow
          (fun (i : Fin 100000) (j : Fin 64) => (V c (Pipeline.arrRef spec7 0) (ix2 i j : S100000x64.Idx) : EReal))
          (fun j : Fin 64 => (V c (Pipeline.arrRef spec7 1) (ix2 (0 : Fin 1) j : S1x64.Idx) : EReal))) j := by
  rw [final7_2_arr]; rfl

theorem final7_3 (c : Dev nD) (j : Fin 64) :
    (dat7 V c).arrAt 3 cfg7.N (ix2 (0 : Fin 1) j : S1x64.Idx)
      = Cert.Spec.colSumSq (Cert.Spec.addRow
          (fun (i : Fin 100000) (j : Fin 64) => (V c (Pipeline.arrRef spec7 0) (ix2 i j : S100000x64.Idx) : EReal))
          (fun j : Fin 64 => (V c (Pipeline.arrRef spec7 1) (ix2 (0 : Fin 1) j : S1x64.Idx) : EReal))) j := by
  rw [final7_3_arr]; rfl

end Cert.KernelIdeal.Hand

end
-- ==== Proof.Val.R8Val.lean ====
import proofs.«406238_j58506044506835_1_alg».proof.Proof.KI.R8
import proofs.«406238_j58506044506835_1_alg».proof.Proof.Spec.Apply
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem zeroOffsets8 : (![0, 0] : Fin 2 → Nat) = fun _ => 0 := funext fun a => by fin_cases a <;> rfl

theorem pay8_eq (x : Vec F S10000x64 .f32) (b var mu g be : Vec F S1x64 .f32) :
    k8_pay1 x b var mu g be
      = maximumf (addf (mulf (mulf (subf (addf x (broadcastTo S10000x64 b broadcasts_S1x64_S10000x64))
            (broadcastTo S10000x64 mu broadcasts_S1x64_S10000x64))
          (broadcastTo S10000x64 (rsqrt (addf var (broadcast S1x64 (Scalar.ofBits .f32 0x3727C5AC#32)))) broadcasts_S1x64_S10000x64))
          (broadcastTo S10000x64 g broadcasts_S1x64_S10000x64)) (broadcastTo S10000x64 be broadcasts_S1x64_S10000x64))
        (broadcast S10000x64 (Scalar.ofBits .f32 0x00000000#32)) := by
  unfold k8_pay1
  simp only [shapeCast_self]

theorem bcastRow8 (r : Vec F S1x64 .f32) (j : S10000x64.Idx) :
    broadcastTo S10000x64 r broadcasts_S1x64_S10000x64 j = r (ix2 (0 : Fin 1) (j 1)) :=
  broadcastTo_apply r _ j (ix2 (0 : Fin 1) (j 1)) (fun a => by match a with | ⟨0, _⟩ => rfl | ⟨1, _⟩ => rfl)

theorem pay8_at (x : Vec F S10000x64 .f32) (b var mu g be : Vec F S1x64 .f32) (j : S10000x64.Idx) :
    k8_pay1 x b var mu g be j
      = Cert.Spec.bnReluEntry (x j) (b (ix2 (0 : Fin 1) (j 1))) (mu (ix2 (0 : Fin 1) (j 1))) (var (ix2 (0 : Fin 1) (j 1)))
          (g (ix2 (0 : Fin 1) (j 1))) (be (ix2 (0 : Fin 1) (j 1))) := by
  rw [pay8_eq]
  show FloatOps.maximumf (FloatOps.addf (FloatOps.mulf (FloatOps.mulf (FloatOps.subf
      (FloatOps.addf (x j) (broadcastTo S10000x64 b broadcasts_S1x64_S10000x64 j))
      (broadcastTo S10000x64 mu broadcasts_S1x64_S10000x64 j))
      (broadcastTo S10000x64 (rsqrt (addf var (broadcast S1x64 (Scalar.ofBits .f32 0x3727C5AC#32)))) broadcasts_S1x64_S10000x64 j))
      (broadcastTo S10000x64 g broadcasts_S1x64_S10000x64 j))
      (broadcastTo S10000x64 be broadcasts_S1x64_S10000x64 j)) (Scalar.ofBits .f32 0x00000000#32) = _
  rw [bcastRow8, bcastRow8, bcastRow8, bcastRow8, bcastRow8]
  rfl

theorem idx_rows8 : ∀ t : Fin cfg8.N, win8_0.index t (0 : Fin 2) = win8_6.index t (0 : Fin 2) ∧ win8_0.index t (1 : Fin 2) = 0 :=
  (by decide +kernel : ∀ t : Fin grid8.N, _)
theorem idx_cols8_6 : ∀ t : Fin cfg8.N, win8_6.index t (1 : Fin 2) = 0 :=
  (by decide +kernel : ∀ t : Fin grid8.N, _)

theorem idx_param8_1 : ∀ t : Fin cfg8.N, win8_1.index t (0 : Fin 2) = 0 ∧ win8_1.index t (1 : Fin 2) = 0 :=
  (by decide +kernel : ∀ t : Fin grid8.N, _)
theorem idx_param8_2 : ∀ t : Fin cfg8.N, win8_2.index t (0 : Fin 2) = 0 ∧ win8_2.index t (1 : Fin 2) = 0 :=
  (by decide +kernel : ∀ t : Fin grid8.N, _)
theorem idx_param8_3 : ∀ t : Fin cfg8.N, win8_3.index t (0 : Fin 2) = 0 ∧ win8_3.index t (1 : Fin 2) = 0 :=
  (by decide +kernel : ∀ t : Fin grid8.N, _)
theorem idx_param8_4 : ∀ t : Fin cfg8.N, win8_4.index t (0 : Fin 2) = 0 ∧ win8_4.index t (1 : Fin 2) = 0 :=
  (by decide +kernel : ∀ t : Fin grid8.N, _)
theorem idx_param8_5 : ∀ t : Fin cfg8.N, win8_5.index t (0 : Fin 2) = 0 ∧ win8_5.index t (1 : Fin 2) = 0 :=
  (by decide +kernel : ∀ t : Fin grid8.N, _)

theorem rows8_at (c : Dev nD) (t : Fin cfg8.N) (j : S10000x64.Idx) :
    iblk8 V c 0 t j = V c (Pipeline.arrRef spec8 0) (((cfg8.win 6).blk t).view.emb j) := by
  obtain ⟨e0, e1⟩ := idx_rows8 t
  have e6 := idx_cols8_6 t
  show V c (Pipeline.arrRef spec8 0) (((cfg8.win 0).blk t).view.emb j) = _
  refine congrArg _ (funext fun a => Fin.ext ?_)
  match a with
  | ⟨0, _⟩ => show win8_0.index t (0 : Fin 2) * 10000 + 1 * (j 0).val = win8_6.index t (0 : Fin 2) * 10000 + 1 * (j 0).val; rw [e0]
  | ⟨1, _⟩ => show win8_0.index t (1 : Fin 2) * 64 + 1 * (j 1).val = win8_6.index t (1 : Fin 2) * 64 + 1 * (j 1).val; rw [e1, e6]

theorem bias8_at (c : Dev nD) (t : Fin cfg8.N) (j : S10000x64.Idx) :
    iblk8 V c 1 t (ix2 (0 : Fin 1) (j 1)) = V c (Pipeline.arrRef spec8 1) (Cert.Spec.rowOver (((cfg8.win 6).blk t).view.emb j)) := by
  obtain ⟨e0, e1⟩ := idx_param8_1 t
  have e6 := idx_cols8_6 t
  show V c (Pipeline.arrRef spec8 1) (((cfg8.win 1).blk t).view.emb (ix2 (0 : Fin 1) (j 1))) = _
  refine congrArg _ (funext fun a => Fin.ext ?_)
  match a with
  | ⟨0, _⟩ => show win8_1.index t (0 : Fin 2) * 1 + 1 * 0 = 0; rw [e0]
  | ⟨1, _⟩ => show win8_1.index t (1 : Fin 2) * 64 + 1 * (j 1).val = win8_6.index t (1 : Fin 2) * 64 + 1 * (j 1).val; rw [e1, e6]

theorem mean8_at (c : Dev nD) (t : Fin cfg8.N) (j : S10000x64.Idx) :
    iblk8 V c 2 t (ix2 (0 : Fin 1) (j 1)) = V c (Pipeline.arrRef spec8 2) (Cert.Spec.rowOver (((cfg8.win 6).blk t).view.emb j)) := by
  obtain ⟨e0, e1⟩ := idx_param8_2 t
  have e6 := idx_cols8_6 t
  show V c (Pipeline.arrRef spec8 2) (((cfg8.win 2).blk t).view.emb (ix2 (0 : Fin 1) (j 1))) = _
  refine congrArg _ (funext fun a => Fin.ext ?_)
  match a with
  | ⟨0, _⟩ => show win8_2.index t (0 : Fin 2) * 1 + 1 * 0 = 0; rw [e0]
  | ⟨1, _⟩ => show win8_2.index t (1 : Fin 2) * 64 + 1 * (j 1).val = win8_6.index t (1 : Fin 2) * 64 + 1 * (j 1).val; rw [e1, e6]

theorem var8_at (c : Dev nD) (t : Fin cfg8.N) (j : S10000x64.Idx) :
    iblk8 V c 3 t (ix2 (0 : Fin 1) (j 1)) = V c (Pipeline.arrRef spec8 3) (Cert.Spec.rowOver (((cfg8.win 6).blk t).view.emb j)) := by
  obtain ⟨e0, e1⟩ := idx_param8_3 t
  have e6 := idx_cols8_6 t
  show V c (Pipeline.arrRef spec8 3) (((cfg8.win 3).blk t).view.emb (ix2 (0 : Fin 1) (j 1))) = _
  refine congrArg _ (funext fun a => Fin.ext ?_)
  match a with
  | ⟨0, _⟩ => show win8_3.index t (0 : Fin 2) * 1 + 1 * 0 = 0; rw [e0]
  | ⟨1, _⟩ => show win8_3.index t (1 : Fin 2) * 64 + 1 * (j 1).val = win8_6.index t (1 : Fin 2) * 64 + 1 * (j 1).val; rw [e1, e6]

theorem scale8_at (c : Dev nD) (t : Fin cfg8.N) (j : S10000x64.Idx) :
    iblk8 V c 4 t (ix2 (0 : Fin 1) (j 1)) = V c (Pipeline.arrRef spec8 4) (Cert.Spec.rowOver (((cfg8.win 6).blk t).view.emb j)) := by
  obtain ⟨e0, e1⟩ := idx_param8_4 t
  have e6 := idx_cols8_6 t
  show V c (Pipeline.arrRef spec8 4) (((cfg8.win 4).blk t).view.emb (ix2 (0 : Fin 1) (j 1))) = _
  refine congrArg _ (funext fun a => Fin.ext ?_)
  match a with
  | ⟨0, _⟩ => show win8_4.index t (0 : Fin 2) * 1 + 1 * 0 = 0; rw [e0]
  | ⟨1, _⟩ => show win8_4.index t (1 : Fin 2) * 64 + 1 * (j 1).val = win8_6.index t (1 : Fin 2) * 64 + 1 * (j 1).val; rw [e1, e6]

theorem shift8_at (c : Dev nD) (t : Fin cfg8.N) (j : S10000x64.Idx) :
    iblk8 V c 5 t (ix2 (0 : Fin 1) (j 1)) = V c (Pipeline.arrRef spec8 5) (Cert.Spec.rowOver (((cfg8.win 6).blk t).view.emb j)) := by
  obtain ⟨e0, e1⟩ := idx_param8_5 t
  have e6 := idx_cols8_6 t
  show V c (Pipeline.arrRef spec8 5) (((cfg8.win 5).blk t).view.emb (ix2 (0 : Fin 1) (j 1))) = _
  refine congrArg _ (funext fun a => Fin.ext ?_)
  match a with
  | ⟨0, _⟩ => show win8_5.index t (0 : Fin 2) * 1 + 1 * 0 = 0; rw [e0]
  | ⟨1, _⟩ => show win8_5.index t (1 : Fin 2) * 64 + 1 * (j 1).val = win8_6.index t (1 : Fin 2) * 64 + 1 * (j 1).val; rw [e1, e6]

theorem entry8_6 (c : Dev nD) (t : Fin cfg8.N) (j : S10000x64.Idx) :
    k8_pay1 (iblk8 V c 0 t) (iblk8 V c 1 t) (iblk8 V c 3 t) (iblk8 V c 2 t) (iblk8 V c 4 t) (iblk8 V c 5 t) j
      = Cert.Spec.bnReluArr (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) (((cfg8.win 6).blk t).view.emb j) :=
  (pay8_at _ _ _ _ _ _ j).trans (Cert.Spec.bnReluEntry_congr (rows8_at V c t j) (bias8_at V c t j) (mean8_at V c t j)
    (var8_at V c t j) (scale8_at V c t j) (shift8_at V c t j))

theorem flushed8_6_eq (c : Dev nD) (t : Fin cfg8.N) :
    (dat8 V c).flushed 6 t = ((cfg8.win 6).blk t).view.read (Elt F) (Cert.Spec.bnReluArr (V c (Pipeline.arrRef spec8 0))
      (V c (Pipeline.arrRef spec8 1)) (V c (Pipeline.arrRef spec8 2)) (V c (Pipeline.arrRef spec8 3)) (V c (Pipeline.arrRef spec8 4))
      (V c (Pipeline.arrRef spec8 5))) := by
  show (cfg8.win 6).cut (grid8.coords t) ((dat8 V c).after 6 t) = _
  rw [after8_6]
  unfold bnReluBlk8
  rw [View.canon_unit_zero zeroOffsets8]
  simp only [View.ld_unit_zero (S := S10000x64) zeroOffsets8, View.ld_unit_zero (S := S1x64) zeroOffsets8]
  exact funext fun (j : S10000x64.Idx) => entry8_6 V c t j

theorem mem_blk8_6 (t : Fin cfg8.N) (i : S100000x64.Idx) :
    i ∈ ((cfg8.win 6).blk t).view.set ↔ ∀ a : Fin 2, win8_6.index t a * S10000x64.size a ≤ (i a).val
      ∧ (i a).val < win8_6.index t a * S10000x64.size a + S10000x64.size a := by
  show i ∈ ((View.whole main_v104).slice (win8_6.rect t)).set ↔ _
  rw [View.set_slice_whole, Rect.mem_set_unit]
  exact Iff.rfl

theorem idx_onto8_6 : ∀ q : Fin 10, ∃ t : Fin cfg8.N, win8_6.index t (0 : Fin 2) = q.val :=
  (by decide +kernel : ∀ q : Fin 10, ∃ t : Fin grid8.N, win8_6.index t (0 : Fin 2) = q.val)

theorem covered8_6 (i : S100000x64.Idx) : ∃ t : Fin cfg8.N, (cfg8.win 6).flush t = true ∧ i ∈ ((cfg8.win 6).blk t).view.set := by
  have hi0 : (i 0).val < 100000 := (i 0).isLt
  have hi1 : (i 1).val < 64 := (i 1).isLt
  obtain ⟨t, ht⟩ := idx_onto8_6 ⟨(i 0).val / 10000, by omega⟩
  have ht' : win8_6.index t (0 : Fin 2) = (i 0).val / 10000 := ht
  have e6 := idx_cols8_6 t
  refine ⟨t, flush8_6 t, (mem_blk8_6 t i).2 fun a => ?_⟩
  match a with
  | ⟨0, _⟩ =>
    show win8_6.index t (0 : Fin 2) * 10000 ≤ (i 0).val ∧ (i 0).val < win8_6.index t (0 : Fin 2) * 10000 + 10000
    omega
  | ⟨1, _⟩ =>
    show win8_6.index t (1 : Fin 2) * 64 ≤ (i 1).val ∧ (i 1).val < win8_6.index t (1 : Fin 2) * 64 + 64
    omega

theorem final8_6 (c : Dev nD) : (dat8 V c).arrAt 6 cfg8.N = Cert.Spec.bnReluArr (V c (Pipeline.arrRef spec8 0))
    (V c (Pipeline.arrRef spec8 1)) (V c (Pipeline.arrRef spec8 2)) (V c (Pipeline.arrRef spec8 3)) (V c (Pipeline.arrRef spec8 4))
    (V c (Pipeline.arrRef spec8 5)) :=
  (dat8 V c).arrAt_eq_of_cover 6 _ (fun t _ => flushed8_6_eq V c t) covered8_6

end Cert.KernelIdeal.Hand

end
-- ==== Proof.Val.Stat3.lean ====
import proofs.«406238_j58506044506835_1_alg».proof.Proof.KI.Keep
import proofs.«406238_j58506044506835_1_alg».proof.Proof.Val.Stat1
import proofs.«406238_j58506044506835_1_alg».proof.Proof.Spec.BatchNorm
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

theorem W14_main_arg12 : W14 m ρ c (Proc.devRef .tc main_arg12) = m ((c : Thread nD τ).loc main_arg12) :=
  (keep14 m ρ c main_arg12 (by decide)).trans <| (keep13 m ρ c main_arg12 (by decide)).trans <| (keep12 m ρ c main_arg12 (by decide)).trans <| (keep11 m ρ c main_arg12 (by decide)).trans <| (keep10 m ρ c main_arg12 (by decide)).trans <| (keep9 m ρ c main_arg12 (by decide)).trans <| (keep8 m ρ c main_arg12 (by decide)).trans <| (keep7 m ρ c main_arg12 (by decide)).trans <| (keep6 m ρ c main_arg12 (by decide)).trans <| (keep5 m ρ c main_arg12 (by decide)).trans <| (keep4 m ρ c main_arg12 (by decide)).trans <| (keep3 m ρ c main_arg12 (by decide)).trans <| (keep2 m ρ c main_arg12 (by decide)).trans <| (keep1 m ρ c main_arg12 (by decide)).trans rfl
theorem W14_main_arg13 : W14 m ρ c (Proc.devRef .tc main_arg13) = m ((c : Thread nD τ).loc main_arg13) :=
  (keep14 m ρ c main_arg13 (by decide)).trans <| (keep13 m ρ c main_arg13 (by decide)).trans <| (keep12 m ρ c main_arg13 (by decide)).trans <| (keep11 m ρ c main_arg13 (by decide)).trans <| (keep10 m ρ c main_arg13 (by decide)).trans <| (keep9 m ρ c main_arg13 (by decide)).trans <| (keep8 m ρ c main_arg13 (by decide)).trans <| (keep7 m ρ c main_arg13 (by decide)).trans <| (keep6 m ρ c main_arg13 (by decide)).trans <| (keep5 m ρ c main_arg13 (by decide)).trans <| (keep4 m ρ c main_arg13 (by decide)).trans <| (keep3 m ρ c main_arg13 (by decide)).trans <| (keep2 m ρ c main_arg13 (by decide)).trans <| (keep1 m ρ c main_arg13 (by decide)).trans rfl
theorem W14_main_arg14 : W14 m ρ c (Proc.devRef .tc main_arg14) = m ((c : Thread nD τ).loc main_arg14) :=
  (keep14 m ρ c main_arg14 (by decide)).trans <| (keep13 m ρ c main_arg14 (by decide)).trans <| (keep12 m ρ c main_arg14 (by decide)).trans <| (keep11 m ρ c main_arg14 (by decide)).trans <| (keep10 m ρ c main_arg14 (by decide)).trans <| (keep9 m ρ c main_arg14 (by decide)).trans <| (keep8 m ρ c main_arg14 (by decide)).trans <| (keep7 m ρ c main_arg14 (by decide)).trans <| (keep6 m ρ c main_arg14 (by decide)).trans <| (keep5 m ρ c main_arg14 (by decide)).trans <| (keep4 m ρ c main_arg14 (by decide)).trans <| (keep3 m ρ c main_arg14 (by decide)).trans <| (keep2 m ρ c main_arg14 (by decide)).trans <| (keep1 m ρ c main_arg14 (by decide)).trans rfl
theorem W12_main_arg12 : W12 m ρ c (Proc.devRef .tc main_arg12) = m ((c : Thread nD τ).loc main_arg12) :=
  (keep12 m ρ c main_arg12 (by decide)).trans <| (keep11 m ρ c main_arg12 (by decide)).trans <| (keep10 m ρ c main_arg12 (by decide)).trans <| (keep9 m ρ c main_arg12 (by decide)).trans <| (keep8 m ρ c main_arg12 (by decide)).trans <| (keep7 m ρ c main_arg12 (by decide)).trans <| (keep6 m ρ c main_arg12 (by decide)).trans <| (keep5 m ρ c main_arg12 (by decide)).trans <| (keep4 m ρ c main_arg12 (by decide)).trans <| (keep3 m ρ c main_arg12 (by decide)).trans <| (keep2 m ρ c main_arg12 (by decide)).trans <| (keep1 m ρ c main_arg12 (by decide)).trans rfl

theorem W15_mean_eq : (W15 m ρ c (Proc.devRef .tc main_v96) : FVec Ideal S1x64 .f32)
    = Host.divf (W14 m ρ c (Proc.devRef .tc main_v94_0) : FVec Ideal S1x64 .f32)
        (broadcastInDim S1x64 ![] bcast_S_S1x64 (constant (F := Ideal) S_ .f32 0x47C35000#32)) := by
  show StableHlo.after hostOps8 _ (Proc.devRef .tc main_v96) = _
  after_results

theorem W15_var_eq : (W15 m ρ c (Proc.devRef .tc main_v100) : FVec Ideal S1x64 .f32)
    = subf (Host.divf (W14 m ρ c (Proc.devRef .tc main_v94_1) : FVec Ideal S1x64 .f32)
              (broadcastInDim S1x64 ![] bcast_S_S1x64 (constant (F := Ideal) S_ .f32 0x47C35000#32)))
        (mulf (Host.divf (W14 m ρ c (Proc.devRef .tc main_v94_0) : FVec Ideal S1x64 .f32)
                (broadcastInDim S1x64 ![] bcast_S_S1x64 (constant (F := Ideal) S_ .f32 0x47C35000#32)))
              (Host.divf (W14 m ρ c (Proc.devRef .tc main_v94_0) : FVec Ideal S1x64 .f32)
                (broadcastInDim S1x64 ![] bcast_S_S1x64 (constant (F := Ideal) S_ .f32 0x47C35000#32)))) := by
  show StableHlo.after hostOps8 _ (Proc.devRef .tc main_v100) = _
  after_results

theorem W15_bias_eq : (W15 m ρ c (Proc.devRef .tc main_v101) : FVec Ideal S1x64 .f32)
    = shapeCast S1x64 (W14 m ρ c (Proc.devRef .tc main_arg12) : FVec Ideal S64 .f32) shapeCasts_S64_S1x64 := by
  show StableHlo.after hostOps8 _ (Proc.devRef .tc main_v101) = _
  after_results
  rfl
theorem W15_scale_eq : (W15 m ρ c (Proc.devRef .tc main_v102) : FVec Ideal S1x64 .f32)
    = shapeCast S1x64 (W14 m ρ c (Proc.devRef .tc main_arg13) : FVec Ideal S64 .f32) shapeCasts_S64_S1x64 := by
  show StableHlo.after hostOps8 _ (Proc.devRef .tc main_v102) = _
  after_results
  rfl
theorem W15_shift_eq : (W15 m ρ c (Proc.devRef .tc main_v103) : FVec Ideal S1x64 .f32)
    = shapeCast S1x64 (W14 m ρ c (Proc.devRef .tc main_arg14) : FVec Ideal S64 .f32) shapeCasts_S64_S1x64 := by
  show StableHlo.after hostOps8 _ (Proc.devRef .tc main_v103) = _
  after_results
  rfl

theorem W13_bias_eq : (W13 m ρ c (Proc.devRef .tc main_v93) : FVec Ideal S1x64 .f32)
    = shapeCast S1x64 (W12 m ρ c (Proc.devRef .tc main_arg12) : FVec Ideal S64 .f32) shapeCasts_S64_S1x64 := by
  show StableHlo.after hostOps7 _ (Proc.devRef .tc main_v93) = _
  after_results
  rfl

theorem W15_mean (j : Fin 64) : (W15 m ρ c (Proc.devRef .tc main_v96) : FVec Ideal S1x64 .f32) (ix2 0 j)
    = Ideal.div ((W14 m ρ c (Proc.devRef .tc main_v94_0) : FVec Ideal S1x64 .f32) (ix2 0 j)) cN := by
  rw [W15_mean_eq]; rfl

theorem W15_var (j : Fin 64) : (W15 m ρ c (Proc.devRef .tc main_v100) : FVec Ideal S1x64 .f32) (ix2 0 j)
    = Ideal.div ((W14 m ρ c (Proc.devRef .tc main_v94_1) : FVec Ideal S1x64 .f32) (ix2 0 j)) cN
      - Ideal.div ((W14 m ρ c (Proc.devRef .tc main_v94_0) : FVec Ideal S1x64 .f32) (ix2 0 j)) cN
        * Ideal.div ((W14 m ρ c (Proc.devRef .tc main_v94_0) : FVec Ideal S1x64 .f32) (ix2 0 j)) cN := by
  rw [W15_var_eq]; rfl

theorem W15_bias (j : Fin 64) : (W15 m ρ c (Proc.devRef .tc main_v101) : FVec Ideal S1x64 .f32) (ix2 0 j)
    = (m ((c : Thread nD τ).loc main_arg12) : FVec Ideal S64 .f32) (ix1 j) := by
  rw [W15_bias_eq]
  refine (shapeCast_a_1a_apply (a := 64) _ _ 0 j).trans ?_
  rw [W14_main_arg12]
theorem W15_scale (j : Fin 64) : (W15 m ρ c (Proc.devRef .tc main_v102) : FVec Ideal S1x64 .f32) (ix2 0 j)
    = (m ((c : Thread nD τ).loc main_arg13) : FVec Ideal S64 .f32) (ix1 j) := by
  rw [W15_scale_eq]
  refine (shapeCast_a_1a_apply (a := 64) _ _ 0 j).trans ?_
  rw [W14_main_arg13]
theorem W15_shift (j : Fin 64) : (W15 m ρ c (Proc.devRef .tc main_v103) : FVec Ideal S1x64 .f32) (ix2 0 j)
    = (m ((c : Thread nD τ).loc main_arg14) : FVec Ideal S64 .f32) (ix1 j) := by
  rw [W15_shift_eq]
  refine (shapeCast_a_1a_apply (a := 64) _ _ 0 j).trans ?_
  rw [W14_main_arg14]
theorem W13_bias (j : Fin 64) : (W13 m ρ c (Proc.devRef .tc main_v93) : FVec Ideal S1x64 .f32) (ix2 0 j)
    = (m ((c : Thread nD τ).loc main_arg12) : FVec Ideal S64 .f32) (ix1 j) := by
  rw [W13_bias_eq]
  refine (shapeCast_a_1a_apply (a := 64) _ _ 0 j).trans ?_
  rw [W12_main_arg12]

theorem W15_agg : W15 m ρ c (Proc.devRef .tc main_v92) = W13 m ρ c (Proc.devRef .tc main_v92) :=
  (keep15 m ρ c main_v92 (by decide)).trans (keep14 m ρ c main_v92 (by decide))

end Cert.KernelIdeal.HandVal

end
-- ==== Proof.Ref.RefLayer3.lean ====
import proofs.«406238_j58506044506835_1_alg».proof.Proof.Ref.ReadP
import proofs.«406238_j58506044506835_1_alg».proof.Proof.Spec.BatchNorm

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x0 : (⟨S100000x3, .f32⟩ : BufTy).Contents (Elt Ideal)) (x1 : (⟨S2x1600000, .i32⟩ : BufTy).Contents (Elt Ideal))
  (x3 : (⟨S3x16, .f32⟩ : BufTy).Contents (Elt Ideal)) (x4 x5 x6 : (⟨S16, .f32⟩ : BufTy).Contents (Elt Ideal))
  (x7 : (⟨S16x32, .f32⟩ : BufTy).Contents (Elt Ideal)) (x8 x9 x10 : (⟨S32, .f32⟩ : BufTy).Contents (Elt Ideal))
  (x11 : (⟨S32x64, .f32⟩ : BufTy).Contents (Elt Ideal)) (x12 x13 x14 : (⟨S64, .f32⟩ : BufTy).Contents (Elt Ideal))

theorem bias3_at (i : Fin 100000) (j : Fin 64) :
    val_main_v158 (F := Ideal) x12 (ix2 i j) = x12 (ix1 j) := by
  rw [val_main_v158_apply, val_main_v157_apply]
  exact congrArg x12 (funext fun a => Fin.ext (by match a with | ⟨0, _⟩ => rfl))

theorem gamma3_at (i : Fin 100000) (j : Fin 64) :
    val_main_v180 (F := Ideal) x13 (ix2 i j) = x13 (ix1 j) := by
  rw [val_main_v180_apply, val_main_v179_apply]
  exact congrArg x13 (funext fun a => Fin.ext (by match a with | ⟨0, _⟩ => rfl))

theorem beta3_at (i : Fin 100000) (j : Fin 64) :
    val_main_v183 (F := Ideal) x14 (ix2 i j) = x14 (ix1 j) := by
  rw [val_main_v183_apply, val_main_v182_apply]
  exact congrArg x14 (funext fun a => Fin.ext (by match a with | ⟨0, _⟩ => rfl))

theorem meanSq3_at (i : Fin 100000) (j : Fin 64) :
    val_main_v164 (F := Ideal) x0 x1 x3 x4 x5 x6 x7 x8 x9 x10 x11 x12 (ix2 i j) = val_main_v162 (F := Ideal) x0 x1 x3 x4 x5 x6 x7 x8 x9 x10 x11 x12 (ix1 j) := by
  rw [val_main_v164_apply, val_main_v163_apply]
  exact congrArg (val_main_v162 (F := Ideal) x0 x1 x3 x4 x5 x6 x7 x8 x9 x10 x11 x12) (funext fun a => Fin.ext (by match a with | ⟨0, _⟩ => rfl))

theorem meanDev3_at (i : Fin 100000) (j : Fin 64) :
    val_main_v171 (F := Ideal) x0 x1 x3 x4 x5 x6 x7 x8 x9 x10 x11 x12 (ix2 i j) = val_main_v162 (F := Ideal) x0 x1 x3 x4 x5 x6 x7 x8 x9 x10 x11 x12 (ix1 j) := by
  rw [val_main_v171_apply, val_main_v170_apply]
  exact congrArg (val_main_v162 (F := Ideal) x0 x1 x3 x4 x5 x6 x7 x8 x9 x10 x11 x12) (funext fun a => Fin.ext (by match a with | ⟨0, _⟩ => rfl))

theorem rstd3_at (i : Fin 100000) (j : Fin 64) :
    val_main_v177 (F := Ideal) x0 x1 x3 x4 x5 x6 x7 x8 x9 x10 x11 x12 (ix2 i j) = val_main_v175 (F := Ideal) x0 x1 x3 x4 x5 x6 x7 x8 x9 x10 x11 x12 (ix1 j) := by
  rw [val_main_v177_apply, val_main_v176_apply]
  exact congrArg (val_main_v175 (F := Ideal) x0 x1 x3 x4 x5 x6 x7 x8 x9 x10 x11 x12) (funext fun a => Fin.ext (by match a with | ⟨0, _⟩ => rfl))

theorem floor3_at (i : Fin 100000) (j : Fin 64) :
    val_main_call2_v0 (F := Ideal) (ix2 i j) = (0 : EReal) := by
  rw [val_main_call2_v0_apply, val_main_call2_cst_apply]
  simp only [Ideal.ofBits_def, Ideal.ofBits_zero_f32]

theorem pre3_at (i : Fin 100000) (j : Fin 64) :
    val_main_v159 (F := Ideal) x0 x1 x3 x4 x5 x6 x7 x8 x9 x10 x11 x12 (ix2 i j)
      = Cert.Spec.addRow (fun i j => val_main_v156 (F := Ideal) x0 x1 x3 x4 x5 x6 x7 x8 x9 x10 x11 (ix2 i j)) (fun j => x12 (ix1 j)) i j := by
  rw [val_main_v159_apply, bias3_at]
  simp only [Ideal.addf_def, Cert.Spec.addRow]

theorem mean3_at (j : Fin 64) :
    val_main_v162 (F := Ideal) x0 x1 x3 x4 x5 x6 x7 x8 x9 x10 x11 x12 (ix1 j)
      = Cert.Spec.bnMean (Cert.Spec.addRow (fun i j => val_main_v156 (F := Ideal) x0 x1 x3 x4 x5 x6 x7 x8 x9 x10 x11 (ix2 i j)) (fun j => x12 (ix1 j)))
          (Ideal.ofBits .f32 0x47C35000#32) j := by
  have hs : (∑ k : Fin 100000, val_main_v159 (F := Ideal) x0 x1 x3 x4 x5 x6 x7 x8 x9 x10 x11 x12 (idx_main_v160 (ix1 j) k))
      = ∑ k : Fin 100000, Cert.Spec.addRow (fun i j => val_main_v156 (F := Ideal) x0 x1 x3 x4 x5 x6 x7 x8 x9 x10 x11 (ix2 i j)) (fun j => x12 (ix1 j)) k j :=
    Finset.sum_congr rfl fun k _ => by
      rw [show idx_main_v160 (ix1 j) k = ix2 k j from funext fun a => Fin.ext (by match a with | ⟨0, _⟩ => rfl | ⟨1, _⟩ => rfl)]
      exact pre3_at x0 x1 x3 x4 x5 x6 x7 x8 x9 x10 x11 x12 k j
  unfold Cert.Spec.bnMean Cert.Spec.colSum
  rw [val_main_v162_apply, val_main_v160_apply, val_main_v161_apply, val_main_cst_32_apply, val_main_cst_31_apply, hs]
  simp only [Ideal.hostDivf_def, Ideal.ofBits_def, Ideal.ofBits_zero_f32, zero_add]

theorem var3_at (j : Fin 64) :
    val_main_v169 (F := Ideal) x0 x1 x3 x4 x5 x6 x7 x8 x9 x10 x11 x12 (ix1 j)
      = Cert.Spec.bnVarReference (Cert.Spec.addRow (fun i j => val_main_v156 (F := Ideal) x0 x1 x3 x4 x5 x6 x7 x8 x9 x10 x11 (ix2 i j)) (fun j => x12 (ix1 j)))
          (Ideal.ofBits .f32 0x47C35000#32) j := by
  have hs : (∑ k : Fin 100000, val_main_v166 (F := Ideal) x0 x1 x3 x4 x5 x6 x7 x8 x9 x10 x11 x12 (idx_main_v167 (ix1 j) k))
      = ∑ k : Fin 100000,
          (Cert.Spec.addRow (fun i j => val_main_v156 (F := Ideal) x0 x1 x3 x4 x5 x6 x7 x8 x9 x10 x11 (ix2 i j)) (fun j => x12 (ix1 j)) k j
              - Cert.Spec.bnMean (Cert.Spec.addRow (fun i j => val_main_v156 (F := Ideal) x0 x1 x3 x4 x5 x6 x7 x8 x9 x10 x11 (ix2 i j)) (fun j => x12 (ix1 j))) (Ideal.ofBits .f32 0x47C35000#32) j)
            * (Cert.Spec.addRow (fun i j => val_main_v156 (F := Ideal) x0 x1 x3 x4 x5 x6 x7 x8 x9 x10 x11 (ix2 i j)) (fun j => x12 (ix1 j)) k j
              - Cert.Spec.bnMean (Cert.Spec.addRow (fun i j => val_main_v156 (F := Ideal) x0 x1 x3 x4 x5 x6 x7 x8 x9 x10 x11 (ix2 i j)) (fun j => x12 (ix1 j))) (Ideal.ofBits .f32 0x47C35000#32) j) :=
    Finset.sum_congr rfl fun k _ => by
      rw [show idx_main_v167 (ix1 j) k = ix2 k j from funext fun a => Fin.ext (by match a with | ⟨0, _⟩ => rfl | ⟨1, _⟩ => rfl),
        val_main_v166_apply, val_main_v165_apply, meanSq3_at, pre3_at, mean3_at]
      simp only [Ideal.mulf_def, Ideal.subf_def]
  unfold Cert.Spec.bnVarReference
  rw [val_main_v169_apply, val_main_v167_apply, val_main_v168_apply, val_main_cst_34_apply, val_main_cst_33_apply, hs]
  simp only [Ideal.hostDivf_def, Ideal.ofBits_def, Ideal.ofBits_zero_f32, zero_add]

theorem ref_bn3 (i : Fin 100000) (j : Fin 64) :
    val_main_v185 (F := Ideal) x0 x1 x3 x4 x5 x6 x7 x8 x9 x10 x11 x12 x13 x14 (ix2 i j)
      = Cert.Spec.bnReference
          (Cert.Spec.addRow (fun i j => val_main_v156 (F := Ideal) x0 x1 x3 x4 x5 x6 x7 x8 x9 x10 x11 (ix2 i j)) (fun j => x12 (ix1 j)))
          (fun j => x13 (ix1 j)) (fun j => x14 (ix1 j))
          (Ideal.ofBits .f32 0x3727C5AC#32) (Ideal.ofBits .f32 0x47C35000#32) i j := by
  rw [val_main_v185_apply, val_main_v184_apply, val_main_v181_apply, val_main_v178_apply, val_main_v172_apply,
    floor3_at, beta3_at, gamma3_at, rstd3_at, meanDev3_at, val_main_v175_apply, val_main_v174_apply,
    val_main_v173_apply, val_main_cst_35_apply, pre3_at, mean3_at, var3_at]
  simp only [Ideal.maximumf_def, Ideal.addf_def, Ideal.mulf_def, Ideal.subf_def, Ideal.hostUnary_rsqrt_def,
    Ideal.ofBits_def, Cert.Spec.bnReference, Cert.Spec.bnApply]

theorem ref_lin3 (i : Fin 100000) (j : Fin 64) :
    val_main_v128 (F := Ideal) x0 x1 x3 x4 x5 x6 x7 x8 x9 x10 x11 (ix2 i j) = ∑ k : Fin 32, val_main_v127 (F := Ideal) x0 x1 x3 x4 x5 x6 x7 x8 x9 x10 (ix2 i k) * x11 (ix2 k j) := by
  rw [val_main_v128_apply]
  refine Finset.sum_congr rfl fun k _ => ?_
  have el : lidx_main_v128 (ix2 i j) k = ix2 i k :=
    funext fun a => Fin.ext (by match a with | ⟨0, _⟩ => rfl | ⟨1, _⟩ => rfl)
  have er : ridx_main_v128 (ix2 i j) k = ix2 k j :=
    funext fun a => Fin.ext (by match a with | ⟨0, _⟩ => rfl | ⟨1, _⟩ => rfl)
  rw [el, er]

end Cert.ReferenceIdeal.Hand

end
-- ==== Proof.Val.Layer3.lean ====
import proofs.«406238_j58506044506835_1_alg».proof.Proof.KI.Keep
import proofs.«406238_j58506044506835_1_alg».proof.Proof.Val.Layer1
import proofs.«406238_j58506044506835_1_alg».proof.Proof.Val.R6Val
import proofs.«406238_j58506044506835_1_alg».proof.Proof.Val.R7Val
import proofs.«406238_j58506044506835_1_alg».proof.Proof.Val.R8Val
import proofs.«406238_j58506044506835_1_alg».proof.Proof.Val.HostAgree
import proofs.«406238_j58506044506835_1_alg».proof.Proof.Val.Stat3
import proofs.«406238_j58506044506835_1_alg».proof.Proof.Ref.RefLayer3
import proofs.«406238_j58506044506835_1_alg».proof.Proof.Spec.BatchNorm
import proofs.«406238_j58506044506835_1_alg».proof.Proof.Spec.Apply
import proofs.«406238_j58506044506835_1_alg».proof.Proof.Spec.MatRows

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.Spec.MatRows
open Cert.ReferenceIdeal.Read Cert.ReferenceIdeal.Hand
open scoped BigOperators

variable (m : (ℓ : Loc nD τ sig) → Buf (Elt Ideal) ℓ) (ρ : Dev nD → PrngReg) (c : Dev nD)

theorem V11_arg11 : Hand.V11 m ρ c main_arg11 = m ((c : Thread nD τ).loc main_arg11) :=
  (keep11 m ρ c main_arg11 (by decide)).trans <| (keep10 m ρ c main_arg11 (by decide)).trans <| (keep9 m ρ c main_arg11 (by decide)).trans <| (keep8 m ρ c main_arg11 (by decide)).trans <| (keep7 m ρ c main_arg11 (by decide)).trans <| (keep6 m ρ c main_arg11 (by decide)).trans <| (keep5 m ρ c main_arg11 (by decide)).trans <| (keep4 m ρ c main_arg11 (by decide)).trans <| (keep3 m ρ c main_arg11 (by decide)).trans <| (keep2 m ρ c main_arg11 (by decide)).trans <| (keep1 m ρ c main_arg11 (by decide)).trans <| rfl

theorem proj3 (hprev : (W11 m ρ c (Proc.devRef .tc main_v78) : FVec Ideal S100000x32 .f32) = val_main_v127 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    (W12 m ρ c (Proc.devRef .tc main_v79) : FVec Ideal S100000x64 .f32) = val_main_v128 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : (W12 m ρ c (Proc.devRef .tc main_v79) : FVec Ideal S100000x64 .f32)
      = matRows 100000 32 64 (W11 m ρ c (Proc.devRef .tc main_v78) : FVec Ideal S100000x32 .f32) (Hand.V11 m ρ c main_arg11) :=
    (W12_arr m ρ c 2).trans (final6_2 (Hand.V11 m ρ) c)
  funext idx
  obtain ⟨i, j, rfl⟩ : ∃ i j, idx = ix2 i j := ⟨idx 0, idx 1, eq_ix2 idx⟩
  rw [h, V11_arg11, hprev, matRows_ix2, ref_lin3]

theorem aggr3 (hprev : (W11 m ρ c (Proc.devRef .tc main_v78) : FVec Ideal S100000x32 .f32) = val_main_v127 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    (W13 m ρ c (Proc.devRef .tc main_v92) : FVec Ideal S100000x64 .f32) = val_main_v156 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  agg3_ref m ρ c _ _ _ _ _ _ _ _ _ _ (proj3 m ρ c hprev)

def rows3 : Fin 100000 → Fin 64 → EReal :=
  addRow (fun i j => (W13 m ρ c (Proc.devRef .tc main_v92) : FVec Ideal S100000x64 .f32) (ix2 i j))
    (fun j => ((m ((c : Thread nD τ).loc main_arg12)) : FVec Ideal S64 .f32) (ix1 j))

theorem sum3 (j : Fin 64) :
    (W14 m ρ c (Proc.devRef .tc main_v94_0) : FVec Ideal S1x64 .f32) (ix2 0 j) = colSum (rows3 m ρ c) j := by
  have h : (W14 m ρ c (Proc.devRef .tc main_v94_0) : FVec Ideal S1x64 .f32) (ix2 0 j)
      = colSum (addRow (fun i j => (W13 m ρ c (Proc.devRef .tc main_v92) : FVec Ideal S100000x64 .f32) (ix2 i j))
          (fun j => (W13 m ρ c (Proc.devRef .tc main_v93) : FVec Ideal S1x64 .f32) (ix2 0 j))) j :=
    (congrFun (W14_arr m ρ c 2) (ix2 0 j)).trans (final7_2 (Hand.V13 m ρ) c j)
  rw [h, show (fun j : Fin 64 => (W13 m ρ c (Proc.devRef .tc main_v93) : FVec Ideal S1x64 .f32) (ix2 0 j))
      = fun j => ((m ((c : Thread nD τ).loc main_arg12)) : FVec Ideal S64 .f32) (ix1 j) from funext fun j => W13_bias m ρ c j]
  rfl

theorem sumsq3 (j : Fin 64) :
    (W14 m ρ c (Proc.devRef .tc main_v94_1) : FVec Ideal S1x64 .f32) (ix2 0 j) = colSumSq (rows3 m ρ c) j := by
  have h : (W14 m ρ c (Proc.devRef .tc main_v94_1) : FVec Ideal S1x64 .f32) (ix2 0 j)
      = colSumSq (addRow (fun i j => (W13 m ρ c (Proc.devRef .tc main_v92) : FVec Ideal S100000x64 .f32) (ix2 i j))
          (fun j => (W13 m ρ c (Proc.devRef .tc main_v93) : FVec Ideal S1x64 .f32) (ix2 0 j))) j :=
    (congrFun (W14_arr m ρ c 3) (ix2 0 j)).trans (final7_3 (Hand.V13 m ρ) c j)
  rw [h, show (fun j : Fin 64 => (W13 m ρ c (Proc.devRef .tc main_v93) : FVec Ideal S1x64 .f32) (ix2 0 j))
      = fun j => ((m ((c : Thread nD τ).loc main_arg12)) : FVec Ideal S64 .f32) (ix1 j) from funext fun j => W13_bias m ρ c j]
  rfl

theorem mean3 (j : Fin 64) :
    (W15 m ρ c (Proc.devRef .tc main_v96) : FVec Ideal S1x64 .f32) (ix2 0 j) = bnMean (rows3 m ρ c) (Ideal.ofBits .f32 0x47C35000#32) j := by
  rw [W15_mean m ρ c j, sum3 m ρ c j]; rfl

theorem var3 (j : Fin 64) :
    (W15 m ρ c (Proc.devRef .tc main_v100) : FVec Ideal S1x64 .f32) (ix2 0 j) = bnVarKernel (rows3 m ρ c) (Ideal.ofBits .f32 0x47C35000#32) j := by
  rw [W15_var m ρ c j, sum3 m ρ c j, sumsq3 m ρ c j]; rfl

theorem kern3 (i : Fin 100000) (j : Fin 64) :
    (W16 m ρ c (Proc.devRef .tc main_v104) : FVec Ideal S100000x64 .f32) (ix2 i j)
      = bnKernel (rows3 m ρ c) (fun j => ((m ((c : Thread nD τ).loc main_arg13)) : FVec Ideal S64 .f32) (ix1 j))
          (fun j => ((m ((c : Thread nD τ).loc main_arg14)) : FVec Ideal S64 .f32) (ix1 j)) (Ideal.ofBits .f32 0x3727C5AC#32) (Ideal.ofBits .f32 0x47C35000#32) i j := by
  have h : (W16 m ρ c (Proc.devRef .tc main_v104) : FVec Ideal S100000x64 .f32)
      = bnReluArr (F := Ideal) (n := 100000) (d := 64) (Hand.V15 m ρ c main_v92) (Hand.V15 m ρ c main_v101) (Hand.V15 m ρ c main_v96)
          (Hand.V15 m ρ c main_v100) (Hand.V15 m ρ c main_v102) (Hand.V15 m ρ c main_v103) :=
    (W16_arr m ρ c 6).trans (final8_6 (Hand.V15 m ρ) c)
  rw [h, bnReluArr_ideal_apply]
  unfold bnKernel
  exact bnApply_congr _ i j
    (congrArg₂ (fun a b : EReal => a + b) (congrFun (W15_agg m ρ c) (ix2 i j)) (W15_bias m ρ c j))
    (mean3 m ρ c j) (var3 m ρ c j) (W15_scale m ρ c j) (W15_shift m ρ c j)

theorem layer3
    (hprev : (W11 m ρ c (Proc.devRef .tc main_v78) : FVec Ideal S100000x32 .f32) = val_main_v127 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (hy : ∀ i j, IsReal (addRow (fun i j => val_main_v156 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 i j))
      (fun j => ((m ((c : Thread nD τ).loc main_arg12)) : FVec Ideal S64 .f32) (ix1 j)) i j)) :
    (W16 m ρ c (Proc.devRef .tc main_v104) : FVec Ideal S100000x64 .f32)
      = val_main_v185 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext idx
  obtain ⟨i, j, rfl⟩ : ∃ i j, idx = ix2 i j := ⟨idx 0, idx 1, eq_ix2 idx⟩
  have hrows : rows3 m ρ c = addRow (fun i j => val_main_v156 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 i j))
      (fun j => ((m ((c : Thread nD τ).loc main_arg12)) : FVec Ideal S64 .f32) (ix1 j)) := by
    unfold rows3; rw [aggr3 m ρ c hprev]
  rw [kern3 m ρ c i j, ref_bn3, hrows, bn_agree _ _ _ _ _ hy (by norm_num) ofBits_count]

end Cert.KernelIdeal.HandVal

end
-- ==== Proof.Ref.RefTail.lean ====
import proofs.«406238_j58506044506835_1_alg».proof.Proof.Ref.ReadP

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x0 : (⟨S100000x3, .f32⟩ : BufTy).Contents (Elt Ideal)) (x1 : (⟨S2x1600000, .i32⟩ : BufTy).Contents (Elt Ideal))
  (x2 : (⟨S100000, .i32⟩ : BufTy).Contents (Elt Ideal))
  (x3 : (⟨S3x16, .f32⟩ : BufTy).Contents (Elt Ideal)) (x4 x5 x6 : (⟨S16, .f32⟩ : BufTy).Contents (Elt Ideal))
  (x7 : (⟨S16x32, .f32⟩ : BufTy).Contents (Elt Ideal)) (x8 x9 x10 : (⟨S32, .f32⟩ : BufTy).Contents (Elt Ideal))
  (x11 : (⟨S32x64, .f32⟩ : BufTy).Contents (Elt Ideal)) (x12 x13 x14 : (⟨S64, .f32⟩ : BufTy).Contents (Elt Ideal))
  (x15 : (⟨S64x10, .f32⟩ : BufTy).Contents (Elt Ideal)) (x16 : (⟨S10, .f32⟩ : BufTy).Contents (Elt Ideal))

theorem ofBits_one_f32 : Ideal.ofBits .f32 0x3F800000#32 = (1 : EReal) := by
  simp [Ideal.ofBits, Ideal.ieee, -EReal.coe_mul]; norm_num

theorem poolDivisor_at (b f : Fin 64) :
    val_main_v196 (F := Ideal) x2 (ix2 b f) = max (val_main_v192 (F := Ideal) x2 (ix1 b)) 1 := by
  rw [val_main_v196_apply, val_main_v195_apply, val_main_v194_apply, val_main_v193_apply, val_main_cst_39_apply]
  simp only [Ideal.maximumf_def, Ideal.ofBits_def, ofBits_one_f32]
  have e : idx_main_v195 (idx_main_v196 (ix2 b f)) = ix1 b :=
    funext fun a => Fin.ext (by match a with | ⟨0, _⟩ => rfl)
  rw [e]

theorem pooled_at (b f : Fin 64) :
    val_main_v197 (F := Ideal) x0 x1 x2 x3 x4 x5 x6 x7 x8 x9 x10 x11 x12 x13 x14 (ix2 b f)
      = Ideal.div (val_main_v188 (F := Ideal) x0 x1 x2 x3 x4 x5 x6 x7 x8 x9 x10 x11 x12 x13 x14 (ix2 b f))
          (max (val_main_v192 (F := Ideal) x2 (ix1 b)) 1) := by
  rw [val_main_v197_apply, poolDivisor_at]
  simp only [Ideal.hostDivf_def]

theorem fcBias_at (b : Fin 64) (o : Fin 10) :
    val_main_v200 (F := Ideal) x16 (ix2 b o) = x16 (ix1 o) := by
  rw [val_main_v200_apply, val_main_v199_apply]
  exact congrArg x16 (funext fun a => Fin.ext (by match a with | ⟨0, _⟩ => rfl))

theorem ref_tail (b : Fin 64) (o : Fin 10) :
    val_main_v201 (F := Ideal) x0 x1 x2 x3 x4 x5 x6 x7 x8 x9 x10 x11 x12 x13 x14 x15 x16 (ix2 b o)
      = (∑ f : Fin 64, Ideal.div (val_main_v188 (F := Ideal) x0 x1 x2 x3 x4 x5 x6 x7 x8 x9 x10 x11 x12 x13 x14 (ix2 b f))
            (max (val_main_v192 (F := Ideal) x2 (ix1 b)) 1) * x15 (ix2 f o))
        + x16 (ix1 o) := by
  have hs : (∑ f : Fin 64, val_main_v197 (F := Ideal) x0 x1 x2 x3 x4 x5 x6 x7 x8 x9 x10 x11 x12 x13 x14 (lidx_main_v198 (ix2 b o) f)
          * x15 (ridx_main_v198 (ix2 b o) f))
      = ∑ f : Fin 64, Ideal.div (val_main_v188 (F := Ideal) x0 x1 x2 x3 x4 x5 x6 x7 x8 x9 x10 x11 x12 x13 x14 (ix2 b f))
            (max (val_main_v192 (F := Ideal) x2 (ix1 b)) 1) * x15 (ix2 f o) :=
    Finset.sum_congr rfl fun f _ => by
      rw [show lidx_main_v198 (ix2 b o) f = ix2 b f from funext fun a => Fin.ext (by match a with | ⟨0, _⟩ => rfl | ⟨1, _⟩ => rfl),
        show ridx_main_v198 (ix2 b o) f = ix2 f o from funext fun a => Fin.ext (by match a with | ⟨0, _⟩ => rfl | ⟨1, _⟩ => rfl),
        pooled_at]
  rw [val_main_v201_apply, val_main_v198_apply, fcBias_at, hs]
  simp only [Ideal.addf_def]

end Cert.ReferenceIdeal.Hand

end
-- ==== Proof.Ref.PoolBridge.lean ====
import proofs.«406238_j58506044506835_1_alg».proof.Proof.Ref.ReadP
import proofs.«406238_j58506044506835_1_alg».proof.Proof.Spec.PoolBridge
import Idealize.ShloMosaic.Lib.IdealHost

noncomputable section

namespace Cert.ReferenceIdeal.Hand

open Cert.ReferenceIdeal Cert.ReferenceIdeal.Gen Cert.ReferenceIdeal.Read Idealize.ShloMosaic Idealize.ShloMosaic.ValueIdx
open scoped BigOperators

theorem val_main_v186_zero (i : S64x64.Idx) : val_main_v186 (F := Ideal) i = (0 : EReal) := by
  rw [val_main_v186_apply, val_main_cst_36_apply]
  exact Ideal.ofBits_zero_f32

theorem val_main_v190_zero (i : S64.Idx) : val_main_v190 (F := Ideal) i = (0 : EReal) := by
  rw [val_main_v190_apply, val_main_cst_38_apply]
  exact Ideal.ofBits_zero_f32

theorem val_main_v189_one (i : S100000.Idx) : val_main_v189 (F := Ideal) i = (1 : EReal) := by
  rw [val_main_v189_apply, val_main_cst_37_apply]
  exact Ideal.ofBits_one_f32

theorem val_main_v187_row (x2 : (⟨S100000, .i32⟩ : BufTy).Contents (Elt Ideal)) (i : Fin 100000) :
    val_main_v187 (F := Ideal) x2 (ix2 i (0 : Fin 1)) = x2 (ix1 i) := by
  rw [val_main_v187_apply]
  congr 1
  funext a
  match a with
  | ⟨0, _⟩ => rfl

theorem val_main_v191_row (x2 : (⟨S100000, .i32⟩ : BufTy).Contents (Elt Ideal)) (i : Fin 100000) :
    val_main_v191 (F := Ideal) x2 (ix2 i (0 : Fin 1)) = x2 (ix1 i) := by
  rw [val_main_v191_apply]
  congr 1
  funext a
  match a with
  | ⟨0, _⟩ => rfl

theorem val_main_v188_pool (x0 : (⟨S100000x3, .f32⟩ : BufTy).Contents (Elt Ideal)) (x1 : (⟨S2x1600000, .i32⟩ : BufTy).Contents (Elt Ideal)) (x2 : (⟨S100000, .i32⟩ : BufTy).Contents (Elt Ideal)) (x3 : (⟨S3x16, .f32⟩ : BufTy).Contents (Elt Ideal)) (x4 x5 x6 : (⟨S16, .f32⟩ : BufTy).Contents (Elt Ideal)) (x7 : (⟨S16x32, .f32⟩ : BufTy).Contents (Elt Ideal)) (x8 x9 x10 : (⟨S32, .f32⟩ : BufTy).Contents (Elt Ideal)) (x11 : (⟨S32x64, .f32⟩ : BufTy).Contents (Elt Ideal)) (x12 x13 x14 : (⟨S64, .f32⟩ : BufTy).Contents (Elt Ideal)) (b f : Fin 64) :
    val_main_v188 (F := Ideal) x0 x1 x2 x3 x4 x5 x6 x7 x8 x9 x10 x11 x12 x13 x14 (ix2 b f)
      = Cert.Spec.segSum (fun i : Fin 100000 => x2 (ix1 i))
          (fun i j => val_main_v185 (F := Ideal) x0 x1 x3 x4 x5 x6 x7 x8 x9 x10 x11 x12 x13 x14 (ix2 i j)) b.val f := by
  unfold val_main_v188
  refine (Cert.Spec.scatterAdd_rows_zero_apply (φ := .f32) (B := 64) (N := 100000) (C := 64) (by norm_num)
    scatter_S64x64_S100000x1_S100000x64_1_0_0_1_wf (val_main_v186 (F := Ideal)) (val_main_v187 (F := Ideal) x2)
    (val_main_v185 (F := Ideal) x0 x1 x3 x4 x5 x6 x7 x8 x9 x10 x11 x12 x13 x14) b f (val_main_v186_zero _)).trans ?_
  unfold Cert.Spec.segSum
  refine Finset.sum_congr rfl fun i _ => ?_
  beta_reduce
  rw [val_main_v187_row]

theorem val_main_v192_pool (x2 : (⟨S100000, .i32⟩ : BufTy).Contents (Elt Ideal)) (b : Fin 64) :
    val_main_v192 (F := Ideal) x2 (ix1 b) = Cert.Spec.segCount (fun i : Fin 100000 => x2 (ix1 i)) b.val := by
  unfold val_main_v192
  refine (Cert.Spec.scatterAdd_vec_zero_ones_apply (φ := .f32) (B := 64) (N := 100000) (by norm_num)
    scatter_S64_S100000x1_S100000_n_0_0_1_wf (val_main_v190 (F := Ideal)) (val_main_v191 (F := Ideal) x2)
    (val_main_v189 (F := Ideal)) b (val_main_v190_zero _) (fun i => val_main_v189_one _)).trans ?_
  unfold Cert.Spec.segCount
  refine Finset.sum_congr rfl fun i _ => ?_
  beta_reduce
  rw [val_main_v191_row]

end Cert.ReferenceIdeal.Hand

end
-- ==== Proof.Ref.FiniteOps.lean ====
import proofs.«406238_j58506044506835_1_alg».proof.Proof.Spec.BatchNorm
import proofs.«406238_j58506044506835_1_alg».proof.Proof.LibVecScatter
import Idealize.ShloMosaic.Lib.Pipeline.Value
import Idealize.ShloMosaic.Lib.ValueIdx
import Idealize.ShloMosaic.PureOps.Ideal.Laws

noncomputable section

open scoped BigOperators

namespace Cert.ReferenceIdeal.Hand

open Idealize.ShloMosaic Idealize.ShloMosaic.ValueIdx Cert.Spec Cert.LibRows

abbrev IsPosReal (x : EReal) : Prop := ∃ s : ℝ, 0 < s ∧ x = (s : EReal)

theorem IsPosReal.isReal {x : EReal} (h : IsPosReal x) : IsReal x := by
  obtain ⟨s, _, hs⟩ := h; exact ⟨s, hs⟩

section Reads
variable {α : Type} {s t si : Shape} {w : Nat}

theorem gather_all (P : α → Prop) (d : GatherDims s si t) (x : s.Idx → α) (idx : IVec si w)
    (hx : ∀ i, P (x i)) : ∀ j, P (Host.gather d x idx j) :=
  fun j => hx (d.operandIdx j idx)

theorem broadcast_all (P : α → Prop) (dims : Fin s.rank → Fin t.rank) (h : s.BroadcastsInDim t dims)
    (x : s.Idx → α) (hx : ∀ i, P (x i)) : ∀ j, P (broadcastInDim t dims h x j) := by
  intro j
  unfold broadcastInDim
  exact hx _

end Reads

section Sums
variable {sl sr so s si u : Shape} {w : Nat}

theorem isReal_dotGeneral (d : DotDims sl sr so) (x : FVec Ideal sl .f32) (y : FVec Ideal sr .f32)
    (hx : ∀ i, IsReal (x i)) (hy : ∀ i, IsReal (y i)) :
    ∀ j, IsReal (Host.dotGeneral (F := Ideal) d none x y j) := by
  intro j
  simp only [Host.dotGeneral]
  rw [Ideal.dotGeneral_apply]
  exact isReal_sum_univ_mul _ _ (fun k => hx (d.lhsIdx j k)) (fun k => hy (d.rhsIdx j k))

theorem isReal_scatterAdd (d : ScatterDims s si u) (x : FVec Ideal s .f32) (idx : IVec si w)
    (upd : FVec Ideal u .f32) (hx : ∀ i, IsReal (x i)) (hupd : ∀ j, IsReal (upd j)) :
    ∀ i, IsReal (Host.scatterAdd (F := Ideal) d x idx upd i) := by
  intro i
  unfold Host.scatterAdd
  rw [Ideal.hostScatterAdd_def]
  unfold Ideal.hostScatterAdd
  exact isReal_add (hx i) (isReal_sum _ _ fun j _ => hupd j)

theorem isReal_mulf (x y : FVec Ideal s .f32) (hx : ∀ i, IsReal (x i)) (hy : ∀ i, IsReal (y i)) :
    ∀ i, IsReal (mulf x y i) :=
  fun i => isReal_mul (hx i) (hy i)

theorem isReal_addf (x y : FVec Ideal s .f32) (hx : ∀ i, IsReal (x i)) (hy : ∀ i, IsReal (y i)) :
    ∀ i, IsReal (addf x y i) :=
  fun i => isReal_add (hx i) (hy i)

end Sums

theorem isReal_aggregate {sx sW sxw sgi sm ssi : Shape} {w : Nat}
    (dd : DotDims sx sW sxw) (gd : GatherDims sxw sgi sm) (sd : ScatterDims sxw ssi sm)
    (x : FVec Ideal sx .f32) (W : FVec Ideal sW .f32) (gi : IVec sgi w) (nrm : FVec Ideal sm .f32)
    (z : FVec Ideal sxw .f32) (ti : IVec ssi w)
    (hx : ∀ i, IsReal (x i)) (hW : ∀ i, IsReal (W i)) (hn : ∀ j, IsReal (nrm j)) (hz : ∀ i, IsReal (z i)) :
    ∀ i, IsReal (Host.scatterAdd (F := Ideal) sd z ti
      (mulf (Host.gather gd (Host.dotGeneral (F := Ideal) dd none x W) gi) nrm) i) :=
  isReal_scatterAdd sd z ti _ hz
    (isReal_mulf _ nrm (gather_all IsReal gd _ gi (isReal_dotGeneral dd x W hx hW)) hn)

theorem toInt_ofNat32 {n : Nat} (h : n < 2 ^ 31) : (BitVec.ofNat 32 n).toInt = (n : ℤ) := by
  have h31 : (2 : ℕ) ^ 31 = 2147483648 := by norm_num
  have h32 : (2 : ℕ) ^ 32 = 4294967296 := by norm_num
  rw [BitVec.toInt_eq_toNat_cond, BitVec.toNat_ofNat]
  have hm : n % 2 ^ 32 = n := Nat.mod_eq_of_lt (by omega)
  rw [hm, if_pos (by omega)]

theorem ofBits_one : Ideal.ofBits .f32 0x3F800000#32 = 1 := by
  simp [Ideal.ofBits, Ideal.ieee, -EReal.coe_mul]; norm_num

section Degree
variable {N E T w : Nat}

theorem concat_iota_toInt (h : Shape.Concatenates [(⟨1, ![E]⟩ : Shape), (⟨1, ![N]⟩ : Shape)] ⟨1, ![T]⟩ 0)
    (a : IVec ⟨1, ![E]⟩ 32) (n : Fin N) (p : Fin T) (hp : p.val = E + n.val) (hN : N ≤ 2 ^ 31) :
    (concatenate (⟨1, ![T]⟩ : Shape) 0
        [⟨(⟨1, ![E]⟩ : Shape), a⟩, ⟨(⟨1, ![N]⟩ : Shape), iotaInDim (⟨1, ![N]⟩ : Shape) 32 0⟩] h (ix1 p)).toInt
      = (n.val : ℤ) := by
  rw [concatenate_pair_apply_right (0 : Fin 1) a (iotaInDim (⟨1, ![N]⟩ : Shape) 32 0) h (ix1 p) rfl rfl (ix1 n)
    (fun b hb => absurd (Subsingleton.elim _ _) hb)
    (by show n.val + E = p.val; omega)]
  show (BitVec.ofNat 32 n.val).toInt = (n.val : ℤ)
  exact toInt_ofNat32 (lt_of_lt_of_le n.isLt hN)

variable (wf : ScatterDims.WF ⟨1, ![N]⟩ ⟨2, ![E, 1]⟩ ⟨1, ![E]⟩ [] [0] [0] 1)

theorem one_le_scatterAdd_ones (x : FVec Ideal ⟨1, ![N]⟩ .f32) (idx : IVec ⟨2, ![E, 1]⟩ w)
    (upd : FVec Ideal ⟨1, ![E]⟩ .f32) (hx : ∀ i, x i = 0) (hupd : ∀ e, upd e = 1) (n : Fin N) (e₀ : Fin E)
    (he₀ : (idx (ix2 e₀ (0 : Fin 1))).toInt = (n.val : ℤ)) :
    ∃ r : ℝ, 1 ≤ r ∧ Host.scatterAdd (F := Ideal) (vecScatter N E wf) x idx upd (ix1 n) = (r : EReal) := by
  rw [host_scatterAdd_vec_apply wf x idx upd n, hx, zero_add,
    Finset.sum_congr rfl fun e _ => hupd (ix1 e), sum_one_eq_card]
  refine ⟨_, ?_, rfl⟩
  have hpos : 0 < (Finset.univ.filter fun e : Fin E => (idx (ix2 e (0 : Fin 1))).toInt = (n.val : ℤ)).card :=
    Finset.card_pos.mpr ⟨e₀, Finset.mem_filter.mpr ⟨Finset.mem_univ _, he₀⟩⟩
  exact_mod_cast hpos

theorem rsqrt_scatterAdd_ones_pos (x : FVec Ideal ⟨1, ![N]⟩ .f32) (idx : IVec ⟨2, ![E, 1]⟩ w)
    (upd : FVec Ideal ⟨1, ![E]⟩ .f32) (hx : ∀ i, x i = 0) (hupd : ∀ e, upd e = 1) (n : Fin N) (e₀ : Fin E)
    (he₀ : (idx (ix2 e₀ (0 : Fin 1))).toInt = (n.val : ℤ)) :
    IsPosReal (Host.rsqrt (F := Ideal) (Host.scatterAdd (F := Ideal) (vecScatter N E wf) x idx upd) (ix1 n)) := by
  obtain ⟨r, hr, h⟩ := one_le_scatterAdd_ones wf x idx upd hx hupd n e₀ he₀
  show IsPosReal (Ideal.rsqrt (Host.scatterAdd (F := Ideal) (vecScatter N E wf) x idx upd (ix1 n)))
  exact rsqrt_real_of_one_le h hr

end Degree

theorem isReal_mulf_gather_gather {s si t : Shape} {w : Nat} (d₁ d₂ : GatherDims s si t) (x : FVec Ideal s .f32)
    (i₁ i₂ : IVec si w) (hx : ∀ i, IsPosReal (x i)) :
    ∀ j, IsReal (mulf (Host.gather d₁ x i₁) (Host.gather d₂ x i₂) j) :=
  isReal_mulf _ _ (gather_all IsReal d₁ x i₁ fun i => (hx i).isReal) (gather_all IsReal d₂ x i₂ fun i => (hx i).isReal)

end Cert.ReferenceIdeal.Hand

end
-- ==== Proof.Ref.Finite.lean ====
import proofs.«406238_j58506044506835_1_alg».proof.Proof.Ref.ReadP
import proofs.«406238_j58506044506835_1_alg».proof.Proof.Ref.FiniteOps

noncomputable section

namespace Cert.ReferenceIdeal.Hand

open Cert.ReferenceIdeal Cert.ReferenceIdeal.Gen Cert.ReferenceIdeal.Read Idealize.ShloMosaic
  Idealize.ShloMosaic.ValueIdx Cert.Spec Cert.LibRows

abbrev FArr (s : Shape) : Type := (⟨s, .f32⟩ : BufTy).Contents (Elt Ideal)
abbrev IArr (s : Shape) : Type := (⟨s, .i32⟩ : BufTy).Contents (Elt Ideal)

theorem isReal_zero_word : IsReal (FloatOps.ofBits (F := Ideal) .f32 0x00000000#32) := by
  rw [Ideal.ofBits_def, Ideal.ofBits_zero_f32]; exact isReal_zero

variable (x0 : FArr S100000x3) (x1 : IArr S2x1600000) (x3 : FArr S3x16) (x4 x5 x6 : FArr S16)
  (x7 : FArr S16x32) (x8 x9 x10 : FArr S32) (x11 : FArr S32x64) (x12 x13 x14 : FArr S64)

theorem v8_zero (i : S100000.Idx) : val_main_v8 (F := Ideal) i = (0 : EReal) := by
  rw [val_main_v8_apply, val_main_cst_0_apply, Ideal.ofBits_def, Ideal.ofBits_zero_f32]

theorem v7_one (e : S1700000.Idx) : val_main_v7 (F := Ideal) e = (1 : EReal) := by
  rw [val_main_v7_apply, val_main_cst_apply, Ideal.ofBits_def, ofBits_one]

theorem v9_selfloop (n : Fin 100000) :
    (val_main_v9 (F := Ideal) x1
      (ix2 (⟨1600000 + n.val, by have := n.isLt; omega⟩ : Fin 1700000) (0 : Fin 1))).toInt = (n.val : ℤ) := by
  rw [val_main_v9_apply]
  have hidx : idx_main_v9 (ix2 (⟨1600000 + n.val, by have := n.isLt; omega⟩ : Fin 1700000) (0 : Fin 1))
      = ix1 (⟨1600000 + n.val, by have := n.isLt; omega⟩ : Fin 1700000) := by
    funext a; match a with | ⟨0, _⟩ => rfl
  rw [hidx]
  unfold val_main_v6 val_main_v0
  exact concat_iota_toInt concatenates_S1600000_S100000_S1700000_d0 (val_main_v5 (F := Ideal) x1) n _ rfl
    (by norm_num)

theorem v11_pos (n : Fin 100000) : IsPosReal (val_main_v11 (F := Ideal) x1 (ix1 n)) := by
  unfold val_main_v11 val_main_v10
  exact rsqrt_scatterAdd_ones_pos scatter_S100000_S1700000x1_S1700000_n_0_0_1_wf _ _ _ v8_zero v7_one n
    ⟨1600000 + n.val, by have := n.isLt; omega⟩ (v9_selfloop x1 n)

theorem v11_pos_all (i : S100000.Idx) : IsPosReal (val_main_v11 (F := Ideal) x1 i) := by
  obtain ⟨n, rfl⟩ : ∃ n : Fin 100000, i = ix1 n := ⟨i 0, eq_ix1 i⟩
  exact v11_pos x1 n

theorem v27_real : ∀ e, IsReal (val_main_v27 (F := Ideal) x1 e) := by
  unfold val_main_v27 val_main_v19 val_main_v26
  exact isReal_mulf_gather_gather _ _ _ _ _ (v11_pos_all x1)

theorem v85_real : ∀ e, IsReal (val_main_v85 (F := Ideal) x1 e) := by
  unfold val_main_v85 val_main_v77 val_main_v84
  exact isReal_mulf_gather_gather _ _ _ _ _ (v11_pos_all x1)

theorem v143_real : ∀ e, IsReal (val_main_v143 (F := Ideal) x1 e) := by
  unfold val_main_v143 val_main_v135 val_main_v142
  exact isReal_mulf_gather_gather _ _ _ _ _ (v11_pos_all x1)

theorem v36_real : ∀ i, IsReal (val_main_v36 (F := Ideal) x1 i) := by
  unfold val_main_v36 val_main_v35
  exact broadcast_all IsReal _ _ _ (broadcast_all IsReal _ _ _ (v27_real x1))

theorem v38_real : ∀ i, IsReal (val_main_v38 (F := Ideal) i) := by
  unfold val_main_v38
  exact broadcast_all IsReal _ _ _ fun i => by rw [val_main_cst_6_apply]; exact isReal_zero_word

theorem v40_real (hx0 : ∀ idx, IsReal (x0 idx)) (hx3 : ∀ idx, IsReal (x3 idx)) :
    ∀ idx, IsReal (val_main_v40 (F := Ideal) x0 x1 x3 idx) := by
  unfold val_main_v40 val_main_v37 val_main_v34 val_main_v12
  exact isReal_aggregate _ _ _ x0 x3 _ _ _ _ hx0 hx3 (v36_real x1) v38_real

theorem v43_real (hx0 : ∀ idx, IsReal (x0 idx)) (hx3 : ∀ idx, IsReal (x3 idx)) (hx4 : ∀ idx, IsReal (x4 idx)) :
    ∀ idx, IsReal (val_main_v43 (F := Ideal) x0 x1 x3 x4 idx) := by
  unfold val_main_v43
  refine isReal_addf _ _ (v40_real x0 x1 x3 hx0 hx3) ?_
  unfold val_main_v42 val_main_v41
  exact broadcast_all IsReal _ _ _ (broadcast_all IsReal _ _ _ hx4)

theorem v69_real {y : Fin 100000 → Fin 16 → EReal} {g be : Fin 16 → EReal} {eps c : EReal}
    (hbn1 : ∀ i j, val_main_v69 (F := Ideal) x0 x1 x3 x4 x5 x6 (ix2 i j) = bnReference y g be eps c i j)
    (hy : ∀ i j, y i j = val_main_v43 (F := Ideal) x0 x1 x3 x4 (ix2 i j))
    (hg : ∀ j, IsReal (g j)) (hbe : ∀ j, IsReal (be j)) (heps : ∃ e : ℝ, 0 < e ∧ eps = (e : EReal))
    (hc : c = (((100000 : ℕ) : ℝ) : EReal))
    (hx0 : ∀ idx, IsReal (x0 idx)) (hx3 : ∀ idx, IsReal (x3 idx)) (hx4 : ∀ idx, IsReal (x4 idx)) :
    ∀ idx, IsReal (val_main_v69 (F := Ideal) x0 x1 x3 x4 x5 x6 idx) := by
  intro idx
  obtain ⟨i, j, rfl⟩ : ∃ (i : Fin 100000) (j : Fin 16), idx = ix2 i j := ⟨idx 0, idx 1, eq_ix2 idx⟩
  rw [hbn1]
  exact bn_real y g be eps c (fun i j => by rw [hy]; exact v43_real x0 x1 x3 x4 hx0 hx3 hx4 _) hg hbe heps
    (by decide) hc _ _

theorem v94_real : ∀ i, IsReal (val_main_v94 (F := Ideal) x1 i) := by
  unfold val_main_v94 val_main_v93
  exact broadcast_all IsReal _ _ _ (broadcast_all IsReal _ _ _ (v85_real x1))

theorem v96_real : ∀ i, IsReal (val_main_v96 (F := Ideal) i) := by
  unfold val_main_v96
  exact broadcast_all IsReal _ _ _ fun i => by rw [val_main_cst_18_apply]; exact isReal_zero_word

theorem v98_real (hv69 : ∀ idx, IsReal (val_main_v69 (F := Ideal) x0 x1 x3 x4 x5 x6 idx))
    (hx7 : ∀ idx, IsReal (x7 idx)) :
    ∀ idx, IsReal (val_main_v98 (F := Ideal) x0 x1 x3 x4 x5 x6 x7 idx) := by
  unfold val_main_v98 val_main_v95 val_main_v92 val_main_v70
  exact isReal_aggregate _ _ _ _ x7 _ _ _ _ hv69 hx7 (v94_real x1) v96_real

theorem v101_real (hv69 : ∀ idx, IsReal (val_main_v69 (F := Ideal) x0 x1 x3 x4 x5 x6 idx))
    (hx7 : ∀ idx, IsReal (x7 idx)) (hx8 : ∀ idx, IsReal (x8 idx)) :
    ∀ idx, IsReal (val_main_v101 (F := Ideal) x0 x1 x3 x4 x5 x6 x7 x8 idx) := by
  unfold val_main_v101
  refine isReal_addf _ _ (v98_real x0 x1 x3 x4 x5 x6 x7 hv69 hx7) ?_
  unfold val_main_v100 val_main_v99
  exact broadcast_all IsReal _ _ _ (broadcast_all IsReal _ _ _ hx8)

theorem v127_real {y : Fin 100000 → Fin 32 → EReal} {g be : Fin 32 → EReal} {eps c : EReal}
    (hbn2 : ∀ i j, val_main_v127 (F := Ideal) x0 x1 x3 x4 x5 x6 x7 x8 x9 x10 (ix2 i j) = bnReference y g be eps c i j)
    (hy : ∀ i j, y i j = val_main_v101 (F := Ideal) x0 x1 x3 x4 x5 x6 x7 x8 (ix2 i j))
    (hg : ∀ j, IsReal (g j)) (hbe : ∀ j, IsReal (be j)) (heps : ∃ e : ℝ, 0 < e ∧ eps = (e : EReal))
    (hc : c = (((100000 : ℕ) : ℝ) : EReal))
    (hv69 : ∀ idx, IsReal (val_main_v69 (F := Ideal) x0 x1 x3 x4 x5 x6 idx))
    (hx7 : ∀ idx, IsReal (x7 idx)) (hx8 : ∀ idx, IsReal (x8 idx)) :
    ∀ idx, IsReal (val_main_v127 (F := Ideal) x0 x1 x3 x4 x5 x6 x7 x8 x9 x10 idx) := by
  intro idx
  obtain ⟨i, j, rfl⟩ : ∃ (i : Fin 100000) (j : Fin 32), idx = ix2 i j := ⟨idx 0, idx 1, eq_ix2 idx⟩
  rw [hbn2]
  exact bn_real y g be eps c (fun i j => by rw [hy]; exact v101_real x0 x1 x3 x4 x5 x6 x7 x8 hv69 hx7 hx8 _)
    hg hbe heps (by decide) hc _ _

theorem v152_real : ∀ i, IsReal (val_main_v152 (F := Ideal) x1 i) := by
  unfold val_main_v152 val_main_v151
  exact broadcast_all IsReal _ _ _ (broadcast_all IsReal _ _ _ (v143_real x1))

theorem v154_real : ∀ i, IsReal (val_main_v154 (F := Ideal) i) := by
  unfold val_main_v154
  exact broadcast_all IsReal _ _ _ fun i => by rw [val_main_cst_30_apply]; exact isReal_zero_word

theorem v156_real
    (hv127 : ∀ idx, IsReal (val_main_v127 (F := Ideal) x0 x1 x3 x4 x5 x6 x7 x8 x9 x10 idx))
    (hx11 : ∀ idx, IsReal (x11 idx)) :
    ∀ idx, IsReal (val_main_v156 (F := Ideal) x0 x1 x3 x4 x5 x6 x7 x8 x9 x10 x11 idx) := by
  unfold val_main_v156 val_main_v153 val_main_v150 val_main_v128
  exact isReal_aggregate _ _ _ _ x11 _ _ _ _ hv127 hx11 (v152_real x1) v154_real

theorem v159_real
    (hv127 : ∀ idx, IsReal (val_main_v127 (F := Ideal) x0 x1 x3 x4 x5 x6 x7 x8 x9 x10 idx))
    (hx11 : ∀ idx, IsReal (x11 idx)) (hx12 : ∀ idx, IsReal (x12 idx)) :
    ∀ idx, IsReal (val_main_v159 (F := Ideal) x0 x1 x3 x4 x5 x6 x7 x8 x9 x10 x11 x12 idx) := by
  unfold val_main_v159
  refine isReal_addf _ _ (v156_real x0 x1 x3 x4 x5 x6 x7 x8 x9 x10 x11 hv127 hx11) ?_
  unfold val_main_v158 val_main_v157
  exact broadcast_all IsReal _ _ _ (broadcast_all IsReal _ _ _ hx12)

theorem v185_real {y : Fin 100000 → Fin 64 → EReal} {g be : Fin 64 → EReal} {eps c : EReal}
    (hbn3 : ∀ i j, val_main_v185 (F := Ideal) x0 x1 x3 x4 x5 x6 x7 x8 x9 x10 x11 x12 x13 x14 (ix2 i j)
      = bnReference y g be eps c i j)
    (hy : ∀ i j, y i j = val_main_v159 (F := Ideal) x0 x1 x3 x4 x5 x6 x7 x8 x9 x10 x11 x12 (ix2 i j))
    (hg : ∀ j, IsReal (g j)) (hbe : ∀ j, IsReal (be j)) (heps : ∃ e : ℝ, 0 < e ∧ eps = (e : EReal))
    (hc : c = (((100000 : ℕ) : ℝ) : EReal))
    (hv127 : ∀ idx, IsReal (val_main_v127 (F := Ideal) x0 x1 x3 x4 x5 x6 x7 x8 x9 x10 idx))
    (hx11 : ∀ idx, IsReal (x11 idx)) (hx12 : ∀ idx, IsReal (x12 idx)) :
    ∀ idx, IsReal (val_main_v185 (F := Ideal) x0 x1 x3 x4 x5 x6 x7 x8 x9 x10 x11 x12 x13 x14 idx) := by
  intro idx
  obtain ⟨i, j, rfl⟩ : ∃ (i : Fin 100000) (j : Fin 64), idx = ix2 i j := ⟨idx 0, idx 1, eq_ix2 idx⟩
  rw [hbn3]
  exact bn_real y g be eps c
    (fun i j => by rw [hy]; exact v159_real x0 x1 x3 x4 x5 x6 x7 x8 x9 x10 x11 x12 hv127 hx11 hx12 _)
    hg hbe heps (by decide) hc _ _

theorem all_real {eps c : EReal} (heps : ∃ e : ℝ, 0 < e ∧ eps = (e : EReal))
    (hc : c = (((100000 : ℕ) : ℝ) : EReal))
    (hx0 : ∀ idx, IsReal (x0 idx)) (hx3 : ∀ idx, IsReal (x3 idx)) (hx4 : ∀ idx, IsReal (x4 idx))
    (hx5 : ∀ idx, IsReal (x5 idx)) (hx6 : ∀ idx, IsReal (x6 idx)) (hx7 : ∀ idx, IsReal (x7 idx))
    (hx8 : ∀ idx, IsReal (x8 idx)) (hx9 : ∀ idx, IsReal (x9 idx)) (hx10 : ∀ idx, IsReal (x10 idx))
    (hx11 : ∀ idx, IsReal (x11 idx)) (hx12 : ∀ idx, IsReal (x12 idx)) (hx13 : ∀ idx, IsReal (x13 idx))
    (hx14 : ∀ idx, IsReal (x14 idx))
    (hbn1 : ∀ i j, val_main_v69 (F := Ideal) x0 x1 x3 x4 x5 x6 (ix2 i j)
      = bnReference (fun i j => val_main_v43 (F := Ideal) x0 x1 x3 x4 (ix2 i j))
          (fun j => x5 (ix1 j)) (fun j => x6 (ix1 j)) eps c i j)
    (hbn2 : ∀ i j, val_main_v127 (F := Ideal) x0 x1 x3 x4 x5 x6 x7 x8 x9 x10 (ix2 i j)
      = bnReference (fun i j => val_main_v101 (F := Ideal) x0 x1 x3 x4 x5 x6 x7 x8 (ix2 i j))
          (fun j => x9 (ix1 j)) (fun j => x10 (ix1 j)) eps c i j)
    (hbn3 : ∀ i j, val_main_v185 (F := Ideal) x0 x1 x3 x4 x5 x6 x7 x8 x9 x10 x11 x12 x13 x14 (ix2 i j)
      = bnReference (fun i j => val_main_v159 (F := Ideal) x0 x1 x3 x4 x5 x6 x7 x8 x9 x10 x11 x12 (ix2 i j))
          (fun j => x13 (ix1 j)) (fun j => x14 (ix1 j)) eps c i j) :
    (∀ idx, IsReal (val_main_v43 (F := Ideal) x0 x1 x3 x4 idx))
    ∧ (∀ idx, IsReal (val_main_v69 (F := Ideal) x0 x1 x3 x4 x5 x6 idx))
    ∧ (∀ idx, IsReal (val_main_v101 (F := Ideal) x0 x1 x3 x4 x5 x6 x7 x8 idx))
    ∧ (∀ idx, IsReal (val_main_v127 (F := Ideal) x0 x1 x3 x4 x5 x6 x7 x8 x9 x10 idx))
    ∧ (∀ idx, IsReal (val_main_v159 (F := Ideal) x0 x1 x3 x4 x5 x6 x7 x8 x9 x10 x11 x12 idx))
    ∧ (∀ idx, IsReal (val_main_v185 (F := Ideal) x0 x1 x3 x4 x5 x6 x7 x8 x9 x10 x11 x12 x13 x14 idx)) := by
  have h69 := v69_real x0 x1 x3 x4 x5 x6 hbn1 (fun _ _ => rfl) (fun j => hx5 _) (fun j => hx6 _) heps hc hx0 hx3 hx4
  have h127 := v127_real x0 x1 x3 x4 x5 x6 x7 x8 x9 x10 hbn2 (fun _ _ => rfl) (fun j => hx9 _) (fun j => hx10 _)
    heps hc h69 hx7 hx8
  have h185 := v185_real x0 x1 x3 x4 x5 x6 x7 x8 x9 x10 x11 x12 x13 x14 hbn3 (fun _ _ => rfl) (fun j => hx13 _)
    (fun j => hx14 _) heps hc h127 hx11 hx12
  exact ⟨v43_real x0 x1 x3 x4 hx0 hx3 hx4, h69, v101_real x0 x1 x3 x4 x5 x6 x7 x8 h69 hx7 hx8, h127,
    v159_real x0 x1 x3 x4 x5 x6 x7 x8 x9 x10 x11 x12 h127 hx11 hx12, h185⟩

end Cert.ReferenceIdeal.Hand

end
-- ==== Proof.Pre.Finite.lean ====
import proofs.«406238_j58506044506835_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Hand

open Idealize.ShloMosaic Cert.Pre_finite_inputs

variable [Facts]

instance : Subsingleton S_.Idx := ⟨fun a b => funext fun d => d.elim0⟩

section Generic
variable {F : FTy → Type} [FloatOps F]

def BelowInf (x : F .f32) : Prop :=
  FloatOps.cmpf .olt (FloatOps.hostAbsf x) (FloatOps.ofBits .f32 0x7F800000#32) = 1#1

theorem belowInf_of_all {s : Shape} {axes : List (Fin s.rank)} (a : FVec F s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant S_ .f32 0x7F800000#32)))
        (constantI S_ 1 1#1) hr hu ValueIdx.ix0 = 1#1) :
    ∀ i, BelowInf (a i) :=
  fun i => Host.reduce_andi_all _ _ hr hu ValueIdx.ix0 e i

theorem fn_elements (a0 : FVec F S100000x3 .f32) (a1 : IVec S2x1600000 32) (a2 : IVec S100000 32)
    (a3 : FVec F S3x16 .f32) (a4 : FVec F S16 .f32) (a5 : FVec F S16 .f32) (a6 : FVec F S16 .f32)
    (a7 : FVec F S16x32 .f32) (a8 : FVec F S32 .f32) (a9 : FVec F S32 .f32) (a10 : FVec F S32 .f32)
    (a11 : FVec F S32x64 .f32) (a12 : FVec F S64 .f32) (a13 : FVec F S64 .f32) (a14 : FVec F S64 .f32)
    (a15 : FVec F S64x10 .f32) (a16 : FVec F S10 .f32)
    (h : fn (F := F) a0 a1 a2 a3 a4 a5 a6 a7 a8 a9 a10 a11 a12 a13 a14 a15 a16 = fun _ => 1#1) :
    (∀ i, BelowInf (a0 i)) ∧ (∀ i, BelowInf (a3 i)) ∧ (∀ i, BelowInf (a4 i)) ∧ (∀ i, BelowInf (a5 i)) ∧
    (∀ i, BelowInf (a6 i)) ∧ (∀ i, BelowInf (a7 i)) ∧ (∀ i, BelowInf (a8 i)) ∧ (∀ i, BelowInf (a9 i)) ∧
    (∀ i, BelowInf (a10 i)) ∧ (∀ i, BelowInf (a11 i)) ∧ (∀ i, BelowInf (a12 i)) ∧ (∀ i, BelowInf (a13 i)) ∧
    (∀ i, BelowInf (a14 i)) ∧ (∀ i, BelowInf (a15 i)) ∧ (∀ i, BelowInf (a16 i)) := by
  have h0 := congrFun h ValueIdx.ix0
  dsimp only [fn, fn_part1, fn_part2, fn_part3, fn_part4] at h0
  simp only [andi, IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨belowInf_of_all a0 _ _ _ e0, belowInf_of_all a3 _ _ _ e3, belowInf_of_all a4 _ _ _ e4,
    belowInf_of_all a5 _ _ _ e5, belowInf_of_all a6 _ _ _ e6, belowInf_of_all a7 _ _ _ e7,
    belowInf_of_all a8 _ _ _ e8, belowInf_of_all a9 _ _ _ e9, belowInf_of_all a10 _ _ _ e10,
    belowInf_of_all a11 _ _ _ e11, belowInf_of_all a12 _ _ _ e12, belowInf_of_all a13 _ _ _ e13,
    belowInf_of_all a14 _ _ _ e14, belowInf_of_all a15 _ _ _ e15, belowInf_of_all a16 _ _ _ e16⟩

end Generic

theorem ofBits_inf : Ideal.ofBits .f32 0x7F800000#32 = ⊤ := by simp [Ideal.ofBits, Ideal.ieee]

theorem isReal_of_belowInf (x : Ideal .f32) (h : BelowInf (F := Ideal) x) : ∃ r : ℝ, x = (r : EReal) := by
  have h' : Ideal.cmp .olt (max x (-x)) (Ideal.ofBits .f32 0x7F800000#32) = 1#1 := h
  rw [ofBits_inf] at h'
  simp only [Ideal.cmp] at h'
  induction x using EReal.rec with
  | bot => simp at h'
  | top => simp at h'
  | coe r => exact ⟨r, rfl⟩

section Args
variable {a0 : FVec Ideal S100000x3 .f32} {a1 : IVec S2x1600000 32} {a2 : IVec S100000 32}
  {a3 : FVec Ideal S3x16 .f32} {a4 : FVec Ideal S16 .f32} {a5 : FVec Ideal S16 .f32} {a6 : FVec Ideal S16 .f32}
  {a7 : FVec Ideal S16x32 .f32} {a8 : FVec Ideal S32 .f32} {a9 : FVec Ideal S32 .f32} {a10 : FVec Ideal S32 .f32}
  {a11 : FVec Ideal S32x64 .f32} {a12 : FVec Ideal S64 .f32} {a13 : FVec Ideal S64 .f32} {a14 : FVec Ideal S64 .f32}
  {a15 : FVec Ideal S64x10 .f32} {a16 : FVec Ideal S10 .f32}

theorem finite_main_arg0 (h : fn (F := Ideal) a0 a1 a2 a3 a4 a5 a6 a7 a8 a9 a10 a11 a12 a13 a14 a15 a16 = fun _ => 1#1) : ∀ i, ∃ r : ℝ, a0 i = (r : EReal) :=
  fun i => isReal_of_belowInf _ ((fn_elements a0 a1 a2 a3 a4 a5 a6 a7 a8 a9 a10 a11 a12 a13 a14 a15 a16 h).1 i)

theorem finite_main_arg3 (h : fn (F := Ideal) a0 a1 a2 a3 a4 a5 a6 a7 a8 a9 a10 a11 a12 a13 a14 a15 a16 = fun _ => 1#1) : ∀ i, ∃ r : ℝ, a3 i = (r : EReal) :=
  fun i => isReal_of_belowInf _ ((fn_elements a0 a1 a2 a3 a4 a5 a6 a7 a8 a9 a10 a11 a12 a13 a14 a15 a16 h).2.1 i)

theorem finite_main_arg4 (h : fn (F := Ideal) a0 a1 a2 a3 a4 a5 a6 a7 a8 a9 a10 a11 a12 a13 a14 a15 a16 = fun _ => 1#1) : ∀ i, ∃ r : ℝ, a4 i = (r : EReal) :=
  fun i => isReal_of_belowInf _ ((fn_elements a0 a1 a2 a3 a4 a5 a6 a7 a8 a9 a10 a11 a12 a13 a14 a15 a16 h).2.2.1 i)

theorem finite_main_arg5 (h : fn (F := Ideal) a0 a1 a2 a3 a4 a5 a6 a7 a8 a9 a10 a11 a12 a13 a14 a15 a16 = fun _ => 1#1) : ∀ i, ∃ r : ℝ, a5 i = (r : EReal) :=
  fun i => isReal_of_belowInf _ ((fn_elements a0 a1 a2 a3 a4 a5 a6 a7 a8 a9 a10 a11 a12 a13 a14 a15 a16 h).2.2.2.1 i)

theorem finite_main_arg6 (h : fn (F := Ideal) a0 a1 a2 a3 a4 a5 a6 a7 a8 a9 a10 a11 a12 a13 a14 a15 a16 = fun _ => 1#1) : ∀ i, ∃ r : ℝ, a6 i = (r : EReal) :=
  fun i => isReal_of_belowInf _ ((fn_elements a0 a1 a2 a3 a4 a5 a6 a7 a8 a9 a10 a11 a12 a13 a14 a15 a16 h).2.2.2.2.1 i)

theorem finite_main_arg7 (h : fn (F := Ideal) a0 a1 a2 a3 a4 a5 a6 a7 a8 a9 a10 a11 a12 a13 a14 a15 a16 = fun _ => 1#1) : ∀ i, ∃ r : ℝ, a7 i = (r : EReal) :=
  fun i => isReal_of_belowInf _ ((fn_elements a0 a1 a2 a3 a4 a5 a6 a7 a8 a9 a10 a11 a12 a13 a14 a15 a16 h).2.2.2.2.2.1 i)

theorem finite_main_arg8 (h : fn (F := Ideal) a0 a1 a2 a3 a4 a5 a6 a7 a8 a9 a10 a11 a12 a13 a14 a15 a16 = fun _ => 1#1) : ∀ i, ∃ r : ℝ, a8 i = (r : EReal) :=
  fun i => isReal_of_belowInf _ ((fn_elements a0 a1 a2 a3 a4 a5 a6 a7 a8 a9 a10 a11 a12 a13 a14 a15 a16 h).2.2.2.2.2.2.1 i)

theorem finite_main_arg9 (h : fn (F := Ideal) a0 a1 a2 a3 a4 a5 a6 a7 a8 a9 a10 a11 a12 a13 a14 a15 a16 = fun _ => 1#1) : ∀ i, ∃ r : ℝ, a9 i = (r : EReal) :=
  fun i => isReal_of_belowInf _ ((fn_elements a0 a1 a2 a3 a4 a5 a6 a7 a8 a9 a10 a11 a12 a13 a14 a15 a16 h).2.2.2.2.2.2.2.1 i)

theorem finite_main_arg10 (h : fn (F := Ideal) a0 a1 a2 a3 a4 a5 a6 a7 a8 a9 a10 a11 a12 a13 a14 a15 a16 = fun _ => 1#1) : ∀ i, ∃ r : ℝ, a10 i = (r : EReal) :=
  fun i => isReal_of_belowInf _ ((fn_elements a0 a1 a2 a3 a4 a5 a6 a7 a8 a9 a10 a11 a12 a13 a14 a15 a16 h).2.2.2.2.2.2.2.2.1 i)

theorem finite_main_arg11 (h : fn (F := Ideal) a0 a1 a2 a3 a4 a5 a6 a7 a8 a9 a10 a11 a12 a13 a14 a15 a16 = fun _ => 1#1) : ∀ i, ∃ r : ℝ, a11 i = (r : EReal) :=
  fun i => isReal_of_belowInf _ ((fn_elements a0 a1 a2 a3 a4 a5 a6 a7 a8 a9 a10 a11 a12 a13 a14 a15 a16 h).2.2.2.2.2.2.2.2.2.1 i)

theorem finite_main_arg12 (h : fn (F := Ideal) a0 a1 a2 a3 a4 a5 a6 a7 a8 a9 a10 a11 a12 a13 a14 a15 a16 = fun _ => 1#1) : ∀ i, ∃ r : ℝ, a12 i = (r : EReal) :=
  fun i => isReal_of_belowInf _ ((fn_elements a0 a1 a2 a3 a4 a5 a6 a7 a8 a9 a10 a11 a12 a13 a14 a15 a16 h).2.2.2.2.2.2.2.2.2.2.1 i)

theorem finite_main_arg13 (h : fn (F := Ideal) a0 a1 a2 a3 a4 a5 a6 a7 a8 a9 a10 a11 a12 a13 a14 a15 a16 = fun _ => 1#1) : ∀ i, ∃ r : ℝ, a13 i = (r : EReal) :=
  fun i => isReal_of_belowInf _ ((fn_elements a0 a1 a2 a3 a4 a5 a6 a7 a8 a9 a10 a11 a12 a13 a14 a15 a16 h).2.2.2.2.2.2.2.2.2.2.2.1 i)

theorem finite_main_arg14 (h : fn (F := Ideal) a0 a1 a2 a3 a4 a5 a6 a7 a8 a9 a10 a11 a12 a13 a14 a15 a16 = fun _ => 1#1) : ∀ i, ∃ r : ℝ, a14 i = (r : EReal) :=
  fun i => isReal_of_belowInf _ ((fn_elements a0 a1 a2 a3 a4 a5 a6 a7 a8 a9 a10 a11 a12 a13 a14 a15 a16 h).2.2.2.2.2.2.2.2.2.2.2.2.1 i)

end Args

end Cert.Pre_finite_inputs.Hand
-- ==== Proof.Val.TailGlue.lean ====
import proofs.«406238_j58506044506835_1_alg».proof.Proof.KI.Keep
import proofs.«406238_j58506044506835_1_alg».proof.Proof.Val.R9Val
import proofs.«406238_j58506044506835_1_alg».proof.Proof.Val.Tail
import proofs.«406238_j58506044506835_1_alg».proof.Proof.Val.Host0
import proofs.«406238_j58506044506835_1_alg».proof.Proof.Val.Layer1
import proofs.«406238_j58506044506835_1_alg».proof.Proof.Val.Layer2
import proofs.«406238_j58506044506835_1_alg».proof.Proof.Val.Layer3
import proofs.«406238_j58506044506835_1_alg».proof.Proof.Ref.RefLayer1
import proofs.«406238_j58506044506835_1_alg».proof.Proof.Ref.RefLayer2
import proofs.«406238_j58506044506835_1_alg».proof.Proof.Ref.RefLayer3
import proofs.«406238_j58506044506835_1_alg».proof.Proof.Ref.RefTail
import proofs.«406238_j58506044506835_1_alg».proof.Proof.Ref.PoolBridge
import proofs.«406238_j58506044506835_1_alg».proof.Proof.Ref.Finite
import proofs.«406238_j58506044506835_1_alg».proof.Proof.Pre.Finite
import proofs.«406238_j58506044506835_1_alg».proof.Proof.Spec.PoolBridge
import proofs.«406238_j58506044506835_1_alg».proof.Proof.Spec.BatchNorm

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Cert.Spec
open Cert.ReferenceIdeal.Read Cert.ReferenceIdeal.Hand
open scoped BigOperators

variable (m : (ℓ : Loc nD τ sig) → Buf (Elt Ideal) ℓ) (ρ : Dev nD → PrngReg) (c : Dev nD)

theorem ids9_eq : ids9 (Hand.V17 m ρ) c = fun i : Fin 100000 => ((m ((c : Thread nD τ).loc main_arg2)) : IVec S100000 32) (ix1 i) :=
  funext fun i => W17_ids m ρ c i

theorem feat9_eq (hprev : (W16 m ρ c (Proc.devRef .tc main_v104) : FVec Ideal S100000x64 .f32)
      = val_main_v185 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :
    feat9 (Hand.V17 m ρ) c = fun (i : Fin 100000) (f : Fin 64) => val_main_v185 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 i f) := by
  funext i f
  show (W17 m ρ c (Proc.devRef .tc main_v104) : FVec Ideal S100000x64 .f32) (ix2 i f) = _
  rw [W17_feat m ρ c, hprev]

theorem warr9_eq : warr9 (Hand.V17 m ρ) c = (m ((c : Thread nD τ).loc main_arg15)) := W17_main_arg15 m ρ c

theorem barr9_eq (o : Fin 10) : barr9 (Hand.V17 m ρ) c (ix2 (0 : Fin 1) o) = ((m ((c : Thread nD τ).loc main_arg16)) : FVec Ideal S10 .f32) (ix1 o) :=
  W17_fcb m ρ c o

theorem tail_of_layer3 (hprev : (W16 m ρ c (Proc.devRef .tc main_v104) : FVec Ideal S100000x64 .f32)
      = val_main_v185 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :
    (W18 m ρ c (Proc.devRef .tc main_v107) : FVec Ideal S64x10 .f32)
      = val_main_v201 (F := Ideal) (m ((c : Thread nD τ).loc main_arg0)) (edges m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h : (W18 m ρ c (Proc.devRef .tc main_v107) : FVec Ideal S64x10 .f32) = result9 (Hand.V17 m ρ) c :=
    (W18_arr m ρ c 4).trans (final9_4 (Hand.V17 m ρ) c)
  funext idx
  obtain ⟨b, o, rfl⟩ : ∃ b o, idx = ix2 b o := ⟨idx 0, idx 1, eq_ix2 idx⟩
  rw [h, result9_apply (Hand.V17 m ρ) c b o, ids9_eq m ρ c, feat9_eq m ρ c hprev, warr9_eq m ρ c, barr9_eq m ρ c o,
    ref_tail, val_main_v192_pool]
  simp only [val_main_v188_pool]

variable [Cert.Pre_finite_inputs.Facts]

theorem tail
    (h : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = fun _ => 1#1) :
    (W18 m ρ c (Proc.devRef .tc main_v107) : FVec Ideal S64x10 .f32)
      = val_main_v201 (F := Ideal) (m ((c : Thread nD τ).loc main_arg0)) (edges m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by

  have hx0 := Cert.Pre_finite_inputs.Hand.finite_main_arg0 h
  have hx3 := Cert.Pre_finite_inputs.Hand.finite_main_arg3 h
  have hx4 := Cert.Pre_finite_inputs.Hand.finite_main_arg4 h
  have hx5 := Cert.Pre_finite_inputs.Hand.finite_main_arg5 h
  have hx6 := Cert.Pre_finite_inputs.Hand.finite_main_arg6 h
  have hx7 := Cert.Pre_finite_inputs.Hand.finite_main_arg7 h
  have hx8 := Cert.Pre_finite_inputs.Hand.finite_main_arg8 h
  have hx9 := Cert.Pre_finite_inputs.Hand.finite_main_arg9 h
  have hx10 := Cert.Pre_finite_inputs.Hand.finite_main_arg10 h
  have hx11 := Cert.Pre_finite_inputs.Hand.finite_main_arg11 h
  have hx12 := Cert.Pre_finite_inputs.Hand.finite_main_arg12 h
  have hx13 := Cert.Pre_finite_inputs.Hand.finite_main_arg13 h
  have hx14 := Cert.Pre_finite_inputs.Hand.finite_main_arg14 h

  have e1 : (fun (i : Fin 100000) (j : Fin 16) => val_main_v43 (F := Ideal) (m ((c : Thread nD τ).loc main_arg0)) (edges m c) (m ((c : Thread nD τ).loc main_arg3)) (m ((c : Thread nD τ).loc main_arg4)) (ix2 i j))
      = addRow (fun i j => val_main_v40 (F := Ideal) (m ((c : Thread nD τ).loc main_arg0)) (edges m c) (m ((c : Thread nD τ).loc main_arg3)) (ix2 i j)) (fun j => (m ((c : Thread nD τ).loc main_arg4)) (ix1 j)) :=
    funext fun i => funext fun j => pre1_at _ _ _ _ i j
  have e2 : (fun (i : Fin 100000) (j : Fin 32) => val_main_v101 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j))
      = addRow (fun i j => val_main_v98 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (ix2 i j)) (fun j => (m ((c : Thread nD τ).loc main_arg8)) (ix1 j)) :=
    funext fun i => funext fun j => pre2_at _ _ _ _ _ _ _ _ i j
  have e3 : (fun (i : Fin 100000) (j : Fin 64) => val_main_v159 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 i j))
      = addRow (fun i j => val_main_v156 (F := Ideal) (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 i j)) (fun j => (m ((c : Thread nD τ).loc main_arg12)) (ix1 j)) :=
    funext fun i => funext fun j => pre3_at _ _ _ _ _ _ _ _ _ _ _ _ i j

  obtain ⟨h43, -, h101, -, h159, -⟩ := all_real (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    ofBits_eps_pos ofBits_count hx0 hx3 hx4 hx5 hx6 hx7 hx8 hx9 hx10 hx11 hx12 hx13 hx14
    (fun i j => by rw [e1]; exact ref_bn1 _ _ _ _ _ _ i j)
    (fun i j => by rw [e2]; exact ref_bn2 _ _ _ _ _ _ _ _ _ _ i j)
    (fun i j => by rw [e3]; exact ref_bn3 _ _ _ _ _ _ _ _ _ _ _ _ _ _ i j)

  have l1 := layer1 m ρ c (fun i j => by rw [← congrFun (congrFun e1 i) j]; exact h43 _)
  have l2 := layer2 m ρ c l1 (fun i j => by rw [← congrFun (congrFun e2 i) j]; exact h101 _)
  have l3 := layer3 m ρ c l2 (fun i j => by rw [← congrFun (congrFun e3 i) j]; exact h159 _)
  exact tail_of_layer3 m ρ c l3

end Cert.KernelIdeal.HandVal

end
-- ==== Proof.lean ====
import proofs.«406238_j58506044506835_1_alg».proof.Defs
import proofs.«406238_j58506044506835_1_alg».proof.Proof.Gen.Kernel
import proofs.«406238_j58506044506835_1_alg».proof.Proof.Gen.KernelIdeal
import proofs.«406238_j58506044506835_1_alg».proof.Proof.Gen.ReferenceIdeal
import proofs.«406238_j58506044506835_1_alg».proof.Proof.Gen.Pre_finite_inputs
import proofs.«406238_j58506044506835_1_alg».proof.Proof.Ref.RefRun
import proofs.«406238_j58506044506835_1_alg».proof.Proof.KI.Out
import proofs.«406238_j58506044506835_1_alg».proof.Proof.Val.TailGlue
import proofs.«406238_j58506044506835_1_alg».proof.Proof.Pre.Finite
import Idealize.ShloMosaic.Adequacy
import Idealize.ShloMosaic.Init

set_option maxRecDepth 16384

noncomputable section

namespace Cert.Proof

open Idealize.ShloMosaic Idealize.SL.Sem

open Lean Elab Tactic in
-- Closes the goal with a term whose type equals the goal once definitions are unfolded; that comparison is left to the final type check.
elab "exact_unfolding " t:term : tactic => withMainContext do
  (← getMainGoal).assign (← elabTerm t none)

section Claims

variable [hK : Cert.Kernel.Facts] [hKI : Cert.KernelIdeal.Facts] [hR : Cert.ReferenceIdeal.Facts] [hP : Cert.Pre_finite_inputs.Facts]

-- The idealized program's frame holds at every float model; the word-level program is the same text, definition for definition.
theorem frame_kernel : Cert.frame_Kernel := by
  intro m ρ _
  exact_unfolding Cert.KernelIdeal.Hand.run_frame (F := Bits) m ρ

theorem frame_kernelIdeal : Cert.frame_KernelIdeal := fun m ρ _ => Cert.KernelIdeal.Hand.run_frame m ρ

-- The reference's frame is its run with the result dropped.
theorem frame_reference : Cert.frame_ReferenceIdeal := fun m ρ _ =>
  (θ_run Cert.ReferenceIdeal.defs _ _).mono (fun _ h c => (h c).2) (Cert.ReferenceIdeal.Hand.ref_run m ρ)

-- Both runs end with the result at the reference's last stage of the (agreeing) arguments.
theorem algebraic : Cert.algebraic_KernelIdeal_ReferenceIdeal := by
  intro m ρ m' ρ' hpre hagree
  refine ⟨fun c => Cert.KernelIdeal.Hand.W18 m ρ c (Proc.devRef .tc Cert.KernelIdeal.main_v107), Cert.KernelIdeal.Hand.run_result m ρ, ?_⟩
  refine (θ_run Cert.ReferenceIdeal.defs _ _).mono (fun _ h c => ⟨(h c).1.trans ?_, (h c).2⟩)
    (Cert.ReferenceIdeal.Hand.ref_run m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.KernelIdeal.HandVal.tail m ρ c (hpre c)).symm

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
